-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v200)) (v1 : (c : Dev Cert.KernelIdeal.nD) → Buf (Elt Ideal) ((c.tc : Thread Cert.KernelIdeal.nD Cert.KernelIdeal.τ).loc Cert.KernelIdeal.main_v199)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_v199) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S1x2048 : Shape := ⟨2, ![1, 2048]⟩
abbrev S50257x1024 : Shape := ⟨2, ![50257, 1024]⟩
abbrev S1024 : Shape := ⟨1, ![1024]⟩
abbrev S2x1024x1024 : Shape := ⟨3, ![2, 1024, 1024]⟩
abbrev S2x1024 : Shape := ⟨2, ![2, 1024]⟩
abbrev S2x50257x1024 : Shape := ⟨3, ![2, 50257, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S1024 : S_.BroadcastsInDim S1024 (![] : Fin 0 → Fin S1024.rank)
  reducesTo_S1024_S_d0 : S1024.ReducesTo [0] S_
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x50257x1024 : S_.BroadcastsInDim S2x50257x1024 (![] : Fin 0 → Fin S2x50257x1024.rank)
  reducesTo_S2x50257x1024_S_d0_1_2 : S2x50257x1024.ReducesTo [0, 1, 2] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg1 : IVec S1x2048 32) (main_v28 : IVec S_ 1) (main_v30 : IVec S1x2048 1) (main_v32 : IVec S1x2048 1) (main_c_12 : IVec S_ 32) : IVec S_ 1 :=
  let main_v33 : IVec S1x2048 32 := broadcastInDim S1x2048 ![] bcast_S_S1x2048 main_c_12
  let main_v34 : IVec S1x2048 1 := cmpi .slt main_arg1 main_v33
  let main_v35 : IVec S1x2048 1 := andi main_v32 main_v34
  let main_v36 : IVec S1x2048 1 := ori main_v30 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v28 main_v37
  main_v38

def fn_part1 {F : FTy → Type} [FloatOps F] (main_arg1 : IVec S1x2048 32) (main_arg5 : FVec F S2x1024 .f32) (main_arg6 : FVec F S2x50257x1024 .f32) (main_v13 : IVec S_ 1) (main_v16 : IVec S2x1024x1024 1) : IVec S_ 1 :=
  let main_c_5 : IVec S_ 1 := constantI S_ 1 1#1
  let main_v17 : IVec S_ 1 := (fun x v => Host.reduce IntOp.andi x v reducesTo_S2x1024x1024_S_d0_1_2 h_S_) main_v16 main_c_5
  let main_v18 : IVec S_ 1 := andi main_v13 main_v17
  let main_v19 : FVec F S2x1024 .f32 := Host.absf main_arg5
  let main_cst_6 : FVec F S_ .f32 := constant S_ .f32 0x7F800000#32
  let main_v20 : FVec F S2x1024 .f32 := broadcastInDim S2x1024 ![] bcast_S_S2x1024 main_cst_6
  let main_v21 : IVec S2x1024 1 := cmpf .olt main_v19 main_v20
  let main_c_7 : IVec S_ 1 := constantI S_ 1 1#1
  let main_v22 : IVec S_ 1 := (fun x v => Host.reduce IntOp.andi x v reducesTo_S2x1024_S_d0_1 h_S_) main_v21 main_c_7
  let main_v23 : IVec S_ 1 := andi main_v18 main_v22
  let main_v24 : FVec F S2x50257x1024 .f32 := Host.absf main_arg6
  let main_cst_8 : FVec F S_ .f32 := constant S_ .f32 0x7F800000#32
  let main_v25 : FVec F S2x50257x1024 .f32 := broadcastInDim S2x50257x1024 ![] bcast_S_S2x50257x1024 main_cst_8
  let main_v26 : IVec S2x50257x1024 1 := cmpf .olt main_v24 main_v25
  let main_c_9 : IVec S_ 1 := constantI S_ 1 1#1
  let main_v27 : IVec S_ 1 := (fun x v => Host.reduce IntOp.andi x v reducesTo_S2x50257x1024_S_d0_1_2 h_S_) main_v26 main_c_9
  let main_v28 : IVec S_ 1 := andi main_v23 main_v27
  let main_c_10 : IVec S_ 32 := constantI S_ 32 4294967196#32
  let main_v29 : IVec S1x2048 32 := broadcastInDim S1x2048 ![] bcast_S_S1x2048 main_c_10
  let main_v30 : IVec S1x2048 1 := cmpi .eq main_arg1 main_v29
  let main_c_11 : IVec S_ 32 := constantI S_ 32 0#32
  let main_v31 : IVec S1x2048 32 := broadcastInDim S1x2048 ![] bcast_S_S1x2048 main_c_11
  let main_v32 : IVec S1x2048 1 := cmpi .sge main_arg1 main_v31
  let main_c_12 : IVec S_ 32 := constantI S_ 32 50257#32
  fn_part2 (F := F) main_arg1 main_v28 main_v30 main_v32 main_c_12

def fn {F : FTy → Type} [FloatOps F] (main_arg0 : FVec F S1x2048x1024 .f32) (main_arg1 : IVec S1x2048 32) (main_arg2 : FVec F S50257x1024 .f32) (main_arg3 : FVec F S1024 .f32) (main_arg4 : FVec F S2x1024x1024 .f32) (main_arg5 : FVec F S2x1024 .f32) (main_arg6 : FVec F S2x50257x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S50257x1024 .f32 := Host.absf main_arg2
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2x1024x1024 .f32 := Host.absf main_arg4
  let main_cst_4 : FVec F S_ .f32 := constant S_ .f32 0x7F800000#32
  let main_v15 : FVec F S2x1024x1024 .f32 := broadcastInDim S2x1024x1024 ![] bcast_S_S2x1024x1024 main_cst_4
  let main_v16 : IVec S2x1024x1024 1 := cmpf .olt main_v14 main_v15
  fn_part1 (F := F) main_arg1 main_arg5 main_arg6 main_v13 main_v16
-- ==== Kernel.lean ====
abbrev S1x2048x1024 : Shape := ⟨3, ![1, 2048, 1024]⟩
abbrev S1x2048 : Shape := ⟨2, ![1, 2048]⟩
abbrev S50257x1024 : Shape := ⟨2, ![50257, 1024]⟩
abbrev S1024 : Shape := ⟨1, ![1024]⟩
abbrev S2x1024x1024 : Shape := ⟨3, ![2, 1024, 1024]⟩
abbrev S2x1024 : Shape := ⟨2, ![2, 1024]⟩
abbrev S2x50257x1024 : Shape := ⟨3, ![2, 50257, 1024]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S1x1024 : Shape := ⟨2, ![1, 1024]⟩
abbrev S2047 : Shape := ⟨1, ![2047]⟩
abbrev S1 : Shape := ⟨1, ![1]⟩
abbrev S2048x50257 : Shape := ⟨2, ![2048, 50257]⟩
abbrev S2x2048x1 : Shape := ⟨3, ![2, 2048, 1]⟩
abbrev S1024x1024 : Shape := ⟨2, ![1024, 1024]⟩
abbrev S1x2048x1 : Shape := ⟨3, ![1, 2048, 1]⟩
abbrev S1x1024x1024 : Shape := ⟨3, ![1, 1024, 1024]⟩
abbrev S2046 : Shape := ⟨1, ![2046]⟩
abbrev S2 : Shape := ⟨1, ![2]⟩
abbrev S1x50257x1024 : Shape := ⟨3, ![1, 50257, 1024]⟩
abbrev S2045 : Shape := ⟨1, ![2045]⟩
abbrev S3 : Shape := ⟨1, ![3]⟩
abbrev S1x2048x50257 : Shape := ⟨3, ![1, 2048, 50257]⟩

abbrev nBuf : Space → Nat
  | .hbm => 257
  | .vmem => 41
  | .smem => 0
  | _ => 0

abbrev hbmTy0_0 (i : Nat) : BufTy := match i % 128 with
  | 0 => ⟨S1x2048x1024, .f32⟩
  | 1 => ⟨S1x2048, .i32⟩
  | 2 => ⟨S50257x1024, .f32⟩
  | 3 => ⟨S1024, .f32⟩
  | 4 => ⟨S2x1024x1024, .f32⟩
  | 5 => ⟨S2x1024, .f32⟩
  | 6 => ⟨S2x50257x1024, .f32⟩
  | 7 => ⟨S2048x1024, .f32⟩
  | 8 => ⟨S2048, .i32⟩
  | 9 => ⟨S2048x1024, .f32⟩
  | 10 => ⟨S_, .f32⟩
  | 11 => ⟨S2048, .f32⟩
  | 12 => ⟨S2048x1, .f32⟩
  | 13 => ⟨S_, .f32⟩
  | 14 => ⟨S2048x1, .f32⟩
  | 15 => ⟨S2048x1, .f32⟩
  | 16 => ⟨S_, .f32⟩
  | 17 => ⟨S2048x1, .f32⟩
  | 18 => ⟨S2048x1, .f32⟩
  | 19 => ⟨S2048x1, .f32⟩
  | 20 => ⟨S2048x1024, .f32⟩
  | 21 => ⟨S2048x1024, .f32⟩
  | 22 => ⟨S1x1024, .f32⟩
  | 23 => ⟨S2048x1024, .f32⟩
  | 24 => ⟨S2048x1024, .f32⟩
  | 25 => ⟨S2048x1024, .bf16⟩
  | 26 => ⟨S2048, .i32⟩
  | 27 => ⟨S2047, .i32⟩
  | 28 => ⟨S1, .i32⟩
  | 29 => ⟨S2048, .i32⟩
  | 30 => ⟨S_, .i32⟩
  | 31 => ⟨S2048, .i32⟩
  | 32 => ⟨S2048, .i1⟩
  | 33 => ⟨S_, .i32⟩
  | 34 => ⟨S2048, .i32⟩
  | 35 => ⟨S2048, .i1⟩
  | 36 => ⟨S2048, .i1⟩
  | 37 => ⟨S_, .i32⟩
  | 38 => ⟨S_, .i32⟩
  | 39 => ⟨S2048, .i32⟩
  | 40 => ⟨S2048, .i32⟩
  | 41 => ⟨S2048x1, .i32⟩
  | 42 => ⟨S2048x1, .i1⟩
  | 43 => ⟨S2048x1, .f32⟩
  | 44 => ⟨S2048x50257, .f32⟩
  | 45 => ⟨S2x2048x1, .f32⟩
  | 46 => ⟨S2x2048x1, .f32⟩
  | 47 => ⟨S2x2048x1, .f32⟩
  | 48 => ⟨S1x2048x1, .f32⟩
  | 49 => ⟨S2048x1, .f32⟩
  | 50 => ⟨S1x2048x1, .f32⟩
  | 51 => ⟨S2048x1, .f32⟩
  | 52 => ⟨S2048x1, .f32⟩
  | 53 => ⟨S1x2048x1, .f32⟩
  | 54 => ⟨S2048x1, .f32⟩
  | 55 => ⟨S1x2048x1, .f32⟩
  | 56 => ⟨S2048x1, .f32⟩
  | 57 => ⟨S2048x1, .f32⟩
  | 58 => ⟨S2048x1, .f32⟩
  | 59 => ⟨S2048x1, .f32⟩
  | 60 => ⟨S1x2048x1, .f32⟩
  | 61 => ⟨S2048x1, .f32⟩
  | 62 => ⟨S1x2048x1, .f32⟩
  | 63 => ⟨S2048x1, .f32⟩
  | 64 => ⟨S2048x1, .f32⟩
  | 65 => ⟨S2048x1, .f32⟩
  | 66 => ⟨S2048x1, .f32⟩
  | 67 => ⟨S2048x1, .f32⟩
  | 68 => ⟨S1x2048x1, .f32⟩
  | 69 => ⟨S2048x1, .f32⟩
  | 70 => ⟨S1x2048x1, .f32⟩
  | 71 => ⟨S2048x1, .f32⟩
  | 72 => ⟨S2048x1, .f32⟩
  | 73 => ⟨S2048x1, .f32⟩
  | 74 => ⟨S2048x1, .f32⟩
  | 75 => ⟨S2048x1, .f32⟩
  | 76 => ⟨S2048x1, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S1x1024x1024, .f32⟩
  | 85 => ⟨S1024x1024, .f32⟩
  | 86 => ⟨S1024x1024, .f32⟩
  | 87 => ⟨S2048x1024, .f32⟩
  | 88 => ⟨S1x1024, .f32⟩
  | 89 => ⟨S1024, .f32⟩
  | 90 => ⟨S2048x1024, .f32⟩
  | 91 => ⟨S_, .f32⟩
  | 92 => ⟨S2048, .f32⟩
  | 93 => ⟨S2048x1, .f32⟩
  | 94 => ⟨S_, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x1, .f32⟩
  | 101 => ⟨S2048x1024, .f32⟩
  | 102 => ⟨S2048x1024, .f32⟩
  | 103 => ⟨S1x1024, .f32⟩
  | 104 => ⟨S2048x1024, .f32⟩
  | 105 => ⟨S2048x1024, .f32⟩
  | 106 => ⟨S2048x1024, .bf16⟩
  | 107 => ⟨S2048, .i32⟩
  | 108 => ⟨S2046, .i32⟩
  | 109 => ⟨S2, .i32⟩
  | 110 => ⟨S2048, .i32⟩
  | 111 => ⟨S_, .i32⟩
  | 112 => ⟨S2048, .i32⟩
  | 113 => ⟨S2048, .i1⟩
  | 114 => ⟨S_, .i32⟩
  | 115 => ⟨S2048, .i32⟩
  | 116 => ⟨S2048, .i1⟩
  | 117 => ⟨S2048, .i1⟩
  | 118 => ⟨S_, .i32⟩
  | 119 => ⟨S_, .i32⟩
  | 120 => ⟨S2048, .i32⟩
  | 121 => ⟨S2048, .i32⟩
  | 122 => ⟨S2048x1, .i32⟩
  | 123 => ⟨S2048x1, .i1⟩
  | 124 => ⟨S2048x1, .f32⟩
  | 125 => ⟨S1x50257x1024, .f32⟩
  | 126 => ⟨S50257x1024, .f32⟩
  | 127 => ⟨S2x2048x1, .f32⟩
  | _ => ⟨S1x2048x1024, .f32⟩

abbrev hbmTy0_1 (i : Nat) : BufTy := match i % 128 with
  | 0 => ⟨S2x2048x1, .f32⟩
  | 1 => ⟨S2x2048x1, .f32⟩
  | 2 => ⟨S1x2048x1, .f32⟩
  | 3 => ⟨S2048x1, .f32⟩
  | 4 => ⟨S1x2048x1, .f32⟩
  | 5 => ⟨S2048x1, .f32⟩
  | 6 => ⟨S2048x1, .f32⟩
  | 7 => ⟨S1x2048x1, .f32⟩
  | 8 => ⟨S2048x1, .f32⟩
  | 9 => ⟨S1x2048x1, .f32⟩
  | 10 => ⟨S2048x1, .f32⟩
  | 11 => ⟨S2048x1, .f32⟩
  | 12 => ⟨S2048x1, .f32⟩
  | 13 => ⟨S2048x1, .f32⟩
  | 14 => ⟨S1x2048x1, .f32⟩
  | 15 => ⟨S2048x1, .f32⟩
  | 16 => ⟨S1x2048x1, .f32⟩
  | 17 => ⟨S2048x1, .f32⟩
  | 18 => ⟨S2048x1, .f32⟩
  | 19 => ⟨S2048x1, .f32⟩
  | 20 => ⟨S2048x1, .f32⟩
  | 21 => ⟨S2048x1, .f32⟩
  | 22 => ⟨S1x2048x1, .f32⟩
  | 23 => ⟨S2048x1, .f32⟩
  | 24 => ⟨S1x2048x1, .f32⟩
  | 25 => ⟨S2048x1, .f32⟩
  | 26 => ⟨S2048x1, .f32⟩
  | 27 => ⟨S2048x1, .f32⟩
  | 28 => ⟨S2048x1, .f32⟩
  | 29 => ⟨S2048x1, .f32⟩
  | 30 => ⟨S2048x1, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S1x1024x1024, .f32⟩
  | 39 => ⟨S1024x1024, .f32⟩
  | 40 => ⟨S1024x1024, .f32⟩
  | 41 => ⟨S2048x1024, .f32⟩
  | 42 => ⟨S1x1024, .f32⟩
  | 43 => ⟨S1024, .f32⟩
  | 44 => ⟨S2048x1024, .f32⟩
  | 45 => ⟨S_, .f32⟩
  | 46 => ⟨S2048, .f32⟩
  | 47 => ⟨S2048x1, .f32⟩
  | 48 => ⟨S_, .f32⟩
  | 49 => ⟨S2048x1, .f32⟩
  | 50 => ⟨S2048x1, .f32⟩
  | 51 => ⟨S_, .f32⟩
  | 52 => ⟨S2048x1, .f32⟩
  | 53 => ⟨S2048x1, .f32⟩
  | 54 => ⟨S2048x1, .f32⟩
  | 55 => ⟨S2048x1024, .f32⟩
  | 56 => ⟨S2048x1024, .f32⟩
  | 57 => ⟨S1x1024, .f32⟩
  | 58 => ⟨S2048x1024, .f32⟩
  | 59 => ⟨S2048x1024, .f32⟩
  | 60 => ⟨S2048x1024, .bf16⟩
  | 61 => ⟨S2048, .i32⟩
  | 62 => ⟨S2045, .i32⟩
  | 63 => ⟨S3, .i32⟩
  | 64 => ⟨S2048, .i32⟩
  | 65 => ⟨S_, .i32⟩
  | 66 => ⟨S2048, .i32⟩
  | 67 => ⟨S2048, .i1⟩
  | 68 => ⟨S_, .i32⟩
  | 69 => ⟨S2048, .i32⟩
  | 70 => ⟨S2048, .i1⟩
  | 71 => ⟨S2048, .i1⟩
  | 72 => ⟨S_, .i32⟩
  | 73 => ⟨S_, .i32⟩
  | 74 => ⟨S2048, .i32⟩
  | 75 => ⟨S2048, .i32⟩
  | 76 => ⟨S2048x1, .i32⟩
  | 77 => ⟨S2048x1, .i1⟩
  | 78 => ⟨S2048x1, .f32⟩
  | 79 => ⟨S1x50257x1024, .f32⟩
  | 80 => ⟨S50257x1024, .f32⟩
  | 81 => ⟨S2x2048x1, .f32⟩
  | 82 => ⟨S2x2048x1, .f32⟩
  | 83 => ⟨S2x2048x1, .f32⟩
  | 84 => ⟨S1x2048x1, .f32⟩
  | 85 => ⟨S2048x1, .f32⟩
  | 86 => ⟨S1x2048x1, .f32⟩
  | 87 => ⟨S2048x1, .f32⟩
  | 88 => ⟨S2048x1, .f32⟩
  | 89 => ⟨S1x2048x1, .f32⟩
  | 90 => ⟨S2048x1, .f32⟩
  | 91 => ⟨S1x2048x1, .f32⟩
  | 92 => ⟨S2048x1, .f32⟩
  | 93 => ⟨S2048x1, .f32⟩
  | 94 => ⟨S2048x1, .f32⟩
  | 95 => ⟨S2048x1, .f32⟩
  | 96 => ⟨S1x2048x1, .f32⟩
  | 97 => ⟨S2048x1, .f32⟩
  | 98 => ⟨S1x2048x1, .f32⟩
  | 99 => ⟨S2048x1, .f32⟩
  | 100 => ⟨S2048x1, .f32⟩
  | 101 => ⟨S2048x1, .f32⟩
  | 102 => ⟨S2048x1, .f32⟩
  | 103 => ⟨S2048x1, .f32⟩
  | 104 => ⟨S1x2048x1, .f32⟩
  | 105 => ⟨S2048x1, .f32⟩
  | 106 => ⟨S1x2048x1, .f32⟩
  | 107 => ⟨S2048x1, .f32⟩
  | 108 => ⟨S2048x1, .f32⟩
  | 109 => ⟨S2048x1, .f32⟩
  | 110 => ⟨S2048x1, .f32⟩
  | 111 => ⟨S2048x1, .f32⟩
  | 112 => ⟨S2048x1, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1x2048x1024, .f32⟩

abbrev hbmTy0_2 (i : Nat) : BufTy := match i % 128 with
  | 0 => ⟨S1x2048x50257, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | .local _ .vmem, ⟨0, _⟩ => ⟨S2048x1024, .bf16⟩
  | .local _ .vmem, ⟨1, _⟩ => ⟨S1024x1024, .f32⟩
  | .local _ .vmem, ⟨2, _⟩ => ⟨S1024x1024, .f32⟩
  | .local _ .vmem, ⟨3, _⟩ => ⟨S2048x1, .i32⟩
  | .local _ .vmem, ⟨4, _⟩ => ⟨S2048x1024, .f32⟩
  | .local _ .vmem, ⟨5, _⟩ => ⟨S2048x1024, .f32⟩
  | .local _ .vmem, ⟨6, _⟩ => ⟨S1x2048x1, .f32⟩
  | .local _ .vmem, ⟨7, _⟩ => ⟨S1x2048x1, .f32⟩
  | .local _ .vmem, ⟨8, _⟩ => ⟨S1x2048x1, .f32⟩
  | .local _ .vmem, ⟨9, _⟩ => ⟨S1x2048x1, .f32⟩
  | .local _ .vmem, ⟨10, _⟩ => ⟨S1x2048x1, .f32⟩
  | .local _ .vmem, ⟨11, _⟩ => ⟨S1x2048x1, .f32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | .local _ .vmem, ⟨15, _⟩ => ⟨S2048x1024, .bf16⟩
  | .local _ .vmem, ⟨16, _⟩ => ⟨S1024x1024, .f32⟩
  | .local _ .vmem, ⟨17, _⟩ => ⟨S1024x1024, .f32⟩
  | .local _ .vmem, ⟨18, _⟩ => ⟨S2048x1, .i32⟩
  | .local _ .vmem, ⟨19, _⟩ => ⟨S1x2048x1, .f32⟩
  | .local _ .vmem, ⟨20, _⟩ => ⟨S1x2048x1, .f32⟩
  | .local _ .vmem, ⟨21, _⟩ => ⟨S1x2048x1, .f32⟩
  | .local _ .vmem, ⟨22, _⟩ => ⟨S1x2048x1, .f32⟩
  | .local _ .vmem, ⟨23, _⟩ => ⟨S1x2048x1, .f32⟩
  | .local _ .vmem, ⟨24, _⟩ => ⟨S1x2048x1, .f32⟩
  | .local _ .vmem, ⟨25, _⟩ => ⟨S2048x1, .f32⟩
  | .local _ .vmem, ⟨26, _⟩ => ⟨S2048x1, .f32⟩
  | .local _ .vmem, ⟨27, _⟩ => ⟨S2048x1, .f32⟩
  | .local _ .vmem, ⟨28, _⟩ => ⟨S2048x1024, .bf16⟩
  | .local _ .vmem, ⟨29, _⟩ => ⟨S1024x1024, .f32⟩
  | .local _ .vmem, ⟨30, _⟩ => ⟨S1024x1024, .f32⟩
  | .local _ .vmem, ⟨31, _⟩ => ⟨S2048x1, .i32⟩
  | .local _ .vmem, ⟨32, _⟩ => ⟨S1x2048x1, .f32⟩
  | .local _ .vmem, ⟨33, _⟩ => ⟨S1x2048x1, .f32⟩
  | .local _ .vmem, ⟨34, _⟩ => ⟨S1x2048x1, .f32⟩
  | .local _ .vmem, ⟨35, _⟩ => ⟨S1x2048x1, .f32⟩
  | .local _ .vmem, ⟨36, _⟩ => ⟨S1x2048x1, .f32⟩
  | .local _ .vmem, ⟨37, _⟩ => ⟨S1x2048x1, .f32⟩
  | .local _ .vmem, ⟨38, _⟩ => ⟨S2048x1, .f32⟩
  | .local _ .vmem, ⟨39, _⟩ => ⟨S2048x1, .f32⟩
  | .local _ .vmem, ⟨40, _⟩ => ⟨S2048x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev main_v27_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_4 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_cst_9 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call2_v0 : Ref sig .tc := ⟨.hbm, 108, rfl⟩
abbrev main_call2_v1 : Ref sig .tc := ⟨.hbm, 109, rfl⟩
abbrev main_v82 : Ref sig .tc := ⟨.hbm, 110, rfl⟩
abbrev main_c_10 : Ref sig .tc := ⟨.hbm, 111, rfl⟩
abbrev main_v83 : Ref sig .tc := ⟨.hbm, 112, rfl⟩
abbrev main_v84 : Ref sig .tc := ⟨.hbm, 113, rfl⟩
abbrev main_c_11 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_12 : Ref sig .tc := ⟨.hbm, 118, rfl⟩
abbrev main_call3_v0 : Ref sig .tc := ⟨.hbm, 119, rfl⟩
abbrev main_call3_v1 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94_0 : Ref sig .tc := ⟨.hbm, 127, rfl⟩
abbrev main_v94_1 : Ref sig .tc := ⟨.hbm, 128, rfl⟩
abbrev main_v94_2 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_13 : Ref sig .tc := ⟨.hbm, 159, rfl⟩
abbrev main_v124 : Ref sig .tc := ⟨.hbm, 160, rfl⟩
abbrev main_cst_14 : Ref sig .tc := ⟨.hbm, 161, rfl⟩
abbrev main_v125 : Ref sig .tc := ⟨.hbm, 162, rfl⟩
abbrev main_cst_15 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_16 : Ref sig .tc := ⟨.hbm, 173, rfl⟩
abbrev main_v135 : Ref sig .tc := ⟨.hbm, 174, rfl⟩
abbrev main_v136 : Ref sig .tc := ⟨.hbm, 175, rfl⟩
abbrev main_cst_17 : Ref sig .tc := ⟨.hbm, 176, rfl⟩
abbrev main_v137 : Ref sig .tc := ⟨.hbm, 177, rfl⟩
abbrev main_v138 : Ref sig .tc := ⟨.hbm, 178, rfl⟩
abbrev main_cst_18 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_call4_v0 : Ref sig .tc := ⟨.hbm, 190, rfl⟩
abbrev main_call4_v1 : Ref sig .tc := ⟨.hbm, 191, rfl⟩
abbrev main_v149 : Ref sig .tc := ⟨.hbm, 192, rfl⟩
abbrev main_c_19 : Ref sig .tc := ⟨.hbm, 193, rfl⟩
abbrev main_v150 : Ref sig .tc := ⟨.hbm, 194, rfl⟩
abbrev main_v151 : Ref sig .tc := ⟨.hbm, 195, rfl⟩
abbrev main_c_20 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_c_21 : Ref sig .tc := ⟨.hbm, 200, rfl⟩
abbrev main_call5_v0 : Ref sig .tc := ⟨.hbm, 201, rfl⟩
abbrev main_call5_v1 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161_0 : Ref sig .tc := ⟨.hbm, 209, rfl⟩
abbrev main_v161_1 : Ref sig .tc := ⟨.hbm, 210, rfl⟩
abbrev main_v161_2 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_cst_22 : Ref sig .tc := ⟨.hbm, 241, rfl⟩
abbrev main_v191 : Ref sig .tc := ⟨.hbm, 242, rfl⟩
abbrev main_cst_23 : Ref sig .tc := ⟨.hbm, 243, rfl⟩
abbrev main_v192 : Ref sig .tc := ⟨.hbm, 244, rfl⟩
abbrev main_cst_24 : Ref sig .tc := ⟨.hbm, 245, rfl⟩
abbrev main_v193 : Ref sig .tc := ⟨.hbm, 246, rfl⟩
abbrev main_v194 : Ref sig .tc := ⟨.hbm, 247, rfl⟩
abbrev main_cst_25 : Ref sig .tc := ⟨.hbm, 248, rfl⟩
abbrev main_v195 : Ref sig .tc := ⟨.hbm, 249, rfl⟩
abbrev main_v196 : Ref sig .tc := ⟨.hbm, 250, rfl⟩
abbrev main_cst_26 : Ref sig .tc := ⟨.hbm, 251, rfl⟩
abbrev main_v197 : Ref sig .tc := ⟨.hbm, 252, rfl⟩
abbrev main_cst_27 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_scratch0 : Ref sig .tc := ⟨.vmem, 38, rfl⟩
abbrev cc2_scratch1 : Ref sig .tc := ⟨.vmem, 39, rfl⟩
abbrev cc2_scratch2 : Ref sig .tc := ⟨.vmem, 40, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v53 : BitVec 1 := Scalar.cmpi .eq arg1 c24_i32
  let v54 : BitVec 32 := Scalar.extui v53
  let c0_i32_27 : BitVec 32 := 0#32
  let v55 : BitVec 1 := Scalar.cmpi .ne v54 c0_i32_27
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v53 : BitVec 1 := Scalar.cmpi .eq arg1 c24_i32
  let v54 : BitVec 32 := Scalar.extui v53
  let c0_i32_25 : BitVec 32 := 0#32
  let v55 : BitVec 1 := Scalar.cmpi .ne v54 c0_i32_25
  v55

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2048x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![2, 25], ![false, false]⟩

def k2_cond2 (i : grid2.Coords) : BitVec 1 :=
  let arg1 : BitVec 32 := BitVec.ofNat 32 (i 1).val
  let c24_i32 : BitVec 32 := 24#32
  let v53 : BitVec 1 := Scalar.cmpi .eq arg1 c24_i32
  let v54 : BitVec 32 := Scalar.extui v53
  let c0_i32_25 : BitVec 32 := 0#32
  let v55 : BitVec 1 := Scalar.cmpi .ne v54 c0_i32_25
  v55

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S2048x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x2048x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x2048x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  shapeCasts_S1x2048x1024_S2048x1024 : S1x2048x1024.ShapeCasts S2048x1024
  shapeCasts_S1x2048_S2048 : S1x2048.ShapeCasts S2048
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bitsLt_bf16_f32 : FTy.bits .bf16 < FTy.bits .f32
  slices_S2048_S2047_1 : S2048.Slices ![1] S2047
  slices_S2048_S1_0 : S2048.Slices ![0] S1
  concatenates_S2047_S1_S2048_d0 : Shape.Concatenates [S2047, S1] S2048 0
  bcast_S_S2048 : S_.BroadcastsInDim S2048 (![] : Fin 0 → Fin S2048.rank)
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  iota_S2048x1024_d1_w32 : S2048x1024.Iotas .tc 32 [1]
  reduces_S2048x1024_S2048 : S2048x1024.Reduces [1] S2048
  broadcasts_S2048x1_S2048x1024 : S2048x1.Broadcasts S2048x1024
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  slices_S2x2048x1_S1x2048x1_0_0_0 : S2x2048x1.Slices ![0, 0, 0] S1x2048x1
  slices_S2x2048x1_S1x2048x1_1_0_0 : S2x2048x1.Slices ![1, 0, 0] S1x2048x1
  reducesTo_S2048x1_S_d0_1 : S2048x1.ReducesTo [0, 1] S_
  slices_S2x1024x1024_S1x1024x1024_0_0_0 : S2x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S2x1024_S1x1024_0_0 : S2x1024.Slices ![0, 0] S1x1024
  shapeCasts_S1x1024_S1024 : S1x1024.ShapeCasts S1024
  slices_S2048_S2046_2 : S2048.Slices ![2] S2046
  slices_S2048_S2_0 : S2048.Slices ![0] S2
  concatenates_S2046_S2_S2048_d0 : Shape.Concatenates [S2046, S2] S2048 0
  slices_S2x50257x1024_S1x50257x1024_0_0_0 : S2x50257x1024.Slices ![0, 0, 0] S1x50257x1024
  shapeCasts_S1x50257x1024_S50257x1024 : S1x50257x1024.ShapeCasts S50257x1024
  shapeCasts_S1024x1024_S1024x1024 : S1024x1024.ShapeCasts S1024x1024
  slices_S2x1024x1024_S1x1024x1024_1_0_0 : S2x1024x1024.Slices ![1, 0, 0] S1x1024x1024
  slices_S2x1024_S1x1024_1_0 : S2x1024.Slices ![1, 0] S1x1024
  slices_S2048_S2045_3 : S2048.Slices ![3] S2045
  slices_S2048_S3_0 : S2048.Slices ![0] S3
  concatenates_S2045_S3_S2048_d0 : Shape.Concatenates [S2045, S3] S2048 0
  slices_S2x50257x1024_S1x50257x1024_1_0_0 : S2x50257x1024.Slices ![1, 0, 0] S1x50257x1024
  bcast_S2048x50257_S1x2048x50257_1_2 : S2048x50257.BroadcastsInDim S1x2048x50257 (![1, 2] : Fin 2 → Fin S1x2048x50257.rank)
  dot_S2048x1024_S1024x1024_S2048x1024_1_1_0_0_n_n_wf : DotDims.WF S2048x1024 S1024x1024 S2048x1024 [1] [1] [0] [0] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .bf16 = 32 ∨ (Rect.block (s := S2048x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S50257x1024.size a
  hwx0_1 : ∀ i : grid0.Coords, EltTy.bits .f32 = 32 ∨ (Rect.unit (s := S50257x1024) (fun a => cc0_transform_1 i a * S1024x1024.size a) (fun a => (Pipeline.Clip.of (cc0_transform_1 i a) (S1024x1024.size a) (S50257x1024.size a)).extent (S1024x1024.size a)) fun a => Pipeline.Clip.inb (Pipeline.Clip.ok_of (hstart0_1 i a))).WholeWords (EltTy.packing .f32)
  hwxs0_1 : ∀ i : grid0.Coords, EltTy.bits .f32 = 32 ∨ (Rect.unit (s := S1024x1024) (fun _ => 0) (fun a => (Pipeline.Clip.of (cc0_transform_1 i a) (S1024x1024.size a) (S50257x1024.size a)).extent (S1024x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2048x1.size a
  hwx0_2 : ∀ i : grid0.Coords, EltTy.bits .i32 = 32 ∨ (Rect.block (s := S2048x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x1024.size a < S2048x50257.size a
  hwx0_3 : ∀ i : grid0.Coords, EltTy.bits .f32 = 32 ∨ (Rect.unit (s := S2048x50257) (fun a => cc0_transform_3 i a * S2048x1024.size a) (fun a => (Pipeline.Clip.of (cc0_transform_3 i a) (S2048x1024.size a) (S2048x50257.size a)).extent (S2048x1024.size a)) fun a => Pipeline.Clip.inb (Pipeline.Clip.ok_of (hstart0_3 i a))).WholeWords (EltTy.packing .f32)
  hwxs0_3 : ∀ i : grid0.Coords, EltTy.bits .f32 = 32 ∨ (Rect.unit (s := S2048x1024) (fun _ => 0) (fun a => (Pipeline.Clip.of (cc0_transform_3 i a) (S2048x1024.size a) (S2048x50257.size a)).extent (S2048x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1.size a ≤ S2x2048x1.size a
  hwx0_4 : ∀ i : grid0.Coords, EltTy.bits .f32 = 32 ∨ (Rect.block (s := S2x2048x1) S1x2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x1.size a ≤ S2x2048x1.size a
  hwx0_5 : ∀ i : grid0.Coords, EltTy.bits .f32 = 32 ∨ (Rect.block (s := S2x2048x1) S1x2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x1.size a ≤ S2x2048x1.size a
  hwx0_6 : ∀ i : grid0.Coords, EltTy.bits .f32 = 32 ∨ (Rect.block (s := S2x2048x1) S1x2048x1.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S2048x1024.size a
  hwx1_0 : ∀ i : grid1.Coords, EltTy.bits .bf16 = 32 ∨ (Rect.block (s := S2048x1024) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x1024.size a < S50257x1024.size a
  hwx1_1 : ∀ i : grid1.Coords, EltTy.bits .f32 = 32 ∨ (Rect.unit (s := S50257x1024) (fun a => cc1_transform_1 i a * S1024x1024.size a) (fun a => (Pipeline.Clip.of (cc1_transform_1 i a) (S1024x1024.size a) (S50257x1024.size a)).extent (S1024x1024.size a)) fun a => Pipeline.Clip.inb (Pipeline.Clip.ok_of (hstart1_1 i a))).WholeWords (EltTy.packing .f32)
  hwxs1_1 : ∀ i : grid1.Coords, EltTy.bits .f32 = 32 ∨ (Rect.unit (s := S1024x1024) (fun _ => 0) (fun a => (Pipeline.Clip.of (cc1_transform_1 i a) (S1024x1024.size a) (S50257x1024.size a)).extent (S1024x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S2048x1.size a
  hwx1_2 : ∀ i : grid1.Coords, EltTy.bits .i32 = 32 ∨ (Rect.block (s := S2048x1) S2048x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1.size a ≤ S2x2048x1.size a
  hwx1_3 : ∀ i : grid1.Coords, EltTy.bits .f32 = 32 ∨ (Rect.block (s := S2x2048x1) S1x2048x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1.size a ≤ S2x2048x1.size a
  hwx1_4 : ∀ i : grid1.Coords, EltTy.bits .f32 = 32 ∨ (Rect.block (s := S2x2048x1) S1x2048x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x1.size a ≤ S2x2048x1.size a
  hwx1_5 : ∀ i : grid1.Coords, EltTy.bits .f32 = 32 ∨ (Rect.block (s := S2x2048x1) S1x2048x1.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S2048x1024.size a
  hwx2_0 : ∀ i : grid2.Coords, EltTy.bits .bf16 = 32 ∨ (Rect.block (s := S2048x1024) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S1024x1024.size a < S50257x1024.size a
  hwx2_1 : ∀ i : grid2.Coords, EltTy.bits .f32 = 32 ∨ (Rect.unit (s := S50257x1024) (fun a => cc2_transform_1 i a * S1024x1024.size a) (fun a => (Pipeline.Clip.of (cc2_transform_1 i a) (S1024x1024.size a) (S50257x1024.size a)).extent (S1024x1024.size a)) fun a => Pipeline.Clip.inb (Pipeline.Clip.ok_of (hstart2_1 i a))).WholeWords (EltTy.packing .f32)
  hwxs2_1 : ∀ i : grid2.Coords, EltTy.bits .f32 = 32 ∨ (Rect.unit (s := S1024x1024) (fun _ => 0) (fun a => (Pipeline.Clip.of (cc2_transform_1 i a) (S1024x1024.size a) (S50257x1024.size a)).extent (S1024x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S2048x1.size a
  hwx2_2 : ∀ i : grid2.Coords, EltTy.bits .i32 = 32 ∨ (Rect.block (s := S2048x1) S2048x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x1.size a ≤ S2x2048x1.size a
  hwx2_3 : ∀ i : grid2.Coords, EltTy.bits .f32 = 32 ∨ (Rect.block (s := S2x2048x1) S1x2048x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048x1.size a ≤ S2x2048x1.size a
  hwx2_4 : ∀ i : grid2.Coords, EltTy.bits .f32 = 32 ∨ (Rect.block (s := S2x2048x1) S1x2048x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2048x1.size a ≤ S2x2048x1.size a
  hwx2_5 : ∀ i : grid2.Coords, EltTy.bits .f32 = 32 ∨ (Rect.block (s := S2x2048x1) S1x2048x1.size (cc2_transform_5 i) (hinb2_5 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v15) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v24) S2048x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v27_0) S2048x1024.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v27_1) S1x2048x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27_2) S1x2048x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27_3) S1x2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v80) S2048x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_v93) S1024x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v89) S2048x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v94_0) S1x2048x1.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v94_1) S1x2048x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v94_2) S1x2048x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun i => !(k1_cond2 i == 1#1) | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v147) S2048x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_v160) S1024x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_v156) S2048x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v161_0) S1x2048x1.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v161_1) S1x2048x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v161_2) S1x2048x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun i => !(k2_cond2 i == 1#1) | 4 => fun i => !(k2_cond2 i == 1#1) | 5 => fun i => !(k2_cond2 i == 1#1) | ⟨_ + 6, h⟩ => absurd h (Nat.not_lt.2 (Nat.le_add_left _ _))

class Facts : Prop extends Facts₀ where

variable [Facts]
-- ==== ReferenceIdeal.lean ====
abbrev S1x2048x1024 : Shape := ⟨3, ![1, 2048, 1024]⟩
abbrev S1x2048 : Shape := ⟨2, ![1, 2048]⟩
abbrev S50257x1024 : Shape := ⟨2, ![50257, 1024]⟩
abbrev S1024 : Shape := ⟨1, ![1024]⟩
abbrev S2x1024x1024 : Shape := ⟨3, ![2, 1024, 1024]⟩
abbrev S2x1024 : Shape := ⟨2, ![2, 1024]⟩
abbrev S2x50257x1024 : Shape := ⟨3, ![2, 50257, 1024]⟩
abbrev S_ : Shape := ⟨0, ![]⟩
abbrev S1x2048x1 : Shape := ⟨3, ![1, 2048, 1]⟩
abbrev S1x1x1024 : Shape := ⟨3, ![1, 1, 1024]⟩
abbrev S1x2048x50257 : Shape := ⟨3, ![1, 2048, 50257]⟩
abbrev S1x2047x50257 : Shape := ⟨3, ![1, 2047, 50257]⟩
abbrev S1x2047 : Shape := ⟨2, ![1, 2047]⟩
abbrev S1x2047x1 : Shape := ⟨3, ![1, 2047, 1]⟩
abbrev S2047x1x1 : Shape := ⟨3, ![2047, 1, 1]⟩
abbrev S1 : Shape := ⟨1, ![1]⟩
abbrev S1x1x1 : Shape := ⟨3, ![1, 1, 1]⟩
abbrev S2047x1 : Shape := ⟨2, ![2047, 1]⟩
abbrev S1x1024x1024 : Shape := ⟨3, ![1, 1024, 1024]⟩
abbrev S1024x1024 : Shape := ⟨2, ![1024, 1024]⟩
abbrev S1x1024 : Shape := ⟨2, ![1, 1024]⟩
abbrev S1x50257x1024 : Shape := ⟨3, ![1, 50257, 1024]⟩
abbrev S1x2046x50257 : Shape := ⟨3, ![1, 2046, 50257]⟩
abbrev S1x2046 : Shape := ⟨2, ![1, 2046]⟩
abbrev S1x2046x1 : Shape := ⟨3, ![1, 2046, 1]⟩
abbrev S2046x1x1 : Shape := ⟨3, ![2046, 1, 1]⟩
abbrev S2046x1 : Shape := ⟨2, ![2046, 1]⟩
abbrev S1x2045x50257 : Shape := ⟨3, ![1, 2045, 50257]⟩
abbrev S1x2045 : Shape := ⟨2, ![1, 2045]⟩
abbrev S1x2045x1 : Shape := ⟨3, ![1, 2045, 1]⟩
abbrev S2045x1x1 : Shape := ⟨3, ![2045, 1, 1]⟩
abbrev S2045x1 : Shape := ⟨2, ![2045, 1]⟩

abbrev nBuf : Space → Nat
  | .hbm => 269
  | .vmem => 0
  | .smem => 0
  | _ => 0

abbrev hbmTy0_0 (i : Nat) : BufTy := match i % 128 with
  | 0 => ⟨S1x2048x1024, .f32⟩
  | 1 => ⟨S1x2048, .i32⟩
  | 2 => ⟨S50257x1024, .f32⟩
  | 3 => ⟨S1024, .f32⟩
  | 4 => ⟨S2x1024x1024, .f32⟩
  | 5 => ⟨S2x1024, .f32⟩
  | 6 => ⟨S2x50257x1024, .f32⟩
  | 7 => ⟨S1x2048x1024, .f32⟩
  | 8 => ⟨S_, .f32⟩
  | 9 => ⟨S1x2048, .f32⟩
  | 10 => ⟨S1x2048x1, .f32⟩
  | 11 => ⟨S_, .f32⟩
  | 12 => ⟨S1x2048x1, .f32⟩
  | 13 => ⟨S1x2048x1, .f32⟩
  | 14 => ⟨S_, .f32⟩
  | 15 => ⟨S1x2048x1, .f32⟩
  | 16 => ⟨S1x2048x1, .f32⟩
  | 17 => ⟨S1x2048x1, .f32⟩
  | 18 => ⟨S1x2048x1024, .f32⟩
  | 19 => ⟨S1x2048x1024, .f32⟩
  | 20 => ⟨S1x1x1024, .f32⟩
  | 21 => ⟨S1x2048x1024, .f32⟩
  | 22 => ⟨S1x2048x1024, .f32⟩
  | 23 => ⟨S1x2048x50257, .f32⟩
  | 24 => ⟨S1x2047x50257, .f32⟩
  | 25 => ⟨S1x2047, .i32⟩
  | 26 => ⟨S_, .f32⟩
  | 27 => ⟨S1x2047, .f32⟩
  | 28 => ⟨S_, .f32⟩
  | 29 => ⟨S1x2047, .f32⟩
  | 30 => ⟨S1x2047, .f32⟩
  | 31 => ⟨S1x2047x1, .f32⟩
  | 32 => ⟨S1x2047x50257, .f32⟩
  | 33 => ⟨S1x2047x50257, .f32⟩
  | 34 => ⟨S1x2047x50257, .f32⟩
  | 35 => ⟨S_, .f32⟩
  | 36 => ⟨S1x2047, .f32⟩
  | 37 => ⟨S1x2047x1, .f32⟩
  | 38 => ⟨S1x2047x1, .f32⟩
  | 39 => ⟨S1x2047x50257, .f32⟩
  | 40 => ⟨S1x2047x50257, .f32⟩
  | 41 => ⟨S_, .i32⟩
  | 42 => ⟨S1x2047, .i32⟩
  | 43 => ⟨S1x2047, .i1⟩
  | 44 => ⟨S_, .i32⟩
  | 45 => ⟨S_, .i32⟩
  | 46 => ⟨S1x2047, .i32⟩
  | 47 => ⟨S1x2047, .i32⟩
  | 48 => ⟨S1x2047x1, .i32⟩
  | 49 => ⟨S_, .i32⟩
  | 50 => ⟨S1x2047x1, .i32⟩
  | 51 => ⟨S1x2047x1, .i1⟩
  | 52 => ⟨S_, .i32⟩
  | 53 => ⟨S1x2047x1, .i32⟩
  | 54 => ⟨S1x2047x1, .i32⟩
  | 55 => ⟨S1x2047x1, .i32⟩
  | 56 => ⟨S2047x1x1, .i32⟩
  | 57 => ⟨S1, .i32⟩
  | 58 => ⟨S_, .i32⟩
  | 59 => ⟨S2047x1x1, .i32⟩
  | 60 => ⟨S2047x1x1, .i1⟩
  | 61 => ⟨S1x1x1, .i32⟩
  | 62 => ⟨S2047x1x1, .i32⟩
  | 63 => ⟨S2047x1x1, .i1⟩
  | 64 => ⟨S2047x1x1, .i1⟩
  | 65 => ⟨S_, .i1⟩
  | 66 => ⟨S2047x1, .i1⟩
  | 67 => ⟨S1x2047x1, .f32⟩
  | 68 => ⟨S1x2047x1, .i1⟩
  | 69 => ⟨S_, .f32⟩
  | 70 => ⟨S1x2047x1, .f32⟩
  | 71 => ⟨S1x2047x1, .f32⟩
  | 72 => ⟨S1x2047, .f32⟩
  | 73 => ⟨S1x2047, .f32⟩
  | 74 => ⟨S_, .f32⟩
  | 75 => ⟨S_, .f32⟩
  | 76 => ⟨S1x2047, .f32⟩
  | 77 => ⟨S1x2047, .f32⟩
  | 78 => ⟨S_, .f32⟩
  | 79 => ⟨S_, .f32⟩
  | 80 => ⟨S1x2047, .i32⟩
  | 81 => ⟨S_, .i32⟩
  | 82 => ⟨S_, .i32⟩
  | 83 => ⟨S_, .i32⟩
  | 84 => ⟨S_, .i32⟩
  | 85 => ⟨S_, .f32⟩
  | 86 => ⟨S_, .f32⟩
  | 87 => ⟨S1x1024x1024, .f32⟩
  | 88 => ⟨S1024x1024, .f32⟩
  | 89 => ⟨S1x2048x1024, .f32⟩
  | 90 => ⟨S1x1024, .f32⟩
  | 91 => ⟨S1024, .f32⟩
  | 92 => ⟨S1x2048x1024, .f32⟩
  | 93 => ⟨S_, .f32⟩
  | 94 => ⟨S1x2048, .f32⟩
  | 95 => ⟨S1x2048x1, .f32⟩
  | 96 => ⟨S_, .f32⟩
  | 97 => ⟨S1x2048x1, .f32⟩
  | 98 => ⟨S1x2048x1, .f32⟩
  | 99 => ⟨S_, .f32⟩
  | 100 => ⟨S1x2048x1, .f32⟩
  | 101 => ⟨S1x2048x1, .f32⟩
  | 102 => ⟨S1x2048x1, .f32⟩
  | 103 => ⟨S1x2048x1024, .f32⟩
  | 104 => ⟨S1x2048x1024, .f32⟩
  | 105 => ⟨S1x1x1024, .f32⟩
  | 106 => ⟨S1x2048x1024, .f32⟩
  | 107 => ⟨S1x2048x1024, .f32⟩
  | 108 => ⟨S1x50257x1024, .f32⟩
  | 109 => ⟨S50257x1024, .f32⟩
  | 110 => ⟨S1x2048x50257, .f32⟩
  | 111 => ⟨S1x2046x50257, .f32⟩
  | 112 => ⟨S1x2046, .i32⟩
  | 113 => ⟨S_, .f32⟩
  | 114 => ⟨S1x2046, .f32⟩
  | 115 => ⟨S_, .f32⟩
  | 116 => ⟨S1x2046, .f32⟩
  | 117 => ⟨S1x2046, .f32⟩
  | 118 => ⟨S1x2046x1, .f32⟩
  | 119 => ⟨S1x2046x50257, .f32⟩
  | 120 => ⟨S1x2046x50257, .f32⟩
  | 121 => ⟨S1x2046x50257, .f32⟩
  | 122 => ⟨S_, .f32⟩
  | 123 => ⟨S1x2046, .f32⟩
  | 124 => ⟨S1x2046x1, .f32⟩
  | 125 => ⟨S1x2046x1, .f32⟩
  | 126 => ⟨S1x2046x50257, .f32⟩
  | 127 => ⟨S1x2046x50257, .f32⟩
  | _ => ⟨S1x2048x1024, .f32⟩

abbrev hbmTy0_1 (i : Nat) : BufTy := match i % 128 with
  | 0 => ⟨S_, .i32⟩
  | 1 => ⟨S1x2046, .i32⟩
  | 2 => ⟨S1x2046, .i1⟩
  | 3 => ⟨S_, .i32⟩
  | 4 => ⟨S_, .i32⟩
  | 5 => ⟨S1x2046, .i32⟩
  | 6 => ⟨S1x2046, .i32⟩
  | 7 => ⟨S1x2046x1, .i32⟩
  | 8 => ⟨S_, .i32⟩
  | 9 => ⟨S1x2046x1, .i32⟩
  | 10 => ⟨S1x2046x1, .i1⟩
  | 11 => ⟨S_, .i32⟩
  | 12 => ⟨S1x2046x1, .i32⟩
  | 13 => ⟨S1x2046x1, .i32⟩
  | 14 => ⟨S1x2046x1, .i32⟩
  | 15 => ⟨S2046x1x1, .i32⟩
  | 16 => ⟨S1, .i32⟩
  | 17 => ⟨S_, .i32⟩
  | 18 => ⟨S2046x1x1, .i32⟩
  | 19 => ⟨S2046x1x1, .i1⟩
  | 20 => ⟨S1x1x1, .i32⟩
  | 21 => ⟨S2046x1x1, .i32⟩
  | 22 => ⟨S2046x1x1, .i1⟩
  | 23 => ⟨S2046x1x1, .i1⟩
  | 24 => ⟨S_, .i1⟩
  | 25 => ⟨S2046x1, .i1⟩
  | 26 => ⟨S1x2046x1, .f32⟩
  | 27 => ⟨S1x2046x1, .i1⟩
  | 28 => ⟨S_, .f32⟩
  | 29 => ⟨S1x2046x1, .f32⟩
  | 30 => ⟨S1x2046x1, .f32⟩
  | 31 => ⟨S1x2046, .f32⟩
  | 32 => ⟨S1x2046, .f32⟩
  | 33 => ⟨S_, .f32⟩
  | 34 => ⟨S_, .f32⟩
  | 35 => ⟨S1x2046, .f32⟩
  | 36 => ⟨S1x2046, .f32⟩
  | 37 => ⟨S_, .f32⟩
  | 38 => ⟨S_, .f32⟩
  | 39 => ⟨S1x2046, .i32⟩
  | 40 => ⟨S_, .i32⟩
  | 41 => ⟨S_, .i32⟩
  | 42 => ⟨S_, .i32⟩
  | 43 => ⟨S_, .i32⟩
  | 44 => ⟨S_, .f32⟩
  | 45 => ⟨S_, .f32⟩
  | 46 => ⟨S1x1024x1024, .f32⟩
  | 47 => ⟨S1024x1024, .f32⟩
  | 48 => ⟨S1x2048x1024, .f32⟩
  | 49 => ⟨S1x1024, .f32⟩
  | 50 => ⟨S1024, .f32⟩
  | 51 => ⟨S1x2048x1024, .f32⟩
  | 52 => ⟨S_, .f32⟩
  | 53 => ⟨S1x2048, .f32⟩
  | 54 => ⟨S1x2048x1, .f32⟩
  | 55 => ⟨S_, .f32⟩
  | 56 => ⟨S1x2048x1, .f32⟩
  | 57 => ⟨S1x2048x1, .f32⟩
  | 58 => ⟨S_, .f32⟩
  | 59 => ⟨S1x2048x1, .f32⟩
  | 60 => ⟨S1x2048x1, .f32⟩
  | 61 => ⟨S1x2048x1, .f32⟩
  | 62 => ⟨S1x2048x1024, .f32⟩
  | 63 => ⟨S1x2048x1024, .f32⟩
  | 64 => ⟨S1x1x1024, .f32⟩
  | 65 => ⟨S1x2048x1024, .f32⟩
  | 66 => ⟨S1x2048x1024, .f32⟩
  | 67 => ⟨S1x50257x1024, .f32⟩
  | 68 => ⟨S50257x1024, .f32⟩
  | 69 => ⟨S1x2048x50257, .f32⟩
  | 70 => ⟨S1x2045x50257, .f32⟩
  | 71 => ⟨S1x2045, .i32⟩
  | 72 => ⟨S_, .f32⟩
  | 73 => ⟨S1x2045, .f32⟩
  | 74 => ⟨S_, .f32⟩
  | 75 => ⟨S1x2045, .f32⟩
  | 76 => ⟨S1x2045, .f32⟩
  | 77 => ⟨S1x2045x1, .f32⟩
  | 78 => ⟨S1x2045x50257, .f32⟩
  | 79 => ⟨S1x2045x50257, .f32⟩
  | 80 => ⟨S1x2045x50257, .f32⟩
  | 81 => ⟨S_, .f32⟩
  | 82 => ⟨S1x2045, .f32⟩
  | 83 => ⟨S1x2045x1, .f32⟩
  | 84 => ⟨S1x2045x1, .f32⟩
  | 85 => ⟨S1x2045x50257, .f32⟩
  | 86 => ⟨S1x2045x50257, .f32⟩
  | 87 => ⟨S_, .i32⟩
  | 88 => ⟨S1x2045, .i32⟩
  | 89 => ⟨S1x2045, .i1⟩
  | 90 => ⟨S_, .i32⟩
  | 91 => ⟨S_, .i32⟩
  | 92 => ⟨S1x2045, .i32⟩
  | 93 => ⟨S1x2045, .i32⟩
  | 94 => ⟨S1x2045x1, .i32⟩
  | 95 => ⟨S_, .i32⟩
  | 96 => ⟨S1x2045x1, .i32⟩
  | 97 => ⟨S1x2045x1, .i1⟩
  | 98 => ⟨S_, .i32⟩
  | 99 => ⟨S1x2045x1, .i32⟩
  | 100 => ⟨S1x2045x1, .i32⟩
  | 101 => ⟨S1x2045x1, .i32⟩
  | 102 => ⟨S2045x1x1, .i32⟩
  | 103 => ⟨S1, .i32⟩
  | 104 => ⟨S_, .i32⟩
  | 105 => ⟨S2045x1x1, .i32⟩
  | 106 => ⟨S2045x1x1, .i1⟩
  | 107 => ⟨S1x1x1, .i32⟩
  | 108 => ⟨S2045x1x1, .i32⟩
  | 109 => ⟨S2045x1x1, .i1⟩
  | 110 => ⟨S2045x1x1, .i1⟩
  | 111 => ⟨S_, .i1⟩
  | 112 => ⟨S2045x1, .i1⟩
  | 113 => ⟨S1x2045x1, .f32⟩
  | 114 => ⟨S1x2045x1, .i1⟩
  | 115 => ⟨S_, .f32⟩
  | 116 => ⟨S1x2045x1, .f32⟩
  | 117 => ⟨S1x2045x1, .f32⟩
  | 118 => ⟨S1x2045, .f32⟩
  | 119 => ⟨S1x2045, .f32⟩
  | 120 => ⟨S_, .f32⟩
  | 121 => ⟨S_, .f32⟩
  | 122 => ⟨S1x2045, .f32⟩
  | 123 => ⟨S1x2045, .f32⟩
  | 124 => ⟨S_, .f32⟩
  | 125 => ⟨S_, .f32⟩
  | 126 => ⟨S1x2045, .i32⟩
  | 127 => ⟨S_, .i32⟩
  | _ => ⟨S1x2048x1024, .f32⟩

abbrev hbmTy0_2 (i : Nat) : BufTy := match i % 128 with
  | 0 => ⟨S_, .i32⟩
  | 1 => ⟨S_, .i32⟩
  | 2 => ⟨S_, .i32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_call0_cst_0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_cst_1 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_v19 : Ref sig .tc := ⟨.hbm, 47, rfl⟩
abbrev main_v20 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_call2_cst : Ref sig .tc := ⟨.hbm, 69, rfl⟩
abbrev main_call2_v15 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_cst_3 : Ref sig .tc := ⟨.hbm, 74, rfl⟩
abbrev main_call3_v0 : Ref sig .tc := ⟨.hbm, 75, rfl⟩
abbrev main_call3_v1 : Ref sig .tc := ⟨.hbm, 76, rfl⟩
abbrev main_v24 : Ref sig .tc := ⟨.hbm, 77, rfl⟩
abbrev main_cst_4 : Ref sig .tc := ⟨.hbm, 78, rfl⟩
abbrev main_v25 : Ref sig .tc := ⟨.hbm, 79, rfl⟩
abbrev main_v26 : Ref sig .tc := ⟨.hbm, 80, rfl⟩
abbrev main_c_5 : Ref sig .tc := ⟨.hbm, 81, rfl⟩
abbrev main_v27 : Ref sig .tc := ⟨.hbm, 82, rfl⟩
abbrev main_c_6 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_cst_7 : Ref sig .tc := ⟨.hbm, 93, rfl⟩
abbrev main_v37 : Ref sig .tc := ⟨.hbm, 94, rfl⟩
abbrev main_v38 : Ref sig .tc := ⟨.hbm, 95, rfl⟩
abbrev main_cst_8 : Ref sig .tc := ⟨.hbm, 96, rfl⟩
abbrev main_v39 : Ref sig .tc := ⟨.hbm, 97, rfl⟩
abbrev main_v40 : Ref sig .tc := ⟨.hbm, 98, rfl⟩
abbrev main_cst_9 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_call4_cst : Ref sig .tc := ⟨.hbm, 113, rfl⟩
abbrev main_call4_v0 : Ref sig .tc := ⟨.hbm, 114, rfl⟩
abbrev main_call4_cst_0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_v6 : Ref sig .tc := ⟨.hbm, 121, rfl⟩
abbrev main_call4_cst_1 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_v54 : Ref sig .tc := ⟨.hbm, 127, rfl⟩
abbrev main_c_10 : Ref sig .tc := ⟨.hbm, 128, rfl⟩
abbrev main_v55 : Ref sig .tc := ⟨.hbm, 129, rfl⟩
abbrev main_v56 : Ref sig .tc := ⟨.hbm, 130, rfl⟩
abbrev main_c_11 : Ref sig .tc := ⟨.hbm, 131, rfl⟩
abbrev main_call5_v0 : Ref sig .tc := ⟨.hbm, 132, rfl⟩
abbrev main_call5_v1 : Ref sig .tc := ⟨.hbm, 133, rfl⟩
abbrev main_v57 : Ref sig .tc := ⟨.hbm, 134, rfl⟩
abbrev main_v58 : Ref sig .tc := ⟨.hbm, 135, rfl⟩
abbrev main_call6_c : Ref sig .tc := ⟨.hbm, 136, rfl⟩
abbrev main_call6_v0 : Ref sig .tc := ⟨.hbm, 137, rfl⟩
abbrev main_call6_v1 : Ref sig .tc := ⟨.hbm, 138, rfl⟩
abbrev main_call6_c_0 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_call6_v5 : Ref sig .tc := ⟨.hbm, 143, rfl⟩
abbrev main_call6_c_1 : Ref sig .tc := ⟨.hbm, 144, rfl⟩
abbrev main_call6_c_2 : Ref sig .tc := ⟨.hbm, 145, rfl⟩
abbrev main_call6_v6 : Ref sig .tc := ⟨.hbm, 146, rfl⟩
abbrev main_call6_v7 : Ref sig .tc := ⟨.hbm, 147, rfl⟩
abbrev main_call6_v8 : Ref sig .tc := ⟨.hbm, 148, rfl⟩
abbrev main_call6_v9 : Ref sig .tc := ⟨.hbm, 149, rfl⟩
abbrev main_call6_v10 : Ref sig .tc := ⟨.hbm, 150, rfl⟩
abbrev main_call6_v11 : Ref sig .tc := ⟨.hbm, 151, rfl⟩
abbrev main_call6_c_3 : Ref sig .tc := ⟨.hbm, 152, rfl⟩
abbrev main_call6_v12 : Ref sig .tc := ⟨.hbm, 153, rfl⟩
abbrev main_call6_v13 : Ref sig .tc := ⟨.hbm, 154, rfl⟩
abbrev main_call6_v14 : Ref sig .tc := ⟨.hbm, 155, rfl⟩
abbrev main_call6_cst : Ref sig .tc := ⟨.hbm, 156, rfl⟩
abbrev main_call6_v15 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_cst_12 : Ref sig .tc := ⟨.hbm, 161, rfl⟩
abbrev main_call7_v0 : Ref sig .tc := ⟨.hbm, 162, rfl⟩
abbrev main_call7_v1 : Ref sig .tc := ⟨.hbm, 163, rfl⟩
abbrev main_v62 : Ref sig .tc := ⟨.hbm, 164, rfl⟩
abbrev main_cst_13 : Ref sig .tc := ⟨.hbm, 165, rfl⟩
abbrev main_v63 : Ref sig .tc := ⟨.hbm, 166, rfl⟩
abbrev main_v64 : Ref sig .tc := ⟨.hbm, 167, rfl⟩
abbrev main_c_14 : Ref sig .tc := ⟨.hbm, 168, rfl⟩
abbrev main_v65 : Ref sig .tc := ⟨.hbm, 169, rfl⟩
abbrev main_c_15 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_cst_16 : Ref sig .tc := ⟨.hbm, 180, rfl⟩
abbrev main_v75 : Ref sig .tc := ⟨.hbm, 181, rfl⟩
abbrev main_v76 : Ref sig .tc := ⟨.hbm, 182, rfl⟩
abbrev main_cst_17 : Ref sig .tc := ⟨.hbm, 183, rfl⟩
abbrev main_v77 : Ref sig .tc := ⟨.hbm, 184, rfl⟩
abbrev main_v78 : Ref sig .tc := ⟨.hbm, 185, rfl⟩
abbrev main_cst_18 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_call8_cst : Ref sig .tc := ⟨.hbm, 200, rfl⟩
abbrev main_call8_v0 : Ref sig .tc := ⟨.hbm, 201, rfl⟩
abbrev main_call8_cst_0 : Ref sig .tc := ⟨.hbm, 202, rfl⟩
abbrev main_call8_v1 : Ref sig .tc := ⟨.hbm, 203, rfl⟩
abbrev main_call8_v2 : Ref sig .tc := ⟨.hbm, 204, rfl⟩
abbrev main_call8_v3 : Ref sig .tc := ⟨.hbm, 205, rfl⟩
abbrev main_call8_v4 : Ref sig .tc := ⟨.hbm, 206, rfl⟩
abbrev main_call8_v5 : Ref sig .tc := ⟨.hbm, 207, rfl⟩
abbrev main_call8_v6 : Ref sig .tc := ⟨.hbm, 208, rfl⟩
abbrev main_call8_cst_1 : Ref sig .tc := ⟨.hbm, 209, rfl⟩
abbrev main_call8_v7 : Ref sig .tc := ⟨.hbm, 210, rfl⟩
abbrev main_call8_v8 : Ref sig .tc := ⟨.hbm, 211, rfl⟩
abbrev main_call8_v9 : Ref sig .tc := ⟨.hbm, 212, rfl⟩
abbrev main_call8_v10 : Ref sig .tc := ⟨.hbm, 213, rfl⟩
abbrev main_v92 : Ref sig .tc := ⟨.hbm, 214, rfl⟩
abbrev main_c_19 : Ref sig .tc := ⟨.hbm, 215, rfl⟩
abbrev main_v93 : Ref sig .tc := ⟨.hbm, 216, rfl⟩
abbrev main_v94 : Ref sig .tc := ⟨.hbm, 217, rfl⟩
abbrev main_c_20 : Ref sig .tc := ⟨.hbm, 218, rfl⟩
abbrev main_call9_v0 : Ref sig .tc := ⟨.hbm, 219, rfl⟩
abbrev main_call9_v1 : Ref sig .tc := ⟨.hbm, 220, rfl⟩
abbrev main_v95 : Ref sig .tc := ⟨.hbm, 221, rfl⟩
abbrev main_v96 : Ref sig .tc := ⟨.hbm, 222, rfl⟩
abbrev main_call10_c : Ref sig .tc := ⟨.hbm, 223, rfl⟩
abbrev main_call10_v0 : Ref sig .tc := ⟨.hbm, 224, rfl⟩
abbrev main_call10_v1 : Ref sig .tc := ⟨.hbm, 225, rfl⟩
abbrev main_call10_c_0 : Ref sig .tc := ⟨.hbm, 226, rfl⟩
abbrev main_call10_v2 : Ref sig .tc := ⟨.hbm, 227, rfl⟩
abbrev main_call10_v3 : Ref sig .tc := ⟨.hbm, 228, rfl⟩
abbrev main_call10_v4 : Ref sig .tc := ⟨.hbm, 229, rfl⟩
abbrev main_call10_v5 : Ref sig .tc := ⟨.hbm, 230, rfl⟩
abbrev main_call10_c_1 : Ref sig .tc := ⟨.hbm, 231, rfl⟩
abbrev main_call10_c_2 : Ref sig .tc := ⟨.hbm, 232, rfl⟩
abbrev main_call10_v6 : Ref sig .tc := ⟨.hbm, 233, rfl⟩
abbrev main_call10_v7 : Ref sig .tc := ⟨.hbm, 234, rfl⟩
abbrev main_call10_v8 : Ref sig .tc := ⟨.hbm, 235, rfl⟩
abbrev main_call10_v9 : Ref sig .tc := ⟨.hbm, 236, rfl⟩
abbrev main_call10_v10 : Ref sig .tc := ⟨.hbm, 237, rfl⟩
abbrev main_call10_v11 : Ref sig .tc := ⟨.hbm, 238, rfl⟩
abbrev main_call10_c_3 : Ref sig .tc := ⟨.hbm, 239, rfl⟩
abbrev main_call10_v12 : Ref sig .tc := ⟨.hbm, 240, rfl⟩
abbrev main_call10_v13 : Ref sig .tc := ⟨.hbm, 241, rfl⟩
abbrev main_call10_v14 : Ref sig .tc := ⟨.hbm, 242, rfl⟩
abbrev main_call10_cst : Ref sig .tc := ⟨.hbm, 243, rfl⟩
abbrev main_call10_v15 : Ref sig .tc := ⟨.hbm, 244, rfl⟩
abbrev main_v97 : Ref sig .tc := ⟨.hbm, 245, rfl⟩
abbrev main_v98 : Ref sig .tc := ⟨.hbm, 246, rfl⟩
abbrev main_v99 : Ref sig .tc := ⟨.hbm, 247, rfl⟩
abbrev main_cst_21 : Ref sig .tc := ⟨.hbm, 248, rfl⟩
abbrev main_call11_v0 : Ref sig .tc := ⟨.hbm, 249, rfl⟩
abbrev main_call11_v1 : Ref sig .tc := ⟨.hbm, 250, rfl⟩
abbrev main_v100 : Ref sig .tc := ⟨.hbm, 251, rfl⟩
abbrev main_cst_22 : Ref sig .tc := ⟨.hbm, 252, rfl⟩
abbrev main_v101 : Ref sig .tc := ⟨.hbm, 253, rfl⟩
abbrev main_v102 : Ref sig .tc := ⟨.hbm, 254, rfl⟩
abbrev main_c_23 : Ref sig .tc := ⟨.hbm, 255, rfl⟩
abbrev main_v103 : Ref sig .tc := ⟨.hbm, 256, rfl⟩
abbrev main_c_24 : Ref sig .tc := ⟨.hbm, 257, rfl⟩
abbrev main_v104 : Ref sig .tc := ⟨.hbm, 258, rfl⟩
abbrev main_v105 : Ref sig .tc := ⟨.hbm, 259, rfl⟩
abbrev main_v106 : Ref sig .tc := ⟨.hbm, 260, rfl⟩
abbrev main_cst_25 : Ref sig .tc := ⟨.hbm, 261, rfl⟩
abbrev main_v107 : Ref sig .tc := ⟨.hbm, 262, rfl⟩
abbrev main_v108 : Ref sig .tc := ⟨.hbm, 263, rfl⟩
abbrev main_cst_26 : Ref sig .tc := ⟨.hbm, 264, rfl⟩
abbrev main_v109 : Ref sig .tc := ⟨.hbm, 265, rfl⟩
abbrev main_cst_27 : Ref sig .tc := ⟨.hbm, 266, rfl⟩
abbrev main_v110 : Ref sig .tc := ⟨.hbm, 267, rfl⟩
abbrev main_v111 : Ref sig .tc := ⟨.hbm, 268, rfl⟩

abbrev nD : Nat := 1
abbrev τ : Topo := Topo.v7x

variable {F : FTy → Type} [FloatOps F]

class Facts₀ : Prop where
  reducesTo_S1x2048x1024_S1x2048_d2 : S1x2048x1024.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x1024_0_1_2 : S1x2048x1.BroadcastsInDim S1x2048x1024 (![0, 1, 2] : Fin 3 → Fin S1x2048x1024.rank)
  bcast_S1024_S1x1x1024_2 : S1024.BroadcastsInDim S1x1x1024 (![2] : Fin 1 → Fin S1x1x1024.rank)
  bcast_S1x1x1024_S1x2048x1024_0_1_2 : S1x1x1024.BroadcastsInDim S1x2048x1024 (![0, 1, 2] : Fin 3 → Fin S1x2048x1024.rank)
  slices_S1x2048x50257_S1x2047x50257_0_0_0 : S1x2048x50257.Slices ![0, 0, 0] S1x2047x50257
  slices_S1x2048_S1x2047_0_1 : S1x2048.Slices ![0, 1] S1x2047
  reducesTo_S1x2047x50257_S1x2047_d2 : S1x2047x50257.ReducesTo [2] S1x2047
  bcast_S_S1x2047 : S_.BroadcastsInDim S1x2047 (![] : Fin 0 → Fin S1x2047.rank)
  bcast_S1x2047_S1x2047x1_0_1 : S1x2047.BroadcastsInDim S1x2047x1 (![0, 1] : Fin 2 → Fin S1x2047x1.rank)
  bcast_S1x2047x1_S1x2047x50257_0_1_2 : S1x2047x1.BroadcastsInDim S1x2047x50257 (![0, 1, 2] : Fin 3 → Fin S1x2047x50257.rank)
  bcast_S_S1x2047x1 : S_.BroadcastsInDim S1x2047x1 (![] : Fin 0 → Fin S1x2047x1.rank)
  shapeCasts_S1x2047x1_S2047x1x1 : S1x2047x1.ShapeCasts S2047x1x1
  bcast_S_S2047x1x1 : S_.BroadcastsInDim S2047x1x1 (![] : Fin 0 → Fin S2047x1x1.rank)
  bcast_S1_S1x1x1_2 : S1.BroadcastsInDim S1x1x1 (![2] : Fin 1 → Fin S1x1x1.rank)
  bcast_S1x1x1_S2047x1x1_0_1_2 : S1x1x1.BroadcastsInDim S2047x1x1 (![0, 1, 2] : Fin 3 → Fin S2047x1x1.rank)
  reducesTo_S2047x1x1_S2047x1_d2 : S2047x1x1.ReducesTo [2] S2047x1
  bcast_S2047x1_S1x2047x1_1_2 : S2047x1.BroadcastsInDim S1x2047x1 (![1, 2] : Fin 2 → Fin S1x2047x1.rank)
  shapeCasts_S1x2047x1_S1x2047 : S1x2047x1.ShapeCasts S1x2047
  reducesTo_S1x2047_S_d0_1 : S1x2047.ReducesTo [0, 1] S_
  natLt_1_32 : 1 < 32
  slices_S2x1024x1024_S1x1024x1024_0_0_0 : S2x1024x1024.Slices ![0, 0, 0] S1x1024x1024
  shapeCasts_S1x1024x1024_S1024x1024 : S1x1024x1024.ShapeCasts S1024x1024
  slices_S2x1024_S1x1024_0_0 : S2x1024.Slices ![0, 0] S1x1024
  shapeCasts_S1x1024_S1024 : S1x1024.ShapeCasts S1024
  slices_S2x50257x1024_S1x50257x1024_0_0_0 : S2x50257x1024.Slices ![0, 0, 0] S1x50257x1024
  shapeCasts_S1x50257x1024_S50257x1024 : S1x50257x1024.ShapeCasts S50257x1024
  slices_S1x2048x50257_S1x2046x50257_0_0_0 : S1x2048x50257.Slices ![0, 0, 0] S1x2046x50257
  slices_S1x2048_S1x2046_0_2 : S1x2048.Slices ![0, 2] S1x2046
  reducesTo_S1x2046x50257_S1x2046_d2 : S1x2046x50257.ReducesTo [2] S1x2046
  bcast_S_S1x2046 : S_.BroadcastsInDim S1x2046 (![] : Fin 0 → Fin S1x2046.rank)
  bcast_S1x2046_S1x2046x1_0_1 : S1x2046.BroadcastsInDim S1x2046x1 (![0, 1] : Fin 2 → Fin S1x2046x1.rank)
  bcast_S1x2046x1_S1x2046x50257_0_1_2 : S1x2046x1.BroadcastsInDim S1x2046x50257 (![0, 1, 2] : Fin 3 → Fin S1x2046x50257.rank)
  bcast_S_S1x2046x1 : S_.BroadcastsInDim S1x2046x1 (![] : Fin 0 → Fin S1x2046x1.rank)
  shapeCasts_S1x2046x1_S2046x1x1 : S1x2046x1.ShapeCasts S2046x1x1
  bcast_S_S2046x1x1 : S_.BroadcastsInDim S2046x1x1 (![] : Fin 0 → Fin S2046x1x1.rank)
  bcast_S1x1x1_S2046x1x1_0_1_2 : S1x1x1.BroadcastsInDim S2046x1x1 (![0, 1, 2] : Fin 3 → Fin S2046x1x1.rank)
  reducesTo_S2046x1x1_S2046x1_d2 : S2046x1x1.ReducesTo [2] S2046x1
  bcast_S2046x1_S1x2046x1_1_2 : S2046x1.BroadcastsInDim S1x2046x1 (![1, 2] : Fin 2 → Fin S1x2046x1.rank)
  shapeCasts_S1x2046x1_S1x2046 : S1x2046x1.ShapeCasts S1x2046
  reducesTo_S1x2046_S_d0_1 : S1x2046.ReducesTo [0, 1] S_
  slices_S2x1024x1024_S1x1024x1024_1_0_0 : S2x1024x1024.Slices ![1, 0, 0] S1x1024x1024
  slices_S2x1024_S1x1024_1_0 : S2x1024.Slices ![1, 0] S1x1024
  slices_S2x50257x1024_S1x50257x1024_1_0_0 : S2x50257x1024.Slices ![1, 0, 0] S1x50257x1024
  slices_S1x2048x50257_S1x2045x50257_0_0_0 : S1x2048x50257.Slices ![0, 0, 0] S1x2045x50257
  slices_S1x2048_S1x2045_0_3 : S1x2048.Slices ![0, 3] S1x2045
  reducesTo_S1x2045x50257_S1x2045_d2 : S1x2045x50257.ReducesTo [2] S1x2045
  bcast_S_S1x2045 : S_.BroadcastsInDim S1x2045 (![] : Fin 0 → Fin S1x2045.rank)
  bcast_S1x2045_S1x2045x1_0_1 : S1x2045.BroadcastsInDim S1x2045x1 (![0, 1] : Fin 2 → Fin S1x2045x1.rank)
  bcast_S1x2045x1_S1x2045x50257_0_1_2 : S1x2045x1.BroadcastsInDim S1x2045x50257 (![0, 1, 2] : Fin 3 → Fin S1x2045x50257.rank)
  bcast_S_S1x2045x1 : S_.BroadcastsInDim S1x2045x1 (![] : Fin 0 → Fin S1x2045x1.rank)
  shapeCasts_S1x2045x1_S2045x1x1 : S1x2045x1.ShapeCasts S2045x1x1
  bcast_S_S2045x1x1 : S_.BroadcastsInDim S2045x1x1 (![] : Fin 0 → Fin S2045x1x1.rank)
  bcast_S1x1x1_S2045x1x1_0_1_2 : S1x1x1.BroadcastsInDim S2045x1x1 (![0, 1, 2] : Fin 3 → Fin S2045x1x1.rank)
  reducesTo_S2045x1x1_S2045x1_d2 : S2045x1x1.ReducesTo [2] S2045x1
  bcast_S2045x1_S1x2045x1_1_2 : S2045x1.BroadcastsInDim S1x2045x1 (![1, 2] : Fin 2 → Fin S1x2045x1.rank)
  shapeCasts_S1x2045x1_S1x2045 : S1x2045x1.ShapeCasts S1x2045
  reducesTo_S1x2045_S_d0_1 : S1x2045.ReducesTo [0, 1] S_
  dot_S1x2048x1024_S50257x1024_S1x2048x50257_2_1_01_0_n_n_wf : DotDims.WF S1x2048x1024 S50257x1024 S1x2048x50257 [2] [1] [0, 1] [0] [] []
  gather_S1x2047x50257_S2047x1x1_S1x2047x1_0_2_1_0_2_2_111_wf : GatherDims.WF S1x2047x50257 S2047x1x1 S1x2047x1 [0] [2] [1] [2] [0] 2 ![1, 1, 1]
  dot_S1x2048x1024_S1024x1024_S1x2048x1024_2_1_01_0_n_n_wf : DotDims.WF S1x2048x1024 S1024x1024 S1x2048x1024 [2] [1] [0, 1] [0] [] []
  gather_S1x2046x50257_S2046x1x1_S1x2046x1_0_2_1_0_2_2_111_wf : GatherDims.WF S1x2046x50257 S2046x1x1 S1x2046x1 [0] [2] [1] [2] [0] 2 ![1, 1, 1]
  gather_S1x2045x50257_S2045x1x1_S1x2045x1_0_2_1_0_2_2_111_wf : GatherDims.WF S1x2045x50257 S2045x1x1 S1x2045x1 [0] [2] [1] [2] [0] 2 ![1, 1, 1]

variable [Facts₀]

def dot_S1x2048x1024_S50257x1024_S1x2048x50257_2_1_01_0_n_n : DotDims S1x2048x1024 S50257x1024 S1x2048x50257 where
  lhsContracting := [2]
  rhsContracting := [1]
  lhsNonContracting := [0, 1]
  rhsNonContracting := [0]
  lhsBatch := []
  rhsBatch := []
  wf := dot_S1x2048x1024_S50257x1024_S1x2048x50257_2_1_01_0_n_n_wf
def gather_S1x2047x50257_S2047x1x1_S1x2047x1_0_2_1_0_2_2_111 : GatherDims S1x2047x50257 S2047x1x1 S1x2047x1 where
  offsetDims := [0]
  collapsedSliceDims := [2]
  operandBatchingDims := [1]
  startIndicesBatchingDims := [0]
  startIndexMap := [2]
  indexVectorDim := 2
  sliceSizes := ![1, 1, 1]
  wf := gather_S1x2047x50257_S2047x1x1_S1x2047x1_0_2_1_0_2_2_111_wf
def dot_S1x2048x1024_S1024x1024_S1x2048x1024_2_1_01_0_n_n : DotDims S1x2048x1024 S1024x1024 S1x2048x1024 where
  lhsContracting := [2]
  rhsContracting := [1]
  lhsNonContracting := [0, 1]
  rhsNonContracting := [0]
  lhsBatch := []
  rhsBatch := []
  wf := dot_S1x2048x1024_S1024x1024_S1x2048x1024_2_1_01_0_n_n_wf
def gather_S1x2046x50257_S2046x1x1_S1x2046x1_0_2_1_0_2_2_111 : GatherDims S1x2046x50257 S2046x1x1 S1x2046x1 where
  offsetDims := [0]
  collapsedSliceDims := [2]
  operandBatchingDims := [1]
  startIndicesBatchingDims := [0]
  startIndexMap := [2]
  indexVectorDim := 2
  sliceSizes := ![1, 1, 1]
  wf := gather_S1x2046x50257_S2046x1x1_S1x2046x1_0_2_1_0_2_2_111_wf
def gather_S1x2045x50257_S2045x1x1_S1x2045x1_0_2_1_0_2_2_111 : GatherDims S1x2045x50257 S2045x1x1 S1x2045x1 where
  offsetDims := [0]
  collapsedSliceDims := [2]
  operandBatchingDims := [1]
  startIndicesBatchingDims := [0]
  startIndexMap := [2]
  indexVectorDim := 2
  sliceSizes := ![1, 1, 1]
  wf := gather_S1x2045x50257_S2045x1x1_S1x2045x1_0_2_1_0_2_2_111_wf

class Facts : Prop extends Facts₀ where

variable [Facts]
-- ==== Proof.KernelBody.lean ====
import proofs.«413414_j14594298871876_1_alg».proof.Proof.Gen.Kernel.Skeleton
import proofs.«413414_j14594298871876_1_alg».proof.Proof.Gen.Kernel.Launch
import proofs.«413414_j14594298871876_1_alg».proof.Proof.Gen.Kernel.Points
import Idealize.ShloMosaic.Lib.Pipeline.Frame
import Idealize.ShloMosaic.Lib.Pipeline.Regions
import Idealize.ShloMosaic.Lib.Pipeline.Kit
import Idealize.ShloMosaic.Lib.Tactic

set_option maxRecDepth 1704

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def dat0 (c : Dev nD) : Dat τ (Elt F) Unit ℕ (UR sig nD τ) ℕ cfg0 c where
  A w := V c (Pipeline.arrRef spec0 w)
  after w t := Dat.unnamed w t
  Φ _ := Pipeline.ΦA spec0 c
  q _ := fullShare
  owed _ := 0

def dat1 (c : Dev nD) : Dat τ (Elt F) Unit ℕ (UR sig nD τ) ℕ cfg1 c where
  A w := V c (Pipeline.arrRef spec1 w)
  after w t := Dat.unnamed w t
  Φ _ := Pipeline.ΦA spec1 c
  q _ := fullShare
  owed _ := 0

def dat2 (c : Dev nD) : Dat τ (Elt F) Unit ℕ (UR sig nD τ) ℕ cfg2 c where
  A w := V c (Pipeline.arrRef spec2 w)
  after w t := Dat.unnamed w t
  Φ _ := Pipeline.ΦA spec2 c
  q _ := fullShare
  owed _ := 0

abbrev Own (c : Dev nD) {sp : Space} {sh : Shape} {e : EltTy} (a : Memref sig .tc sp sh e) : sProp 𝕄 :=
  iprop(∃ d, owns (c : Thread nD τ) a fullShare d)

theorem owns_whole_some (c : Dev nD) (b : Ref sig .tc) :
    (iprop(∃ f : Buf (Elt F) ((c : Thread nD τ).loc b), ((c : Thread nD τ).loc b) ↦{fullShare} f) : sProp 𝕄)
      = Own c (Memref.whole b) := by
  unfold Own; simp only [owns_whole]

abbrev condReset (i : grid0.Coords) : Prop :=
  Scalar.cmpi .ne (Scalar.extui (Scalar.cmpi .eq (BitVec.ofNat 32 (i 1).val) 0#32)) 0#32 = 1#1

section
variable (c : Dev nD) (arg2 : Memref sig .tc .vmem S2048x1024 .bf16) (arg3 : Memref sig .tc .vmem S1024x1024 .f32) (arg4 : Memref sig .tc .vmem S2048x1 .i32)
  (arg5 : Memref sig .tc .vmem S2048x1024 .f32) (arg6 arg7 arg8 : Memref sig .tc .vmem S1x2048x1 .f32) (arg9 arg10 arg11 : Memref sig .tc .vmem S2048x1 .f32)
  (harg2 : arg2.IsWhole) (harg3 : arg3.IsWhole) (harg4 : arg4.IsWhole) (harg5 : arg5.IsWhole) (harg6 : arg6.IsWhole) (harg7 : arg7.IsWhole)
  (harg8 : arg8.IsWhole) (harg9 : arg9.IsWhole) (harg10 : arg10.IsWhole) (harg11 : arg11.IsWhole)

set_option maxHeartbeats 4000000 in
theorem kernelRun0 (i : grid0.Coords) (E : Set ℕ) (K : PUnit → sProp 𝕄) :
    iprop((Own c arg2 ∗ Own c arg3 ∗ Own c arg4 ∗ Own c arg5 ∗ Own c arg6 ∗ Own c arg7 ∗ Own c arg8 ∗ Own c arg9 ∗ Own c arg10 ∗ Own c arg11) ∗ ((Own c arg2 ∗ Own c arg3 ∗ Own c arg4 ∗ Own c arg5 ∗ Own c arg6 ∗ Own c arg7 ∗ Own c arg8 ∗ Own c arg9 ∗ Own c arg10 ∗ Own c arg11) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10 arg11 harg11) K := by
  simp only [cc0_kernel_eq_skeleton]; unfold cc0_kernel_skel Own owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩⟩, Hk⟩
  by_cases hc1 : condReset i <;> by_cases hc2 : k0_cond2 i = 1#1 <;>
  · sl_exec
    sl_step
    iapply Hk
    isplitl [H0]; swap; isplitl [H1]; swap; isplitl [H2]; swap; isplitl [H3]; swap; isplitl [H4]; swap; isplitl [H5]; swap; isplitl [H6]; swap; isplitl [H7]; swap; isplitl [H8]
    all_goals (iexists _, _; isplitr; swap; iassumption; ipureintro; rfl)

set_option maxHeartbeats 4000000 in
theorem kernelRun1 (i : grid1.Coords) (E : Set ℕ) (K : PUnit → sProp 𝕄) :
    iprop((Own c arg2 ∗ Own c arg3 ∗ Own c arg4 ∗ Own c arg6 ∗ Own c arg7 ∗ Own c arg8 ∗ Own c arg9 ∗ Own c arg10 ∗ Own c arg11) ∗ ((Own c arg2 ∗ Own c arg3 ∗ Own c arg4 ∗ Own c arg6 ∗ Own c arg7 ∗ Own c arg8 ∗ Own c arg9 ∗ Own c arg10 ∗ Own c arg11) -∗ K ⟨⟩))
      ⊢ wp frame (wpE (defs₀ (F := F)) Variants.none c none) E (cc1_kernel i arg2 harg2 arg3 harg3 arg4 harg4 arg6 harg6 arg7 harg7 arg8 harg8 arg9 harg9 arg10 harg10 arg11 harg11) K := by
  simp only [cc1_kernel_eq_skeleton]; unfold cc1_kernel_skel Own owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩⟩, Hk⟩
  by_cases hc1 : condReset i <;> by_cases hc2 : k1_cond2 i = 1#1 <;>
  · sl_exec
    sl_step
    iapply Hk
    isplitl [H0]; swap; isplitl [H1]; swap; isplitl [H2]; swap; isplitl [H3]; swap; isplitl [H4]; swap; isplitl [H5]; swap; isplitl [H6]; swap; isplitl [H7]
    all_goals (iexists _, _; isplitr; swap; iassumption; ipureintro; rfl)

set_option maxHeartbeats 4000000 in
theorem kernelRun2 (i : grid2.Coords) (E : Set ℕ) (K : PUnit → sProp 𝕄) :
    iprop((Own c arg2 ∗ Own c arg3 ∗ Own c arg4 ∗ Own c arg6 ∗ Own c arg7 ∗ Own c arg8 ∗ Own c arg9 ∗ Own c arg10 ∗ Own c arg11) ∗ ((Own c arg2 ∗ Own c arg3 ∗ Own c arg4 ∗ Own c arg6 ∗ Own c arg7 ∗ Own c arg8 ∗ Own c arg9 ∗ Own c arg10 ∗ Own c arg11) -∗ K ⟨⟩))
      ⊢ wp frame (wpE (defs₀ (F := F)) Variants.none c none) E (cc2_kernel i arg2 harg2 arg3 harg3 arg4 harg4 arg6 harg6 arg7 harg7 arg8 harg8 arg9 harg9 arg10 harg10 arg11 harg11) K := by
  simp only [cc2_kernel_eq_skeleton]; unfold cc2_kernel_skel Own owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩⟩, Hk⟩
  by_cases hc1 : condReset i <;> by_cases hc2 : k2_cond2 i = 1#1 <;>
  · sl_exec
    sl_step
    iapply Hk
    isplitl [H0]; swap; isplitl [H1]; swap; isplitl [H2]; swap; isplitl [H3]; swap; isplitl [H4]; swap; isplitl [H5]; swap; isplitl [H6]; swap; isplitl [H7]
    all_goals (iexists _, _; isplitr; swap; iassumption; ipureintro; rfl)

end

def inv0 (c : Dev nD) (t : Fin cfg0.N) : sProp 𝕄 :=
  iprop(Pipeline.ΦA spec0 c ∗ (dat0 (F := F) V c).owesAt () t.castSucc ∗ Own c (st0_0 t) ∗ Own c (st0_1 t) ∗ Own c (st0_2 t) ∗ Own c (st0_3 t) ∗ Own c (st0_4 t) ∗ Own c (st0_5 t) ∗ Own c (st0_6 t))

theorem sound_body0 (c : Dev nD) (t : Fin cfg0.N) :
    inv0 V c t ⊢ wp frame (wpE (defs₀ (F := F)) Variants.none c none) Set.univ (bodyAt0 t) (fun _ => inv0 V c t) := by
  unfold inv0 Pipeline.ΦA bodyAt0
  rw [scopedRest0_split, owns_whole_some c cc0_scratch0, owns_whole_some c cc0_scratch1, owns_whole_some c cc0_scratch2]
  iintro ⟨⟨⟨⟨S0, S1, S2⟩, Hrest⟩, Hg⟩, Ho, W0, W1, W2, W3, W4, W5, W6⟩
  iapply (kernelRun0 c (st0_0 t) (st0_1 t) (st0_2 t) (st0_3 t) (st0_4 t) (st0_5 t) (st0_6 t) (Memref.whole cc0_scratch0) (Memref.whole cc0_scratch1) (Memref.whole cc0_scratch2) _ _ _ _ _ _ _ _ _ _ (grid0.coords t) Set.univ _)
  iframe
  iintro ⟨W0, W1, W2, W3, W4, W5, W6, S0, S1, S2⟩
  iframe

theorem body_obligation0 (c : Dev nD) :
    Pipeline.BodyObligation (dat0 (F := F) V c) (defs₀ (F := F)) Variants.none () Set.univ (fun _ => true) := fun t => by
  rw [bigSep_W0]
  exact sound_body0 V c t

def inv1 (c : Dev nD) (t : Fin cfg1.N) : sProp 𝕄 :=
  iprop(Pipeline.ΦA spec1 c ∗ (dat1 (F := F) V c).owesAt () t.castSucc ∗ Own c (st1_0 t) ∗ Own c (st1_1 t) ∗ Own c (st1_2 t) ∗ Own c (st1_3 t) ∗ Own c (st1_4 t) ∗ Own c (st1_5 t))

theorem sound_body1 (c : Dev nD) (t : Fin cfg1.N) :
    inv1 V c t ⊢ wp frame (wpE (defs₀ (F := F)) Variants.none c none) Set.univ (bodyAt1 t) (fun _ => inv1 V c t) := by
  unfold inv1 Pipeline.ΦA bodyAt1
  rw [scopedRest1_split, owns_whole_some c cc1_scratch0, owns_whole_some c cc1_scratch1, owns_whole_some c cc1_scratch2]
  iintro ⟨⟨⟨⟨S0, S1, S2⟩, Hrest⟩, Hg⟩, Ho, W0, W1, W2, W3, W4, W5⟩
  iapply (kernelRun1 c (st1_0 t) (st1_1 t) (st1_2 t) (st1_3 t) (st1_4 t) (st1_5 t) (Memref.whole cc1_scratch0) (Memref.whole cc1_scratch1) (Memref.whole cc1_scratch2) _ _ _ _ _ _ _ _ _ (grid1.coords t) Set.univ _)
  iframe
  iintro ⟨W0, W1, W2, W3, W4, W5, S0, S1, S2⟩
  iframe

theorem body_obligation1 (c : Dev nD) :
    Pipeline.BodyObligation (dat1 (F := F) V c) (defs₀ (F := F)) Variants.none () Set.univ (fun _ => true) := fun t => by
  rw [bigSep_W1]
  exact sound_body1 V c t

def inv2 (c : Dev nD) (t : Fin cfg2.N) : sProp 𝕄 :=
  iprop(Pipeline.ΦA spec2 c ∗ (dat2 (F := F) V c).owesAt () t.castSucc ∗ Own c (st2_0 t) ∗ Own c (st2_1 t) ∗ Own c (st2_2 t) ∗ Own c (st2_3 t) ∗ Own c (st2_4 t) ∗ Own c (st2_5 t))

theorem sound_body2 (c : Dev nD) (t : Fin cfg2.N) :
    inv2 V c t ⊢ wp frame (wpE (defs₀ (F := F)) Variants.none c none) Set.univ (bodyAt2 t) (fun _ => inv2 V c t) := by
  unfold inv2 Pipeline.ΦA bodyAt2
  rw [scopedRest2_split, owns_whole_some c cc2_scratch0, owns_whole_some c cc2_scratch1, owns_whole_some c cc2_scratch2]
  iintro ⟨⟨⟨⟨S0, S1, S2⟩, Hrest⟩, Hg⟩, Ho, W0, W1, W2, W3, W4, W5⟩
  iapply (kernelRun2 c (st2_0 t) (st2_1 t) (st2_2 t) (st2_3 t) (st2_4 t) (st2_5 t) (Memref.whole cc2_scratch0) (Memref.whole cc2_scratch1) (Memref.whole cc2_scratch2) _ _ _ _ _ _ _ _ _ (grid2.coords t) Set.univ _)
  iframe
  iintro ⟨W0, W1, W2, W3, W4, W5, S0, S1, S2⟩
  iframe

theorem body_obligation2 (c : Dev nD) :
    Pipeline.BodyObligation (dat2 (F := F) V c) (defs₀ (F := F)) Variants.none () Set.univ (fun _ => true) := fun t => by
  rw [bigSep_W2]
  exact sound_body2 V c t

end Cert.Kernel.Hand

end
-- ==== Proof.KernelFrame.lean ====
import proofs.«413414_j14594298871876_1_alg».proof.Proof.Gen.Kernel.Regions
import proofs.«413414_j14594298871876_1_alg».proof.Proof.KernelBody
import Idealize.ShloMosaic.Lib.Pipeline.Frame
import Idealize.ShloMosaic.Lib.Pipeline.FrameSuffix
import Idealize.ShloMosaic.Lib.Pipeline.Regions
import Idealize.ShloMosaic.Lib.Pipeline.Kit
import Idealize.ShloMosaic.Lib.Tactic

set_option maxRecDepth 1704

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)
open Cert.Kernel Cert.Kernel.Gen

variable {F : FTy → Type} [FloatOps F]

local notation "𝕄" => MT nD τ sig Unit (Elt F) ℕ (UR sig nD τ) ℕ

abbrev DlA : List (Ref sig .tc) := [main_v27_0, main_v27_1, main_v27_2, main_v27_3, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v60, main_v199, main_v200]
abbrev DlB : List (Ref sig .tc) := [main_v94_0, main_v94_1, main_v94_2, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v127, main_v195, main_v196, main_v197, main_v198] ++ DlA
abbrev DlC : List (Ref sig .tc) := [main_v161_0, main_v161_1, main_v161_2, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v194] ++ DlB

section Taint

variable (Dl : List (Ref sig .tc))

def AgreeOff (V V' : Valuation τ sig (Elt F)) : Prop :=
  ∀ r : Ref sig .tc, r ∉ Dl → V (Proc.devRef .tc r) = V' (Proc.devRef .tc r)

theorem AgreeOff.refl (V : Valuation τ sig (Elt F)) : AgreeOff Dl V V := fun _ _ => rfl

def OpOK (op : HloOp τ sig (Elt F)) : Prop :=
  (∀ r : Ref sig .tc, Proc.devRef .tc r ∈ op.bufs → r ∉ Dl) ∨ (∀ r : Ref sig .tc, Proc.devRef .tc r ∈ op.writes → r ∈ Dl)

theorem result_agree {op : HloOp τ sig (Elt F)} (hsub : op.bufs ⊆ StableHlo.tcRefs τ sig) (hok : OpOK Dl op)
    {V V' : Valuation τ sig (Elt F)} (hV : AgreeOff Dl V V') : AgreeOff Dl (op.result V) (op.result V') := by
  intro r hr
  rcases hok with h | h
  · by_cases hw : Proc.devRef .tc r ∈ op.writes
    · refine op.result_congr (fun b hb => ?_) _ (op.writes_sub hw)
      obtain ⟨r', -, rfl⟩ := Finset.mem_map.mp (hsub hb)
      exact hV r' (h r' hb)
    · rw [op.result_of_not_mem V hw, op.result_of_not_mem V' hw]; exact hV r hr
  · have hw : Proc.devRef .tc r ∉ op.writes := fun hw => hr (h r hw)
    rw [op.result_of_not_mem V hw, op.result_of_not_mem V' hw]; exact hV r hr

theorem after_agree : ∀ (ops : List (HloOp τ sig (Elt F))), (∀ op ∈ ops, op.bufs ⊆ StableHlo.tcRefs τ sig) → (∀ op ∈ ops, OpOK Dl op) →
    ∀ (V V' : Valuation τ sig (Elt F)), AgreeOff Dl V V' → AgreeOff Dl (StableHlo.after ops V) (StableHlo.after ops V')
  | [], _, _, _, _, h => h
  | op :: ops, hs, ho, V, V', h => by
    rw [StableHlo.after_cons, StableHlo.after_cons]
    exact after_agree ops (fun o h' => hs o (List.mem_cons_of_mem _ h')) (fun o h' => ho o (List.mem_cons_of_mem _ h')) _ _
      (result_agree Dl (hs op List.mem_cons_self) (ho op List.mem_cons_self) h)

theorem nullary_ok (y : Ref sig .tc) (v hy) : OpOK Dl (StableHlo.nullary (τ := τ) (Val := Elt F) y v hy) := by
  by_cases hy' : y ∈ Dl
  · right; intro r hr; rw [StableHlo.nullary_writes] at hr
    exact (Proc.devRef_injective _ (Finset.mem_singleton.mp hr)) ▸ hy'
  · left; intro r hr; rw [StableHlo.nullary_bufs] at hr
    exact (Proc.devRef_injective _ (Finset.mem_singleton.mp hr)) ▸ hy'

theorem unary_ok (x y : Ref sig .tc) (f hx hy) (h : x ∉ Dl ∨ y ∈ Dl) : OpOK Dl (StableHlo.unary (τ := τ) (Val := Elt F) x y f hx hy) := by
  by_cases hy' : y ∈ Dl
  · right; intro r hr; rw [StableHlo.unary_writes] at hr
    exact (Proc.devRef_injective _ (Finset.mem_singleton.mp hr)) ▸ hy'
  · left; intro r hr; rw [StableHlo.unary_bufs] at hr
    rcases Finset.mem_insert.mp hr with e | e
    · exact (Proc.devRef_injective _ e) ▸ h.resolve_right hy'
    · exact (Proc.devRef_injective _ (Finset.mem_singleton.mp e)) ▸ hy'

theorem reshape_ok (x y : Ref sig .tc) (he hn hx hy) (h : x ∉ Dl ∨ y ∈ Dl) : OpOK Dl (StableHlo.reshape (τ := τ) (Val := Elt F) x y he hn hx hy) := by
  by_cases hy' : y ∈ Dl
  · right; intro r hr; rw [StableHlo.reshape_writes] at hr
    exact (Proc.devRef_injective _ (Finset.mem_singleton.mp hr)) ▸ hy'
  · left; intro r hr; rw [StableHlo.reshape_bufs] at hr
    rcases Finset.mem_insert.mp hr with e | e
    · exact (Proc.devRef_injective _ e) ▸ h.resolve_right hy'
    · exact (Proc.devRef_injective _ (Finset.mem_singleton.mp e)) ▸ hy'

theorem binary_ok (a b y : Ref sig .tc) (f ha hb hy) (h : (a ∉ Dl ∧ b ∉ Dl) ∨ y ∈ Dl) : OpOK Dl (StableHlo.binary (τ := τ) (Val := Elt F) a b y f ha hb hy) := by
  by_cases hy' : y ∈ Dl
  · right; intro r hr; rw [StableHlo.binary_writes] at hr
    exact (Proc.devRef_injective _ (Finset.mem_singleton.mp hr)) ▸ hy'
  · left; intro r hr; rw [StableHlo.binary_bufs] at hr
    rcases Finset.mem_insert.mp hr with e | e
    · exact (Proc.devRef_injective _ e) ▸ (h.resolve_right hy').1
    rcases Finset.mem_insert.mp e with e | e
    · exact (Proc.devRef_injective _ e) ▸ (h.resolve_right hy').2
    · exact (Proc.devRef_injective _ (Finset.mem_singleton.mp e)) ▸ hy'

theorem ternary_ok (c a b y : Ref sig .tc) (f hc ha hb hy) (h : (c ∉ Dl ∧ a ∉ Dl ∧ b ∉ Dl) ∨ y ∈ Dl) : OpOK Dl (StableHlo.ternary (τ := τ) (Val := Elt F) c a b y f hc ha hb hy) := by
  by_cases hy' : y ∈ Dl
  · right; intro r hr; rw [StableHlo.ternary_writes] at hr
    exact (Proc.devRef_injective _ (Finset.mem_singleton.mp hr)) ▸ hy'
  · left; intro r hr; rw [StableHlo.ternary_bufs] at hr
    rcases Finset.mem_insert.mp hr with e | e
    · exact (Proc.devRef_injective _ e) ▸ (h.resolve_right hy').1
    rcases Finset.mem_insert.mp e with e | e
    · exact (Proc.devRef_injective _ e) ▸ (h.resolve_right hy').2.1
    rcases Finset.mem_insert.mp e with e | e
    · exact (Proc.devRef_injective _ e) ▸ (h.resolve_right hy').2.2
    · exact (Proc.devRef_injective _ (Finset.mem_singleton.mp e)) ▸ hy'

end Taint

theorem ok_nil (ops : List (HloOp τ sig (Elt F))) : ops.Forall (OpOK ([] : List (Ref sig .tc))) :=
  List.forall_iff_forall_mem.mpr fun _ _ => Or.inl fun _ _ => List.not_mem_nil

theorem ok : ([hostOps1, hostOps1_1, hostOps1_2, hostOps1_3, hostOps1_4] : List (List (HloOp τ sig (Elt F)))).Forall (List.Forall (OpOK DlA))
    ∧ ([hostOps2, hostOps2_1, hostOps2_2, hostOps2_3, hostOps2_4] : List (List (HloOp τ sig (Elt F)))).Forall (List.Forall (OpOK DlB))
    ∧ (hostOps3 : List (HloOp τ sig (Elt F))).Forall (OpOK DlC) := by
  repeat' apply And.intro
  all_goals change OpOK _ _
  all_goals with_reducible first | exact nullary_ok _ _ _ _ | refine unary_ok _ _ _ _ _ _ ?_ | refine reshape_ok _ _ _ _ _ _ _ ?_ | refine binary_ok _ _ _ _ _ _ _ _ ?_ | refine ternary_ok _ _ _ _ _ _ _ _ _ _ ?_
  all_goals decide

variable (m : (ℓ : Loc nD τ sig) → Buf (Elt F) ℓ)

abbrev outs₀ : Outs (F := F) := fun _ r c => m ((c : Thread nD τ).loc r)

abbrev Vent (Vr : Dev nD → Valuation τ sig (Elt F)) : (c : Dev nD) → (b : Ref sig .tc) → Buf (Elt F) ((c : Thread nD τ).loc b) := fun c b => Vr c b

def rdats : (p : Fin 3) → (c : Dev nD) → RDat τ (Elt F) Unit ℕ (UR sig nD τ) ℕ (Pipeline.pin (pcfgs (F := F)) adm p) c
  | ⟨0, _⟩ => fun c => (dat0 (Vent (V5 m)) c).toRForget (fun _ => true)
  | ⟨1, _⟩ => fun c => (dat1 (Vent (V11 m (outs₀ m))) c).toRForget (fun _ => true)
  | ⟨2, _⟩ => fun c => (dat2 (Vent (V17 m (outs₀ m))) c).toRForget (fun _ => true)

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

def TX (Dl : List (Ref sig .tc)) (Vr : Dev nD → Valuation τ sig (Elt F)) (c : Dev nD) : sProp 𝕄 :=
  iprop(∃ V : Valuation τ sig (Elt F), ⌜AgreeOff Dl V (Vr c)⌝ ∗ StableHlo.held (c : Thread nD τ) (Pipeline.ucRefs τ sig) V ∗ R c)

set_option backward.isDefEq.respectTransparency.types false in
def xseg (Dl : List (Ref sig .tc)) (ops : List (HloOp τ sig (Elt F))) (hsub : ops.Forall fun op => op.bufs ⊆ StableHlo.tcRefs τ sig)
    (hfresh : ops.Forall fun op => op.fresh = ∅) (hok : ops.Forall (OpOK Dl)) (Vr : Dev nD → Valuation τ sig (Elt F)) :
    HostSeg (Name := ℕ) (U := UR sig nD τ) (pcfgs (F := F)) defs₀ 𝒱₀ L lv where
  prog := StableHlo.seq ops
  pre := TX Dl Vr
  post := TX Dl fun c => StableHlo.after ops (Vr c)
  run c {β} k K := by
    unfold TX
    iintro ⟨Hk, Hbd, ⟨%V, %hV, Hh, HR⟩, Hla⟩
    have hrun := (HostSeg.ofOps (pcfgs (F := F)) defs₀ 𝒱₀ L lv (Pipeline.ucRefs τ sig) ops
      (fun op h => Pipeline.sub_ucRefs op ((List.forall_iff_forall_mem.mp hsub) op h))
      (List.forall_iff_forall_mem.mp hfresh) (fun _ => V) R).run c k K
    dsimp only [HostSeg.ofOps] at hrun
    iapply hrun
    isplitl [Hk]
    · iintro ⟨Hbd, Hh, HR⟩
      iapply Hk
      isplitl [Hbd]; · iexact Hbd
      iexists (StableHlo.after ops V)
      isplitr
      · ipureintro
        exact after_agree Dl ops (List.forall_iff_forall_mem.mp hsub) (List.forall_iff_forall_mem.mp hok) _ _ hV
      isplitl [Hh] <;> iassumption
    iframe

theorem arraysAt_open {cfg : Pipeline.Cfg sig Λ₀} {c : Dev nD} (rd : RDat τ (Elt F) Unit ℕ (UR sig nD τ) ℕ cfg c) (n : ℕ) :
    (rd.arraysAt n : sProp 𝕄) ⊢ iprop(∃ A : (w : Fin cfg.W) → Buf (Elt F) ((cfg.win w).arr.view.loc (c.tc : Thread nD τ)),
      ⌜∀ w, rd.ArrAt w n (A w)⌝ ∗ rd.arrays A) := by
  unfold RDat.arraysAt RDat.arrays
  iintro Ha
  ihave Ha' := (BI.bigSep_exists_pi Finset.univ (fun w G => iprop(⌜rd.ArrAt w n G⌝
      ∗ (cfg.win w).arr.view.loc (c.tc : Thread nD τ) ↦[(cfg.win w).arr.view.set]{rd.share w} G))) $$ Ha
  icases Ha' with ⟨%A, Ha⟩
  ihave Ha2 := (BI.bigSep_pure_sep Finset.univ (fun w => rd.ArrAt w n (A w))
      (fun w => (cfg.win w).arr.view.loc (c.tc : Thread nD τ) ↦[(cfg.win w).arr.view.set]{rd.share w} A w)) $$ Ha
  icases Ha2 with ⟨%hA', Ha⟩
  iexists A; isplitr; · ipureintro; exact fun w => hA' w (Finset.mem_univ w)
  iexact Ha

theorem bufs_of_arrays {p : Fin 3} (hw : Pipeline.WinFacts (cfgs p).spec)
    (harr : ∀ w, ((cfgs p).spec w).arr.IsWhole) (c : Dev nD)
    (hshare : ∀ w, (rdats m p c).share w = fullShare)
    (V V' : (b : Ref sig .tc) → Buf (Elt F) ((c.tc : Thread nD τ).loc b))
    (A : (w : Fin (cfgs p).W) → Buf (Elt F) (((cfgs p).spec w).arr.view.loc (c.tc : Thread nD τ)))
    (hF : ∀ w, A w = V' (Pipeline.arrRef (cfgs p).spec w))
    (hrest : ∀ b, b ∉ Finset.univ.image (Pipeline.arrRef (cfgs p).spec) → V' b = V b) :
    iprop((rdats m p c).arrays A ∗ Pipeline.unscopedRest (Ix := Unit) (Name := ℕ) (U := UR sig nD τ) (Lvl := ℕ) (cfgs p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

set_option backward.isDefEq.respectTransparency.types false in
/-- Agreement off `Dl` before a region gives agreement off `Dl'` after it, when `Dl'` holds `Dl` and every array the region can change. -/
def reg {p : Fin 3} (Dl Dl' O : List (Ref sig .tc)) (Vi Vo : Dev nD → Valuation τ sig (Elt F))
    (lf : Pipeline.LaunchFacts (nD := nD) (τ := τ) cfgs p)
    (hbody : ∀ c, (rdats m p c).BodyObligation (defs₀ (F := F)) 𝒱₀ () Set.univ)
    (hΦ : ∀ c t, (rdats m p c).Φ t = Pipeline.ΦA (cfgs p).spec c)
    (hsh : ∀ c w, (rdats m p c).share w = fullShare)
    (how : ∀ c t, (rdats m p c).owed t = 0)
    (hrec : ∀ c t, (rdats m p c).recorded t = Set.univ)
    (hA : ∀ c w, (rdats m p c).A w = Vi c (Proc.devRef .tc (Pipeline.arrRef (cfgs p).spec w)))
    (hnot : ∀ w, Pipeline.arrRef (cfgs p).spec w ∉ Dl)
    (hin : ∀ w, Pipeline.arrRef (cfgs p).spec w ∉ Dl' → ((cfgs p).win w).isOut = false)
    (hsub : ∀ r ∈ Dl, r ∈ Dl') (hO : ∀ r ∈ O, r ∈ Dl')
    (hVo : ∀ c (r : Ref sig .tc), r ∉ O → Vo c (Proc.devRef .tc r) = Vi c (Proc.devRef .tc r)) :
    Pipeline.RDat.RegionSeg (pcfgs (F := F)) adm (rdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.RDat.hwaits_of_owed_zero _ _ _ _ L lv p how
  pre := TX Dl Vi
  post := TX Dl' Vo
  X c := iprop(∃ r, prngReg c r)
  Y c := iprop(∃ r, prngReg c r)
  Z c := iprop(∃ V : Valuation τ sig (Elt F), ⌜AgreeOff Dl V (Vi c)⌝
    ∗ Pipeline.unscopedRest (Ix := Unit) (Name := ℕ) (U := UR sig nD τ) (Lvl := ℕ) (cfgs p).spec c (fun b => V b))
  hentry c := by
    rw [Pipeline.ownSems0_none]
    unfold TX
    iintro ⟨⟨%V, %hV, Hub, Hp, HO⟩, -, -⟩
    have hsplit := Pipeline.RDat.arrays_of_unscopedBufs (p := p) (pcfgs (F := F)) adm (rdats m) lf.win lf.arr_whole c
      (hsh c) (fun b => V b) fun w => (hA c w).trans (hV _ (hnot w)).symm
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [how c 0]
      icases HO with ⟨%W, HO⟩; iexists W; isplitr; · ipureintro; exact fun _ _ => Or.inl (by rw [hrec c 0]; trivial)
      iexact HO
    isplitl [Hp]; · iexact Hp
    iexists V; isplitr; · ipureintro; exact hV
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    iintro ⟨Ha, HO, HY, HZ⟩
    icases HZ with ⟨%V, %hV, Hrest⟩
    ihave Ha' := (arraysAt_open (rdats m p c) _) $$ Ha
    icases Ha' with ⟨%A, %hAt, Ha⟩
    have hjoin := bufs_of_arrays m (p := p) lf.win lf.arr_whole c (hsh c)
      (fun b => V b) (fun b => Pipeline.withArrays (cfgs p).spec c V A b) A
      (fun w => (Pipeline.withArrays_arr (cfgs p).spec lf.win.arr_inj c V A w).symm)
      (fun b hb => Pipeline.withArrays_of_ne (cfgs p).spec c V A b fun w e => hb (Finset.mem_image.mpr ⟨w, Finset.mem_univ _, e⟩))
    rw [Pipeline.unscopedBufs_held] at hjoin
    imodintro
    unfold TX
    iexists (Pipeline.withArrays (cfgs p).spec c V A)
    isplitr
    · ipureintro
      intro r hr
      refine Eq.trans ?_ (hVo c r fun h => hr (hO r h)).symm
      by_cases h : ∃ w, Pipeline.arrRef (cfgs p).spec w = r
      · obtain ⟨w, rfl⟩ := h
        rw [Pipeline.withArrays_arr (cfgs p).spec lf.win.arr_inj c V A w]
        have h' := hAt w
        rw [(rdats m p c).ArrAt_in w (hin w hr)] at h'
        exact h'.trans (hA c w)
      · rw [Pipeline.withArrays_of_ne (cfgs p).spec c V A r fun w e => h ⟨w, e⟩]
        exact hV r fun h' => hr (hsub r h')
    isplitl [Ha Hrest]
    · iapply hjoin; isplitl [Ha] <;> iassumption
    isplitl [HY]; · iexact HY
    unfold Pipeline.RDat.owesAt Pipeline.owesWithin
    rw [how c (Fin.last _)]
    icases HO with ⟨%W, -, HO⟩; iexists W; iexact HO

abbrev segs : List (Pipeline.RDat.Seg (pcfgs (F := F)) adm (rdats m) () defs₀ 𝒱₀ L lv) :=
  [ .host (xseg [] hostOps0 hostOps0_sub hostOps0_fresh (ok_nil _) (V0 m)),
    .host (xseg [] hostOps0_1 hostOps0_1_sub hostOps0_1_fresh (ok_nil _) (V1 m)),
    .host (xseg [] hostOps0_2 hostOps0_2_sub hostOps0_2_fresh (ok_nil _) (V2 m)),
    .host (xseg [] hostOps0_3 hostOps0_3_sub hostOps0_3_fresh (ok_nil _) (V3 m)),
    .host (xseg [] hostOps0_4 hostOps0_4_sub hostOps0_4_fresh (ok_nil _) (V4 m)),
    .region (reg m [] DlA [main_v27_0, main_v27_1, main_v27_2, main_v27_3] (V5 m) (V6 m (outs₀ m)) launch0 (fun c => (body_obligation0 (Vent (V5 m)) c).toRForget) (fun _ _ => rfl) (fun c => (rdats m 0 c).share_full fun _ => rfl) (fun _ _ => rfl) (fun _ _ => rfl) (fun _ _ => rfl) (fun _ => List.not_mem_nil) (by decide) (fun _ h => nomatch h) (by decide) (V6_of m (outs₀ m))),
    .host (xseg DlA hostOps1 hostOps1_sub hostOps1_fresh ok.1.1 (V6 m (outs₀ m))),
    .host (xseg DlA hostOps1_1 hostOps1_1_sub hostOps1_1_fresh ok.1.2.1 (V7 m (outs₀ m))),
    .host (xseg DlA hostOps1_2 hostOps1_2_sub hostOps1_2_fresh ok.1.2.2.1 (V8 m (outs₀ m))),
    .host (xseg DlA hostOps1_3 hostOps1_3_sub hostOps1_3_fresh ok.1.2.2.2.1 (V9 m (outs₀ m))),
    .host (xseg DlA hostOps1_4 hostOps1_4_sub hostOps1_4_fresh ok.1.2.2.2.2 (V10 m (outs₀ m))),
    .region (reg m DlA DlB [main_v94_0, main_v94_1, main_v94_2] (V11 m (outs₀ m)) (V12 m (outs₀ m)) launch1 (fun c => (body_obligation1 (Vent (V11 m (outs₀ m))) c).toRForget) (fun _ _ => rfl) (fun c => (rdats m 1 c).share_full fun _ => rfl) (fun _ _ => rfl) (fun _ _ => rfl) (fun _ _ => rfl) (by decide) (by decide) (fun _ => List.mem_append_right _) (by decide) (V12_of m (outs₀ m))),
    .host (xseg DlB hostOps2 hostOps2_sub hostOps2_fresh ok.2.1.1 (V12 m (outs₀ m))),
    .host (xseg DlB hostOps2_1 hostOps2_1_sub hostOps2_1_fresh ok.2.1.2.1 (V13 m (outs₀ m))),
    .host (xseg DlB hostOps2_2 hostOps2_2_sub hostOps2_2_fresh ok.2.1.2.2.1 (V14 m (outs₀ m))),
    .host (xseg DlB hostOps2_3 hostOps2_3_sub hostOps2_3_fresh ok.2.1.2.2.2.1 (V15 m (outs₀ m))),
    .host (xseg DlB hostOps2_4 hostOps2_4_sub hostOps2_4_fresh ok.2.1.2.2.2.2 (V16 m (outs₀ m))),
    .region (reg m DlB DlC [main_v161_0, main_v161_1, main_v161_2] (V17 m (outs₀ m)) (V18 m (outs₀ m)) launch2 (fun c => (body_obligation2 (Vent (V17 m (outs₀ m))) c).toRForget) (fun _ _ => rfl) (fun c => (rdats m 2 c).share_full fun _ => rfl) (fun _ _ => rfl) (fun _ _ => rfl) (fun _ _ => rfl) (by decide) (by decide) (fun _ => List.mem_append_right _) (by decide) (V18_of m (outs₀ m))),
    .host (xseg DlC hostOps3 hostOps3_sub hostOps3_fresh ok.2.2 (V18 m (outs₀ m))) ]

def Tₙ (c : Dev nD) : sProp 𝕄 :=
  iprop(∃ V : Valuation τ sig (Elt F), ⌜AgreeOff DlC V (V19 m (outs₀ m) c)⌝
    ∗ StableHlo.held (c : Thread nD τ) (Pipeline.ucRefs τ sig) V ∗ ∃ r, prngReg c r)

theorem last_chain (c : Dev nD) : TX DlC (V19 m (outs₀ m)) c
    ⊢ (iprop(Tₙ m c ∗ ∃ W, owes (c : Thread nD τ) (0 : CellTallies nD τ sig Unit) W) : sProp 𝕄) := by
  unfold TX Tₙ
  iintro ⟨%V, %hV, Hh, Hp, HO⟩
  isplitl [Hh Hp]
  · iexists V; isplitr; · ipureintro; exact hV
    isplitl [Hh] <;> iassumption
  iexact HO

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := TX [] (V0 m)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, last_chain m⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      unfold TX
      iintro ⟨⟨Hh, -, HO, -, Hp, -⟩, -⟩
      imodintro
      iexists (V0 m c); isplitr; · ipureintro; exact AgreeOff.refl _ _
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  unfold Tₙ StableHlo.held
  iintro ⟨⟨%V, %hV, Hh, -⟩, HSI⟩
  ihave Hr := (pointsTo_read_all (Pipeline.ucRefs τ sig) (fun b => ((c : Thread nD τ).1, b)) V s') $$ [Hh HSI]
  · isplitl [Hh] <;> iassumption
  icases Hr with ⟨%h, HSI⟩
  imodintro
  isplitr
  · ipureintro
    have key := fun (r : Ref sig .tc) h1 (h2 : r ∉ DlC) => (h (Proc.devRef .tc r) (Finset.mem_filter.mpr ⟨StableHlo.devRef_mem_tcRefs r, h1⟩)).trans (hV r h2)
    exact ⟨(key main_arg0 (by decide) (by decide)).trans (V19_main_arg0 m (outs₀ m) c),
      (key main_arg1 (by decide) (by decide)).trans (V19_main_arg1 m (outs₀ m) c),
      (key main_arg2 (by decide) (by decide)).trans (V19_main_arg2 m (outs₀ m) c),
      (key main_arg3 (by decide) (by decide)).trans (V19_main_arg3 m (outs₀ m) c),
      (key main_arg4 (by decide) (by decide)).trans (V19_main_arg4 m (outs₀ m) c),
      (key main_arg5 (by decide) (by decide)).trans (V19_main_arg5 m (outs₀ m) c),
      (key main_arg6 (by decide) (by decide)).trans (V19_main_arg6 m (outs₀ m) c)⟩
  · iexact HSI

end Cert.Kernel.Hand

end
-- ==== Proof.IdealLaunch.lean ====
import proofs.«413414_j14594298871876_1_alg».proof.Proof.Gen.KernelIdeal.Regions

set_option maxRecDepth 1704

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

variable (m : (ℓ : Loc nD τ sig) → Buf (Elt F) ℓ)

/-- The post: the two results at the last valuation, every argument unchanged. -/
abbrev Post (outs : Outs (F := F)) (c : Dev nD) (s : MemSt nD τ sig (Elt F)) : Prop :=
  s.mem ((c.tc : Thread nD τ).loc main_v200) = V19 m outs c main_v200
      ∧ s.mem ((c.tc : Thread nD τ).loc main_v199) = V19 m outs c main_v199
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V17 m outs c) ∗ E 2 c) ⊢ R2.pre c)
    (hpost2 : ∀ c : Dev nD, R2.post c ⊢ iprop(StableHlo.held (c : Thread nD τ) (Pipeline.ucRefs τ sig) (V18 m outs c) ∗ E 3 c)) :
    θ_run defs (onTc (τ := τ) (main (F := F))) ⟨m, fun _ => 0, ρ⟩ (fun r => ∀ c : Dev nD, Post m outs c r.2) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨.rfl, .rfl, .rfl, .rfl, .rfl, hpre0 c, hpost0 c, .rfl, .rfl, .rfl, .rfl, hpre1 c, hpost1 c, .rfl, .rfl, .rfl, .rfl, hpre2 c, hpost2 c, sep_mono .rfl (hE3 c)⟩)
    (hinit := ?_) (QY := Post m outs)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      have g := fun (b : Ref sig .tc) hb => h (Proc.devRef .tc b) (Finset.mem_filter.mpr ⟨StableHlo.devRef_mem_tcRefs b, hb⟩)
      exact ⟨g main_v200 (by decide), g main_v199 (by decide),
        (g main_arg0 (by decide)).trans (V19_main_arg0 m outs c),
        (g main_arg1 (by decide)).trans (V19_main_arg1 m outs c),
        (g main_arg2 (by decide)).trans (V19_main_arg2 m outs c),
        (g main_arg3 (by decide)).trans (V19_main_arg3 m outs c),
        (g main_arg4 (by decide)).trans (V19_main_arg4 m outs c),
        (g main_arg5 (by decide)).trans (V19_main_arg5 m outs c),
        (g main_arg6 (by decide)).trans (V19_main_arg6 m outs c)⟩
    · iexact HSI

end Cert.KernelIdeal.Hand

end
-- ==== Proof.IdealData0.lean ====
import proofs.«413414_j14594298871876_1_alg».proof.Proof.Gen.KernelIdeal.Skeleton
import proofs.«413414_j14594298871876_1_alg».proof.Proof.Gen.KernelIdeal.Launch
import proofs.«413414_j14594298871876_1_alg».proof.Proof.Gen.KernelIdeal.Points
import Idealize.ShloMosaic.Lib.Pipeline.Frame
import Idealize.ShloMosaic.Lib.Pipeline.FrameBody
import Idealize.ShloMosaic.Lib.Pipeline.Kit
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

variable (V : (c : Dev nD) → (b : Ref sig .tc) → Buf (Elt Ideal) ((c : Thread nD τ).loc b))

def iblk0 (c : Dev nD) (w : Fin cfg0.W) (t : Fin cfg0.N) :
    ((cfg0.win w).xblock (cfg0.grid.coords t)).Idx → Elt Ideal (cfg0.win w).elt :=
  ((cfg0.win w).blk t).view.read (Elt Ideal) (V c (Pipeline.arrRef spec0 w))

def xin (c : Dev nD) (t : Fin cfg0.N) : Vec Ideal S2048x1024 .bf16 := iblk0 V c 0 t

def tgin (c : Dev nD) (t : Fin cfg0.N) : Vec Ideal S2048x1 .i32 := iblk0 V c 2 t

def wtile (c : Dev nD) (t : Fin cfg0.N) (d : Vec Ideal S1024x1024 .f32) : Vec Ideal S1024x1024 .f32 :=
  (cfg0.win 1).fill (grid0.coords t) d (iblk0 V c 1 t)

def wtile0 (c : Dev nD) (t : Fin cfg0.N) : Vec Ideal S1024x1024 .f32 := wtile V c t (fun _ => (0 : EReal))

structure TileFacts (c : Dev nD) : Prop where
  pay12 : ∀ (t : Fin cfg0.N) (d d' : Vec Ideal S1024x1024 .f32),
    k0_pay12 (F := Ideal) (grid0.coords t) (xin V c t) (wtile V c t d) = k0_pay12 (F := Ideal) (grid0.coords t) (xin V c t) (wtile V c t d')
  pay3 : ∀ (t : Fin cfg0.N) (d d' : Vec Ideal S1024x1024 .f32) (tp : Vec Ideal S2048x1 .f32),
    k0_pay3 (F := Ideal) (k0_pay10 (F := Ideal) (xin V c t) (wtile V c t d)) (k0_pay11 (grid0.coords t)) (tgin V c t) tp
      = k0_pay3 (F := Ideal) (k0_pay10 (F := Ideal) (xin V c t) (wtile V c t d')) (k0_pay11 (grid0.coords t)) (tgin V c t) tp

abbrev Run3 : Type := Vec Ideal S2048x1 .f32 × Vec Ideal S2048x1 .f32 × Vec Ideal S2048x1 .f32

def reset0 : Run3 := (k0_pay7 (F := Ideal), k0_pay8 (F := Ideal), k0_pay9 (F := Ideal))

def step0 (c : Dev nD) (t : Fin cfg0.N) (s : Run3) : Run3 :=
  (k0_pay2 (F := Ideal) (k0_pay13 (F := Ideal) (grid0.coords t) (xin V c t) (wtile0 V c t) s.1),
   k0_pay1 (F := Ideal) (k0_pay14 (F := Ideal) (grid0.coords t) (xin V c t) (wtile0 V c t) s.1 s.1 s.2.1),
   k0_pay3 (F := Ideal) (k0_pay10 (F := Ideal) (xin V c t) (wtile0 V c t)) (k0_pay11 (grid0.coords t)) (tgin V c t) s.2.2)

def scrAt (c : Dev nD) : (n : ℕ) → n < cfg0.N → Run3
  | 0, hn => step0 V c ⟨0, hn⟩ reset0
  | n + 1, hn =>
    if (n + 1) % 25 = 0 then step0 V c ⟨n + 1, hn⟩ reset0
    else step0 V c ⟨n + 1, hn⟩ (scrAt c n (Nat.lt_of_succ_lt hn))

theorem scrAt_first (c : Dev nD) (t : Fin cfg0.N) (h : t.val % 25 = 0) :
    scrAt V c t.val t.isLt = step0 V c t reset0 := by
  obtain ⟨n, hn⟩ := t
  cases n with
  | zero => rfl
  | succ n => exact (if_pos h).trans rfl

theorem scrAt_next (c : Dev nD) (t : Fin cfg0.N) (h : ¬t.val % 25 = 0) :
    scrAt V c t.val t.isLt = step0 V c t (scrAt V c (t.val - 1) (Nat.lt_of_le_of_lt (Nat.sub_le _ _) t.isLt)) := by
  obtain ⟨n, hn⟩ := t
  cases n with
  | zero => exact absurd (Nat.zero_mod _) h
  | succ n => exact (if_neg h).trans rfl

abbrev scM0 : Memref sig .tc .vmem S2048x1 .f32 := Memref.whole cc0_scratch0
abbrev scM1 : Memref sig .tc .vmem S2048x1 .f32 := Memref.whole cc0_scratch1
abbrev scM2 : Memref sig .tc .vmem S2048x1 .f32 := Memref.whole cc0_scratch2

abbrev restOf (c : Dev nD) : sProp 𝕄 :=
  iprop(Pipeline.scopedRestBut (Ix := Unit) (Name := ℕ) (U := UR sig nD τ) (Lvl := ℕ) (Val := Elt Ideal) spec0 c [cc0_scratch0, cc0_scratch1, cc0_scratch2]
    ∗ (∃ r, prngReg c r))

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d))
          ∗ restOf c) := by
  unfold Pipeline.ΦA restOf; rw [scopedRest0_split]; simp only [scM0, scM1, scM2, owns_whole]
  exact Entails.antisymm Idealize.SL.BI.sep_assoc Idealize.SL.BI.sep_assoc'

def PhiS0 (c : Dev nD) : (n : ℕ) → n ≤ cfg0.N → sProp 𝕄
  | 0, _ => Pipeline.ΦA spec0 c
  | n + 1, hn =>
    iprop(iprop(owns (c : Thread nD τ) scM0 fullShare (scrAt V c n hn).1 ∗ owns (c : Thread nD τ) scM1 fullShare (scrAt V c n hn).2.1
        ∗ owns (c : Thread nD τ) scM2 fullShare (scrAt V c n hn).2.2) ∗ restOf c)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn
      = iprop(iprop(owns (c : Thread nD τ) scM0 fullShare (scrAt V c n hn).1 ∗ owns (c : Thread nD τ) scM1 fullShare (scrAt V c n hn).2.1
          ∗ owns (c : Thread nD τ) scM2 fullShare (scrAt V c n hn).2.2) ∗ restOf c) := rfl

theorem PhiS0_pos (c : Dev nD) (n : ℕ) (h : n ≤ cfg0.N) (hz : n ≠ 0) :
    PhiS0 V c n h
      = iprop(iprop(owns (c : Thread nD τ) scM0 fullShare (scrAt V c (n - 1) (by omega)).1 ∗ owns (c : Thread nD τ) scM1 fullShare (scrAt V c (n - 1) (by omega)).2.1
          ∗ owns (c : Thread nD τ) scM2 fullShare (scrAt V c (n - 1) (by omega)).2.2) ∗ restOf c) := by
  cases n with
  | zero => exact absurd rfl hz
  | succ n => rfl

def dat0 (c : Dev nD) : Dat τ (Elt Ideal) Unit ℕ (UR sig nD τ) ℕ cfg0 c where
  A w := V c (Pipeline.arrRef spec0 w)
  after w t := match w with
    | ⟨0, _⟩ => xin V c t
    | ⟨1, _⟩ => wtile0 V c t
    | ⟨2, _⟩ => tgin V c t
    | ⟨3, _⟩ => k0_pay12 (F := Ideal) (grid0.coords t) (xin V c t) (wtile0 V c t)
    | ⟨4, _⟩ => k0_pay4 (F := Ideal) (scrAt V c t.val t.isLt).1
    | ⟨5, _⟩ => k0_pay5 (F := Ideal) (scrAt V c t.val t.isLt).2.1
    | ⟨6, _⟩ => k0_pay6 (F := Ideal) (scrAt V c t.val t.isLt).2.2
  Φ t := PhiS0 V c t.val (Nat.le_of_lt_succ t.isLt)
  q _ := fullShare
  owed _ := 0

theorem A_eq (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = xin V c t := by dsimp only [dat0]
theorem after0_1 (c : Dev nD) (t : Fin cfg0.N) : (dat0 V c).after 1 t = wtile0 V c t := by dsimp only [dat0]
theorem after0_2 (c : Dev nD) (t : Fin cfg0.N) : (dat0 V c).after 2 t = tgin V c t := by dsimp only [dat0]
theorem after0_3 (c : Dev nD) (t : Fin cfg0.N) :
    (dat0 V c).after 3 t = k0_pay12 (F := Ideal) (grid0.coords t) (xin V c t) (wtile0 V c t) := by dsimp only [dat0]
theorem after0_4 (c : Dev nD) (t : Fin cfg0.N) : (dat0 V c).after 4 t = k0_pay4 (F := Ideal) (scrAt V c t.val t.isLt).1 := by dsimp only [dat0]
theorem after0_5 (c : Dev nD) (t : Fin cfg0.N) : (dat0 V c).after 5 t = k0_pay5 (F := Ideal) (scrAt V c t.val t.isLt).2.1 := by dsimp only [dat0]
theorem after0_6 (c : Dev nD) (t : Fin cfg0.N) : (dat0 V c).after 6 t = k0_pay6 (F := Ideal) (scrAt V c t.val t.isLt).2.2 := by dsimp only [dat0]

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2⟩, Hr⟩
  isplitl [HS0 HS1 HS2]
  · isplitl [HS0]; · iexists _; iexact HS0
    isplitl [HS1]; · iexists _; iexact HS1
    iexists _; iexact HS2
  iexact Hr

theorem hout0 (c : Dev nD) : (dat0 V c).Φ (Fin.last cfg0.N) ⊢ Pipeline.ΦA spec0 c :=
  Phi0_out V c _ (by rw [Fin.val_last]; have : cfg0.N = 50 := N_0; omega)

end Cert.KernelIdeal.Hand

end
-- ==== Proof.IdealData1.lean ====
import proofs.«413414_j14594298871876_1_alg».proof.Proof.Gen.KernelIdeal.Skeleton
import proofs.«413414_j14594298871876_1_alg».proof.Proof.Gen.KernelIdeal.Launch
import proofs.«413414_j14594298871876_1_alg».proof.Proof.Gen.KernelIdeal.Points
import Idealize.ShloMosaic.Lib.Pipeline.Frame
import Idealize.ShloMosaic.Lib.Pipeline.FrameBody
import Idealize.ShloMosaic.Lib.Pipeline.Kit
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

abbrev Run3_1 : Type := Vec Ideal S2048x1 .f32 × Vec Ideal S2048x1 .f32 × Vec Ideal S2048x1 .f32

variable (V : (c : Dev nD) → (b : Ref sig .tc) → Buf (Elt Ideal) ((c : Thread nD τ).loc b))

noncomputable def iblk1 (c : Dev nD) (w : Fin cfg1.W) (t : Fin cfg1.N) :
    ((cfg1.win w).xblock (cfg1.grid.coords t)).Idx → Elt Ideal (cfg1.win w).elt :=
  ((cfg1.win w).blk t).view.read (Elt Ideal) (V c (Pipeline.arrRef spec1 w))

def xin1 (c : Dev nD) (t : Fin cfg1.N) : Vec Ideal S2048x1024 .bf16 := iblk1 V c 0 t

def tgin1 (c : Dev nD) (t : Fin cfg1.N) : Vec Ideal S2048x1 .i32 := iblk1 V c 2 t

def wtile1 (c : Dev nD) (t : Fin cfg1.N) (d : Vec Ideal S1024x1024 .f32) : Vec Ideal S1024x1024 .f32 :=
  (cfg1.win 1).fill (grid1.coords t) d (iblk1 V c 1 t)

def wtileZ1 (c : Dev nD) (t : Fin cfg1.N) : Vec Ideal S1024x1024 .f32 := wtile1 V c t (fun _ => (0 : EReal))

structure TileFacts1 (c : Dev nD) : Prop where
  pay12 : ∀ (t : Fin cfg1.N) (d d' : Vec Ideal S1024x1024 .f32),
    k1_pay12 (F := Ideal) (grid1.coords t) (xin1 V c t) (wtile1 V c t d) = k1_pay12 (F := Ideal) (grid1.coords t) (xin1 V c t) (wtile1 V c t d')
  pay3 : ∀ (t : Fin cfg1.N) (d d' : Vec Ideal S1024x1024 .f32) (tp : Vec Ideal S2048x1 .f32),
    k1_pay3 (F := Ideal) (k1_pay10 (F := Ideal) (xin1 V c t) (wtile1 V c t d)) (k1_pay11 (grid1.coords t)) (tgin1 V c t) tp
      = k1_pay3 (F := Ideal) (k1_pay10 (F := Ideal) (xin1 V c t) (wtile1 V c t d')) (k1_pay11 (grid1.coords t)) (tgin1 V c t) tp

def reset1 : Run3_1 := (k1_pay7 (F := Ideal), k1_pay8 (F := Ideal), k1_pay9 (F := Ideal))

def step1 (c : Dev nD) (t : Fin cfg1.N) (s : Run3_1) : Run3_1 :=
  (k1_pay2 (F := Ideal) (k1_pay13 (F := Ideal) (grid1.coords t) (xin1 V c t) (wtileZ1 V c t) s.1),
   k1_pay1 (F := Ideal) (k1_pay14 (F := Ideal) (grid1.coords t) (xin1 V c t) (wtileZ1 V c t) s.1 s.1 s.2.1),
   k1_pay3 (F := Ideal) (k1_pay10 (F := Ideal) (xin1 V c t) (wtileZ1 V c t)) (k1_pay11 (grid1.coords t)) (tgin1 V c t) s.2.2)

def scrAt1 (c : Dev nD) : (n : ℕ) → n < cfg1.N → Run3_1
  | 0, hn => step1 V c ⟨0, hn⟩ reset1
  | n + 1, hn =>
    if (n + 1) % 25 = 0 then step1 V c ⟨n + 1, hn⟩ reset1
    else step1 V c ⟨n + 1, hn⟩ (scrAt1 c n (Nat.lt_of_succ_lt hn))

theorem scrAt1_first (c : Dev nD) (t : Fin cfg1.N) (h : t.val % 25 = 0) :
    scrAt1 V c t.val t.isLt = step1 V c t reset1 := by
  obtain ⟨n, hn⟩ := t
  cases n with
  | zero => rfl
  | succ n => exact (if_pos h).trans rfl

theorem scrAt1_next (c : Dev nD) (t : Fin cfg1.N) (h : ¬t.val % 25 = 0) :
    scrAt1 V c t.val t.isLt = step1 V c t (scrAt1 V c (t.val - 1) (Nat.lt_of_le_of_lt (Nat.sub_le _ _) t.isLt)) := by
  obtain ⟨n, hn⟩ := t
  cases n with
  | zero => exact absurd (Nat.zero_mod _) h
  | succ n => exact (if_neg h).trans rfl

abbrev sc1M0 : Memref sig .tc .vmem S2048x1 .f32 := Memref.whole cc1_scratch0
abbrev sc1M1 : Memref sig .tc .vmem S2048x1 .f32 := Memref.whole cc1_scratch1
abbrev sc1M2 : Memref sig .tc .vmem S2048x1 .f32 := Memref.whole cc1_scratch2

abbrev restOf1 (c : Dev nD) : sProp 𝕄 :=
  iprop(Pipeline.scopedRestBut (Ix := Unit) (Name := ℕ) (U := UR sig nD τ) (Lvl := ℕ) (Val := Elt Ideal) spec1 c [cc1_scratch0, cc1_scratch1, cc1_scratch2]
    ∗ (∃ r, prngReg c r))

theorem PhiA1_eq (c : Dev nD) :
    (Pipeline.ΦA spec1 c : sProp 𝕄)
      = iprop(iprop((∃ d, owns (c : Thread nD τ) sc1M0 fullShare d) ∗ (∃ d, owns (c : Thread nD τ) sc1M1 fullShare d) ∗ (∃ d, owns (c : Thread nD τ) sc1M2 fullShare d))
          ∗ restOf1 c) := by
  unfold Pipeline.ΦA restOf1; rw [scopedRest1_split]; simp only [sc1M0, sc1M1, sc1M2, owns_whole]
  exact Entails.antisymm Idealize.SL.BI.sep_assoc Idealize.SL.BI.sep_assoc'

def PhiS1 (c : Dev nD) : (n : ℕ) → n ≤ cfg1.N → sProp 𝕄
  | 0, _ => Pipeline.ΦA spec1 c
  | n + 1, hn =>
    iprop(iprop(owns (c : Thread nD τ) sc1M0 fullShare (scrAt1 V c n hn).1 ∗ owns (c : Thread nD τ) sc1M1 fullShare (scrAt1 V c n hn).2.1
        ∗ owns (c : Thread nD τ) sc1M2 fullShare (scrAt1 V c n hn).2.2) ∗ restOf1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(iprop(owns (c : Thread nD τ) sc1M0 fullShare (scrAt1 V c n hn).1 ∗ owns (c : Thread nD τ) sc1M1 fullShare (scrAt1 V c n hn).2.1
          ∗ owns (c : Thread nD τ) sc1M2 fullShare (scrAt1 V c n hn).2.2) ∗ restOf1 c) := rfl

theorem PhiS1_pos (c : Dev nD) (n : ℕ) (h : n ≤ cfg1.N) (hz : n ≠ 0) :
    PhiS1 V c n h
      = iprop(iprop(owns (c : Thread nD τ) sc1M0 fullShare (scrAt1 V c (n - 1) (by omega)).1 ∗ owns (c : Thread nD τ) sc1M1 fullShare (scrAt1 V c (n - 1) (by omega)).2.1
          ∗ owns (c : Thread nD τ) sc1M2 fullShare (scrAt1 V c (n - 1) (by omega)).2.2) ∗ restOf1 c) := by
  cases n with
  | zero => exact absurd rfl hz
  | succ n => rfl

def dat1 (c : Dev nD) : Dat τ (Elt Ideal) Unit ℕ (UR sig nD τ) ℕ cfg1 c where
  A w := V c (Pipeline.arrRef spec1 w)
  after w t := match w with
    | ⟨0, _⟩ => xin1 V c t
    | ⟨1, _⟩ => wtileZ1 V c t
    | ⟨2, _⟩ => tgin1 V c t
    | ⟨3, _⟩ => k1_pay4 (F := Ideal) (scrAt1 V c t.val t.isLt).1
    | ⟨4, _⟩ => k1_pay5 (F := Ideal) (scrAt1 V c t.val t.isLt).2.1
    | ⟨5, _⟩ => k1_pay6 (F := Ideal) (scrAt1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = xin1 V c t := by dsimp only [dat1]
theorem after1_1 (c : Dev nD) (t : Fin cfg1.N) : (dat1 V c).after 1 t = wtileZ1 V c t := by dsimp only [dat1]
theorem after1_2 (c : Dev nD) (t : Fin cfg1.N) : (dat1 V c).after 2 t = tgin1 V c t := by dsimp only [dat1]
theorem after1_3 (c : Dev nD) (t : Fin cfg1.N) : (dat1 V c).after 3 t = k1_pay4 (F := Ideal) (scrAt1 V c t.val t.isLt).1 := by dsimp only [dat1]
theorem after1_4 (c : Dev nD) (t : Fin cfg1.N) : (dat1 V c).after 4 t = k1_pay5 (F := Ideal) (scrAt1 V c t.val t.isLt).2.1 := by dsimp only [dat1]
theorem after1_5 (c : Dev nD) (t : Fin cfg1.N) : (dat1 V c).after 5 t = k1_pay6 (F := Ideal) (scrAt1 V c t.val t.isLt).2.2 := by dsimp only [dat1]

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HS2⟩, Hr⟩
  isplitl [HS0 HS1 HS2]
  · isplitl [HS0]; · iexists _; iexact HS0
    isplitl [HS1]; · iexists _; iexact HS1
    iexists _; iexact HS2
  iexact Hr

theorem hout1 (c : Dev nD) : (dat1 V c).Φ (Fin.last cfg1.N) ⊢ Pipeline.ΦA spec1 c :=
  Phi1_out V c _ (by rw [Fin.val_last]; have : cfg1.N = 50 := N_1; omega)

end Cert.KernelIdeal.Hand

end
-- ==== Proof.IdealData2.lean ====
import proofs.«413414_j14594298871876_1_alg».proof.Proof.Gen.KernelIdeal.Skeleton
import proofs.«413414_j14594298871876_1_alg».proof.Proof.Gen.KernelIdeal.Launch
import proofs.«413414_j14594298871876_1_alg».proof.Proof.Gen.KernelIdeal.Points
import Idealize.ShloMosaic.Lib.Pipeline.Frame
import Idealize.ShloMosaic.Lib.Pipeline.FrameBody
import Idealize.ShloMosaic.Lib.Pipeline.Kit
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

abbrev Run3_2 : Type := Vec Ideal S2048x1 .f32 × Vec Ideal S2048x1 .f32 × Vec Ideal S2048x1 .f32

variable (V : (c : Dev nD) → (b : Ref sig .tc) → Buf (Elt Ideal) ((c : Thread nD τ).loc b))

noncomputable def iblk2 (c : Dev nD) (w : Fin cfg2.W) (t : Fin cfg2.N) :
    ((cfg2.win w).xblock (cfg2.grid.coords t)).Idx → Elt Ideal (cfg2.win w).elt :=
  ((cfg2.win w).blk t).view.read (Elt Ideal) (V c (Pipeline.arrRef spec2 w))

def xin2 (c : Dev nD) (t : Fin cfg2.N) : Vec Ideal S2048x1024 .bf16 := iblk2 V c 0 t

def tgin2 (c : Dev nD) (t : Fin cfg2.N) : Vec Ideal S2048x1 .i32 := iblk2 V c 2 t

def wtile2 (c : Dev nD) (t : Fin cfg2.N) (d : Vec Ideal S1024x1024 .f32) : Vec Ideal S1024x1024 .f32 :=
  (cfg2.win 1).fill (grid2.coords t) d (iblk2 V c 1 t)

def wtileZ2 (c : Dev nD) (t : Fin cfg2.N) : Vec Ideal S1024x1024 .f32 := wtile2 V c t (fun _ => (0 : EReal))

structure TileFacts2 (c : Dev nD) : Prop where
  pay12 : ∀ (t : Fin cfg2.N) (d d' : Vec Ideal S1024x1024 .f32),
    k2_pay12 (F := Ideal) (grid2.coords t) (xin2 V c t) (wtile2 V c t d) = k2_pay12 (F := Ideal) (grid2.coords t) (xin2 V c t) (wtile2 V c t d')
  pay3 : ∀ (t : Fin cfg2.N) (d d' : Vec Ideal S1024x1024 .f32) (tp : Vec Ideal S2048x1 .f32),
    k2_pay3 (F := Ideal) (k2_pay10 (F := Ideal) (xin2 V c t) (wtile2 V c t d)) (k2_pay11 (grid2.coords t)) (tgin2 V c t) tp
      = k2_pay3 (F := Ideal) (k2_pay10 (F := Ideal) (xin2 V c t) (wtile2 V c t d')) (k2_pay11 (grid2.coords t)) (tgin2 V c t) tp

def reset2 : Run3_2 := (k2_pay7 (F := Ideal), k2_pay8 (F := Ideal), k2_pay9 (F := Ideal))

def step2 (c : Dev nD) (t : Fin cfg2.N) (s : Run3_2) : Run3_2 :=
  (k2_pay2 (F := Ideal) (k2_pay13 (F := Ideal) (grid2.coords t) (xin2 V c t) (wtileZ2 V c t) s.1),
   k2_pay1 (F := Ideal) (k2_pay14 (F := Ideal) (grid2.coords t) (xin2 V c t) (wtileZ2 V c t) s.1 s.1 s.2.1),
   k2_pay3 (F := Ideal) (k2_pay10 (F := Ideal) (xin2 V c t) (wtileZ2 V c t)) (k2_pay11 (grid2.coords t)) (tgin2 V c t) s.2.2)

def scrAt2 (c : Dev nD) : (n : ℕ) → n < cfg2.N → Run3_2
  | 0, hn => step2 V c ⟨0, hn⟩ reset2
  | n + 1, hn =>
    if (n + 1) % 25 = 0 then step2 V c ⟨n + 1, hn⟩ reset2
    else step2 V c ⟨n + 1, hn⟩ (scrAt2 c n (Nat.lt_of_succ_lt hn))

theorem scrAt2_first (c : Dev nD) (t : Fin cfg2.N) (h : t.val % 25 = 0) :
    scrAt2 V c t.val t.isLt = step2 V c t reset2 := by
  obtain ⟨n, hn⟩ := t
  cases n with
  | zero => rfl
  | succ n => exact (if_pos h).trans rfl

theorem scrAt2_next (c : Dev nD) (t : Fin cfg2.N) (h : ¬t.val % 25 = 0) :
    scrAt2 V c t.val t.isLt = step2 V c t (scrAt2 V c (t.val - 1) (Nat.lt_of_le_of_lt (Nat.sub_le _ _) t.isLt)) := by
  obtain ⟨n, hn⟩ := t
  cases n with
  | zero => exact absurd (Nat.zero_mod _) h
  | succ n => exact (if_neg h).trans rfl

abbrev sc2M0 : Memref sig .tc .vmem S2048x1 .f32 := Memref.whole cc2_scratch0
abbrev sc2M1 : Memref sig .tc .vmem S2048x1 .f32 := Memref.whole cc2_scratch1
abbrev sc2M2 : Memref sig .tc .vmem S2048x1 .f32 := Memref.whole cc2_scratch2

abbrev restOf2 (c : Dev nD) : sProp 𝕄 :=
  iprop(Pipeline.scopedRestBut (Ix := Unit) (Name := ℕ) (U := UR sig nD τ) (Lvl := ℕ) (Val := Elt Ideal) spec2 c [cc2_scratch0, cc2_scratch1, cc2_scratch2]
    ∗ (∃ r, prngReg c r))

theorem PhiA2_eq (c : Dev nD) :
    (Pipeline.ΦA spec2 c : sProp 𝕄)
      = iprop(iprop((∃ d, owns (c : Thread nD τ) sc2M0 fullShare d) ∗ (∃ d, owns (c : Thread nD τ) sc2M1 fullShare d) ∗ (∃ d, owns (c : Thread nD τ) sc2M2 fullShare d))
          ∗ restOf2 c) := by
  unfold Pipeline.ΦA restOf2; rw [scopedRest2_split]; simp only [sc2M0, sc2M1, sc2M2, owns_whole]
  exact Entails.antisymm Idealize.SL.BI.sep_assoc Idealize.SL.BI.sep_assoc'

def PhiS2 (c : Dev nD) : (n : ℕ) → n ≤ cfg2.N → sProp 𝕄
  | 0, _ => Pipeline.ΦA spec2 c
  | n + 1, hn =>
    iprop(iprop(owns (c : Thread nD τ) sc2M0 fullShare (scrAt2 V c n hn).1 ∗ owns (c : Thread nD τ) sc2M1 fullShare (scrAt2 V c n hn).2.1
        ∗ owns (c : Thread nD τ) sc2M2 fullShare (scrAt2 V c n hn).2.2) ∗ restOf2 c)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn
      = iprop(iprop(owns (c : Thread nD τ) sc2M0 fullShare (scrAt2 V c n hn).1 ∗ owns (c : Thread nD τ) sc2M1 fullShare (scrAt2 V c n hn).2.1
          ∗ owns (c : Thread nD τ) sc2M2 fullShare (scrAt2 V c n hn).2.2) ∗ restOf2 c) := rfl

theorem PhiS2_pos (c : Dev nD) (n : ℕ) (h : n ≤ cfg2.N) (hz : n ≠ 0) :
    PhiS2 V c n h
      = iprop(iprop(owns (c : Thread nD τ) sc2M0 fullShare (scrAt2 V c (n - 1) (by omega)).1 ∗ owns (c : Thread nD τ) sc2M1 fullShare (scrAt2 V c (n - 1) (by omega)).2.1
          ∗ owns (c : Thread nD τ) sc2M2 fullShare (scrAt2 V c (n - 1) (by omega)).2.2) ∗ restOf2 c) := by
  cases n with
  | zero => exact absurd rfl hz
  | succ n => rfl

def dat2 (c : Dev nD) : Dat τ (Elt Ideal) Unit ℕ (UR sig nD τ) ℕ cfg2 c where
  A w := V c (Pipeline.arrRef spec2 w)
  after w t := match w with
    | ⟨0, _⟩ => xin2 V c t
    | ⟨1, _⟩ => wtileZ2 V c t
    | ⟨2, _⟩ => tgin2 V c t
    | ⟨3, _⟩ => k2_pay4 (F := Ideal) (scrAt2 V c t.val t.isLt).1
    | ⟨4, _⟩ => k2_pay5 (F := Ideal) (scrAt2 V c t.val t.isLt).2.1
    | ⟨5, _⟩ => k2_pay6 (F := Ideal) (scrAt2 V c t.val t.isLt).2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = xin2 V c t := by dsimp only [dat2]
theorem after2_1 (c : Dev nD) (t : Fin cfg2.N) : (dat2 V c).after 1 t = wtileZ2 V c t := by dsimp only [dat2]
theorem after2_2 (c : Dev nD) (t : Fin cfg2.N) : (dat2 V c).after 2 t = tgin2 V c t := by dsimp only [dat2]
theorem after2_3 (c : Dev nD) (t : Fin cfg2.N) : (dat2 V c).after 3 t = k2_pay4 (F := Ideal) (scrAt2 V c t.val t.isLt).1 := by dsimp only [dat2]
theorem after2_4 (c : Dev nD) (t : Fin cfg2.N) : (dat2 V c).after 4 t = k2_pay5 (F := Ideal) (scrAt2 V c t.val t.isLt).2.1 := by dsimp only [dat2]
theorem after2_5 (c : Dev nD) (t : Fin cfg2.N) : (dat2 V c).after 5 t = k2_pay6 (F := Ideal) (scrAt2 V c t.val t.isLt).2.2 := by dsimp only [dat2]

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HS1, HS2⟩, Hr⟩
  isplitl [HS0 HS1 HS2]
  · isplitl [HS0]; · iexists _; iexact HS0
    isplitl [HS1]; · iexists _; iexact HS1
    iexists _; iexact HS2
  iexact Hr

theorem hout2 (c : Dev nD) : (dat2 V c).Φ (Fin.last cfg2.N) ⊢ Pipeline.ΦA spec2 c :=
  Phi2_out V c _ (by rw [Fin.val_last]; have : cfg2.N = 50 := N_2; omega)

end Cert.KernelIdeal.Hand

end
-- ==== Proof.OnlineSoftmax.lean ====
import Idealize.ShloMosaic.PureOps.Ideal.Laws

noncomputable section

namespace Cert.OnlineSoftmax

open Idealize.ShloMosaic

def zpad (z : Fin 50257 → EReal) (v : ℕ) : EReal := if h : v < 50257 then z ⟨v, h⟩ else ⊥

def tileMax (z : Fin 50257 → EReal) (T : ℕ) : EReal := Finset.univ.sup fun i : Fin 1024 => zpad z (1024 * T + i.val)

def mstep (z : Fin 50257 → EReal) (T : ℕ) (m : EReal) : EReal := max m (tileMax z T)

def lstep (z : Fin 50257 → EReal) (T : ℕ) (m l : EReal) : EReal :=
  l * Ideal.exp (m - mstep z T m) + ∑ i : Fin 1024, Ideal.exp (zpad z (1024 * T + i.val) - mstep z T m)

def tstep (zraw : ℕ → EReal) (tgt : ℕ) (T : ℕ) (t : EReal) : EReal :=
  t + ∑ i : Fin 1024, if 1024 * T + i.val = tgt then zraw (1024 * T + i.val) else 0

def sweep (z : Fin 50257 → EReal) (zraw : ℕ → EReal) (tgt : ℕ) (c : ℕ) : ℕ → EReal × EReal × EReal
  | 0 => (⊥, 0, 0)
  | j + 1 =>
    let s := sweep z zraw tgt c j
    (mstep z (25 * c + j) s.1, lstep z (25 * c + j) s.1 s.2.1, tstep zraw tgt (25 * c + j) s.2.2)

def merged (z : Fin 50257 → EReal) (zraw : ℕ → EReal) (tgt : ℕ) : EReal :=
  let a := sweep z zraw tgt 0 25
  let b := sweep z zraw tgt 1 25
  let M := max a.1 b.1
  (M + Ideal.log (a.2.1 * Ideal.exp (a.1 - M) + b.2.1 * Ideal.exp (b.1 - M))) - (a.2.2 + b.2.2)

def closed (z : Fin 50257 → EReal) (tgt : Fin 50257) : EReal :=
  -((z tgt - Finset.univ.sup z) - Ideal.log (∑ v : Fin 50257, Ideal.exp (z v - Finset.univ.sup z)))

def rowR (r : Fin 50257 → ℝ) (v : ℕ) : ℝ := if h : v < 50257 then r ⟨v, h⟩ else 0

def wt (r : Fin 50257 → ℝ) (a : ℝ) (v : ℕ) : ℝ := if v < 50257 then Real.exp (rowR r v - a) else 0

def tg (zraw : ℕ → EReal) (tgt : ℕ) (v : ℕ) : EReal := if v = tgt then zraw v else 0

theorem zpad_coe (r : Fin 50257 → ℝ) (v : ℕ) :
    zpad (fun u => (r u : EReal)) v = if v < 50257 then ((rowR r v : ℝ) : EReal) else ⊥ := by
  unfold zpad rowR
  by_cases h : v < 50257
  · rw [dif_pos h, if_pos h, dif_pos h]
  · rw [dif_neg h, if_neg h]

theorem exp_zpad_sub (r : Fin 50257 → ℝ) (a : ℝ) (v : ℕ) :
    Ideal.exp (zpad (fun u => (r u : EReal)) v - (a : EReal)) = ((wt r a v : ℝ) : EReal) := by
  rw [zpad_coe]
  unfold wt
  by_cases h : v < 50257
  · rw [if_pos h, if_pos h, ← EReal.coe_sub, Ideal.exp_coe]
  · rw [if_neg h, if_neg h, EReal.bot_sub, Ideal.exp_bot, EReal.coe_zero]

theorem wt_rescale (r : Fin 50257 → ℝ) (a a' : ℝ) (v : ℕ) : wt r a v * Real.exp (a - a') = wt r a' v := by
  unfold wt
  by_cases h : v < 50257
  · rw [if_pos h, if_pos h, ← Real.exp_add]
    congr 1
    ring
  · rw [if_neg h, if_neg h, zero_mul]

theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

theorem sum_tile {M : Type*} [AddCommMonoid M] (g : ℕ → M) (T : ℕ) :
    ∑ i : Fin 1024, g (1024 * T + i.val) = ∑ v ∈ Finset.Ico (1024 * T) (1024 * (T + 1)), g v := by
  have h : 1024 * (T + 1) - 1024 * T = 1024 := by omega
  rw [Finset.sum_Ico_eq_sum_range, h, Fin.sum_univ_eq_sum_range (fun i => g (1024 * T + i)) 1024]

theorem tileMax_real (r : Fin 50257 → ℝ) (T : ℕ) (hT : T < 50) :
    ∃ b : ℝ, tileMax (fun u => (r u : EReal)) T = (b : EReal) := by
  unfold tileMax
  obtain ⟨i, -, hi⟩ := Finset.exists_mem_eq_sup (Finset.univ : Finset (Fin 1024)) Finset.univ_nonempty
    (fun i : Fin 1024 => zpad (fun u => (r u : EReal)) (1024 * T + i.val))
  have h0 : zpad (fun u => (r u : EReal)) (1024 * T + (0 : Fin 1024).val) ≤
      Finset.univ.sup (fun i : Fin 1024 => zpad (fun u => (r u : EReal)) (1024 * T + i.val)) :=
    Finset.le_sup (f := fun i : Fin 1024 => zpad (fun u => (r u : EReal)) (1024 * T + i.val)) (Finset.mem_univ 0)
  rw [hi] at h0 ⊢
  rw [zpad_coe r (1024 * T + i.val)] at h0 ⊢
  have hlt : 1024 * T + (0 : Fin 1024).val < 50257 := by
    have : (0 : Fin 1024).val = 0 := rfl
    omega
  rw [zpad_coe r (1024 * T + (0 : Fin 1024).val), if_pos hlt] at h0
  by_cases h : 1024 * T + i.val < 50257
  · exact ⟨_, if_pos h⟩
  · rw [if_neg h] at h0
    exact absurd (le_bot_iff.mp h0) (EReal.coe_ne_bot _)

def Good (r : Fin 50257 → ℝ) (lo hi : ℕ) (m l : EReal) : Prop :=
  (m = ⊥ ∧ l = 0 ∧ hi = lo) ∨
    ∃ a : ℝ, m = (a : EReal) ∧ l = ((∑ v ∈ Finset.Ico lo hi, wt r a v : ℝ) : EReal)

theorem Good.rescale {r : Fin 50257 → ℝ} {lo hi : ℕ} {m l : EReal} (h : Good r lo hi m l) (a' : ℝ) :
    l * Ideal.exp (m - (a' : EReal)) = ((∑ v ∈ Finset.Ico lo hi, wt r a' v : ℝ) : EReal) := by
  rcases h with ⟨hm, hl, hh⟩ | ⟨a, hm, hl⟩
  · subst hm hl hh
    rw [EReal.bot_sub, Ideal.exp_bot, Finset.Ico_self, Finset.sum_empty, EReal.coe_zero, zero_mul]
  · subst hm hl
    rw [← EReal.coe_sub, Ideal.exp_coe, ← EReal.coe_mul, Finset.sum_mul]
    congr 1
    exact Finset.sum_congr rfl (fun v _ => wt_rescale r a a' v)

theorem Good.step {r : Fin 50257 → ℝ} {lo : ℕ} {m l : EReal} {T : ℕ} (hT : T < 50) (hlo : lo ≤ 1024 * T)
    (h : Good r lo (1024 * T) m l) :
    ∃ a' : ℝ, mstep (fun u => (r u : EReal)) T m = (a' : EReal) ∧
      lstep (fun u => (r u : EReal)) T m l = ((∑ v ∈ Finset.Ico lo (1024 * (T + 1)), wt r a' v : ℝ) : EReal) := by
  obtain ⟨b, hb⟩ := tileMax_real r T hT
  have hm' : ∃ a' : ℝ, mstep (fun u => (r u : EReal)) T m = (a' : EReal) := by
    unfold mstep
    rw [hb]
    rcases h with ⟨hm, -, -⟩ | ⟨a, hm, -⟩
    · exact ⟨b, by rw [hm]; exact max_eq_right bot_le⟩
    · exact ⟨max a b, by rw [hm]; exact (EReal.coe_strictMono.monotone.map_max).symm⟩
  obtain ⟨a', ha'⟩ := hm'
  refine ⟨a', ha', ?_⟩
  unfold lstep
  rw [ha', h.rescale a']
  simp_rw [exp_zpad_sub]
  rw [← coe_finset_sum, sum_tile (fun v => wt r a' v) T, ← EReal.coe_add,
    Finset.sum_Ico_consecutive _ hlo (by omega)]

theorem tstep_eq (zraw : ℕ → EReal) (tgt T : ℕ) (t : EReal) :
    tstep zraw tgt T t = t + ∑ v ∈ Finset.Ico (1024 * T) (1024 * (T + 1)), tg zraw tgt v := by
  rw [← sum_tile (tg zraw tgt) T]
  rfl

theorem sweep_inv (r : Fin 50257 → ℝ) (zraw : ℕ → EReal) (tgt c : ℕ) (hc : c < 2) (j : ℕ) (hj : j ≤ 25) :
    Good r (1024 * (25 * c)) (1024 * (25 * c + j)) (sweep (fun u => (r u : EReal)) zraw tgt c j).1
        (sweep (fun u => (r u : EReal)) zraw tgt c j).2.1 ∧
      (sweep (fun u => (r u : EReal)) zraw tgt c j).2.2 =
        ∑ v ∈ Finset.Ico (1024 * (25 * c)) (1024 * (25 * c + j)), tg zraw tgt v := by
  induction j with
  | zero =>
    refine ⟨Or.inl ⟨rfl, rfl, rfl⟩, ?_⟩
    rw [Nat.add_zero, Finset.Ico_self, Finset.sum_empty]
    rfl
  | succ j ih =>
    obtain ⟨hg, ht⟩ := ih (by omega)
    obtain ⟨a', hm, hl⟩ := Good.step (T := 25 * c + j) (by omega) (by omega) hg
    refine ⟨Or.inr ⟨a', hm, hl⟩, ?_⟩
    show tstep zraw tgt (25 * c + j) (sweep (fun u => (r u : EReal)) zraw tgt c j).2.2 = _
    rw [tstep_eq, ht, Finset.sum_Ico_consecutive _ (by omega) (by omega)]
    rfl

theorem wt_total (r : Fin 50257 → ℝ) (a : ℝ) :
    ∑ v ∈ Finset.Ico 0 51200, wt r a v = ∑ v : Fin 50257, Real.exp (r v - a) := by
  rw [Nat.Ico_zero_eq_range, ← Finset.sum_range_add_sum_Ico (fun v => wt r a v) (show 50257 ≤ 51200 by norm_num)]
  have h2 : ∑ v ∈ Finset.Ico 50257 51200, wt r a v = 0 := by
    apply Finset.sum_eq_zero
    intro v hv
    have hv' : ¬ v < 50257 := by
      have := (Finset.mem_Ico.mp hv).1
      omega
    unfold wt
    rw [if_neg hv']
  rw [h2, add_zero, ← Fin.sum_univ_eq_sum_range (fun v => wt r a v) 50257]
  apply Finset.sum_congr rfl
  intro v _
  unfold wt rowR
  rw [if_pos v.isLt, dif_pos v.isLt]

theorem sum_exp_pos (r : Fin 50257 → ℝ) (a : ℝ) : 0 < ∑ v : Fin 50257, Real.exp (r v - a) :=
  Finset.sum_pos (fun _ _ => Real.exp_pos _) ⟨⟨0, by norm_num⟩, Finset.mem_univ _⟩

theorem log_sum_shift (r : Fin 50257 → ℝ) (a b : ℝ) :
    Real.log (∑ v : Fin 50257, Real.exp (r v - a)) =
      Real.log (∑ v : Fin 50257, Real.exp (r v - b)) + (b - a) := by
  have h : ∑ v : Fin 50257, Real.exp (r v - a) = (∑ v : Fin 50257, Real.exp (r v - b)) * Real.exp (b - a) := by
    rw [Finset.sum_mul]
    apply Finset.sum_congr rfl
    intro v _
    rw [← Real.exp_add]
    congr 1
    ring
  rw [h, Real.log_mul (sum_exp_pos r b).ne' (Real.exp_pos _).ne', Real.log_exp]

theorem merge_good (r : Fin 50257 → ℝ) (tgt : ℕ) (ht : tgt < 50257) (m0 l0 t0 m1 l1 t1 : EReal)
    (h0 : Good r 0 25600 m0 l0) (h1 : Good r 25600 51200 m1 l1) (htt : t0 + t1 = ((r ⟨tgt, ht⟩ : ℝ) : EReal)) :
    (max m0 m1 + Ideal.log (l0 * Ideal.exp (m0 - max m0 m1) + l1 * Ideal.exp (m1 - max m0 m1))) - (t0 + t1) =
      closed (fun u => (r u : EReal)) ⟨tgt, ht⟩ := by
  obtain ⟨a0, hm0⟩ : ∃ a0 : ℝ, m0 = (a0 : EReal) := by
    rcases h0 with ⟨-, -, h⟩ | ⟨a, h, -⟩
    · omega
    · exact ⟨a, h⟩
  obtain ⟨a1, hm1⟩ : ∃ a1 : ℝ, m1 = (a1 : EReal) := by
    rcases h1 with ⟨-, -, h⟩ | ⟨a, h, -⟩
    · omega
    · exact ⟨a, h⟩
  have hM : max m0 m1 = ((max a0 a1 : ℝ) : EReal) := by
    rw [hm0, hm1]
    exact (EReal.coe_strictMono.monotone.map_max).symm
  obtain ⟨b, hb⟩ : ∃ b : ℝ, Finset.univ.sup (fun u : Fin 50257 => (r u : EReal)) = (b : EReal) := by
    obtain ⟨i, -, hi⟩ := Finset.exists_mem_eq_sup (Finset.univ : Finset (Fin 50257))
      ⟨⟨0, by norm_num⟩, Finset.mem_univ _⟩ (fun u => (r u : EReal))
    exact ⟨r i, hi⟩
  rw [hM, h0.rescale, h1.rescale, ← EReal.coe_add,
    Finset.sum_Ico_consecutive _ (by norm_num) (by norm_num), wt_total, htt]
  unfold closed
  rw [hb]
  simp_rw [← EReal.coe_sub, Ideal.exp_coe]
  rw [← coe_finset_sum, Ideal.log_coe, if_neg (not_le.mpr (sum_exp_pos r _)), Ideal.log_coe,
    if_neg (not_le.mpr (sum_exp_pos r _)), log_sum_shift r (max a0 a1) b,
    ← EReal.coe_add, ← EReal.coe_sub, ← EReal.coe_sub, ← EReal.coe_neg, EReal.coe_eq_coe_iff]
  ring

theorem merged_eq_closed (z : Fin 50257 → EReal) (hz : ∀ v, ∃ r : ℝ, z v = (r : EReal))
    (zraw : ℕ → EReal) (hraw : ∀ (v : ℕ) (h : v < 50257), zraw v = z ⟨v, h⟩) (tgt : ℕ) (ht : tgt < 50257) :
    merged z zraw tgt = closed z ⟨tgt, ht⟩ := by
  choose r hr using hz
  obtain rfl : z = fun u => (r u : EReal) := funext hr
  obtain ⟨hg0, ht0⟩ := sweep_inv r zraw tgt 0 (by norm_num) 25 le_rfl
  obtain ⟨hg1, ht1⟩ := sweep_inv r zraw tgt 1 (by norm_num) 25 le_rfl
  have htt : (sweep (fun u => (r u : EReal)) zraw tgt 0 25).2.2 + (sweep (fun u => (r u : EReal)) zraw tgt 1 25).2.2 =
      ((r ⟨tgt, ht⟩ : ℝ) : EReal) := by
    have e0 : (sweep (fun u => (r u : EReal)) zraw tgt 0 25).2.2 = ∑ v ∈ Finset.Ico 0 25600, tg zraw tgt v := ht0
    have e1 : (sweep (fun u => (r u : EReal)) zraw tgt 1 25).2.2 = ∑ v ∈ Finset.Ico 25600 51200, tg zraw tgt v := ht1
    rw [e0, e1, Finset.sum_Ico_consecutive _ (by norm_num) (by norm_num)]
    simp only [tg]
    rw [Finset.sum_ite_eq', if_pos (Finset.mem_Ico.mpr ⟨by omega, by omega⟩), hraw tgt ht]
  exact merge_good r tgt ht _ _ _ _ _ _ hg0 hg1 htt

end Cert.OnlineSoftmax

end
-- ==== Proof.Spec.lean ====
import proofs.«413414_j14594298871876_1_alg».proof.Proof.OnlineSoftmax
import Idealize.ShloMosaic.Lib.ValueIdx

noncomputable section

namespace Cert.LossSpec

open Idealize.ShloMosaic Idealize.ShloMosaic.ValueIdx

abbrev w1024 : EReal := Ideal.ofBits .f32 0x44800000#32
abbrev wEps : EReal := Ideal.ofBits .f32 0x3727C5AC#32
abbrev w2 : EReal := Ideal.ofBits .f32 0x40000000#32
abbrev w03 : EReal := Ideal.ofBits .f32 0x3E99999A#32
abbrev w0 : EReal := Ideal.ofBits .f32 0x00000000#32

def rms (x : Fin 2048 → Fin 1024 → EReal) (g : Fin 1024 → EReal) (s : Fin 2048) (d : Fin 1024) : EReal :=
  x s d * Ideal.rsqrt (Ideal.div (∑ e : Fin 1024, x s e * x s e) w1024 + wEps) * g d

def logit (n : Fin 2048 → Fin 1024 → EReal) (W : Fin 50257 → Fin 1024 → EReal) (s : Fin 2048) (v : Fin 50257) : EReal :=
  ∑ d : Fin 1024, n s d * W v d

def proj (x : Fin 2048 → Fin 1024 → EReal) (P : Fin 1024 → Fin 1024 → EReal) (s : Fin 2048) (e : Fin 1024) : EReal :=
  ∑ d : Fin 1024, x s d * P e d

def tgtAt (tg : Fin 2048 → BitVec 32) (k : ℕ) (s : Fin 2048) : BitVec 32 :=
  if h : s.val + k < 2048 then tg ⟨s.val + k, h⟩ else 0#32

def valid (tg : Fin 2048 → BitVec 32) (k : ℕ) (s : Fin 2048) : Prop :=
  s.val + k < 2048 ∧ tgtAt tg k s ≠ 4294967196#32

instance (tg : Fin 2048 → BitVec 32) (k : ℕ) : DecidablePred (valid tg k) := fun _ => inferInstanceAs (Decidable (_ ∧ _))

def safe (tg : Fin 2048 → BitVec 32) (k : ℕ) (s : Fin 2048) : ℕ := if valid tg k s then (tgtAt tg k s).toNat else 0

def nllRow (Z : Fin 2048 → Fin 50257 → EReal) (tg : Fin 2048 → BitVec 32) (k : ℕ) (s : Fin 2048) : EReal :=
  Cert.OnlineSoftmax.closed (Z s) ⟨safe tg k s % 50257, Nat.mod_lt _ (by norm_num)⟩

def headLoss (Z : Fin 2048 → Fin 50257 → EReal) (tg : Fin 2048 → BitVec 32) (k : ℕ) : EReal :=
  Ideal.div (∑ s : Fin 2048, if valid tg k s then nllRow Z tg k s else 0)
    (((max (Finset.univ.filter (valid tg k)).card 1 : ℕ) : ℝ) : EReal)

def total (l0 l1 l2 : EReal) : EReal := l0 + w03 * Ideal.div ((w0 + l1) + l2) w2

abbrev w1 : EReal := Ideal.ofBits .f32 0x3F800000#32

def mergedRow (m0 l0 t0 m1 l1 t1 : EReal) : EReal :=
  (max m0 m1 + Ideal.log (l0 * Ideal.exp (m0 - max m0 m1) + l1 * Ideal.exp (m1 - max m0 m1))) - (t0 + t1)

def hostHead (Mp Lp Tp : Fin 2 → Fin 2048 → EReal) (vd : Fin 2048 → EReal) : EReal :=
  Ideal.div (∑ s : Fin 2048, mergedRow (Mp 0 s) (Lp 0 s) (Tp 0 s) (Mp 1 s) (Lp 1 s) (Tp 1 s) * vd s) (max (∑ s : Fin 2048, vd s) w1)

structure Args where
  x : Fin 2048 → Fin 1024 → EReal
  tg : Fin 2048 → BitVec 32
  W0 : Fin 50257 → Fin 1024 → EReal
  g0 : Fin 1024 → EReal
  P : Fin 2 → Fin 1024 → Fin 1024 → EReal
  G : Fin 2 → Fin 1024 → EReal
  Wa : Fin 2 → Fin 50257 → Fin 1024 → EReal

def Args.ofArrays (a0 : FVec Ideal ⟨3, ![1, 2048, 1024]⟩ .f32) (a1 : IVec ⟨2, ![1, 2048]⟩ 32) (a2 : FVec Ideal ⟨2, ![50257, 1024]⟩ .f32)
    (a3 : FVec Ideal ⟨1, ![1024]⟩ .f32) (a4 : FVec Ideal ⟨3, ![2, 1024, 1024]⟩ .f32) (a5 : FVec Ideal ⟨2, ![2, 1024]⟩ .f32)
    (a6 : FVec Ideal ⟨3, ![2, 50257, 1024]⟩ .f32) : Args where
  x s d := a0 (ix3 0 s d)
  tg s := a1 (ix2 0 s)
  W0 v d := a2 (ix2 v d)
  g0 d := a3 (ix1 d)
  P i e d := a4 (ix3 i e d)
  G i d := a5 (ix2 i d)
  Wa i v d := a6 (ix3 i v d)

def Z0 (a : Args) : Fin 2048 → Fin 50257 → EReal := logit (rms a.x a.g0) a.W0
def Za (a : Args) (i : Fin 2) : Fin 2048 → Fin 50257 → EReal := logit (rms (proj a.x (a.P i)) (a.G i)) (a.Wa i)

def loss (a : Args) : EReal := total (headLoss (Z0 a) a.tg 1) (headLoss (Za a 0) a.tg 2) (headLoss (Za a 1) a.tg 3)

end Cert.LossSpec

end
-- ==== Proof.LibDot.lean ====
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.IdealHostA.lean ====
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate
import Idealize.ShloMosaic.Lib.Affine
import Idealize.ShloMosaic.PureOps.Ideal.Laws
import proofs.«413414_j14594298871876_1_alg».proof.Proof.LibDot

noncomputable section

namespace Cert.KernelIdeal.Hand.Host

open Idealize.ShloMosaic Idealize.ShloMosaic.ValueIdx
open scoped BigOperators

theorem rowSum_apply (f : FVec Ideal ⟨2, ![2048, 1024]⟩ .f32) (h : (⟨2, ![2048, 1024]⟩ : Shape).ReducesTo [1] ⟨1, ![2048]⟩)
    (hu : 0 < (⟨0, ![]⟩ : Shape).numel) (s : Fin 2048) :
    Host.reduceAdd f (constant ⟨0, ![]⟩ .f32 0x00000000#32) h hu (ix1 s) = ∑ e : Fin 1024, f (ix2 s e) := by
  have hr : (⟨2, ![2048, 1024]⟩ : Shape).Reduces [1] ⟨1, ![2048]⟩ := by decide
  rw [hostReduceAdd_apply, Ideal.hostReduceAdd_single h hr]
  show Ideal.ofBits .f32 0x00000000#32 + ∑ e : Fin 1024, f (hr.lift (ix1 s) e) = _
  rw [Ideal.ofBits_zero_f32, zero_add]
  refine Finset.sum_congr rfl fun e _ => congrArg f ?_
  funext a
  refine Fin.ext ?_
  match a with
  | ⟨0, _⟩ => rfl
  | ⟨1, _⟩ => rfl

theorem colSum_apply (f : FVec Ideal ⟨2, ![2048, 1]⟩ .f32) (h : (⟨2, ![2048, 1]⟩ : Shape).ReducesTo [0, 1] ⟨0, ![]⟩)
    (hu : 0 < (⟨0, ![]⟩ : Shape).numel) (j : (⟨0, ![]⟩ : Shape).Idx) :
    Host.reduceAdd f (constant ⟨0, ![]⟩ .f32 0x00000000#32) h hu j = ∑ s : Fin 2048, f (ix2 s (0 : Fin 1)) := by
  rw [hostReduceAdd_apply, Ideal.hostReduceAdd_total h (fun b => b.elim0)]
  show Ideal.ofBits .f32 0x00000000#32 + _ = _
  rw [Ideal.ofBits_zero_f32, zero_add, sum_idx2]
  refine Finset.sum_congr rfl fun s _ => ?_
  rw [Fin.sum_univ_one]

def rmsT (x : FVec Ideal ⟨2, ![2048, 1024]⟩ .f32) (g : FVec Ideal ⟨1, ![1024]⟩ .f32) : FVec Ideal ⟨2, ![2048, 1024]⟩ .bf16 :=
  truncf .bf16
    (mulf
      (mulf x
        (broadcastInDim ⟨2, ![2048, 1024]⟩ ![0, 1] (by decide)
          (Host.rsqrt
            (addf
              (Host.divf
                (broadcastInDim ⟨2, ![2048, 1]⟩ ![0] (by decide)
                  (Host.reduceAdd (mulf x x) (constant ⟨0, ![]⟩ .f32 0x00000000#32)
                    (by decide : (⟨2, ![2048, 1024]⟩ : Shape).ReducesTo [1] ⟨1, ![2048]⟩) (by decide)))
                (broadcastInDim ⟨2, ![2048, 1]⟩ ![] (by decide) (constant ⟨0, ![]⟩ .f32 0x44800000#32)))
              (broadcastInDim ⟨2, ![2048, 1]⟩ ![] (by decide) (constant ⟨0, ![]⟩ .f32 0x3727C5AC#32))))))
      (broadcastInDim ⟨2, ![2048, 1024]⟩ ![0, 1] (by decide) (broadcastInDim ⟨2, ![1, 1024]⟩ ![1] (by decide) g)))
    (by decide)

theorem rmsT_apply (x : FVec Ideal ⟨2, ![2048, 1024]⟩ .f32) (g : FVec Ideal ⟨1, ![1024]⟩ .f32) (s : Fin 2048) (d : Fin 1024) :
    rmsT x g (ix2 s d)
      = x (ix2 s d) * Ideal.rsqrt (Ideal.div (∑ e : Fin 1024, x (ix2 s e) * x (ix2 s e)) (Ideal.ofBits .f32 0x44800000#32)
          + Ideal.ofBits .f32 0x3727C5AC#32) * g (ix1 d) := by
  unfold rmsT
  rw [truncf_apply, mulf_apply, mulf_apply]
  refine congrArg₂ (· * ·) (congrArg₂ (· * ·) rfl ?_) ?_
  · refine (broadcastInDim_apply _ _ _ (ix2 s d) (ix2 s (0 : Fin 1)) (fun a => match a with | ⟨0, _⟩ => rfl | ⟨1, _⟩ => rfl)).trans ?_
    show Ideal.rsqrt (Ideal.div (broadcastInDim _ _ _ _ (ix2 s (0 : Fin 1))) (broadcastInDim _ _ _ _ (ix2 s (0 : Fin 1)))
      + broadcastInDim _ _ _ _ (ix2 s (0 : Fin 1))) = _
    rw [broadcastInDim_scalar_apply, broadcastInDim_scalar_apply,
      broadcastInDim_apply _ _ _ (ix2 s (0 : Fin 1)) (ix1 s) (fun a => match a with | ⟨0, _⟩ => rfl), rowSum_apply]
    rfl
  · refine (broadcastInDim_apply _ _ _ (ix2 s d) (ix2 (0 : Fin 1) d) (fun a => match a with | ⟨0, _⟩ => rfl | ⟨1, _⟩ => rfl)).trans ?_
    exact broadcastInDim_apply _ _ _ (ix2 (0 : Fin 1) d) (ix1 d) (fun a => match a with | ⟨0, _⟩ => rfl)

theorem slice3_lead {n1 n2 : ℕ} (o : ℕ) (X : (⟨3, ![2, n1, n2]⟩ : Shape).Idx → EReal)
    (h : (⟨3, ![2, n1, n2]⟩ : Shape).Slices ![o, 0, 0] ⟨3, ![1, n1, n2]⟩) (i : Fin 2) (hi : i.val = o) (a : Fin n1) (b : Fin n2) :
    extractStridedSlice ⟨3, ![1, n1, n2]⟩ ![o, 0, 0] X h (ix3 (0 : Fin 1) a b) = X (ix3 i a b) :=
  extractStridedSlice_apply _ _ _ _ _ (fun ax => match ax with
    | ⟨0, _⟩ => hi
    | ⟨1, _⟩ => (Nat.zero_add _).symm
    | ⟨2, _⟩ => (Nat.zero_add _).symm)

theorem slice2_lead {n1 : ℕ} (o : ℕ) (X : (⟨2, ![2, n1]⟩ : Shape).Idx → EReal)
    (h : (⟨2, ![2, n1]⟩ : Shape).Slices ![o, 0] ⟨2, ![1, n1]⟩) (i : Fin 2) (hi : i.val = o) (b : Fin n1) :
    extractStridedSlice ⟨2, ![1, n1]⟩ ![o, 0] X h (ix2 (0 : Fin 1) b) = X (ix2 i b) :=
  extractStridedSlice_apply _ _ _ _ _ (fun ax => match ax with
    | ⟨0, _⟩ => hi
    | ⟨1, _⟩ => (Nat.zero_add _).symm)

def part0 (X : FVec Ideal ⟨3, ![2, 2048, 1]⟩ .f32) : FVec Ideal ⟨2, ![2048, 1]⟩ .f32 :=
  shapeCast ⟨2, ![2048, 1]⟩ (extractStridedSlice ⟨3, ![1, 2048, 1]⟩ ![0, 0, 0] X (by decide)) (by decide)
def part1 (X : FVec Ideal ⟨3, ![2, 2048, 1]⟩ .f32) : FVec Ideal ⟨2, ![2048, 1]⟩ .f32 :=
  shapeCast ⟨2, ![2048, 1]⟩ (extractStridedSlice ⟨3, ![1, 2048, 1]⟩ ![1, 0, 0] X (by decide)) (by decide)

theorem part0_apply (X : FVec Ideal ⟨3, ![2, 2048, 1]⟩ .f32) (s : Fin 2048) :
    part0 X (ix2 s (0 : Fin 1)) = X (ix3 (0 : Fin 2) s (0 : Fin 1)) := by
  unfold part0
  rw [shapeCast_1ab_ab_apply]
  exact slice3_lead 0 X _ 0 rfl s 0
theorem part1_apply (X : FVec Ideal ⟨3, ![2, 2048, 1]⟩ .f32) (s : Fin 2048) :
    part1 X (ix2 s (0 : Fin 1)) = X (ix3 (1 : Fin 2) s (0 : Fin 1)) := by
  unfold part1
  rw [shapeCast_1ab_ab_apply]
  exact slice3_lead 1 X _ 1 rfl s 0

def headT (Mx Lx Tx : FVec Ideal ⟨3, ![2, 2048, 1]⟩ .f32) (vd : FVec Ideal ⟨2, ![2048, 1]⟩ .f32) : FVec Ideal ⟨0, ![]⟩ .f32 :=
  Host.divf
    (Host.reduceAdd
      (mulf
        (subf
          (addf (maximumf (part0 Mx) (part1 Mx))
            (Host.log
              (addf (mulf (part0 Lx) (Host.exp (subf (part0 Mx) (maximumf (part0 Mx) (part1 Mx)))))
                (mulf (part1 Lx) (Host.exp (subf (part1 Mx) (maximumf (part0 Mx) (part1 Mx))))))))
          (addf (part0 Tx) (part1 Tx)))
        vd)
      (constant ⟨0, ![]⟩ .f32 0x00000000#32) (by decide : (⟨2, ![2048, 1]⟩ : Shape).ReducesTo [0, 1] ⟨0, ![]⟩) (by decide))
    (maximumf
      (Host.reduceAdd vd (constant ⟨0, ![]⟩ .f32 0x00000000#32) (by decide : (⟨2, ![2048, 1]⟩ : Shape).ReducesTo [0, 1] ⟨0, ![]⟩) (by decide))
      (constant ⟨0, ![]⟩ .f32 0x3F800000#32))

def rowT (m0 l0 t0 m1 l1 t1 : EReal) : EReal :=
  (max m0 m1 + Ideal.log (l0 * Ideal.exp (m0 - max m0 m1) + l1 * Ideal.exp (m1 - max m0 m1))) - (t0 + t1)

theorem headT_apply (Mx Lx Tx : FVec Ideal ⟨3, ![2, 2048, 1]⟩ .f32) (vd : FVec Ideal ⟨2, ![2048, 1]⟩ .f32) (j : (⟨0, ![]⟩ : Shape).Idx) :
    headT Mx Lx Tx vd j
      = Ideal.div
          (∑ s : Fin 2048, rowT (Mx (ix3 (0 : Fin 2) s (0 : Fin 1))) (Lx (ix3 (0 : Fin 2) s (0 : Fin 1))) (Tx (ix3 (0 : Fin 2) s (0 : Fin 1)))
              (Mx (ix3 (1 : Fin 2) s (0 : Fin 1))) (Lx (ix3 (1 : Fin 2) s (0 : Fin 1))) (Tx (ix3 (1 : Fin 2) s (0 : Fin 1)))
            * vd (ix2 s (0 : Fin 1)))
          (max (∑ s : Fin 2048, vd (ix2 s (0 : Fin 1))) (Ideal.ofBits .f32 0x3F800000#32)) := by
  unfold headT
  rw [hostDivf_apply, maximumf_apply, colSum_apply, colSum_apply]
  refine congrArg₂ Ideal.div (Finset.sum_congr rfl fun s _ => ?_) rfl
  simp only [mulf_apply, subf_apply, addf_apply, maximumf_apply, Host.log, Host.exp, Ideal.hostUnary_log_def,
    Ideal.hostUnary_exp_def, part0_apply, part1_apply, rowT]

def totalT (l0 l1 l2 : FVec Ideal ⟨0, ![]⟩ .f32) : FVec Ideal ⟨0, ![]⟩ .f32 :=
  addf l0 (mulf (constant ⟨0, ![]⟩ .f32 0x3E99999A#32)
    (Host.divf (addf (addf (constant ⟨0, ![]⟩ .f32 0x00000000#32) l1) l2) (constant ⟨0, ![]⟩ .f32 0x40000000#32)))

theorem totalT_apply (l0 l1 l2 : FVec Ideal ⟨0, ![]⟩ .f32) (j : (⟨0, ![]⟩ : Shape).Idx) :
    totalT l0 l1 l2 j = l0 j + Ideal.ofBits .f32 0x3E99999A#32
      * Ideal.div ((Ideal.ofBits .f32 0x00000000#32 + l1 j) + l2 j) (Ideal.ofBits .f32 0x40000000#32) := rfl

theorem roll_apply (n k : ℕ) (hnk : n + k = 2048) (v : IVec ⟨1, ![2048]⟩ 32)
    (h1 : (⟨1, ![2048]⟩ : Shape).Slices ![k] ⟨1, ![n]⟩) (h2 : (⟨1, ![2048]⟩ : Shape).Slices ![0] ⟨1, ![k]⟩)
    (h3 : Shape.Concatenates [(⟨1, ![n]⟩ : Shape), (⟨1, ![k]⟩ : Shape)] ⟨1, ![2048]⟩ 0) (s : Fin 2048) (hs : s.val < n) :
    concatenate ⟨1, ![2048]⟩ 0
        [⟨⟨1, ![n]⟩, extractStridedSlice ⟨1, ![n]⟩ ![k] v h1⟩, ⟨⟨1, ![k]⟩, extractStridedSlice ⟨1, ![k]⟩ ![0] v h2⟩] h3 (ix1 s)
      = v (ix1 ⟨s.val + k, by omega⟩) := by
  refine (concatenate_pair_apply_left 0 _ _ h3 (ix1 s) rfl (ix1 ⟨s.val, hs⟩) (fun b => match b with | ⟨0, _⟩ => rfl)).trans ?_
  exact extractStridedSlice_apply _ _ _ _ _ (fun a => match a with | ⟨0, _⟩ => Nat.add_comm _ _)

def maskT (bound : BitVec 32) (r : IVec ⟨1, ![2048]⟩ 32) : IVec ⟨1, ![2048]⟩ 1 :=
  andi (cmpi .slt (iotaInDim ⟨1, ![2048]⟩ 32 0) (broadcastInDim ⟨1, ![2048]⟩ ![] (by decide) (constantI ⟨0, ![]⟩ 32 bound)))
    (cmpi .ne r (broadcastInDim ⟨1, ![2048]⟩ ![] (by decide) (constantI ⟨0, ![]⟩ 32 4294967196#32)))

theorem maskT_apply (n : ℕ) (hn : n ≤ 2048) (r : IVec ⟨1, ![2048]⟩ 32) (s : Fin 2048) :
    maskT (BitVec.ofNat 32 n) r (ix1 s) = 1#1 ↔ s.val < n ∧ r (ix1 s) ≠ 4294967196#32 := by
  have hs := s.isLt
  show IntOp.andi (IntOp.cmpi .slt (BitVec.ofNat 32 s.val) (broadcastInDim _ _ _ _ (ix1 s)))
    (IntOp.cmpi .ne (r (ix1 s)) (broadcastInDim _ _ _ _ (ix1 s))) = 1#1 ↔ _
  rw [broadcastInDim_scalar_apply, broadcastInDim_scalar_apply, IntOp.andi_eq_one]
  show IntOp.cmpi .slt (BitVec.ofNat 32 s.val) (BitVec.ofNat 32 n) = 1#1 ∧ IntOp.cmpi .ne (r (ix1 s)) 4294967196#32 = 1#1 ↔ _
  refine and_congr ?_ ?_
  · unfold IntOp.cmpi
    exact StableHlo.Predicate.slt_ofNat_iff _ _ (by omega) (by omega)
  · unfold IntOp.cmpi
    rw [StableHlo.Predicate.ofBool_eq_one_iff]
    simp

def tgtT (bound : BitVec 32) (r : IVec ⟨1, ![2048]⟩ 32) : IVec ⟨2, ![2048, 1]⟩ 32 :=
  shapeCast ⟨2, ![2048, 1]⟩
    (select (maskT bound r) r (broadcastInDim ⟨1, ![2048]⟩ ![] (by decide) (id (constantI ⟨0, ![]⟩ 32 0#32)))) (by decide)

def vdT (bound : BitVec 32) (r : IVec ⟨1, ![2048]⟩ 32) : FVec Ideal ⟨2, ![2048, 1]⟩ .f32 :=
  uitofp .f32 (shapeCast ⟨2, ![2048, 1]⟩ (maskT bound r) (by decide))

theorem colCast_apply {α : Type} (x : (⟨1, ![2048]⟩ : Shape).Idx → α) (h : (⟨1, ![2048]⟩ : Shape).ShapeCasts ⟨2, ![2048, 1]⟩) (s : Fin 2048) :
    shapeCast ⟨2, ![2048, 1]⟩ x h (ix2 s (0 : Fin 1)) = x (ix1 s) :=
  shapeCast_apply x h _ _ (by
    rw [Shape.rowMajor_val_two, Shape.rowMajor_val_one]
    show s.val = s.val * 1 + 0
    omega)

theorem tgtT_apply (bound : BitVec 32) (r : IVec ⟨1, ![2048]⟩ 32) (s : Fin 2048) :
    tgtT bound r (ix2 s (0 : Fin 1)) = if maskT bound r (ix1 s) = 1#1 then r (ix1 s) else 0#32 := by
  unfold tgtT
  rw [colCast_apply, select_apply, broadcastInDim_scalar_apply]
  rfl

theorem vdT_apply (bound : BitVec 32) (r : IVec ⟨1, ![2048]⟩ 32) (s : Fin 2048) :
    vdT bound r (ix2 s (0 : Fin 1)) = if maskT bound r (ix1 s) = 1#1 then (1 : EReal) else 0 := by
  unfold vdT
  show (((shapeCast ⟨2, ![2048, 1]⟩ (maskT bound r) _ (ix2 s (0 : Fin 1))).toNat : ℝ) : EReal) = _
  rw [colCast_apply]
  rcases BitVec.eq_zero_or_eq_one (maskT bound r (ix1 s)) with h | h
  · rw [h]; simp
  · rw [h]; simp

def projT (P1 : FVec Ideal ⟨3, ![1, 1024, 1024]⟩ .f32) (x : FVec Ideal ⟨2, ![2048, 1024]⟩ .f32) : FVec Ideal ⟨2, ![2048, 1024]⟩ .f32 :=
  Host.dotGeneral (DotDims.plain 2048 1024 1024) none x
    (transpose ⟨2, ![1024, 1024]⟩ [1, 0] (shapeCast ⟨2, ![1024, 1024]⟩ P1 (by decide)) (by decide))

theorem projT_apply (P1 : FVec Ideal ⟨3, ![1, 1024, 1024]⟩ .f32) (x : FVec Ideal ⟨2, ![2048, 1024]⟩ .f32) (s : Fin 2048) (e : Fin 1024) :
    projT P1 x (ix2 s e) = ∑ d : Fin 1024, x (ix2 s d) * P1 (ix3 (0 : Fin 1) e d) := by
  unfold projT
  show FloatOps.dotGeneral (DotDims.plain 2048 1024 1024) none .single x _ (ix2 s e) = _
  rw [Cert.GNN.dotGeneral_plain_apply]
  refine Finset.sum_congr rfl fun d _ => congrArg (x (ix2 s d) * ·) ?_
  rw [transpose_ix2_apply, shapeCast_1ab_ab_apply]

end Cert.KernelIdeal.Hand.Host

end
-- ==== Proof.IdealHost.lean ====
import proofs.«413414_j14594298871876_1_alg».proof.Proof.Gen.KernelIdeal.Regions
import proofs.«413414_j14594298871876_1_alg».proof.Proof.Spec
import proofs.«413414_j14594298871876_1_alg».proof.Proof.IdealHostA
import Idealize.ShloMosaic.Lib.StableHlo.Run

set_option maxRecDepth 1704

noncomputable section

namespace Cert.KernelIdeal.Hand.Host

open Idealize.ShloMosaic Idealize.ShloMosaic.TcCoe Idealize.ShloMosaic.ValueIdx
open Cert.KernelIdeal Cert.KernelIdeal.Gen
open scoped BigOperators

variable (m : (ℓ : Loc nD τ sig) → Buf (Elt Ideal) ℓ)

abbrev args (c : Dev nD) : Cert.LossSpec.Args :=
  Cert.LossSpec.Args.ofArrays (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

abbrev X0 (c : Dev nD) : FVec Ideal S2048x1024 .f32 := shapeCast S2048x1024 (m ((c : Thread nD τ).loc main_arg0)) (by decide : S1x2048x1024.ShapeCasts S2048x1024)
abbrev TG (c : Dev nD) : IVec S2048 32 := shapeCast S2048 (m ((c : Thread nD τ).loc main_arg1)) (by decide : S1x2048.ShapeCasts S2048)

theorem X0_apply (c : Dev nD) (s : Fin 2048) (d : Fin 1024) : X0 m c (ix2 s d) = (args m c).x s d :=
  shapeCast_1ab_ab_apply _ _ s d
theorem TG_apply (c : Dev nD) (s : Fin 2048) : TG m c (ix1 s) = (args m c).tg s :=
  shapeCast_1a_a_apply _ _ s

theorem V1_v0 (c : Dev nD) : (V1 m c main_v0 : S2048x1024.Idx → EReal) = X0 m c := by
  unfold V1; after_results; all_goals rfl
theorem V1_v1 (c : Dev nD) : (V1 m c main_v1 : S2048.Idx → BitVec 32) = TG m c := by
  unfold V1; after_results; all_goals rfl

abbrev roll (n k : ℕ) (h1 : S2048.Slices ![k] ⟨1, ![n]⟩) (h2 : S2048.Slices ![0] ⟨1, ![k]⟩)
    (h3 : Shape.Concatenates [(⟨1, ![n]⟩ : Shape), (⟨1, ![k]⟩ : Shape)] S2048 0) (v : IVec S2048 32) : IVec S2048 32 :=
  concatenate S2048 0 [⟨⟨1, ![n]⟩, extractStridedSlice ⟨1, ![n]⟩ ![k] v h1⟩, ⟨⟨1, ![k]⟩, extractStridedSlice ⟨1, ![k]⟩ ![0] v h2⟩] h3
abbrev R1 : IVec S2048 32 → IVec S2048 32 := roll 2047 1 (by decide) (by decide) (by decide)
abbrev R2 : IVec S2048 32 → IVec S2048 32 := roll 2046 2 (by decide) (by decide) (by decide)
abbrev R3 : IVec S2048 32 → IVec S2048 32 := roll 2045 3 (by decide) (by decide) (by decide)

theorem tgt_spec (n k : ℕ) (hnk : n + k = 2048) (tg : Fin 2048 → BitVec 32) (r : IVec ⟨1, ![2048]⟩ 32)
    (hr : ∀ (s : Fin 2048) (hs : s.val + k < 2048), r (ix1 s) = tg ⟨s.val + k, hs⟩) (s : Fin 2048) :
    tgtT (BitVec.ofNat 32 n) r (ix2 s (0 : Fin 1)) = BitVec.ofNat 32 (Cert.LossSpec.safe tg k s)
      ∧ vdT (BitVec.ofNat 32 n) r (ix2 s (0 : Fin 1)) = if Cert.LossSpec.valid tg k s then 1 else 0 := by
  have hm : maskT (BitVec.ofNat 32 n) r (ix1 s) = 1#1 ↔ Cert.LossSpec.valid tg k s := by
    rw [maskT_apply n (by omega)]
    unfold Cert.LossSpec.valid Cert.LossSpec.tgtAt
    constructor
    · rintro ⟨h1, h2⟩
      have hs : s.val + k < 2048 := by omega
      refine ⟨hs, ?_⟩
      rw [dif_pos hs, ← hr s hs]; exact h2
    · rintro ⟨hs, h2⟩
      rw [dif_pos hs, ← hr s hs] at h2
      exact ⟨by omega, h2⟩
  rw [tgtT_apply, vdT_apply]
  by_cases hv : Cert.LossSpec.valid tg k s
  · rw [if_pos (hm.mpr hv), if_pos (hm.mpr hv), if_pos hv]
    refine ⟨?_, rfl⟩
    unfold Cert.LossSpec.safe; rw [if_pos hv]
    unfold Cert.LossSpec.tgtAt; rw [dif_pos hv.1, ← hr s hv.1]
    simp
  · rw [if_neg (mt hm.mp hv), if_neg (mt hm.mp hv), if_neg hv]
    refine ⟨?_, rfl⟩
    unfold Cert.LossSpec.safe; rw [if_neg hv]

def Vn (outs : Outs (F := Ideal)) (c : Dev nD) : ℕ → Valuation τ sig (Elt Ideal)
  | 0 => V0 m c | 1 => V1 m c | 2 => V2 m c | 3 => V3 m c | 4 => V4 m c | 5 => V5 m c | 6 => V6 m outs c
  | 7 => V7 m outs c | 8 => V8 m outs c | 9 => V9 m outs c | 10 => V10 m outs c | 11 => V11 m outs c | 12 => V12 m outs c
  | 13 => V13 m outs c | 14 => V14 m outs c | 15 => V15 m outs c | 16 => V16 m outs c | 17 => V17 m outs c | 18 => V18 m outs c
  | _ => V19 m outs c

noncomputable def Wn : ℕ → List (Ref sig .tc)
  | 0 => hostOps0_W | 1 => hostOps0_1_W | 2 => hostOps0_2_W | 3 => hostOps0_3_W | 4 => hostOps0_4_W
  | 5 => [main_v27_0, main_v27_1, main_v27_2, main_v27_3]
  | 6 => hostOps1_W | 7 => hostOps1_1_W | 8 => hostOps1_2_W | 9 => hostOps1_3_W | 10 => hostOps1_4_W
  | 11 => [main_v94_0, main_v94_1, main_v94_2]
  | 12 => hostOps2_W | 13 => hostOps2_1_W | 14 => hostOps2_2_W | 15 => hostOps2_3_W | 16 => hostOps2_4_W
  | 17 => [main_v161_0, main_v161_1, main_v161_2]
  | 18 => hostOps3_W | _ => []

theorem Vn_succ (outs : Outs (F := Ideal)) (c : Dev nD) (b : Ref sig .tc) : ∀ j, b ∉ Wn j → Vn m outs c (j + 1) b = Vn m outs c j b
  | 0 => V1_of m c b | 1 => V2_of m c b | 2 => V3_of m c b | 3 => V4_of m c b | 4 => V5_of m c b | 5 => V6_of m outs c b
  | 6 => V7_of m outs c b | 7 => V8_of m outs c b | 8 => V9_of m outs c b | 9 => V10_of m outs c b | 10 => V11_of m outs c b
  | 11 => V12_of m outs c b | 12 => V13_of m outs c b | 13 => V14_of m outs c b | 14 => V15_of m outs c b | 15 => V16_of m outs c b
  | 16 => V17_of m outs c b | 17 => V18_of m outs c b | 18 => V19_of m outs c b | _ + 19 => fun _ => rfl

/-- A reference outside the write sets of steps i, …, i + n - 1 has the same value in valuation i + n as in valuation i. -/
theorem keep (outs : Outs (F := Ideal)) (c : Dev nD) (b : Ref sig .tc) (i : ℕ) : ∀ n, (∀ k < n, b ∉ Wn (i + k)) → Vn m outs c (i + n) b = Vn m outs c i b
  | 0, _ => rfl
  | n + 1, h => (Vn_succ m outs c b (i + n) (h n n.lt_succ_self)).trans (keep outs c b i n fun k hk => h k (Nat.lt_succ_of_lt hk))

theorem tgtvd0 (c : Dev nD) :
    (V5 m c main_v24 : S2048x1.Idx → BitVec 32) = tgtT 2047#32 (R1 (TG m c))
      ∧ (V5 m c main_v26 : S2048x1.Idx → EReal) = vdT 2047#32 (R1 (TG m c)) := by
  have hio : (V1 m c main_v16 : S2048.Idx → BitVec 32) = iotaInDim ⟨1, ![2048]⟩ 32 0 := by
    unfold V1; after_results; all_goals rfl
  have h1 : (V1 m c main_v1 : S2048.Idx → BitVec 32) = TG m c := V1_v1 m c
  unfold tgtT vdT maskT V5 V4 V3 V2
  rw [← hio, ← h1]
  generalize V1 m c = W
  constructor <;> after_results_simp <;> rfl

/-- The shifted words at a row with k rows below it are the target k places ahead, so the column and its mask are the specification's. -/
theorem tgt_mask (n k : ℕ) (hnk : n + k = 2048) (c : Dev nD) (h1 : S2048.Slices ![k] ⟨1, ![n]⟩) (h2 : S2048.Slices ![0] ⟨1, ![k]⟩)
    (h3 : Shape.Concatenates [(⟨1, ![n]⟩ : Shape), (⟨1, ![k]⟩ : Shape)] S2048 0) (s : Fin 2048) :
    tgtT (BitVec.ofNat 32 n) (roll n k h1 h2 h3 (TG m c)) (ix2 s (0 : Fin 1)) = BitVec.ofNat 32 (Cert.LossSpec.safe (args m c).tg k s)
      ∧ vdT (BitVec.ofNat 32 n) (roll n k h1 h2 h3 (TG m c)) (ix2 s (0 : Fin 1)) = if Cert.LossSpec.valid (args m c).tg k s then 1 else 0 :=
  tgt_spec n k hnk (args m c).tg _ (fun s hs => (roll_apply n k hnk (TG m c) h1 h2 h3 s (by omega)).trans (TG_apply m c _)) s

theorem tgt0 (c : Dev nD) (s : Fin 2048) :
    (V5 m c main_v24 : S2048x1.Idx → BitVec 32) (ix2 s (0 : Fin 1)) = BitVec.ofNat 32 (Cert.LossSpec.safe (args m c).tg 1 s) := by
  rw [(tgtvd0 m c).1]
  exact (tgt_mask m 2047 1 rfl c _ _ _ s).1
theorem mask0 (c : Dev nD) (s : Fin 2048) :
    (V5 m c main_v26 : S2048x1.Idx → EReal) (ix2 s (0 : Fin 1)) = if Cert.LossSpec.valid (args m c).tg 1 s then (1 : EReal) else 0 := by
  rw [(tgtvd0 m c).2]
  exact (tgt_mask m 2047 1 rfl c _ _ _ s).2

theorem normed0 (c : Dev nD) (s : Fin 2048) (d : Fin 1024) :
    (V5 m c main_v15 : S2048x1024.Idx → EReal) (ix2 s d) = Cert.LossSpec.rms (args m c).x (args m c).g0 s d := by
  have e : (V5 m c main_v15 : S2048x1024.Idx → EReal) = rmsT (X0 m c) (m ((c : Thread nD τ).loc main_arg3)) :=
    (keep m (fun _ r c => m _) c main_v15 1 4 (by decide)).trans (show V1 m c main_v15 = _ by unfold V1; after_results; all_goals rfl)
  rw [e, rmsT_apply]
  simp only [X0_apply]
  rfl

theorem weights0 (c : Dev nD) : V5 m c main_arg2 = m ((c : Thread nD τ).loc main_arg2) :=
  keep m (fun _ r c => m _) c main_arg2 0 5 (by decide)

/-- Normalising the rows projected through matrix i of the stack with gain i of the stack is the specification's normalised projection. -/
theorem normed_spec (c : Dev nD) (o : ℕ) (i : Fin 2) (hi : i.val = o) (h4 : S2x1024x1024.Slices ![o, 0, 0] S1x1024x1024) (h5 : S2x1024.Slices ![o, 0] S1x1024)
    (s : Fin 2048) (d : Fin 1024) :
    rmsT (projT (extractStridedSlice S1x1024x1024 ![o, 0, 0] (m ((c : Thread nD τ).loc main_arg4)) h4) (X0 m c))
        (shapeCast S1024 (extractStridedSlice S1x1024 ![o, 0] (m ((c : Thread nD τ).loc main_arg5)) h5) (by decide : S1x1024.ShapeCasts S1024)) (ix2 s d)
      = Cert.LossSpec.rms (Cert.LossSpec.proj (args m c).x ((args m c).P i)) ((args m c).G i) s d := by
  rw [rmsT_apply]
  have hp : ∀ e : Fin 1024,
      projT (extractStridedSlice S1x1024x1024 ![o, 0, 0] (m ((c : Thread nD τ).loc main_arg4)) h4) (X0 m c) (ix2 s e)
        = Cert.LossSpec.proj (args m c).x ((args m c).P i) s e := fun e => by
    rw [projT_apply]
    refine Finset.sum_congr rfl fun d' _ => ?_
    rw [slice3_lead o _ _ i hi, X0_apply]
    rfl
  simp only [hp]
  rw [shapeCast_1a_a_apply, slice2_lead o _ _ i hi]
  rfl

/-- Matrix i of the stacked output weights, read at an entry. -/
theorem weights_spec (c : Dev nD) (o : ℕ) (i : Fin 2) (hi : i.val = o) (h : S2x50257x1024.Slices ![o, 0, 0] S1x50257x1024) (v : Fin 50257) (d : Fin 1024) :
    shapeCast S50257x1024 (extractStridedSlice S1x50257x1024 ![o, 0, 0] (m ((c : Thread nD τ).loc main_arg6)) h) (by decide : S1x50257x1024.ShapeCasts S50257x1024) (ix2 v d)
      = (args m c).Wa i v d := by
  rw [shapeCast_1ab_ab_apply, slice3_lead o _ _ i hi]
  rfl

theorem tgtvd1 (outs : Outs (F := Ideal)) (c : Dev nD) :
    (V11 m outs c main_v89 : S2048x1.Idx → BitVec 32) = tgtT 2046#32 (R2 (TG m c))
      ∧ (V11 m outs c main_v91 : S2048x1.Idx → EReal) = vdT 2046#32 (R2 (TG m c)) := by
  have hio : (V7 m outs c main_v81 : S2048.Idx → BitVec 32) = iotaInDim ⟨1, ![2048]⟩ 32 0 := by
    unfold V7; generalize V6 m outs c = W; after_results; all_goals rfl
  have h1 : (V7 m outs c main_v1 : S2048.Idx → BitVec 32) = TG m c := (keep m outs c main_v1 1 6 (by decide)).trans (V1_v1 m c)
  unfold tgtT vdT maskT V11 V10 V9 V8
  rw [← hio, ← h1]
  generalize V7 m outs c = W
  constructor <;> after_results_simp <;> rfl

theorem tgt1 (outs : Outs (F := Ideal)) (c : Dev nD) (s : Fin 2048) :
    (V11 m outs c main_v89 : S2048x1.Idx → BitVec 32) (ix2 s (0 : Fin 1)) = BitVec.ofNat 32 (Cert.LossSpec.safe (args m c).tg 2 s) := by
  rw [(tgtvd1 m outs c).1]
  exact (tgt_mask m 2046 2 rfl c _ _ _ s).1
theorem mask1 (outs : Outs (F := Ideal)) (c : Dev nD) (s : Fin 2048) :
    (V11 m outs c main_v91 : S2048x1.Idx → EReal) (ix2 s (0 : Fin 1)) = if Cert.LossSpec.valid (args m c).tg 2 s then (1 : EReal) else 0 := by
  rw [(tgtvd1 m outs c).2]
  exact (tgt_mask m 2046 2 rfl c _ _ _ s).2

theorem normed1 (outs : Outs (F := Ideal)) (c : Dev nD) (s : Fin 2048) (d : Fin 1024) :
    (V11 m outs c main_v80 : S2048x1024.Idx → EReal) (ix2 s d)
      = Cert.LossSpec.rms (Cert.LossSpec.proj (args m c).x ((args m c).P 0)) ((args m c).G 0) s d := by
  rw [show V11 m outs c main_v80 = V7 m outs c main_v80 from keep m outs c main_v80 7 4 (by decide),
    ← normed_spec m c 0 0 rfl (by decide) (by decide) s d,
    ← show (V6 m outs c main_v0 : S2048x1024.Idx → EReal) = X0 m c from (keep m outs c main_v0 1 5 (by decide)).trans (V1_v0 m c),
    ← show V6 m outs c main_arg4 = m ((c : Thread nD τ).loc main_arg4) from keep m outs c main_arg4 0 6 (by decide),
    ← show V6 m outs c main_arg5 = m ((c : Thread nD τ).loc main_arg5) from keep m outs c main_arg5 0 6 (by decide)]
  unfold V7; generalize V6 m outs c = W; after_results_simp <;> rfl

theorem weights1 (outs : Outs (F := Ideal)) (c : Dev nD) (v : Fin 50257) (d : Fin 1024) :
    (V11 m outs c main_v93 : S50257x1024.Idx → EReal) (ix2 v d) = (args m c).Wa 0 v d := by
  rw [← weights_spec m c 0 0 rfl (by decide) v d,
    ← show V10 m outs c main_arg6 = m ((c : Thread nD τ).loc main_arg6) from keep m outs c main_arg6 0 10 (by decide)]
  unfold V11; generalize V10 m outs c = W; after_results; all_goals rfl

theorem tgtvd2 (outs : Outs (F := Ideal)) (c : Dev nD) :
    (V17 m outs c main_v156 : S2048x1.Idx → BitVec 32) = tgtT 2045#32 (R3 (TG m c))
      ∧ (V17 m outs c main_v158 : S2048x1.Idx → EReal) = vdT 2045#32 (R3 (TG m c)) := by
  have hio : (V13 m outs c main_v148 : S2048.Idx → BitVec 32) = iotaInDim ⟨1, ![2048]⟩ 32 0 := by
    unfold V13; generalize V12 m outs c = W; after_results; all_goals rfl
  have h1 : (V13 m outs c main_v1 : S2048.Idx → BitVec 32) = TG m c := (keep m outs c main_v1 1 12 (by decide)).trans (V1_v1 m c)
  unfold tgtT vdT maskT V17 V16 V15 V14
  rw [← hio, ← h1]
  generalize V13 m outs c = W
  constructor <;> after_results_simp <;> rfl

theorem tgt2 (outs : Outs (F := Ideal)) (c : Dev nD) (s : Fin 2048) :
    (V17 m outs c main_v156 : S2048x1.Idx → BitVec 32) (ix2 s (0 : Fin 1)) = BitVec.ofNat 32 (Cert.LossSpec.safe (args m c).tg 3 s) := by
  rw [(tgtvd2 m outs c).1]
  exact (tgt_mask m 2045 3 rfl c _ _ _ s).1
theorem mask2 (outs : Outs (F := Ideal)) (c : Dev nD) (s : Fin 2048) :
    (V17 m outs c main_v158 : S2048x1.Idx → EReal) (ix2 s (0 : Fin 1)) = if Cert.LossSpec.valid (args m c).tg 3 s then (1 : EReal) else 0 := by
  rw [(tgtvd2 m outs c).2]
  exact (tgt_mask m 2045 3 rfl c _ _ _ s).2

theorem normed2 (outs : Outs (F := Ideal)) (c : Dev nD) (s : Fin 2048) (d : Fin 1024) :
    (V17 m outs c main_v147 : S2048x1024.Idx → EReal) (ix2 s d)
      = Cert.LossSpec.rms (Cert.LossSpec.proj (args m c).x ((args m c).P 1)) ((args m c).G 1) s d := by
  rw [show V17 m outs c main_v147 = V13 m outs c main_v147 from keep m outs c main_v147 13 4 (by decide),
    ← normed_spec m c 1 1 rfl (by decide) (by decide) s d,
    ← show (V12 m outs c main_v0 : S2048x1024.Idx → EReal) = X0 m c from (keep m outs c main_v0 1 11 (by decide)).trans (V1_v0 m c),
    ← show V12 m outs c main_arg4 = m ((c : Thread nD τ).loc main_arg4) from keep m outs c main_arg4 0 12 (by decide),
    ← show V12 m outs c main_arg5 = m ((c : Thread nD τ).loc main_arg5) from keep m outs c main_arg5 0 12 (by decide)]
  unfold V13; generalize V12 m outs c = W; after_results_simp <;> rfl

theorem weights2 (outs : Outs (F := Ideal)) (c : Dev nD) (v : Fin 50257) (d : Fin 1024) :
    (V17 m outs c main_v160 : S50257x1024.Idx → EReal) (ix2 v d) = (args m c).Wa 1 v d := by
  rw [← weights_spec m c 1 1 rfl (by decide) v d,
    ← show V16 m outs c main_arg6 = m ((c : Thread nD τ).loc main_arg6) from keep m outs c main_arg6 0 16 (by decide)]
  unfold V17; generalize V16 m outs c = W; after_results; all_goals rfl

theorem V6_at (outs : Outs (F := Ideal)) (c : Dev nD) (r : Ref sig .tc) (h : r ∈ ([main_v27_0, main_v27_1, main_v27_2, main_v27_3] : List (Ref sig .tc))) :
    V6 m outs c r = outs 6 r c := by
  simp only [List.mem_cons, List.mem_nil_iff, or_false] at h
  rcases h with rfl | rfl | rfl | rfl <;> simp (disch := decide) only [V6, Function.update_of_ne, Function.update_self]
theorem V12_at (outs : Outs (F := Ideal)) (c : Dev nD) (r : Ref sig .tc) (h : r ∈ ([main_v94_0, main_v94_1, main_v94_2] : List (Ref sig .tc))) :
    V12 m outs c r = outs 12 r c := by
  simp only [List.mem_cons, List.mem_nil_iff, or_false] at h
  rcases h with rfl | rfl | rfl <;> simp (disch := decide) only [V12, Function.update_of_ne, Function.update_self]
theorem V18_at (outs : Outs (F := Ideal)) (c : Dev nD) (r : Ref sig .tc) (h : r ∈ ([main_v161_0, main_v161_1, main_v161_2] : List (Ref sig .tc))) :
    V18 m outs c r = outs 18 r c := by
  simp only [List.mem_cons, List.mem_nil_iff, or_false] at h
  rcases h with rfl | rfl | rfl <;> simp (disch := decide) only [V18, Function.update_of_ne, Function.update_self]

theorem logits (outs : Outs (F := Ideal)) (c : Dev nD) (s : Fin 2048) (v : Fin 50257) :
    (V19 m outs c main_v200 : S1x2048x50257.Idx → EReal) (ix3 (0 : Fin 1) s v) = (outs 6 main_v27_0 c : S2048x50257.Idx → EReal) (ix2 s v) := by
  have e : (V19 m outs c main_v200 : S1x2048x50257.Idx → EReal)
      = broadcastInDim S1x2048x50257 ![1, 2] (by decide) (V18 m outs c main_v27_0) := by
    unfold V19; generalize V18 m outs c = W; after_results_simp <;> rfl
  rw [show V18 m outs c main_v27_0 = outs 6 main_v27_0 c from (keep m outs c main_v27_0 6 12 (by decide)).trans (V6_at m outs c _ (by decide))] at e
  rw [e]
  exact broadcastInDim_apply _ _ _ (ix3 (0 : Fin 1) s v) (ix2 s v) (fun a => match a with | ⟨0, _⟩ => rfl | ⟨1, _⟩ => rfl)

abbrev part (X : S2x2048x1.Idx → EReal) : Fin 2 → Fin 2048 → EReal := fun cc s => X (ix3 cc s (0 : Fin 1))
abbrev col (X : S2048x1.Idx → EReal) : Fin 2048 → EReal := fun s => X (ix2 s (0 : Fin 1))

theorem head0_term (outs : Outs (F := Ideal)) (c : Dev nD) :
    (V7 m outs c main_v60 : S_.Idx → EReal)
      = headT (outs 6 main_v27_1 c) (outs 6 main_v27_2 c) (outs 6 main_v27_3 c) (V5 m c main_v26) := by
  rw [← V6_at m outs c main_v27_1 (by decide), ← V6_at m outs c main_v27_2 (by decide), ← V6_at m outs c main_v27_3 (by decide), ← V6_of m outs c main_v26 (by decide)]
  unfold V7; generalize V6 m outs c = W; after_results_simp <;> rfl
theorem head1_term (outs : Outs (F := Ideal)) (c : Dev nD) :
    (V13 m outs c main_v127 : S_.Idx → EReal)
      = headT (outs 12 main_v94_0 c) (outs 12 main_v94_1 c) (outs 12 main_v94_2 c) (V11 m outs c main_v91) := by
  rw [← V12_at m outs c main_v94_0 (by decide), ← V12_at m outs c main_v94_1 (by decide), ← V12_at m outs c main_v94_2 (by decide), ← V12_of m outs c main_v91 (by decide)]
  unfold V13; generalize V12 m outs c = W; after_results_simp <;> rfl
set_option maxHeartbeats 4000000 in
theorem total_term (outs : Outs (F := Ideal)) (c : Dev nD) :
    (V19 m outs c main_v199 : S_.Idx → EReal)
      = totalT (V7 m outs c main_v60) (V13 m outs c main_v127)
          (headT (outs 18 main_v161_0 c) (outs 18 main_v161_1 c) (outs 18 main_v161_2 c) (V17 m outs c main_v158)) := by
  rw [← show V18 m outs c main_v60 = V7 m outs c main_v60 from keep m outs c main_v60 7 11 (by decide),
    ← show V18 m outs c main_v127 = V13 m outs c main_v127 from keep m outs c main_v127 13 5 (by decide),
    ← V18_at m outs c main_v161_0 (by decide), ← V18_at m outs c main_v161_1 (by decide), ← V18_at m outs c main_v161_2 (by decide), ← V18_of m outs c main_v158 (by decide)]
  unfold V19; generalize V18 m outs c = W; after_results_simp <;> rfl

theorem loss (outs : Outs (F := Ideal)) (c : Dev nD) :
    (V19 m outs c main_v199 : S_.Idx → EReal) ix0
      = Cert.LossSpec.total
          (Cert.LossSpec.hostHead (part (outs 6 main_v27_1 c)) (part (outs 6 main_v27_2 c)) (part (outs 6 main_v27_3 c)) (col (V5 m c main_v26)))
          (Cert.LossSpec.hostHead (part (outs 12 main_v94_0 c)) (part (outs 12 main_v94_1 c)) (part (outs 12 main_v94_2 c)) (col (V11 m outs c main_v91)))
          (Cert.LossSpec.hostHead (part (outs 18 main_v161_0 c)) (part (outs 18 main_v161_1 c)) (part (outs 18 main_v161_2 c)) (col (V17 m outs c main_v158))) := by
  rw [total_term, head0_term, head1_term, totalT_apply, headT_apply, headT_apply, headT_apply]
  rfl

end Cert.KernelIdeal.Hand.Host

end
-- ==== Proof.IdealRegions.lean ====
import proofs.«413414_j14594298871876_1_alg».proof.Proof.IdealLaunch
import proofs.«413414_j14594298871876_1_alg».proof.Proof.IdealData0
import proofs.«413414_j14594298871876_1_alg».proof.Proof.IdealData1
import proofs.«413414_j14594298871876_1_alg».proof.Proof.IdealData2
import proofs.«413414_j14594298871876_1_alg».proof.Proof.IdealHost
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

variable (m : (ℓ : Loc nD τ sig) → Buf (Elt Ideal) ℓ)

abbrev Vin0 : (c : Dev nD) → (b : Ref sig .tc) → Buf (Elt Ideal) ((c : Thread nD τ).loc b) := fun c b => V5 m c b

def W6 (c : Dev nD) : Valuation τ sig (Elt Ideal) :=
  Pipeline.withArrays spec0 c (V5 m c) fun w => (dat0 (Vin0 m) c).arrAt w cfg0.N

theorem W6_arr (c : Dev nD) (w : Fin cfg0.W) : W6 m c (Proc.devRef .tc (Pipeline.arrRef spec0 w)) = (dat0 (Vin0 m) c).arrAt w cfg0.N := by
  unfold W6; exact Pipeline.withArrays_arr spec0 launch0.win.arr_inj c _ _ w

def outsA : Outs (F := Ideal) := fun _ r c => W6 m c r

abbrev Vin1A : (c : Dev nD) → (b : Ref sig .tc) → Buf (Elt Ideal) ((c : Thread nD τ).loc b) := fun c b => V11 m (outsA m) c b

def W12 (c : Dev nD) : Valuation τ sig (Elt Ideal) :=
  Pipeline.withArrays spec1 c (V11 m (outsA m) c) fun w => (dat1 (Vin1A m) c).arrAt w cfg1.N

theorem W12_arr (c : Dev nD) (w : Fin cfg1.W) : W12 m c (Proc.devRef .tc (Pipeline.arrRef spec1 w)) = (dat1 (Vin1A m) c).arrAt w cfg1.N := by
  unfold W12; exact Pipeline.withArrays_arr spec1 launch1.win.arr_inj c _ _ w

def outsB : Outs (F := Ideal) := fun J => match J with
  | 6 => fun r c => W6 m c r
  | _ => fun r c => W12 m c r

abbrev Vin2B : (c : Dev nD) → (b : Ref sig .tc) → Buf (Elt Ideal) ((c : Thread nD τ).loc b) := fun c b => V17 m (outsB m) c b

def W18 (c : Dev nD) : Valuation τ sig (Elt Ideal) :=
  Pipeline.withArrays spec2 c (V17 m (outsB m) c) fun w => (dat2 (Vin2B m) c).arrAt w cfg2.N

theorem W18_arr (c : Dev nD) (w : Fin cfg2.W) : W18 m c (Proc.devRef .tc (Pipeline.arrRef spec2 w)) = (dat2 (Vin2B m) c).arrAt w cfg2.N := by
  unfold W18; exact Pipeline.withArrays_arr spec2 launch2.win.arr_inj c _ _ w

def outsX : Outs (F := Ideal) := fun J => match J with
  | 6 => fun r c => W6 m c r
  | 12 => fun r c => W12 m c r
  | _ => fun r c => W18 m c r

abbrev Vin1 : (c : Dev nD) → (b : Ref sig .tc) → Buf (Elt Ideal) ((c : Thread nD τ).loc b) := fun c b => V11 m (outsX m) c b
abbrev Vin2 : (c : Dev nD) → (b : Ref sig .tc) → Buf (Elt Ideal) ((c : Thread nD τ).loc b) := fun c b => V17 m (outsX m) c b

theorem outs6_0 (c : Dev nD) : outsX m 6 main_v27_0 c = (dat0 (Vin0 m) c).arrAt 3 cfg0.N := W6_arr m c 3
theorem outs6_1 (c : Dev nD) : outsX m 6 main_v27_1 c = (dat0 (Vin0 m) c).arrAt 4 cfg0.N := W6_arr m c 4
theorem outs6_2 (c : Dev nD) : outsX m 6 main_v27_2 c = (dat0 (Vin0 m) c).arrAt 5 cfg0.N := W6_arr m c 5
theorem outs6_3 (c : Dev nD) : outsX m 6 main_v27_3 c = (dat0 (Vin0 m) c).arrAt 6 cfg0.N := W6_arr m c 6
theorem outs12_0 (c : Dev nD) : outsX m 12 main_v94_0 c = (dat1 (Vin1 m) c).arrAt 3 cfg1.N := W12_arr m c 3
theorem outs12_1 (c : Dev nD) : outsX m 12 main_v94_1 c = (dat1 (Vin1 m) c).arrAt 4 cfg1.N := W12_arr m c 4
theorem outs12_2 (c : Dev nD) : outsX m 12 main_v94_2 c = (dat1 (Vin1 m) c).arrAt 5 cfg1.N := W12_arr m c 5
theorem outs18_0 (c : Dev nD) : outsX m 18 main_v161_0 c = (dat2 (Vin2 m) c).arrAt 3 cfg2.N := W18_arr m c 3
theorem outs18_1 (c : Dev nD) : outsX m 18 main_v161_1 c = (dat2 (Vin2 m) c).arrAt 4 cfg2.N := W18_arr m c 4
theorem outs18_2 (c : Dev nD) : outsX m 18 main_v161_2 c = (dat2 (Vin2 m) c).arrAt 5 cfg2.N := W18_arr m c 5

theorem V6_out (c : Dev nD) : ∀ w : Fin cfg0.W, (cfg0.win w).isOut = true → (dat0 (Vin0 m) c).arrAt w cfg0.N = V6 m (outsX m) c (Pipeline.arrRef spec0 w)
  | ⟨0, _⟩ | ⟨1, _⟩ | ⟨2, _⟩ => fun h => (Bool.false_ne_true h).elim
  | ⟨3, _⟩ => fun _ => (outs6_0 m c).symm.trans (Host.V6_at m (outsX m) c main_v27_0 (by decide)).symm
  | ⟨4, _⟩ => fun _ => (outs6_1 m c).symm.trans (Host.V6_at m (outsX m) c main_v27_1 (by decide)).symm
  | ⟨5, _⟩ => fun _ => (outs6_2 m c).symm.trans (Host.V6_at m (outsX m) c main_v27_2 (by decide)).symm
  | ⟨6, _⟩ => fun _ => (outs6_3 m c).symm.trans (Host.V6_at m (outsX m) c main_v27_3 (by decide)).symm

theorem V12_out (c : Dev nD) : ∀ w : Fin cfg1.W, (cfg1.win w).isOut = true → (dat1 (Vin1 m) c).arrAt w cfg1.N = V12 m (outsX m) c (Pipeline.arrRef spec1 w)
  | ⟨0, _⟩ | ⟨1, _⟩ | ⟨2, _⟩ => fun h => (Bool.false_ne_true h).elim
  | ⟨3, _⟩ => fun _ => (outs12_0 m c).symm.trans (Host.V12_at m (outsX m) c main_v94_0 (by decide)).symm
  | ⟨4, _⟩ => fun _ => (outs12_1 m c).symm.trans (Host.V12_at m (outsX m) c main_v94_1 (by decide)).symm
  | ⟨5, _⟩ => fun _ => (outs12_2 m c).symm.trans (Host.V12_at m (outsX m) c main_v94_2 (by decide)).symm

theorem V18_out (c : Dev nD) : ∀ w : Fin cfg2.W, (cfg2.win w).isOut = true → (dat2 (Vin2 m) c).arrAt w cfg2.N = V18 m (outsX m) c (Pipeline.arrRef spec2 w)
  | ⟨0, _⟩ | ⟨1, _⟩ | ⟨2, _⟩ => fun h => (Bool.false_ne_true h).elim
  | ⟨3, _⟩ => fun _ => (outs18_0 m c).symm.trans (Host.V18_at m (outsX m) c main_v161_0 (by decide)).symm
  | ⟨4, _⟩ => fun _ => (outs18_1 m c).symm.trans (Host.V18_at m (outsX m) c main_v161_1 (by decide)).symm
  | ⟨5, _⟩ => fun _ => (outs18_2 m c).symm.trans (Host.V18_at m (outsX m) c main_v161_2 (by decide)).symm

def pdats : (p : Fin 3) → (c : Dev nD) → Dat τ (Elt Ideal) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem sep_in {P Q S : sProp 𝕄} : iprop(P ∗ Q ∗ S) ⊢ iprop(S ∗ P) := by
  iintro ⟨Hp, -, Hr⟩
  isplitl [Hr]; · iexact Hr
  iexact Hp

theorem sep_out {P S : sProp 𝕄} : iprop(S ∗ P) ⊢ iprop(P ∗ BI.emp ∗ S) := by
  iintro ⟨Hr, Hp⟩
  isplitl [Hp]; · iexact Hp
  isplitr; · iempintro
  iexact Hr

set_option backward.isDefEq.respectTransparency.types false in
/-- One record for the three regions: Vo has the data's final contents at the region's arrays and equals Vi off the list O. -/
def mkReg (p : Fin 3) (lf : Pipeline.LaunchFacts (nD := nD) (τ := τ) cfgs p) (Vi Vo : Dev nD → Valuation τ sig (Elt Ideal))
    (hb : ∀ c, BodyObligationLoose (pdats m p c) defs₀ Variants.none () Set.univ)
    (howed : ∀ c t, (pdats m p c).owed t = 0) (hrec : ∀ c, (pdats m p c).recorded 0 = Set.univ)
    (hq : ∀ c w, (pdats m p c).q w = fullShare)
    (hA : ∀ c w, (pdats m p c).A w = Vi c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (O : List (Ref sig .tc)) (hof : ∀ c (b : Ref sig .tc), b ∉ O → Vo c b = Vi c b) (hO : ∀ b ∈ O, b ∈ Finset.univ.image (Pipeline.arrRef (cfgs p).spec))
    (hinO : ∀ w, ((cfgs p).win w).isOut = false → Pipeline.arrRef (cfgs p).spec w ∉ O)
    (houtO : ∀ c w, ((cfgs p).win w).isOut = true → (pdats m p c).arrAt w (cfgs p).N = Vo c (Pipeline.arrRef (cfgs p).spec w)) :
    Pipeline.RegionSeg (pcfgs (F := Ideal)) adm (pdats m) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := Ideal)) adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl ((hrec c).symm ▸ Set.mem_univ x)
      iexact HO
    isplitl [Hp]; · iexact Hp
    iexact Hrest
  hin c := sep_in.trans (hin c)
  hout c := by rw [Pipeline.ownSems0_none]; exact (hout c).trans sep_out
  hexit c := by
    have hjoin := Pipeline.unscopedBufs_of_arrays (p := p) (pcfgs (F := Ideal)) adm (Ix := Unit) (Name := ℕ) (U := UR sig nD τ) (Lvl := ℕ)
      lf.win lf.arr_whole c (pdats m) ((pdats m p c).share_full (hq c))
      (fun b => Vi c b) (fun b => Vo c b) ((pdats m p c).arrAt · (cfgs p).N) (fun w => if h : ((cfgs p).win w).isOut = false then ((pdats m p c).arrAt_in w h _).trans ((hA c w).trans (hof c _ (hinO w h)).symm)
        else houtO c w (eq_true_of_ne_false h)) fun b hb => hof c b fun h => hb (hO b h)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
theorem kernel_run (ρ : Dev nD → PrngReg)
    (hb0 : ∀ c, BodyObligationLoose (dat0 (Vin0 m) c) defs₀ Variants.none () Set.univ)
    (hb1 : ∀ c, BodyObligationLoose (dat1 (Vin1 m) c) defs₀ Variants.none () Set.univ)
    (hb2 : ∀ c, BodyObligationLoose (dat2 (Vin2 m) c) defs₀ Variants.none () Set.univ) :
    θ_run defs (onTc (τ := τ) (main (F := Ideal))) ⟨m, fun _ => 0, ρ⟩ (fun r => ∀ c : Dev nD,
      r.2.mem ((c.tc : Thread nD τ).loc main_v200) = V19 m (outsX m) c main_v200
      ∧ r.2.mem ((c.tc : Thread nD τ).loc main_v199) = V19 m (outsX m) c main_v199
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_cond m (emb₁ : Emb _ 𝕄) () Variants.none L lv (fun _ _ => rfl) ρ (outsX m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (mkReg m 0 launch0 (V5 m) (V6 m (outsX m)) hb0 (fun _ _ => rfl) (fun _ => rfl) (fun _ _ => rfl) (A_eq (Vin0 m)) (hin0 (Vin0 m)) (hout0 (Vin0 m)) _ (V6_of m (outsX m)) (by decide) (by decide) (V6_out m)) (fun _ => .rfl) (fun _ => .rfl)
    (mkReg m 1 launch1 (V11 m (outsX m)) (V12 m (outsX m)) hb1 (fun _ _ => rfl) (fun _ => rfl) (fun _ _ => rfl) (A_eq1 (Vin1 m)) (hin1 (Vin1 m)) (hout1 (Vin1 m)) _ (V12_of m (outsX m)) (by decide) (by decide) (V12_out m)) (fun _ => .rfl) (fun _ => .rfl)
    (mkReg m 2 launch2 (V17 m (outsX m)) (V18 m (outsX m)) hb2 (fun _ _ => rfl) (fun _ => rfl) (fun _ _ => rfl) (A_eq2 (Vin2 m)) (hin2 (Vin2 m)) (hout2 (Vin2 m)) _ (V18_of m (outsX m)) (by decide) (by decide) (V18_out m)) (fun _ => .rfl) (fun _ => .rfl)

end Cert.KernelIdeal.Hand

end
-- ==== Proof.IdealRuns0.lean ====
import proofs.«413414_j14594298871876_1_alg».proof.Proof.Gen.KernelIdeal.Skeleton
import proofs.«413414_j14594298871876_1_alg».proof.Proof.Gen.KernelIdeal.Launch
import proofs.«413414_j14594298871876_1_alg».proof.Proof.Gen.KernelIdeal.Points
import Idealize.ShloMosaic.Lib.Pipeline.Frame
import Idealize.ShloMosaic.Lib.Pipeline.FrameBody
import Idealize.ShloMosaic.Lib.Pipeline.Value
import Idealize.ShloMosaic.Lib.Pipeline.Kit
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

abbrev cond0_0 (i : grid0.Coords) : Prop :=
  (Scalar.cmpi .ne (Scalar.extui (Scalar.cmpi .eq (BitVec.ofNat 32 (i 1).val) 0#32)) 0#32) = 1#1

theorem off2_zero : (![0, 0] : Fin 2 → ℕ) = fun _ => 0 := by funext a; fin_cases a <;> rfl
theorem off3_zero : (![0, 0, 0] : Fin 3 → ℕ) = fun _ => 0 := by funext a; fin_cases a <;> rfl

-- The newest piece covers every index, so reading returns its payload.
theorem read_writes_whole {Val : EltTy → Type} [∀ e, Nonempty (Val e)] {sig : RefSig} {κ : Kind} {sp : Space} {S : Shape} {e : EltTy}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

theorem readAt_whole {Val : EltTy → Type} {sig : RefSig} {κ : Kind} {sp : Space} {S : Shape} {e : EltTy}
    (v : View sig κ sp S e) (f : v.ty.Contents Val) {off : Fin S.rank → ℕ} (h : off = fun _ => 0)
    (inb : ∀ a, off a + S.size a ≤ S.size a) :
    v.readAt Val (Rect.unit off S.size inb).toLoadRect f = v.read Val f := by
  rw [View.readAt_eq_ld, View.ld_unit_zero h]

variable (c : Dev nD) (i : grid0.Coords) (arg2 : Memref sig .tc .vmem S2048x1024 .bf16) (arg3 : Memref sig .tc .vmem S1024x1024 .f32) (arg4 : Memref sig .tc .vmem S2048x1 .i32) (arg5 : Memref sig .tc .vmem S2048x1024 .f32) (arg6 : Memref sig .tc .vmem S1x2048x1 .f32) (arg7 : Memref sig .tc .vmem S1x2048x1 .f32) (arg8 : Memref sig .tc .vmem S1x2048x1 .f32) (arg9 : Memref sig .tc .vmem S2048x1 .f32) (arg10 : Memref sig .tc .vmem S2048x1 .f32) (arg11 : Memref sig .tc .vmem S2048x1 .f32)
  (x : Vec F S2048x1024 .bf16) (w : Vec F S1024x1024 .f32) (tg : Vec F S2048x1 .i32) (p3 : Vec F S2048x1024 .f32) (p4 p5 p6 : Vec F S1x2048x1 .f32) (s9 s10 s11 : Vec F S2048x1 .f32)

abbrev held0 : sProp 𝕄 :=
  iprop(owns (c : Thread nD τ) arg2 fullShare x ∗ owns (c : Thread nD τ) arg3 fullShare w ∗ owns (c : Thread nD τ) arg4 fullShare tg ∗ owns (c : Thread nD τ) arg5 fullShare p3 ∗ owns (c : Thread nD τ) arg6 fullShare p4 ∗ owns (c : Thread nD τ) arg7 fullShare p5 ∗ owns (c : Thread nD τ) arg8 fullShare p6 ∗ owns (c : Thread nD τ) arg9 fullShare s9 ∗ owns (c : Thread nD τ) arg10 fullShare s10 ∗ owns (c : Thread nD τ) arg11 fullShare s11)

abbrev upd0_9 : Vec F S2048x1 .f32 := k0_pay2 (k0_pay13 i x w (if cond0_0 i then k0_pay7 else s9))
abbrev upd0_10 : Vec F S2048x1 .f32 := k0_pay1 (k0_pay14 i x w (if cond0_0 i then k0_pay7 else s9) (if cond0_0 i then k0_pay7 else s9) (if cond0_0 i then k0_pay8 else s10))
abbrev upd0_11 : Vec F S2048x1 .f32 := k0_pay3 (k0_pay10 x w) (k0_pay11 i) tg (if cond0_0 i then k0_pay9 else s11)

variable {i arg2 arg3 arg4 arg5 arg6 arg7 arg8 arg9 arg10 arg11} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {E : Set ℕ}

theorem run0 {K : PUnit → sProp 𝕄} :
    iprop(held0 c arg2 arg3 arg4 arg5 arg6 arg7 arg8 arg9 arg10 arg11 x w tg p3 p4 p5 p6 s9 s10 s11
        ∗ (held0 c arg2 arg3 arg4 arg5 arg6 arg7 arg8 arg9 arg10 arg11 x w tg (k0_pay12 i x w) (if k0_cond2 i = 1#1 then k0_pay4 (upd0_9 i x w s9) else p4) (if k0_cond2 i = 1#1 then k0_pay5 (upd0_10 i x w s9 s10) else p5)
            (if k0_cond2 i = 1#1 then k0_pay6 (upd0_11 i x w tg s11) else p6) (upd0_9 i x w s9) (upd0_10 i x w s9 s10) (upd0_11 i x w tg s11) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10 arg11 harg11) K := by
  by_cases hc1 : cond0_0 i <;> by_cases hc2 : k0_cond2 i = 1#1
  all_goals
    unfold upd0_9 upd0_10 upd0_11
    first | rw [if_pos hc1, if_pos hc1, if_pos hc1] | rw [if_neg hc1, if_neg hc1, if_neg hc1]
    first | rw [if_pos hc2, if_pos hc2, if_pos hc2] | rw [if_neg hc2, if_neg hc2, if_neg hc2]
    simp only [cc0_kernel_eq_skeleton]; unfold cc0_kernel_skel held0 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
    subst hf0 hf1 hf2 hf3 hf4 hf5 hf6 hf7 hf8 hf9
    sl_exec
    sl_step
    iapply Hk
    isplitl [H0]; rotate_left; isplitl [H1]; rotate_left; isplitl [H2]; rotate_left; isplitl [H3]; rotate_left; isplitl [H4]; rotate_left
    isplitl [H5]; rotate_left; isplitl [H6]; rotate_left; isplitl [H7]; rotate_left; isplitl [H8]; rotate_left
    all_goals
      iexists _; isplitr; swap; iassumption
      ipureintro
      first
      | sl_unfold_run_names
        simp only [read_writes_whole (S := S2048x1024) _ _ off2_zero, read_writes_whole (S := S2048x1) _ _ off2_zero,
          read_writes_whole (S := S1x2048x1) _ _ off3_zero, readAt_whole (S := S2048x1024) _ _ off2_zero,
          readAt_whole (S := S1024x1024) _ _ off2_zero, readAt_whole (S := S2048x1) _ _ off2_zero,
          readAt_whole (S := S1x2048x1) _ _ off3_zero,
          View.readCov_cons_toLoadRect]
      | rfl

end Cert.KernelIdeal.Hand

end
-- ==== Proof.IdealBody0.lean ====
import proofs.«413414_j14594298871876_1_alg».proof.Proof.IdealData0
import proofs.«413414_j14594298871876_1_alg».proof.Proof.IdealRuns0
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

variable (V : (c : Dev nD) → (b : Ref sig .tc) → Buf (Elt Ideal) ((c : Thread nD τ).loc b))

theorem hcond0_0 : ∀ t : Fin cfg0.N, cond0_0 (grid0.coords t) ↔ t.val % 25 = 0 :=
  (by decide +kernel : ∀ t : Fin grid0.N, cond0_0 (grid0.coords t) ↔ t.val % 25 = 0)

abbrev cond0_2 (i : grid0.Coords) : Prop := k0_cond2 i = 1#1
theorem hcond0_2 : ∀ t : Fin cfg0.N, cond0_2 (grid0.coords t) ↔ t.val % 25 = 24 :=
  (by decide +kernel : ∀ t : Fin grid0.N, cond0_2 (grid0.coords t) ↔ t.val % 25 = 24)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem idle0_456 (w : Fin cfg0.W) (hw : w = 4 ∨ w = 5 ∨ w = 6) (i : grid0.Coords) :
    cfg0.idle w i = !(k0_cond2 i == 1#1) := by
  rcases hw with rfl | rfl | rfl <;> rfl
theorem idleAt0 (w : Fin cfg0.W) (hw : w = 4 ∨ w = 5 ∨ w = 6) (t : Fin cfg0.N) (h : ¬cond0_2 (grid0.coords t)) :
    cfg0.idle w (grid0.coords t) = true := by
  rw [idle0_456 w hw]; simp only [Bool.not_eq_true', beq_eq_false_iff_ne, ne_eq]; exact h
theorem liveAt0 (w : Fin cfg0.W) (hw : w = 4 ∨ w = 5 ∨ w = 6) (t : Fin cfg0.N) (h : cond0_2 (grid0.coords t)) :
    cfg0.idle w (grid0.coords t) = false := by
  rw [idle0_456 w hw]; simp only [Bool.not_eq_false', beq_iff_eq]; exact h
theorem noFlush0 (w : Fin cfg0.W) (hw : w = 4 ∨ w = 5 ∨ w = 6) (t : Fin cfg0.N) (h : ¬t.val % 25 = 24) :
    (cfg0.win w).flush t = false := by
  rcases hw with rfl | rfl | rfl
  · exact Bool.eq_false_iff.mpr fun hf => h ((flush0_4 t).mp hf)
  · exact Bool.eq_false_iff.mpr fun hf => h ((flush0_5 t).mp hf)
  · exact Bool.eq_false_iff.mpr fun hf => h ((flush0_6 t).mp hf)

theorem before0_0 (c : Dev nD) (t : Fin cfg0.N) (d) : (dat0 V c).before 0 t d = xin V c t :=
  ((dat0 V c).before_in_eq_fetched 0 rfl (fun _ => rfl) (fun _ _ _ => rfl)
      (fun t => by rw [after0_0]; unfold Dat.blockOf xin iblk0; rw [A_eq]; try rfl) t d).trans
    (by unfold Dat.fetched Dat.blockOf xin iblk0; rw [A_eq]; try rfl)

theorem before0_2 (c : Dev nD) (t : Fin cfg0.N) (d) : (dat0 V c).before 2 t d = tgin V c t :=
  ((dat0 V c).before_in_eq_fetched 2 rfl (fun _ => rfl) (fun _ _ _ => rfl)
      (fun t => by rw [after0_2]; unfold Dat.blockOf tgin iblk0; rw [A_eq]; try rfl) t d).trans
    (by unfold Dat.fetched Dat.blockOf tgin iblk0; rw [A_eq]; try rfl)

theorem before0_1 (c : Dev nD) (t : Fin cfg0.N) (d) : (dat0 V c).before 1 t d = wtile V c t d := by
  unfold Dat.before; rw [if_pos (fetch0_1 t)]
  unfold Dat.fetched Dat.blockOf wtile iblk0; rw [A_eq]; try rfl

section Indep
variable {V}
variable {c : Dev nD} (tf : TileFacts V c)
include tf

theorem TileFacts.pay12_0 (t : Fin cfg0.N) (d : Vec Ideal S1024x1024 .f32) :
    k0_pay12 (F := Ideal) (grid0.coords t) (xin V c t) (wtile V c t d) = k0_pay12 (F := Ideal) (grid0.coords t) (xin V c t) (wtile0 V c t) :=
  tf.pay12 t d _

theorem TileFacts.pay13_0 (t : Fin cfg0.N) (d : Vec Ideal S1024x1024 .f32) (m : Vec Ideal S2048x1 .f32) :
    k0_pay13 (F := Ideal) (grid0.coords t) (xin V c t) (wtile V c t d) m = k0_pay13 (F := Ideal) (grid0.coords t) (xin V c t) (wtile0 V c t) m := by
  unfold k0_pay13; rw [tf.pay12_0 t d]

theorem TileFacts.pay14_0 (t : Fin cfg0.N) (d : Vec Ideal S1024x1024 .f32) (m m' l : Vec Ideal S2048x1 .f32) :
    k0_pay14 (F := Ideal) (grid0.coords t) (xin V c t) (wtile V c t d) m m' l = k0_pay14 (F := Ideal) (grid0.coords t) (xin V c t) (wtile0 V c t) m m' l := by
  unfold k0_pay14; rw [tf.pay12_0 t d, tf.pay13_0 t d]

theorem TileFacts.pay3_0 (t : Fin cfg0.N) (d : Vec Ideal S1024x1024 .f32) (tp : Vec Ideal S2048x1 .f32) :
    k0_pay3 (F := Ideal) (k0_pay10 (F := Ideal) (xin V c t) (wtile V c t d)) (k0_pay11 (grid0.coords t)) (tgin V c t) tp
      = k0_pay3 (F := Ideal) (k0_pay10 (F := Ideal) (xin V c t) (wtile0 V c t)) (k0_pay11 (grid0.coords t)) (tgin V c t) tp :=
  tf.pay3 t d _ tp

end Indep

def bodyPre (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d)))

def bodyPost (c : Dev nD) (t : Fin cfg0.N) : sProp 𝕄 :=
  iprop((dat0 V c).Φ t.succ ∗ (dat0 V c).owesAt () t.succ
    ∗ (dat0 V c).leaves 0 t
    ∗ (dat0 V c).leaves 1 t
    ∗ (dat0 V c).leaves 2 t
    ∗ (dat0 V c).leaves 3 t
    ∗ (dat0 V c).leaves 4 t
    ∗ (dat0 V c).leaves 5 t
    ∗ (dat0 V c).leaves 6 t)

theorem leaves0_0 (c : Dev nD) (t : Fin cfg0.N) :
    (dat0 V c).leaves 0 t = owns (c : Thread nD τ) (win0_0.stage (cfg0.slots t 0)) fullShare (xin V c t) := by
  unfold Dat.leaves; rw [liveAt0_0 t, after0_0]
theorem leaves0_2 (c : Dev nD) (t : Fin cfg0.N) :
    (dat0 V c).leaves 2 t = owns (c : Thread nD τ) (win0_2.stage (cfg0.slots t 2)) fullShare (tgin V c t) := by
  unfold Dat.leaves; rw [liveAt0_2 t, after0_2]
theorem leaves0_1 (c : Dev nD) (t : Fin cfg0.N) :
    (dat0 V c).leaves 1 t = iprop(∃ d, owns (c : Thread nD τ) (win0_1.stage (cfg0.slots t 1)) fullShare (wtile V c t d)) := by
  unfold Dat.leaves; rw [liveAt0_1 t, after0_1]
  unfold wtile0 wtile; simp only [Window.cut_fill]
  rfl
theorem leaves0_3 (c : Dev nD) (t : Fin cfg0.N) :
    (dat0 V c).leaves 3 t = iprop(∃ d, owns (c : Thread nD τ) (win0_3.stage (cfg0.slots t 3)) fullShare
      ((cfg0.win 3).fill (grid0.coords t) d ((cfg0.win 3).cut (grid0.coords t) (k0_pay12 (F := Ideal) (grid0.coords t) (xin V c t) (wtile0 V c t))))) := by
  unfold Dat.leaves; rw [liveAt0_3 t, after0_3]

theorem leaves0_idle (c : Dev nD) (t : Fin cfg0.N) (h2 : ¬t.val % 25 = 24) (w : Fin cfg0.W) (hw : w = 4 ∨ w = 5 ∨ w = 6) :
    (dat0 V c).leaves w t = iprop(∃ d, owns (c : Thread nD τ) ((cfg0.win w).stage (cfg0.slots t w)) fullShare ((dat0 V c).before w t d)) :=
  Dat.leaves_idle (dat0 V c) w t (idleAt0 w hw t fun h => h2 ((hcond0_2 t).mp h)) (noFlush0 w hw t h2)

theorem sound_body (c : Dev nD) (tf : TileFacts V c) (t : Fin cfg0.N) :
    bodyPre V c t ⊢ wp frame (wpE (defs₀ (F := Ideal)) Variants.none c none) Set.univ (bodyAt0 (F := Ideal) t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  by_cases h1 : t.val % 25 = 0
  · have h2 : ¬t.val % 25 = 24 := by omega
    rw [leaves0_idle V c t h2 4 (.inl rfl), leaves0_idle V c t h2 5 (.inr (.inl rfl)), leaves0_idle V c t h2 6 (.inr (.inr rfl))]
    rw [scrAt_first V c t h1]; unfold step0 reset0; (try dsimp only)
    by_cases hz : t.val = 0
    on_goal 1 => rw [PhiS0_castSucc V c t, PhiS0_zero V c _ _ hz, PhiA0_eq]; iintro ⟨⟨⟨⟨%e0, HS0⟩, ⟨%e1, HS1⟩, ⟨%e2, HS2⟩⟩, Hr⟩, Ho, ⟨%d0, H0⟩, ⟨%d1, H1⟩, ⟨%d2, H2⟩, ⟨%d3, H3⟩, ⟨%d4, H4⟩, ⟨%d5, H5⟩, ⟨%d6, H6⟩⟩
    on_goal 2 => rw [PhiS0_castSucc V c t, PhiS0_pos V c _ _ hz]; iintro ⟨⟨⟨HS0, HS1, HS2⟩, Hr⟩, Ho, ⟨%d0, H0⟩, ⟨%d1, H1⟩, ⟨%d2, H2⟩, ⟨%d3, H3⟩, ⟨%d4, H4⟩, ⟨%d5, H5⟩, ⟨%d6, H6⟩⟩
    all_goals
      iapply (run0 c (xin V c t) (wtile V c t d1) (tgin V c t) _ _ _ _ _ _ _)
      unfold held0; iframe H0 H1 H2 H3 H4 H5 H6 HS0 HS1 HS2
      iintro ⟨H0, H1, H2, H3, H4, H5, H6, HS0, HS1, HS2⟩
      rw [tf.pay12_0 t d1]
      simp only [upd0_9, upd0_10, upd0_11, if_pos ((hcond0_0 t).mpr h1), if_neg (mt (hcond0_2 t).mp h2), tf.pay13_0 t d1, tf.pay14_0 t d1, tf.pay3_0 t d1]
      iframe HS0 HS1 HS2 Hr Ho H0 H2
      isplitl [H1]; · iexists d1; iexact H1
      isplitl [H3]; · iexists (k0_pay12 (F := Ideal) (grid0.coords t) (xin V c t) (wtile0 V c t)); rw [Window.fill_cut]; iexact H3
      isplitl [H4]; · iexists d4; iexact H4
      isplitl [H5]; · iexists d5; iexact H5
      iexists d6; iexact H6
  · have hz : t.val ≠ 0 := fun h => h1 (by rw [h])
    rw [PhiS0_castSucc V c t, PhiS0_pos V c _ _ hz]
    by_cases h2 : t.val % 25 = 24
    · rw [show (dat0 V c).leaves 4 t = owns (c : Thread nD τ) (win0_4.stage (cfg0.slots t 4)) fullShare ((dat0 V c).after 4 t) from by
          unfold Dat.leaves; rw [liveAt0 4 (.inl rfl) t ((hcond0_2 t).mpr h2)], after0_4,
        show (dat0 V c).leaves 5 t = owns (c : Thread nD τ) (win0_5.stage (cfg0.slots t 5)) fullShare ((dat0 V c).after 5 t) from by
          unfold Dat.leaves; rw [liveAt0 5 (.inr (.inl rfl)) t ((hcond0_2 t).mpr h2)], after0_5,
        show (dat0 V c).leaves 6 t = owns (c : Thread nD τ) (win0_6.stage (cfg0.slots t 6)) fullShare ((dat0 V c).after 6 t) from by
          unfold Dat.leaves; rw [liveAt0 6 (.inr (.inr rfl)) t ((hcond0_2 t).mpr h2)], after0_6]
      rw [scrAt_next V c t h1]; unfold step0; (try dsimp only)
      iintro ⟨⟨⟨HS0, HS1, HS2⟩, Hr⟩, Ho, ⟨%d0, H0⟩, ⟨%d1, H1⟩, ⟨%d2, H2⟩, ⟨%d3, H3⟩, ⟨%d4, H4⟩, ⟨%d5, H5⟩, ⟨%d6, H6⟩⟩
      iapply (run0 c (xin V c t) (wtile V c t d1) (tgin V c t) _ _ _ _ _ _ _)
      unfold held0; iframe H0 H1 H2 H3 H4 H5 H6 HS0 HS1 HS2
      iintro ⟨H0, H1, H2, H3, H4, H5, H6, HS0, HS1, HS2⟩
      rw [tf.pay12_0 t d1]
      simp only [upd0_9, upd0_10, upd0_11, if_neg (mt (hcond0_0 t).mp h1), if_pos ((hcond0_2 t).mpr h2), tf.pay13_0 t d1, tf.pay14_0 t d1, tf.pay3_0 t d1]
      iframe HS0 HS1 HS2 Hr Ho H0 H2 H4 H5 H6
      isplitl [H1]; · iexists d1; iexact H1
      iexists (k0_pay12 (F := Ideal) (grid0.coords t) (xin V c t) (wtile0 V c t)); rw [Window.fill_cut]; iexact H3
    · rw [leaves0_idle V c t h2 4 (.inl rfl), leaves0_idle V c t h2 5 (.inr (.inl rfl)), leaves0_idle V c t h2 6 (.inr (.inr rfl))]
      rw [scrAt_next V c t h1]; unfold step0; (try dsimp only)
      iintro ⟨⟨⟨HS0, HS1, HS2⟩, Hr⟩, Ho, ⟨%d0, H0⟩, ⟨%d1, H1⟩, ⟨%d2, H2⟩, ⟨%d3, H3⟩, ⟨%d4, H4⟩, ⟨%d5, H5⟩, ⟨%d6, H6⟩⟩
      iapply (run0 c (xin V c t) (wtile V c t d1) (tgin V c t) _ _ _ _ _ _ _)
      unfold held0; iframe H0 H1 H2 H3 H4 H5 H6 HS0 HS1 HS2
      iintro ⟨H0, H1, H2, H3, H4, H5, H6, HS0, HS1, HS2⟩
      rw [tf.pay12_0 t d1]
      simp only [upd0_9, upd0_10, upd0_11, if_neg (mt (hcond0_0 t).mp h1), if_neg (mt (hcond0_2 t).mp h2), tf.pay13_0 t d1, tf.pay14_0 t d1, tf.pay3_0 t d1]
      iframe HS0 HS1 HS2 Hr Ho H0 H2
      isplitl [H1]; · iexists d1; iexact H1
      isplitl [H3]; · iexists (k0_pay12 (F := Ideal) (grid0.coords t) (xin V c t) (wtile0 V c t)); rw [Window.fill_cut]; iexact H3
      isplitl [H4]; · iexists d4; iexact H4
      isplitl [H5]; · iexists d5; iexact H5
      iexists d6; iexact H6

theorem body_obligation0 (c : Dev nD) (tf : TileFacts V c) :
    BodyObligationLoose (dat0 V c) (defs₀ (F := Ideal)) Variants.none () Set.univ := fun t => by
  rw [bigSep_W0, bigSep_W0]
  exact sound_body V c tf t

/-- info: 'Cert.KernelIdeal.Hand.body_obligation0' depends on axioms: [propext, Classical.choice, Quot.sound] -/
#guard_msgs in #print axioms body_obligation0

end Cert.KernelIdeal.Hand

end
-- ==== Proof.IdealRuns1.lean ====
import proofs.«413414_j14594298871876_1_alg».proof.Proof.IdealRuns0

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1

variable (c : Dev nD) (i : grid1.Coords) (arg2 : Memref sig .tc .vmem S2048x1024 .bf16) (arg3 : Memref sig .tc .vmem S1024x1024 .f32) (arg4 : Memref sig .tc .vmem S2048x1 .i32) (arg5 : Memref sig .tc .vmem S1x2048x1 .f32) (arg6 : Memref sig .tc .vmem S1x2048x1 .f32) (arg7 : Memref sig .tc .vmem S1x2048x1 .f32) (arg8 : Memref sig .tc .vmem S2048x1 .f32) (arg9 : Memref sig .tc .vmem S2048x1 .f32) (arg10 : Memref sig .tc .vmem S2048x1 .f32)
  (x : Vec F S2048x1024 .bf16) (w : Vec F S1024x1024 .f32) (tg : Vec F S2048x1 .i32) (p3 p4 p5 : Vec F S1x2048x1 .f32) (s8 s9 s10 : Vec F S2048x1 .f32)

abbrev held1 : sProp 𝕄 :=
  iprop(owns (c : Thread nD τ) arg2 fullShare x ∗ owns (c : Thread nD τ) arg3 fullShare w ∗ owns (c : Thread nD τ) arg4 fullShare tg ∗ owns (c : Thread nD τ) arg5 fullShare p3 ∗ owns (c : Thread nD τ) arg6 fullShare p4 ∗ owns (c : Thread nD τ) arg7 fullShare p5 ∗ owns (c : Thread nD τ) arg8 fullShare s8 ∗ owns (c : Thread nD τ) arg9 fullShare s9 ∗ owns (c : Thread nD τ) arg10 fullShare s10)

abbrev upd1_8 : Vec F S2048x1 .f32 := k1_pay2 (k1_pay13 i x w (if cond1_0 i then k1_pay7 else s8))
abbrev upd1_9 : Vec F S2048x1 .f32 := k1_pay1 (k1_pay14 i x w (if cond1_0 i then k1_pay7 else s8) (if cond1_0 i then k1_pay7 else s8) (if cond1_0 i then k1_pay8 else s9))
abbrev upd1_10 : Vec F S2048x1 .f32 := k1_pay3 (k1_pay10 x w) (k1_pay11 i) tg (if cond1_0 i then k1_pay9 else s10)

variable {i arg2 arg3 arg4 arg5 arg6 arg7 arg8 arg9 arg10} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {E : Set ℕ}

theorem run1 {K : PUnit → sProp 𝕄} :
    iprop(held1 c arg2 arg3 arg4 arg5 arg6 arg7 arg8 arg9 arg10 x w tg p3 p4 p5 s8 s9 s10
        ∗ (held1 c arg2 arg3 arg4 arg5 arg6 arg7 arg8 arg9 arg10 x w tg (if k1_cond2 i = 1#1 then k1_pay4 (upd1_8 i x w s8) else p3) (if k1_cond2 i = 1#1 then k1_pay5 (upd1_9 i x w s8 s9) else p4)
            (if k1_cond2 i = 1#1 then k1_pay6 (upd1_10 i x w tg s10) else p5) (upd1_8 i x w s8) (upd1_9 i x w s8 s9) (upd1_10 i x w tg s10) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  by_cases hc1 : cond1_0 i <;> by_cases hc2 : k1_cond2 i = 1#1
  all_goals
    unfold upd1_8 upd1_9 upd1_10
    first | rw [if_pos hc1, if_pos hc1, if_pos hc1] | rw [if_neg hc1, if_neg hc1, if_neg hc1]
    first | rw [if_pos hc2, if_pos hc2, if_pos hc2] | rw [if_neg hc2, if_neg hc2, if_neg hc2]
    simp only [cc1_kernel_eq_skeleton]; unfold cc1_kernel_skel held1 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
    subst hf0 hf1 hf2 hf3 hf4 hf5 hf6 hf7 hf8
    sl_exec
    sl_step
    iapply Hk
    isplitl [H0]; rotate_left; isplitl [H1]; rotate_left; isplitl [H2]; rotate_left; isplitl [H3]; rotate_left
    isplitl [H4]; rotate_left; isplitl [H5]; rotate_left; isplitl [H6]; rotate_left; isplitl [H7]; rotate_left
    all_goals
      iexists _; isplitr; swap; iassumption
      ipureintro
      first
      | sl_unfold_run_names
        simp only [read_writes_whole (S := S2048x1) _ _ off2_zero, read_writes_whole (S := S1x2048x1) _ _ off3_zero,
          readAt_whole (S := S2048x1024) _ _ off2_zero, readAt_whole (S := S1024x1024) _ _ off2_zero,
          readAt_whole (S := S2048x1) _ _ off2_zero, readAt_whole (S := S1x2048x1) _ _ off3_zero,
          View.readCov_cons_toLoadRect]
      | rfl

end Cert.KernelIdeal.Hand

end
-- ==== Proof.IdealBody1.lean ====
import proofs.«413414_j14594298871876_1_alg».proof.Proof.IdealData1
import proofs.«413414_j14594298871876_1_alg».proof.Proof.IdealRuns1
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

variable (V : (c : Dev nD) → (b : Ref sig .tc) → Buf (Elt Ideal) ((c : Thread nD τ).loc b))

theorem hcond1_0 : ∀ t : Fin cfg1.N, cond1_0 (grid1.coords t) ↔ t.val % 25 = 0 :=
  (by decide +kernel : ∀ t : Fin grid1.N, cond1_0 (grid1.coords t) ↔ t.val % 25 = 0)

abbrev cond1_2 (i : grid1.Coords) : Prop := k1_cond2 i = 1#1
theorem hcond1_2 : ∀ t : Fin cfg1.N, cond1_2 (grid1.coords t) ↔ t.val % 25 = 24 :=
  (by decide +kernel : ∀ t : Fin grid1.N, cond1_2 (grid1.coords t) ↔ t.val % 25 = 24)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idle1_345 (w : Fin cfg1.W) (hw : w = 3 ∨ w = 4 ∨ w = 5) (i : grid1.Coords) :
    cfg1.idle w i = !(k1_cond2 i == 1#1) := by
  rcases hw with rfl | rfl | rfl <;> rfl
theorem idleAt1 (w : Fin cfg1.W) (hw : w = 3 ∨ w = 4 ∨ w = 5) (t : Fin cfg1.N) (h : ¬cond1_2 (grid1.coords t)) :
    cfg1.idle w (grid1.coords t) = true := by
  rw [idle1_345 w hw]; simp only [Bool.not_eq_true', beq_eq_false_iff_ne, ne_eq]; exact h
theorem liveAt1 (w : Fin cfg1.W) (hw : w = 3 ∨ w = 4 ∨ w = 5) (t : Fin cfg1.N) (h : cond1_2 (grid1.coords t)) :
    cfg1.idle w (grid1.coords t) = false := by
  rw [idle1_345 w hw]; simp only [Bool.not_eq_false', beq_iff_eq]; exact h
theorem noFlush1 (w : Fin cfg1.W) (hw : w = 3 ∨ w = 4 ∨ w = 5) (t : Fin cfg1.N) (h : ¬t.val % 25 = 24) :
    (cfg1.win w).flush t = false := by
  rcases hw with rfl | rfl | rfl
  · exact Bool.eq_false_iff.mpr fun hf => h ((flush1_3 t).mp hf)
  · exact Bool.eq_false_iff.mpr fun hf => h ((flush1_4 t).mp hf)
  · exact Bool.eq_false_iff.mpr fun hf => h ((flush1_5 t).mp hf)

theorem before1_0 (c : Dev nD) (t : Fin cfg1.N) (d) : (dat1 V c).before 0 t d = xin1 V c t :=
  ((dat1 V c).before_in_eq_fetched 0 rfl (fun _ => rfl) (fun _ _ _ => rfl)
      (fun t => by rw [after1_0]; unfold Dat.blockOf xin1 iblk1; rw [A_eq1]; try rfl) t d).trans
    (by unfold Dat.fetched Dat.blockOf xin1 iblk1; rw [A_eq1]; try rfl)

theorem before1_2 (c : Dev nD) (t : Fin cfg1.N) (d) : (dat1 V c).before 2 t d = tgin1 V c t :=
  ((dat1 V c).before_in_eq_fetched 2 rfl (fun _ => rfl) (fun _ _ _ => rfl)
      (fun t => by rw [after1_2]; unfold Dat.blockOf tgin1 iblk1; rw [A_eq1]; try rfl) t d).trans
    (by unfold Dat.fetched Dat.blockOf tgin1 iblk1; rw [A_eq1]; try rfl)

theorem before1_1 (c : Dev nD) (t : Fin cfg1.N) (d) : (dat1 V c).before 1 t d = wtile1 V c t d := by
  unfold Dat.before; rw [if_pos (fetch1_1 t)]
  unfold Dat.fetched Dat.blockOf wtile1 iblk1; rw [A_eq1]; try rfl

section Indep
variable {V}
variable {c : Dev nD} (tf : TileFacts1 V c)
include tf

theorem TileFacts1.pay12_0 (t : Fin cfg1.N) (d : Vec Ideal S1024x1024 .f32) :
    k1_pay12 (F := Ideal) (grid1.coords t) (xin1 V c t) (wtile1 V c t d) = k1_pay12 (F := Ideal) (grid1.coords t) (xin1 V c t) (wtileZ1 V c t) :=
  tf.pay12 t d _

theorem TileFacts1.pay13_0 (t : Fin cfg1.N) (d : Vec Ideal S1024x1024 .f32) (m : Vec Ideal S2048x1 .f32) :
    k1_pay13 (F := Ideal) (grid1.coords t) (xin1 V c t) (wtile1 V c t d) m = k1_pay13 (F := Ideal) (grid1.coords t) (xin1 V c t) (wtileZ1 V c t) m := by
  unfold k1_pay13; rw [tf.pay12_0 t d]

theorem TileFacts1.pay14_0 (t : Fin cfg1.N) (d : Vec Ideal S1024x1024 .f32) (m m' l : Vec Ideal S2048x1 .f32) :
    k1_pay14 (F := Ideal) (grid1.coords t) (xin1 V c t) (wtile1 V c t d) m m' l = k1_pay14 (F := Ideal) (grid1.coords t) (xin1 V c t) (wtileZ1 V c t) m m' l := by
  unfold k1_pay14; rw [tf.pay12_0 t d, tf.pay13_0 t d]

theorem TileFacts1.pay3_0 (t : Fin cfg1.N) (d : Vec Ideal S1024x1024 .f32) (tp : Vec Ideal S2048x1 .f32) :
    k1_pay3 (F := Ideal) (k1_pay10 (F := Ideal) (xin1 V c t) (wtile1 V c t d)) (k1_pay11 (grid1.coords t)) (tgin1 V c t) tp
      = k1_pay3 (F := Ideal) (k1_pay10 (F := Ideal) (xin1 V c t) (wtileZ1 V c t)) (k1_pay11 (grid1.coords t)) (tgin1 V c t) tp :=
  tf.pay3 t d _ tp

end Indep

def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d)))

def bodyPost1 (c : Dev nD) (t : Fin cfg1.N) : sProp 𝕄 :=
  iprop((dat1 V c).Φ t.succ ∗ (dat1 V c).owesAt () t.succ
    ∗ (dat1 V c).leaves 0 t
    ∗ (dat1 V c).leaves 1 t
    ∗ (dat1 V c).leaves 2 t
    ∗ (dat1 V c).leaves 3 t
    ∗ (dat1 V c).leaves 4 t
    ∗ (dat1 V c).leaves 5 t)

theorem leaves1_0 (c : Dev nD) (t : Fin cfg1.N) :
    (dat1 V c).leaves 0 t = owns (c : Thread nD τ) (win1_0.stage (cfg1.slots t 0)) fullShare (xin1 V c t) := by
  unfold Dat.leaves; rw [liveAt1_0 t, after1_0]
theorem leaves1_2 (c : Dev nD) (t : Fin cfg1.N) :
    (dat1 V c).leaves 2 t = owns (c : Thread nD τ) (win1_2.stage (cfg1.slots t 2)) fullShare (tgin1 V c t) := by
  unfold Dat.leaves; rw [liveAt1_2 t, after1_2]
theorem leaves1_1 (c : Dev nD) (t : Fin cfg1.N) :
    (dat1 V c).leaves 1 t = iprop(∃ d, owns (c : Thread nD τ) (win1_1.stage (cfg1.slots t 1)) fullShare (wtile1 V c t d)) := by
  unfold Dat.leaves; rw [liveAt1_1 t, after1_1]
  unfold wtileZ1 wtile1; simp only [Window.cut_fill]
  rfl

theorem leaves1_idle (c : Dev nD) (t : Fin cfg1.N) (h2 : ¬t.val % 25 = 24) (w : Fin cfg1.W) (hw : w = 3 ∨ w = 4 ∨ w = 5) :
    (dat1 V c).leaves w t = iprop(∃ d, owns (c : Thread nD τ) ((cfg1.win w).stage (cfg1.slots t w)) fullShare ((dat1 V c).before w t d)) :=
  Dat.leaves_idle (dat1 V c) w t (idleAt1 w hw t fun h => h2 ((hcond1_2 t).mp h)) (noFlush1 w hw t h2)

theorem sound_body1 (c : Dev nD) (tf : TileFacts1 V c) (t : Fin cfg1.N) :
    bodyPre1 V c t ⊢ wp frame (wpE (defs₀ (F := Ideal)) Variants.none c none) Set.univ (bodyAt1 (F := Ideal) t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  by_cases h1 : t.val % 25 = 0
  · have h2 : ¬t.val % 25 = 24 := by omega
    rw [leaves1_idle V c t h2 3 (.inl rfl), leaves1_idle V c t h2 4 (.inr (.inl rfl)), leaves1_idle V c t h2 5 (.inr (.inr rfl))]
    rw [scrAt1_first V c t h1]; unfold step1 reset1; (try dsimp only)
    by_cases hz : t.val = 0
    on_goal 1 => rw [PhiS1_castSucc V c t, PhiS1_zero V c _ _ hz, PhiA1_eq]; iintro ⟨⟨⟨⟨%e0, HS0⟩, ⟨%e1, HS1⟩, ⟨%e2, HS2⟩⟩, Hr⟩, Ho, ⟨%d0, H0⟩, ⟨%d1, H1⟩, ⟨%d2, H2⟩, ⟨%d3, H3⟩, ⟨%d4, H4⟩, ⟨%d5, H5⟩⟩
    on_goal 2 => rw [PhiS1_castSucc V c t, PhiS1_pos V c _ _ hz]; iintro ⟨⟨⟨HS0, HS1, HS2⟩, Hr⟩, Ho, ⟨%d0, H0⟩, ⟨%d1, H1⟩, ⟨%d2, H2⟩, ⟨%d3, H3⟩, ⟨%d4, H4⟩, ⟨%d5, H5⟩⟩
    all_goals
      iapply (run1 c (xin1 V c t) (wtile1 V c t d1) (tgin1 V c t) _ _ _ _ _ _)
      unfold held1; iframe H0 H1 H2 H3 H4 H5 HS0 HS1 HS2
      iintro ⟨H0, H1, H2, H3, H4, H5, HS0, HS1, HS2⟩
      simp only [upd1_8, upd1_9, upd1_10, if_pos ((hcond1_0 t).mpr h1), if_neg (mt (hcond1_2 t).mp h2), tf.pay13_0 t d1, tf.pay14_0 t d1, tf.pay3_0 t d1]
      iframe HS0 HS1 HS2 Hr Ho H0 H2
      isplitl [H1]; · iexists d1; iexact H1
      isplitl [H3]; · iexists d3; iexact H3
      isplitl [H4]; · iexists d4; iexact H4
      iexists d5; iexact H5
  · have hz : t.val ≠ 0 := fun h => h1 (by rw [h])
    rw [PhiS1_castSucc V c t, PhiS1_pos V c _ _ hz]
    by_cases h2 : t.val % 25 = 24
    · rw [show (dat1 V c).leaves 3 t = owns (c : Thread nD τ) (win1_3.stage (cfg1.slots t 3)) fullShare ((dat1 V c).after 3 t) from by
          unfold Dat.leaves; rw [liveAt1 3 (.inl rfl) t ((hcond1_2 t).mpr h2)], after1_3,
        show (dat1 V c).leaves 4 t = owns (c : Thread nD τ) (win1_4.stage (cfg1.slots t 4)) fullShare ((dat1 V c).after 4 t) from by
          unfold Dat.leaves; rw [liveAt1 4 (.inr (.inl rfl)) t ((hcond1_2 t).mpr h2)], after1_4,
        show (dat1 V c).leaves 5 t = owns (c : Thread nD τ) (win1_5.stage (cfg1.slots t 5)) fullShare ((dat1 V c).after 5 t) from by
          unfold Dat.leaves; rw [liveAt1 5 (.inr (.inr rfl)) t ((hcond1_2 t).mpr h2)], after1_5]
      rw [scrAt1_next V c t h1]; unfold step1; (try dsimp only)
      iintro ⟨⟨⟨HS0, HS1, HS2⟩, Hr⟩, Ho, ⟨%d0, H0⟩, ⟨%d1, H1⟩, ⟨%d2, H2⟩, ⟨%d3, H3⟩, ⟨%d4, H4⟩, ⟨%d5, H5⟩⟩
      iapply (run1 c (xin1 V c t) (wtile1 V c t d1) (tgin1 V c t) _ _ _ _ _ _)
      unfold held1; iframe H0 H1 H2 H3 H4 H5 HS0 HS1 HS2
      iintro ⟨H0, H1, H2, H3, H4, H5, HS0, HS1, HS2⟩
      simp only [upd1_8, upd1_9, upd1_10, if_neg (mt (hcond1_0 t).mp h1), if_pos ((hcond1_2 t).mpr h2), tf.pay13_0 t d1, tf.pay14_0 t d1, tf.pay3_0 t d1]
      iframe HS0 HS1 HS2 Hr Ho H0 H2 H3 H4 H5
      iexists d1; iexact H1
    · rw [leaves1_idle V c t h2 3 (.inl rfl), leaves1_idle V c t h2 4 (.inr (.inl rfl)), leaves1_idle V c t h2 5 (.inr (.inr rfl))]
      rw [scrAt1_next V c t h1]; unfold step1; (try dsimp only)
      iintro ⟨⟨⟨HS0, HS1, HS2⟩, Hr⟩, Ho, ⟨%d0, H0⟩, ⟨%d1, H1⟩, ⟨%d2, H2⟩, ⟨%d3, H3⟩, ⟨%d4, H4⟩, ⟨%d5, H5⟩⟩
      iapply (run1 c (xin1 V c t) (wtile1 V c t d1) (tgin1 V c t) _ _ _ _ _ _)
      unfold held1; iframe H0 H1 H2 H3 H4 H5 HS0 HS1 HS2
      iintro ⟨H0, H1, H2, H3, H4, H5, HS0, HS1, HS2⟩
      simp only [upd1_8, upd1_9, upd1_10, if_neg (mt (hcond1_0 t).mp h1), if_neg (mt (hcond1_2 t).mp h2), tf.pay13_0 t d1, tf.pay14_0 t d1, tf.pay3_0 t d1]
      iframe HS0 HS1 HS2 Hr Ho H0 H2
      isplitl [H1]; · iexists d1; iexact H1
      isplitl [H3]; · iexists d3; iexact H3
      isplitl [H4]; · iexists d4; iexact H4
      iexists d5; iexact H5

theorem body_obligation1 (c : Dev nD) (tf : TileFacts1 V c) :
    BodyObligationLoose (dat1 V c) (defs₀ (F := Ideal)) Variants.none () Set.univ := fun t => by
  rw [bigSep_W1, bigSep_W1]
  exact sound_body1 V c tf t

/-- info: 'Cert.KernelIdeal.Hand.body_obligation1' depends on axioms: [propext, Classical.choice, Quot.sound] -/
#guard_msgs in #print axioms body_obligation1

end Cert.KernelIdeal.Hand

end
-- ==== Proof.IdealRuns2.lean ====
import proofs.«413414_j14594298871876_1_alg».proof.Proof.IdealRuns1

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

-- Both definitions unfold to one term.
theorem cc2_kernel_eq : cc2_kernel (F := F) = cc1_kernel (F := F) := rfl

variable (c : Dev nD) (i : grid2.Coords) {arg2 : Memref sig .tc .vmem S2048x1024 .bf16} {harg2 : arg2.IsWhole} {arg3 : Memref sig .tc .vmem S1024x1024 .f32} {harg3 : arg3.IsWhole} {arg4 : Memref sig .tc .vmem S2048x1 .i32} {harg4 : arg4.IsWhole} {arg5 : Memref sig .tc .vmem S1x2048x1 .f32} {harg5 : arg5.IsWhole} {arg6 : Memref sig .tc .vmem S1x2048x1 .f32} {harg6 : arg6.IsWhole} {arg7 : Memref sig .tc .vmem S1x2048x1 .f32} {harg7 : arg7.IsWhole} {arg8 : Memref sig .tc .vmem S2048x1 .f32} {harg8 : arg8.IsWhole} {arg9 : Memref sig .tc .vmem S2048x1 .f32} {harg9 : arg9.IsWhole} {arg10 : Memref sig .tc .vmem S2048x1 .f32} {harg10 : arg10.IsWhole}
  (x : Vec F S2048x1024 .bf16) (w : Vec F S1024x1024 .f32) (tg : Vec F S2048x1 .i32) (p3 p4 p5 : Vec F S1x2048x1 .f32) (s8 s9 s10 : Vec F S2048x1 .f32) {E : Set ℕ}

abbrev upd2_8 : Vec F S2048x1 .f32 := k2_pay2 (k2_pay13 i x w (if cond1_0 i then k2_pay7 else s8))
abbrev upd2_9 : Vec F S2048x1 .f32 := k2_pay1 (k2_pay14 i x w (if cond1_0 i then k2_pay7 else s8) (if cond1_0 i then k2_pay7 else s8) (if cond1_0 i then k2_pay8 else s9))
abbrev upd2_10 : Vec F S2048x1 .f32 := k2_pay3 (k2_pay10 x w) (k2_pay11 i) tg (if cond1_0 i then k2_pay9 else s10)

variable {i}

theorem run2 {K : PUnit → sProp 𝕄} :
    iprop(held1 c arg2 arg3 arg4 arg5 arg6 arg7 arg8 arg9 arg10 x w tg p3 p4 p5 s8 s9 s10
        ∗ (held1 c arg2 arg3 arg4 arg5 arg6 arg7 arg8 arg9 arg10 x w tg (if k2_cond2 i = 1#1 then k2_pay4 (upd2_8 i x w s8) else p3) (if k2_cond2 i = 1#1 then k2_pay5 (upd2_9 i x w s8 s9) else p4)
            (if k2_cond2 i = 1#1 then k2_pay6 (upd2_10 i x w tg s10) else p5) (upd2_8 i x w s8) (upd2_9 i x w s8 s9) (upd2_10 i x w tg s10) -∗ K ⟨⟩))
      ⊢ wp frame (wpE (defs₀ (F := F)) Variants.none c none) E (cc2_kernel i arg2 harg2 arg3 harg3 arg4 harg4 arg5 harg5 arg6 harg6 arg7 harg7 arg8 harg8 arg9 harg9 arg10 harg10) K := by
  simp only [cc2_kernel_eq]; exact run1 c x w tg p3 p4 p5 s8 s9 s10

end Cert.KernelIdeal.Hand

end
-- ==== Proof.IdealBody2.lean ====
import proofs.«413414_j14594298871876_1_alg».proof.Proof.IdealData2
import proofs.«413414_j14594298871876_1_alg».proof.Proof.IdealRuns2
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

variable (V : (c : Dev nD) → (b : Ref sig .tc) → Buf (Elt Ideal) ((c : Thread nD τ).loc b))

theorem hcond2_0 : ∀ t : Fin cfg2.N, cond1_0 (grid2.coords t) ↔ t.val % 25 = 0 :=
  (by decide +kernel : ∀ t : Fin grid2.N, cond1_0 (grid2.coords t) ↔ t.val % 25 = 0)

abbrev cond2_2 (i : grid2.Coords) : Prop := k2_cond2 i = 1#1
theorem hcond2_2 : ∀ t : Fin cfg2.N, cond2_2 (grid2.coords t) ↔ t.val % 25 = 24 :=
  (by decide +kernel : ∀ t : Fin grid2.N, cond2_2 (grid2.coords t) ↔ t.val % 25 = 24)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem idle2_345 (w : Fin cfg2.W) (hw : w = 3 ∨ w = 4 ∨ w = 5) (i : grid2.Coords) :
    cfg2.idle w i = !(k2_cond2 i == 1#1) := by
  rcases hw with rfl | rfl | rfl <;> rfl
theorem idleAt2 (w : Fin cfg2.W) (hw : w = 3 ∨ w = 4 ∨ w = 5) (t : Fin cfg2.N) (h : ¬cond2_2 (grid2.coords t)) :
    cfg2.idle w (grid2.coords t) = true := by
  rw [idle2_345 w hw]; simp only [Bool.not_eq_true', beq_eq_false_iff_ne, ne_eq]; exact h
theorem liveAt2 (w : Fin cfg2.W) (hw : w = 3 ∨ w = 4 ∨ w = 5) (t : Fin cfg2.N) (h : cond2_2 (grid2.coords t)) :
    cfg2.idle w (grid2.coords t) = false := by
  rw [idle2_345 w hw]; simp only [Bool.not_eq_false', beq_iff_eq]; exact h
theorem noFlush2 (w : Fin cfg2.W) (hw : w = 3 ∨ w = 4 ∨ w = 5) (t : Fin cfg2.N) (h : ¬t.val % 25 = 24) :
    (cfg2.win w).flush t = false := by
  rcases hw with rfl | rfl | rfl
  · exact Bool.eq_false_iff.mpr fun hf => h ((flush2_3 t).mp hf)
  · exact Bool.eq_false_iff.mpr fun hf => h ((flush2_4 t).mp hf)
  · exact Bool.eq_false_iff.mpr fun hf => h ((flush2_5 t).mp hf)

theorem before2_0 (c : Dev nD) (t : Fin cfg2.N) (d) : (dat2 V c).before 0 t d = xin2 V c t :=
  ((dat2 V c).before_in_eq_fetched 0 rfl (fun _ => rfl) (fun _ _ _ => rfl)
      (fun t => by rw [after2_0]; unfold Dat.blockOf xin2 iblk2; rw [A_eq2]; try rfl) t d).trans
    (by unfold Dat.fetched Dat.blockOf xin2 iblk2; rw [A_eq2]; try rfl)

theorem before2_2 (c : Dev nD) (t : Fin cfg2.N) (d) : (dat2 V c).before 2 t d = tgin2 V c t :=
  ((dat2 V c).before_in_eq_fetched 2 rfl (fun _ => rfl) (fun _ _ _ => rfl)
      (fun t => by rw [after2_2]; unfold Dat.blockOf tgin2 iblk2; rw [A_eq2]; try rfl) t d).trans
    (by unfold Dat.fetched Dat.blockOf tgin2 iblk2; rw [A_eq2]; try rfl)

theorem before2_1 (c : Dev nD) (t : Fin cfg2.N) (d) : (dat2 V c).before 1 t d = wtile2 V c t d := by
  unfold Dat.before; rw [if_pos (fetch2_1 t)]
  unfold Dat.fetched Dat.blockOf wtile2 iblk2; rw [A_eq2]; try rfl

section Indep
variable {V}
variable {c : Dev nD} (tf : TileFacts2 V c)
include tf

theorem TileFacts2.pay12_0 (t : Fin cfg2.N) (d : Vec Ideal S1024x1024 .f32) :
    k2_pay12 (F := Ideal) (grid2.coords t) (xin2 V c t) (wtile2 V c t d) = k2_pay12 (F := Ideal) (grid2.coords t) (xin2 V c t) (wtileZ2 V c t) :=
  tf.pay12 t d _

theorem TileFacts2.pay13_0 (t : Fin cfg2.N) (d : Vec Ideal S1024x1024 .f32) (m : Vec Ideal S2048x1 .f32) :
    k2_pay13 (F := Ideal) (grid2.coords t) (xin2 V c t) (wtile2 V c t d) m = k2_pay13 (F := Ideal) (grid2.coords t) (xin2 V c t) (wtileZ2 V c t) m := by
  unfold k2_pay13; rw [tf.pay12_0 t d]

theorem TileFacts2.pay14_0 (t : Fin cfg2.N) (d : Vec Ideal S1024x1024 .f32) (m m' l : Vec Ideal S2048x1 .f32) :
    k2_pay14 (F := Ideal) (grid2.coords t) (xin2 V c t) (wtile2 V c t d) m m' l = k2_pay14 (F := Ideal) (grid2.coords t) (xin2 V c t) (wtileZ2 V c t) m m' l := by
  unfold k2_pay14; rw [tf.pay12_0 t d, tf.pay13_0 t d]

theorem TileFacts2.pay3_0 (t : Fin cfg2.N) (d : Vec Ideal S1024x1024 .f32) (tp : Vec Ideal S2048x1 .f32) :
    k2_pay3 (F := Ideal) (k2_pay10 (F := Ideal) (xin2 V c t) (wtile2 V c t d)) (k2_pay11 (grid2.coords t)) (tgin2 V c t) tp
      = k2_pay3 (F := Ideal) (k2_pay10 (F := Ideal) (xin2 V c t) (wtileZ2 V c t)) (k2_pay11 (grid2.coords t)) (tgin2 V c t) tp :=
  tf.pay3 t d _ tp

end Indep

def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d))
    ∗ (∃ d, owns (c : Thread nD τ) (win2_3.stage (cfg2.slots t 3)) fullShare ((dat2 V c).before 3 t d))
    ∗ (∃ d, owns (c : Thread nD τ) (win2_4.stage (cfg2.slots t 4)) fullShare ((dat2 V c).before 4 t d))
    ∗ (∃ d, owns (c : Thread nD τ) (win2_5.stage (cfg2.slots t 5)) fullShare ((dat2 V c).before 5 t d)))

def bodyPost2 (c : Dev nD) (t : Fin cfg2.N) : sProp 𝕄 :=
  iprop((dat2 V c).Φ t.succ ∗ (dat2 V c).owesAt () t.succ
    ∗ (dat2 V c).leaves 0 t
    ∗ (dat2 V c).leaves 1 t
    ∗ (dat2 V c).leaves 2 t
    ∗ (dat2 V c).leaves 3 t
    ∗ (dat2 V c).leaves 4 t
    ∗ (dat2 V c).leaves 5 t)

theorem leaves2_0 (c : Dev nD) (t : Fin cfg2.N) :
    (dat2 V c).leaves 0 t = owns (c : Thread nD τ) (win2_0.stage (cfg2.slots t 0)) fullShare (xin2 V c t) := by
  unfold Dat.leaves; rw [liveAt2_0 t, after2_0]
theorem leaves2_2 (c : Dev nD) (t : Fin cfg2.N) :
    (dat2 V c).leaves 2 t = owns (c : Thread nD τ) (win2_2.stage (cfg2.slots t 2)) fullShare (tgin2 V c t) := by
  unfold Dat.leaves; rw [liveAt2_2 t, after2_2]
theorem leaves2_1 (c : Dev nD) (t : Fin cfg2.N) :
    (dat2 V c).leaves 1 t = iprop(∃ d, owns (c : Thread nD τ) (win2_1.stage (cfg2.slots t 1)) fullShare (wtile2 V c t d)) := by
  unfold Dat.leaves; rw [liveAt2_1 t, after2_1]
  unfold wtileZ2 wtile2; simp only [Window.cut_fill]
  rfl

theorem leaves2_idle (c : Dev nD) (t : Fin cfg2.N) (h2 : ¬t.val % 25 = 24) (w : Fin cfg2.W) (hw : w = 3 ∨ w = 4 ∨ w = 5) :
    (dat2 V c).leaves w t = iprop(∃ d, owns (c : Thread nD τ) ((cfg2.win w).stage (cfg2.slots t w)) fullShare ((dat2 V c).before w t d)) :=
  Dat.leaves_idle (dat2 V c) w t (idleAt2 w hw t fun h => h2 ((hcond2_2 t).mp h)) (noFlush2 w hw t h2)

theorem sound_body2 (c : Dev nD) (tf : TileFacts2 V c) (t : Fin cfg2.N) :
    bodyPre2 V c t ⊢ wp frame (wpE (defs₀ (F := Ideal)) Variants.none c none) Set.univ (bodyAt2 (F := Ideal) t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  by_cases h1 : t.val % 25 = 0
  · have h2 : ¬t.val % 25 = 24 := by omega
    rw [leaves2_idle V c t h2 3 (.inl rfl), leaves2_idle V c t h2 4 (.inr (.inl rfl)), leaves2_idle V c t h2 5 (.inr (.inr rfl))]
    rw [scrAt2_first V c t h1]; unfold step2 reset2; (try dsimp only)
    by_cases hz : t.val = 0
    on_goal 1 => rw [PhiS2_castSucc V c t, PhiS2_zero V c _ _ hz, PhiA2_eq]; iintro ⟨⟨⟨⟨%e0, HS0⟩, ⟨%e1, HS1⟩, ⟨%e2, HS2⟩⟩, Hr⟩, Ho, ⟨%d0, H0⟩, ⟨%d1, H1⟩, ⟨%d2, H2⟩, ⟨%d3, H3⟩, ⟨%d4, H4⟩, ⟨%d5, H5⟩⟩
    on_goal 2 => rw [PhiS2_castSucc V c t, PhiS2_pos V c _ _ hz]; iintro ⟨⟨⟨HS0, HS1, HS2⟩, Hr⟩, Ho, ⟨%d0, H0⟩, ⟨%d1, H1⟩, ⟨%d2, H2⟩, ⟨%d3, H3⟩, ⟨%d4, H4⟩, ⟨%d5, H5⟩⟩
    all_goals
      iapply (run2 c (xin2 V c t) (wtile2 V c t d1) (tgin2 V c t) _ _ _ _ _ _)
      unfold held1; iframe H0 H1 H2 H3 H4 H5 HS0 HS1 HS2
      iintro ⟨H0, H1, H2, H3, H4, H5, HS0, HS1, HS2⟩
      simp only [upd2_8, upd2_9, upd2_10, if_pos ((hcond2_0 t).mpr h1), if_neg (mt (hcond2_2 t).mp h2), tf.pay13_0 t d1, tf.pay14_0 t d1, tf.pay3_0 t d1]
      iframe HS0 HS1 HS2 Hr Ho H0 H2
      isplitl [H1]; · iexists d1; iexact H1
      isplitl [H3]; · iexists d3; iexact H3
      isplitl [H4]; · iexists d4; iexact H4
      iexists d5; iexact H5
  · have hz : t.val ≠ 0 := fun h => h1 (by rw [h])
    rw [PhiS2_castSucc V c t, PhiS2_pos V c _ _ hz]
    by_cases h2 : t.val % 25 = 24
    · rw [show (dat2 V c).leaves 3 t = owns (c : Thread nD τ) (win2_3.stage (cfg2.slots t 3)) fullShare ((dat2 V c).after 3 t) from by
          unfold Dat.leaves; rw [liveAt2 3 (.inl rfl) t ((hcond2_2 t).mpr h2)], after2_3,
        show (dat2 V c).leaves 4 t = owns (c : Thread nD τ) (win2_4.stage (cfg2.slots t 4)) fullShare ((dat2 V c).after 4 t) from by
          unfold Dat.leaves; rw [liveAt2 4 (.inr (.inl rfl)) t ((hcond2_2 t).mpr h2)], after2_4,
        show (dat2 V c).leaves 5 t = owns (c : Thread nD τ) (win2_5.stage (cfg2.slots t 5)) fullShare ((dat2 V c).after 5 t) from by
          unfold Dat.leaves; rw [liveAt2 5 (.inr (.inr rfl)) t ((hcond2_2 t).mpr h2)], after2_5]
      rw [scrAt2_next V c t h1]; unfold step2; (try dsimp only)
      iintro ⟨⟨⟨HS0, HS1, HS2⟩, Hr⟩, Ho, ⟨%d0, H0⟩, ⟨%d1, H1⟩, ⟨%d2, H2⟩, ⟨%d3, H3⟩, ⟨%d4, H4⟩, ⟨%d5, H5⟩⟩
      iapply (run2 c (xin2 V c t) (wtile2 V c t d1) (tgin2 V c t) _ _ _ _ _ _)
      unfold held1; iframe H0 H1 H2 H3 H4 H5 HS0 HS1 HS2
      iintro ⟨H0, H1, H2, H3, H4, H5, HS0, HS1, HS2⟩
      simp only [upd2_8, upd2_9, upd2_10, if_neg (mt (hcond2_0 t).mp h1), if_pos ((hcond2_2 t).mpr h2), tf.pay13_0 t d1, tf.pay14_0 t d1, tf.pay3_0 t d1]
      iframe HS0 HS1 HS2 Hr Ho H0 H2 H3 H4 H5
      iexists d1; iexact H1
    · rw [leaves2_idle V c t h2 3 (.inl rfl), leaves2_idle V c t h2 4 (.inr (.inl rfl)), leaves2_idle V c t h2 5 (.inr (.inr rfl))]
      rw [scrAt2_next V c t h1]; unfold step2; (try dsimp only)
      iintro ⟨⟨⟨HS0, HS1, HS2⟩, Hr⟩, Ho, ⟨%d0, H0⟩, ⟨%d1, H1⟩, ⟨%d2, H2⟩, ⟨%d3, H3⟩, ⟨%d4, H4⟩, ⟨%d5, H5⟩⟩
      iapply (run2 c (xin2 V c t) (wtile2 V c t d1) (tgin2 V c t) _ _ _ _ _ _)
      unfold held1; iframe H0 H1 H2 H3 H4 H5 HS0 HS1 HS2
      iintro ⟨H0, H1, H2, H3, H4, H5, HS0, HS1, HS2⟩
      simp only [upd2_8, upd2_9, upd2_10, if_neg (mt (hcond2_0 t).mp h1), if_neg (mt (hcond2_2 t).mp h2), tf.pay13_0 t d1, tf.pay14_0 t d1, tf.pay3_0 t d1]
      iframe HS0 HS1 HS2 Hr Ho H0 H2
      isplitl [H1]; · iexists d1; iexact H1
      isplitl [H3]; · iexists d3; iexact H3
      isplitl [H4]; · iexists d4; iexact H4
      iexists d5; iexact H5

theorem body_obligation2 (c : Dev nD) (tf : TileFacts2 V c) :
    BodyObligationLoose (dat2 V c) (defs₀ (F := Ideal)) Variants.none () Set.univ := fun t => by
  rw [bigSep_W2, bigSep_W2]
  exact sound_body2 V c tf t

/-- info: 'Cert.KernelIdeal.Hand.body_obligation2' depends on axioms: [propext, Classical.choice, Quot.sound] -/
#guard_msgs in #print axioms body_obligation2

end Cert.KernelIdeal.Hand

end
-- ==== Proof.IdealTile.lean ====
import proofs.«413414_j14594298871876_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«413414_j14594298871876_1_alg».proof.Proof.OnlineSoftmax

noncomputable section

namespace Cert.KernelIdeal.Hand.Tile

open Cert.KernelIdeal Cert.KernelIdeal.Gen Idealize.ShloMosaic Idealize.ShloMosaic.ValueIdx Idealize.SL.Sem

theorem lhs_dot_0 (j : S2048x1024.Idx) (q : dot_S2048x1024_S1024x1024_S2048x1024_1_1_0_0_n_n.contr.Idx) :
    (dot_S2048x1024_S1024x1024_S2048x1024_1_1_0_0_n_n.lhsIdx j q 0).val = (j 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs_dot_1 (j : S2048x1024.Idx) (q : dot_S2048x1024_S1024x1024_S2048x1024_1_1_0_0_n_n.contr.Idx) :
    (dot_S2048x1024_S1024x1024_S2048x1024_1_1_0_0_n_n.lhsIdx j q 1).val = (q ⟨0, by decide⟩).val :=
  dot_S2048x1024_S1024x1024_S2048x1024_1_1_0_0_n_n.lhsIdx_val_of_single rfl j q
theorem rhs_dot_0 (j : S2048x1024.Idx) (q : dot_S2048x1024_S1024x1024_S2048x1024_1_1_0_0_n_n.contr.Idx) :
    (dot_S2048x1024_S1024x1024_S2048x1024_1_1_0_0_n_n.rhsIdx j q 0).val = (j 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs_dot_1 (j : S2048x1024.Idx) (q : dot_S2048x1024_S1024x1024_S2048x1024_1_1_0_0_n_n.contr.Idx) :
    (dot_S2048x1024_S1024x1024_S2048x1024_1_1_0_0_n_n.rhsIdx j q 1).val = (q ⟨0, by decide⟩).val :=
  dot_S2048x1024_S1024x1024_S2048x1024_1_1_0_0_n_n.rhsIdx_val_of_single rfl j q

theorem matmul_nt_zero_apply (prec : Option ContractPrecision) (lhs : FVec Ideal S2048x1024 .bf16) (rhs : FVec Ideal S1024x1024 .bf16)
    (s : Fin 2048) (lane : Fin 1024) :
    FloatOps.matmul dot_S2048x1024_S1024x1024_S2048x1024_1_1_0_0_n_n prec lhs rhs (constant S2048x1024 .f32 0x00000000#32) (ix2 s lane)
      = ∑ d : Fin 1024, lhs (ix2 s d) * rhs (ix2 lane d) := by
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 s lane) ((contrEquiv1 dot_S2048x1024_S1024x1024_S2048x1024_1_1_0_0_n_n 1024 rfl rfl).symm k) = ix2 s k :=
    funext fun a => Fin.ext (by
      match a with
      | ⟨0, _⟩ => exact lhs_dot_0 _ _
      | ⟨1, _⟩ => exact (lhs_dot_1 _ _).trans hk)
  have er : dot_S2048x1024_S1024x1024_S2048x1024_1_1_0_0_n_n.rhsIdx (ix2 s lane) ((contrEquiv1 dot_S2048x1024_S1024x1024_S2048x1024_1_1_0_0_n_n 1024 rfl rfl).symm k) = ix2 lane k :=
    funext fun a => Fin.ext (by
      match a with
      | ⟨0, _⟩ => exact rhs_dot_0 _ _
      | ⟨1, _⟩ => exact (rhs_dot_1 _ _).trans hk)
  rw [el, er]

theorem logit_apply (x : Vec Ideal S2048x1024 .bf16) (w : Vec Ideal S1024x1024 .f32) (s : Fin 2048) (lane : Fin 1024) :
    k0_pay10 x w (ix2 s lane) = ∑ d : Fin 1024, x (ix2 s d) * w (ix2 lane d) := by
  unfold k0_pay10
  rw [shapeCast_self]
  exact matmul_nt_zero_apply none x (truncf .bf16 w bitsLt_bf16_f32) s lane

theorem column_toNat (i : grid0.Coords) (s : Fin 2048) (lane : Fin 1024) :
    (k0_pay11 i (ix2 s lane)).toNat = 1024 * (25 * (i 0).val + (i 1).val) + lane.val := by
  have h0 : (i 0).val < 2 := (i 0).isLt
  have h1 : (i 1).val < 25 := (i 1).isLt
  have hl : lane.val < 1024 := lane.isLt
  unfold k0_pay11
  show (IntOp.addi (Scalar.muli (Scalar.addi (Scalar.muli (BitVec.ofNat 32 (i 0).val) 25#32) (BitVec.ofNat 32 (i 1).val)) 1024#32)
    (iota .tc S2048x1024 32 [1] iota_S2048x1024_d1_w32 (ix2 s lane))).toNat = _
  rw [iota_single_apply]
  show ((BitVec.ofNat 32 (i 0).val * 25#32 + BitVec.ofNat 32 (i 1).val) * 1024#32 + BitVec.ofNat 32 lane.val).toNat = _
  simp only [BitVec.toNat_add, BitVec.toNat_mul, BitVec.toNat_ofNat]
  omega

theorem cmpi_slt_of_small (a b : BitVec 32) (ha : a.toNat < 2 ^ 31) (hb : b.toNat < 2 ^ 31) :
    IntOp.cmpi .slt a b = if a.toNat < b.toNat then 1#1 else 0#1 := by
  have ea : a.toInt = (a.toNat : ℤ) := by rw [BitVec.toInt_eq_toNat_cond, if_pos (by omega)]
  have eb : b.toInt = (b.toNat : ℤ) := by rw [BitVec.toInt_eq_toNat_cond, if_pos (by omega)]
  show BitVec.ofBool (a.slt b) = _
  rw [BitVec.slt_eq_decide, ea, eb]
  by_cases h : a.toNat < b.toNat
  · rw [if_pos h, decide_eq_true (by exact_mod_cast h)]; rfl
  · rw [if_neg h, decide_eq_false (by exact_mod_cast h)]; rfl

theorem cmpi_eq_toNat (a b : BitVec 32) : IntOp.cmpi .eq a b = if a.toNat = b.toNat then 1#1 else 0#1 := by
  show BitVec.ofBool (a == b) = _
  by_cases h : a.toNat = b.toNat
  · have e : (a == b) = true := beq_iff_eq.mpr (BitVec.eq_of_toNat_eq h)
    rw [if_pos h, e]; rfl
  · have e : (a == b) = false := beq_eq_false_iff_ne.mpr fun e => h (by rw [e])
    rw [if_neg h, e]; rfl

theorem select_ite {α : Type} (c : Prop) [Decidable c] (A B : α) :
    Scalar.select (if c then 1#1 else 0#1) A B = if c then A else B := by
  by_cases h : c
  · rw [if_pos h, if_pos h]; exact select_one A B
  · rw [if_neg h, if_neg h]; exact select_zero A B

theorem neg_big_eq_bot : Named.named (F := Ideal) κ "neg_big" (φ := .f32) 0xFF333332#32 = (⊥ : EReal) :=
  IdealRules.named_const.ideal_named_scalar _ _ _ _ rfl

theorem masked_apply (i : grid0.Coords) (x : Vec Ideal S2048x1024 .bf16) (w : Vec Ideal S1024x1024 .f32) (s : Fin 2048) (lane : Fin 1024) :
    k0_pay12 i x w (ix2 s lane)
      = if 1024 * (25 * (i 0).val + (i 1).val) + lane.val < 50257 then ∑ d : Fin 1024, x (ix2 s d) * w (ix2 lane d) else ⊥ := by
  have h0 : (i 0).val < 2 := (i 0).isLt
  have h1 : (i 1).val < 25 := (i 1).isLt
  have hl : lane.val < 1024 := lane.isLt
  have hc := column_toNat i s lane
  unfold k0_pay12
  show Scalar.select (IntOp.cmpi .slt (k0_pay11 i (ix2 s lane)) 50257#32) (k0_pay10 x w (ix2 s lane))
    (Named.named (F := Ideal) κ "neg_big" (φ := .f32) 0xFF333332#32) = _
  rw [cmpi_slt_of_small _ _ (by rw [hc]; omega) (by decide), select_ite, logit_apply, neg_big_eq_bot, hc]
  rfl

theorem eq_ix2_zero (j : S2048x1.Idx) : j = ix2 (j 0) (0 : Fin 1) := by
  funext a; match a with
    | ⟨0, _⟩ => rfl
    | ⟨1, _⟩ => exact Fin.ext (by have h : (j 1).val < 1 := (j 1).isLt; show (j 1).val = 0; omega)

theorem masked_congr (i : grid0.Coords) (x : Vec Ideal S2048x1024 .bf16) (w w' : Vec Ideal S1024x1024 .f32)
    (hw : ∀ lane : Fin 1024, 1024 * (25 * (i 0).val + (i 1).val) + lane.val < 50257 → ∀ d : Fin 1024, w (ix2 lane d) = w' (ix2 lane d)) :
    k0_pay12 i x w = k0_pay12 i x w' := by
  funext j
  obtain ⟨s, lane, rfl⟩ : ∃ (s : Fin 2048) (lane : Fin 1024), j = ix2 s lane := ⟨j 0, j 1, eq_ix2 j⟩
  rw [masked_apply, masked_apply]
  by_cases h : 1024 * (25 * (i 0).val + (i 1).val) + lane.val < 50257
  · rw [if_pos h, if_pos h]
    exact Finset.sum_congr rfl fun d _ => by rw [hw lane h d]
  · rw [if_neg h, if_neg h]

section Layout
variable {α : Type}

theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem lift_lane (s : Fin 2048) (k : Fin 1024) :
    reduces_S2048x1024_S2048.lift (ix1 s) k = ix2 s k :=
  funext fun a => Fin.ext (by
    match a with
    | ⟨0, _⟩ => rfl
    | ⟨1, _⟩ => rfl)

theorem lanesum_apply (src : FVec Ideal S2048x1024 .f32) (hφ : FKind.Formats .f32)
    (hacc : (0x00000000#32 : BitVec 32) = 0x00000000#32) (s : Fin 2048) :
    shapeCast S2048x1 (multiReduction (F := Ideal) .add [1] S2048 src 0x00000000#32 reduces_S2048x1024_S2048 hφ hacc) shapeCasts_S2048_S2048x1 (ix2 s (0 : Fin 1))
      = ∑ k : Fin 1024, src (ix2 s k) := by
  refine (shapeCast_a_a1_apply _ _ s 0).trans ?_
  refine (Ideal.multiReduction_add_single src 0x00000000#32 reduces_S2048x1024_S2048 hφ hacc (ix1 s)).trans ?_
  show ∑ k : Fin 1024, src (reduces_S2048x1024_S2048.lift (ix1 s) k) = ∑ k : Fin 1024, src (ix2 s k)
  exact Finset.sum_congr rfl fun k _ => by rw [lift_lane]

theorem ofBits_neg_inf_f32 : Ideal.ofBits .f32 0xFF800000#32 = (⊥ : EReal) := by simp [Ideal.ofBits, Ideal.ieee]

theorem lanemax_apply (src : FVec Ideal S2048x1024 .f32) (hφ : FKind.Formats .f32)
    (hacc : (0xFF800000#32 : BitVec 32) = 0xFF800000#32) (s : Fin 2048) :
    shapeCast S2048x1 (multiReduction (F := Ideal) .maximumf [1] S2048 src 0xFF800000#32 reduces_S2048x1024_S2048 hφ hacc) shapeCasts_S2048_S2048x1 (ix2 s (0 : Fin 1))
      = Finset.univ.sup fun k : Fin 1024 => src (ix2 s k) := by
  refine (shapeCast_a_a1_apply _ _ s 0).trans ?_
  refine (Ideal.multiReduction_maximumf_single src 0xFF800000#32 reduces_S2048x1024_S2048 hφ hacc (ix1 s)).trans ?_
  show (Finset.univ : Finset (Fin 1024)).fold max (Ideal.ofBits .f32 0xFF800000#32) (src ∘ reduces_S2048x1024_S2048.lift (ix1 s)) = _
  rw [ofBits_neg_inf_f32]
  have e : (src ∘ reduces_S2048x1024_S2048.lift (ix1 s)) = fun k : Fin 1024 => src (ix2 s k) :=
    funext fun k : Fin 1024 => congrArg src (lift_lane s k)
  rw [e]
  rfl

theorem vexp_apply {s : Shape} {φ : FTy} (a : FVec Ideal s φ) (j : s.Idx) : exp a j = Ideal.exp (a j) := rfl

theorem vcmpi_apply {s : Shape} {n : ℕ} (p : CmpIPredicate) (a b : IVec s n) (j : s.Idx) :
    cmpi p a b j = IntOp.cmpi p (a j) (b j) := rfl

theorem scalar_ofBits_f32 (b : BitVec 32) : Scalar.ofBits (F := Ideal) .f32 b = Ideal.ofBits .f32 b := rfl

theorem rowmax_def (i : grid0.Coords) (x : Vec Ideal S2048x1024 .bf16) (w : Vec Ideal S1024x1024 .f32)
    (mp : Vec Ideal S2048x1 .f32) :
    k0_pay13 i x w mp = maximumf mp (shapeCast S2048x1 (multiReduction (F := Ideal) .maximumf [1] S2048 (k0_pay12 i x w) 0xFF800000#32
      reduces_S2048x1024_S2048 (.inl rfl) rfl) shapeCasts_S2048_S2048x1) := rfl

theorem rowmax_apply (i : grid0.Coords) (x : Vec Ideal S2048x1024 .bf16) (w : Vec Ideal S1024x1024 .f32)
    (mp : Vec Ideal S2048x1 .f32) (s : Fin 2048) :
    k0_pay13 i x w mp (ix2 s (0 : Fin 1))
      = max (mp (ix2 s (0 : Fin 1))) (Finset.univ.sup fun k : Fin 1024 => k0_pay12 i x w (ix2 s k)) := by
  rw [rowmax_def, maximumf_apply, lanemax_apply]

theorem rowsum_def (i : grid0.Coords) (x : Vec Ideal S2048x1024 .bf16) (w : Vec Ideal S1024x1024 .f32)
    (m1 m2 l : Vec Ideal S2048x1 .f32) :
    k0_pay14 i x w m1 m2 l = addf (mulf l (exp (subf m2 (k0_pay13 i x w m1))))
      (shapeCast S2048x1 (multiReduction (F := Ideal) .add [1] S2048
        (exp (subf (k0_pay12 i x w) (broadcastTo S2048x1024 (k0_pay13 i x w m1) broadcasts_S2048x1_S2048x1024)))
        0x00000000#32 reduces_S2048x1024_S2048 (.inl rfl) rfl) shapeCasts_S2048_S2048x1) := rfl

theorem rowsum_apply (i : grid0.Coords) (x : Vec Ideal S2048x1024 .bf16) (w : Vec Ideal S1024x1024 .f32)
    (m1 m2 l : Vec Ideal S2048x1 .f32) (s : Fin 2048) :
    k0_pay14 i x w m1 m2 l (ix2 s (0 : Fin 1))
      = l (ix2 s (0 : Fin 1)) * Ideal.exp (m2 (ix2 s (0 : Fin 1)) - k0_pay13 i x w m1 (ix2 s (0 : Fin 1)))
        + ∑ k : Fin 1024, Ideal.exp (k0_pay12 i x w (ix2 s k) - k0_pay13 i x w m1 (ix2 s (0 : Fin 1))) := by
  rw [rowsum_def, addf_apply, mulf_apply, vexp_apply, subf_apply, lanesum_apply]
  refine congrArg (_ + ·) (Finset.sum_congr rfl fun k _ => ?_)
  rw [vexp_apply, subf_apply, broadcastTo_a1_ab_apply]

theorem target_def (v7 : FVec Ideal S2048x1024 .f32) (v13 : IVec S2048x1024 32) (tg : Vec Ideal S2048x1 .i32) (tp : Vec Ideal S2048x1 .f32) :
    k0_pay3 v7 v13 tg tp = shapeCast S2048x1 (addf tp (shapeCast S2048x1 (multiReduction (F := Ideal) .add [1] S2048
      (select (cmpi .eq v13 (broadcastTo S2048x1024 (shapeCast S2048x1 (tg : IVec S2048x1 32) shapeCasts_S2048x1_S2048x1) broadcasts_S2048x1_S2048x1024))
        v7 (broadcast S2048x1024 (Scalar.ofBits (F := Ideal) .f32 0x00000000#32)))
      0x00000000#32 reduces_S2048x1024_S2048 (.inl rfl) rfl) shapeCasts_S2048_S2048x1)) shapeCasts_S2048x1_S2048x1 := rfl

theorem target_sum_apply (v7 : FVec Ideal S2048x1024 .f32) (v13 : IVec S2048x1024 32) (tg : Vec Ideal S2048x1 .i32) (tp : Vec Ideal S2048x1 .f32)
    (s : Fin 2048) :
    k0_pay3 v7 v13 tg tp (ix2 s (0 : Fin 1))
      = tp (ix2 s (0 : Fin 1)) + ∑ k : Fin 1024,
          if (v13 (ix2 s k)).toNat = (tg (ix2 s (0 : Fin 1)) : BitVec 32).toNat then v7 (ix2 s k) else 0 := by
  rw [target_def, shapeCast_self, shapeCast_self, addf_apply, lanesum_apply]
  refine congrArg (_ + ·) (Finset.sum_congr rfl fun k _ => ?_)
  rw [select_apply, vcmpi_apply, broadcastTo_a1_ab_apply, broadcast_apply, cmpi_eq_toNat, select_ite, scalar_ofBits_f32,
    Ideal.ofBits_zero_f32]

theorem target_apply (i : grid0.Coords) (x : Vec Ideal S2048x1024 .bf16) (w : Vec Ideal S1024x1024 .f32)
    (tg : Vec Ideal S2048x1 .i32) (tp : Vec Ideal S2048x1 .f32) (s : Fin 2048) :
    k0_pay3 (k0_pay10 x w) (k0_pay11 i) tg tp (ix2 s (0 : Fin 1))
      = tp (ix2 s (0 : Fin 1)) + ∑ lane : Fin 1024,
          if 1024 * (25 * (i 0).val + (i 1).val) + lane.val = (tg (ix2 s (0 : Fin 1)) : BitVec 32).toNat
          then ∑ d : Fin 1024, x (ix2 s d) * w (ix2 lane d) else 0 := by
  rw [target_sum_apply]
  refine congrArg (_ + ·) (Finset.sum_congr rfl fun k _ => ?_)
  rw [column_toNat, logit_apply]

section Row
variable (i : grid0.Coords) (x : Vec Ideal S2048x1024 .bf16) (w : Vec Ideal S1024x1024 .f32) (s : Fin 2048)
  (z : Fin 50257 → EReal)
  (hz : ∀ (lane : Fin 1024) (h : 1024 * (25 * (i 0).val + (i 1).val) + lane.val < 50257),
    ∑ d : Fin 1024, x (ix2 s d) * w (ix2 lane d) = z ⟨1024 * (25 * (i 0).val + (i 1).val) + lane.val, h⟩)
include hz

theorem masked_eq_zpad (lane : Fin 1024) :
    k0_pay12 i x w (ix2 s lane) = Cert.OnlineSoftmax.zpad z (1024 * (25 * (i 0).val + (i 1).val) + lane.val) := by
  rw [masked_apply]
  unfold Cert.OnlineSoftmax.zpad
  by_cases h : 1024 * (25 * (i 0).val + (i 1).val) + lane.val < 50257
  · rw [if_pos h, dif_pos h, hz lane h]
  · rw [if_neg h, dif_neg h]

theorem rowmax_eq_mstep (mp : Vec Ideal S2048x1 .f32) :
    k0_pay13 i x w mp (ix2 s (0 : Fin 1))
      = Cert.OnlineSoftmax.mstep z (25 * (i 0).val + (i 1).val) (mp (ix2 s (0 : Fin 1))) := by
  rw [rowmax_apply]
  unfold Cert.OnlineSoftmax.mstep Cert.OnlineSoftmax.tileMax
  exact congrArg (max _) (Finset.sup_congr rfl fun k _ => masked_eq_zpad i x w s z hz k)

theorem rowsum_eq_lstep (mp l : Vec Ideal S2048x1 .f32) :
    k0_pay14 i x w mp mp l (ix2 s (0 : Fin 1))
      = Cert.OnlineSoftmax.lstep z (25 * (i 0).val + (i 1).val) (mp (ix2 s (0 : Fin 1))) (l (ix2 s (0 : Fin 1))) := by
  rw [rowsum_apply, rowmax_eq_mstep i x w s z hz]
  unfold Cert.OnlineSoftmax.lstep
  exact congrArg (_ + ·) (Finset.sum_congr rfl fun k _ => by rw [masked_eq_zpad i x w s z hz k])

end Row

theorem target_eq_tstep (i : grid0.Coords) (x : Vec Ideal S2048x1024 .bf16) (w : Vec Ideal S1024x1024 .f32)
    (tg : Vec Ideal S2048x1 .i32) (tp : Vec Ideal S2048x1 .f32) (s : Fin 2048) (zraw : ℕ → EReal)
    (hraw : ∀ lane : Fin 1024, 1024 * (25 * (i 0).val + (i 1).val) + lane.val < 50257 →
      zraw (1024 * (25 * (i 0).val + (i 1).val) + lane.val) = ∑ d : Fin 1024, x (ix2 s d) * w (ix2 lane d))
    (ht : (tg (ix2 s (0 : Fin 1)) : BitVec 32).toNat < 50257) :
    k0_pay3 (k0_pay10 x w) (k0_pay11 i) tg tp (ix2 s (0 : Fin 1))
      = Cert.OnlineSoftmax.tstep zraw (tg (ix2 s (0 : Fin 1)) : BitVec 32).toNat (25 * (i 0).val + (i 1).val) (tp (ix2 s (0 : Fin 1))) := by
  rw [target_apply]
  unfold Cert.OnlineSoftmax.tstep
  refine congrArg (_ + ·) (Finset.sum_congr rfl fun lane _ => ?_)
  by_cases h : 1024 * (25 * (i 0).val + (i 1).val) + lane.val = (tg (ix2 s (0 : Fin 1)) : BitVec 32).toNat
  · rw [if_pos h, if_pos h, hraw lane (by omega)]
  · rw [if_neg h, if_neg h]

theorem target_congr (i : grid0.Coords) (x : Vec Ideal S2048x1024 .bf16) (w w' : Vec Ideal S1024x1024 .f32)
    (hw : ∀ lane : Fin 1024, 1024 * (25 * (i 0).val + (i 1).val) + lane.val < 50257 → ∀ d : Fin 1024, w (ix2 lane d) = w' (ix2 lane d))
    (tg : Vec Ideal S2048x1 .i32) (ht : ∀ s : Fin 2048, (tg (ix2 s (0 : Fin 1)) : BitVec 32).toNat < 50257)
    (tp : Vec Ideal S2048x1 .f32) :
    k0_pay3 (k0_pay10 x w) (k0_pay11 i) tg tp = k0_pay3 (k0_pay10 x w') (k0_pay11 i) tg tp := by
  funext j
  obtain ⟨s, rfl⟩ : ∃ s : Fin 2048, j = ix2 s (0 : Fin 1) := ⟨j 0, eq_ix2_zero j⟩
  rw [target_apply, target_apply]
  refine congrArg (_ + ·) (Finset.sum_congr rfl fun lane _ => ?_)
  by_cases h : 1024 * (25 * (i 0).val + (i 1).val) + lane.val = (tg (ix2 s (0 : Fin 1)) : BitVec 32).toNat
  · rw [if_pos h, if_pos h]
    have hlt : 1024 * (25 * (i 0).val + (i 1).val) + lane.val < 50257 := by have := ht s; omega
    exact Finset.sum_congr rfl fun d _ => by rw [hw lane hlt d]
  · rw [if_neg h, if_neg h]

theorem reset_max : (k0_pay7 (F := Ideal)) = fun _ => (⊥ : EReal) := by
  show shapeCast S2048x1 (broadcast S2048x1 (Scalar.ofBits (F := Ideal) .f32 0xFF800000#32)) shapeCasts_S2048x1_S2048x1 = _
  rw [shapeCast_self]
  funext j
  exact ofBits_neg_inf_f32

theorem reset_sum : (k0_pay8 (F := Ideal)) = fun _ => (0 : EReal) := by
  show shapeCast S2048x1 (broadcast S2048x1 (Scalar.ofBits (F := Ideal) .f32 0x00000000#32)) shapeCasts_S2048x1_S2048x1 = _
  rw [shapeCast_self]
  funext j
  exact Ideal.ofBits_zero_f32

theorem reset_target : (k0_pay9 (F := Ideal)) = fun _ => (0 : EReal) := by
  show shapeCast S2048x1 (broadcast S2048x1 (Scalar.ofBits (F := Ideal) .f32 0x00000000#32)) shapeCasts_S2048x1_S2048x1 = _
  rw [shapeCast_self]
  funext j
  exact Ideal.ofBits_zero_f32

theorem store_sum (v : FVec Ideal S2048x1 .f32) : k0_pay1 v = v := by
  unfold k0_pay1
  exact shapeCast_self v _

theorem store_max (v : FVec Ideal S2048x1 .f32) : k0_pay2 v = v := by
  unfold k0_pay2
  exact shapeCast_self v _

theorem copy_max_apply (v : Vec Ideal S2048x1 .f32) (u : Fin 1) (s : Fin 2048) (c : Fin 1) :
    k0_pay4 v (ix3 u s c) = v (ix2 s c) := by
  unfold k0_pay4
  exact shapeCast_ab_1ab_apply v _ u s c

theorem copy_sum_apply (v : Vec Ideal S2048x1 .f32) (u : Fin 1) (s : Fin 2048) (c : Fin 1) :
    k0_pay5 v (ix3 u s c) = v (ix2 s c) := by
  unfold k0_pay5
  exact shapeCast_ab_1ab_apply v _ u s c

theorem copy_target_apply (v : Vec Ideal S2048x1 .f32) (u : Fin 1) (s : Fin 2048) (c : Fin 1) :
    k0_pay6 v (ix3 u s c) = v (ix2 s c) := by
  unfold k0_pay6
  exact shapeCast_ab_1ab_apply v _ u s c

end Cert.KernelIdeal.Hand.Tile

end
-- ==== Proof.IdealTileFacts0.lean ====
import proofs.«413414_j14594298871876_1_alg».proof.Proof.IdealData0
import proofs.«413414_j14594298871876_1_alg».proof.Proof.IdealTile
import Idealize.ShloMosaic.Lib.ValueIdx

noncomputable section

namespace Cert.KernelIdeal.Hand

open Idealize.ShloMosaic Idealize.ShloMosaic.TcCoe Idealize.ShloMosaic.ValueIdx
open Idealize.SL.Sem
open Cert.KernelIdeal Cert.KernelIdeal.Gen

theorem point_facts0 : ∀ t : Fin grid0.N,
    25 * (grid0.coords t 0).val + (grid0.coords t 1).val = t.val
    ∧ win0_1.index t (0 : Fin 2) = t.val ∧ win0_1.index t (1 : Fin 2) = 0
    ∧ win0_1.xsize (grid0.coords t) (0 : Fin 2) = min 1024 (50257 - 1024 * t.val)
    ∧ win0_1.xsize (grid0.coords t) (1 : Fin 2) = 1024
    ∧ win0_0.index t (0 : Fin 2) = 0 ∧ win0_0.index t (1 : Fin 2) = 0
    ∧ win0_2.index t (0 : Fin 2) = 0 ∧ win0_2.index t (1 : Fin 2) = 0 := by
  decide +kernel

theorem fill_of_moved {sig : RefSig} {G : Pipeline.Grid} (w : Pipeline.Window sig G) {α : Type} (i : G.Coords) (d : w.block.Idx → α)
    (g : (w.xblock i).Idx → α) {j : w.block.Idx} (h : w.moved i j = true) :
    w.fill i d g j = g fun a => ⟨(j a).val, (w.moved_iff i j).mp h a⟩ := by
  unfold Pipeline.Window.fill; rw [dif_pos h]

theorem moved_row0 (t : Fin cfg0.N) (lane k : Fin 1024) (h : 1024 * t.val + lane.val < 50257) :
    (cfg0.win 1).moved (grid0.coords t) (ix2 lane k) = true := by
  obtain ⟨-, -, -, e3, e4, -⟩ := point_facts0 t
  refine ((cfg0.win 1).moved_iff _ _).mpr fun a => ?_
  match a with
  | ⟨0, _⟩ =>
    show lane.val < win0_1.xsize (grid0.coords t) (0 : Fin 2)
    rw [e3]; have := lane.isLt; omega
  | ⟨1, _⟩ =>
    show k.val < win0_1.xsize (grid0.coords t) (1 : Fin 2)
    rw [e4]; exact k.isLt

-- reading at the place e of the element j of the block with index (0, 0) is reading at j
theorem read_block0 {α : Type} {n0 n1 : ℕ} (B : (⟨2, ![n0, n1]⟩ : Shape).Idx → α) (e j : (⟨2, ![n0, n1]⟩ : Shape).Idx)
    (k : Fin 2 → ℕ) (hk0 : k 0 = 0) (hk1 : k 1 = 0) (m0 m1 : ℕ) (h0 : (e 0).val = k 0 * m0 + 1 * (j 0).val)
    (h1 : (e 1).val = k 1 * m1 + 1 * (j 1).val) : B e = B j :=
  congrArg B (Shape.idx_ext₂ (by rw [h0, hk0]; omega) (by rw [h1, hk1]; omega))

-- reading at the place e of the element (lane, j) of the block with index (t, 0) is reading row 1024 t + lane
theorem read_row (B : S50257x1024.Idx → EReal) (e : S50257x1024.Idx) (k : Fin 2 → ℕ) (t : ℕ) (hk0 : k 0 = t) (hk1 : k 1 = 0)
    (lane j : Fin 1024) (h : 1024 * t + lane.val < 50257) (h0 : (e 0).val = k 0 * 1024 + 1 * lane.val)
    (h1 : (e 1).val = k 1 * 1024 + 1 * j.val) : B e = B (ix2 ⟨1024 * t + lane.val, h⟩ j) :=
  congrArg B (Shape.idx_ext₂ (by show (e 0).val = 1024 * t + lane.val; omega) (by show (e 1).val = j.val; omega))

variable (V : (c : Dev nD) → (b : Ref sig .tc) → Buf (Elt Ideal) ((c : Thread nD τ).loc b))

theorem wtile_apply (c : Dev nD) (t : Fin cfg0.N) (d : Vec Ideal S1024x1024 .f32) (lane k : Fin 1024)
    (h : 1024 * t.val + lane.val < 50257) :
    wtile V c t d (ix2 lane k) = (V c main_arg2 : S50257x1024.Idx → EReal) (ix2 ⟨1024 * t.val + lane.val, h⟩ k) := by
  obtain ⟨-, e1, e2, -⟩ := point_facts0 t
  refine (fill_of_moved (cfg0.win 1) (grid0.coords t) d (iblk0 V c 1 t) (moved_row0 t lane k h)).trans ?_
  show (V c main_arg2 : S50257x1024.Idx → EReal) (((cfg0.win 1).blk t).view.emb _) = _
  exact read_row _ _ _ t.val e1 e2 lane k h rfl rfl

theorem wtile0_apply (c : Dev nD) (t : Fin cfg0.N) (lane k : Fin 1024) (h : 1024 * t.val + lane.val < 50257) :
    wtile0 V c t (ix2 lane k) = (V c main_arg2 : S50257x1024.Idx → EReal) (ix2 ⟨1024 * t.val + lane.val, h⟩ k) :=
  wtile_apply V c t _ lane k h

theorem wtile_congr_rows (c : Dev nD) (t : Fin cfg0.N) (d d' : Vec Ideal S1024x1024 .f32) (lane : Fin 1024)
    (h : 1024 * (25 * (grid0.coords t 0).val + (grid0.coords t 1).val) + lane.val < 50257) (k : Fin 1024) :
    wtile V c t d (ix2 lane k) = wtile V c t d' (ix2 lane k) := by
  have e : 25 * (grid0.coords t 0).val + (grid0.coords t 1).val = t.val := (point_facts0 t).1
  have h' : 1024 * t.val + lane.val < 50257 := by omega
  rw [wtile_apply V c t d lane k h', wtile_apply V c t d' lane k h']

theorem xin_eq (c : Dev nD) (t : Fin cfg0.N) : xin V c t = (V c main_v15 : S2048x1024.Idx → Elt Ideal .bf16) := by
  obtain ⟨-, -, -, -, -, e5, e6, -⟩ := point_facts0 t
  exact funext fun j => read_block0 (V c main_v15 : S2048x1024.Idx → Elt Ideal .bf16) (((cfg0.win 0).blk t).view.emb j) j _ e5 e6
    2048 1024 rfl rfl

theorem tgin_eq (c : Dev nD) (t : Fin cfg0.N) : tgin V c t = (V c main_v24 : S2048x1.Idx → Elt Ideal .i32) := by
  obtain ⟨-, -, -, -, -, -, -, e7, e8⟩ := point_facts0 t
  exact funext fun j => read_block0 (V c main_v24 : S2048x1.Idx → Elt Ideal .i32) (((cfg0.win 2).blk t).view.emb j) j _ e7 e8
    2048 1 rfl rfl

theorem tileFacts0 (c : Dev nD)
    (htg : ∀ (t : Fin cfg0.N) (s : Fin 2048), (tgin V c t (ix2 s (0 : Fin 1)) : BitVec 32).toNat < 50257) : TileFacts V c where
  pay12 t d d' := by
    exact Tile.masked_congr (grid0.coords t) (xin V c t) (wtile V c t d) (wtile V c t d')
      fun lane h k => wtile_congr_rows V c t d d' lane h k
  pay3 t d d' tp := by
    exact Tile.target_congr (grid0.coords t) (xin V c t) (wtile V c t d) (wtile V c t d')
      (fun lane h k => wtile_congr_rows V c t d d' lane h k) (tgin V c t) (htg t) tp

end Cert.KernelIdeal.Hand

end
-- ==== Proof.PayEq.lean ====
import proofs.«413414_j14594298871876_1_alg».proof.Proof.Gen.KernelIdeal.Skeleton
import Idealize.ShloMosaic.Lib.Pipeline.Value

noncomputable section

namespace Cert.KernelIdeal.Hand

open Cert.KernelIdeal Cert.KernelIdeal.Gen Idealize.ShloMosaic

variable {F : FTy → Type} [FloatOps F] [Named F]

theorem k1_pay3_eq (a : FVec F S2048x1024 .f32) (b : IVec S2048x1024 32) (t : Vec F S2048x1 .i32) (p : Vec F S2048x1 .f32) : k1_pay3 (F := F) a b t p = k0_pay3 (F := F) a b t p := rfl
theorem k1_pay10_eq (x : Vec F S2048x1024 .bf16) (w : Vec F S1024x1024 .f32) : k1_pay10 (F := F) x w = k0_pay10 (F := F) x w := by unfold k1_pay10 k0_pay10; simp only [shapeCast_self]
theorem k1_pay11_eq (i : grid0.Coords) : k1_pay11 i = k0_pay11 i := rfl
theorem k1_pay12_eq (i : grid0.Coords) (x : Vec F S2048x1024 .bf16) (w : Vec F S1024x1024 .f32) : k1_pay12 (F := F) i x w = k0_pay12 (F := F) i x w := by unfold k1_pay12 k0_pay12; rw [k1_pay10_eq]; rfl
theorem k1_pay13_eq (i : grid0.Coords) (x : Vec F S2048x1024 .bf16) (w : Vec F S1024x1024 .f32) (m : Vec F S2048x1 .f32) : k1_pay13 (F := F) i x w m = k0_pay13 (F := F) i x w m := by unfold k1_pay13 k0_pay13; rw [k1_pay12_eq]
theorem k1_pay14_eq (i : grid0.Coords) (x : Vec F S2048x1024 .bf16) (w : Vec F S1024x1024 .f32) (m m' l : Vec F S2048x1 .f32) : k1_pay14 (F := F) i x w m m' l = k0_pay14 (F := F) i x w m m' l := by unfold k1_pay14 k0_pay14; rw [k1_pay12_eq, k1_pay13_eq]
theorem k2_pay3_eq (a : FVec F S2048x1024 .f32) (b : IVec S2048x1024 32) (t : Vec F S2048x1 .i32) (p : Vec F S2048x1 .f32) : k2_pay3 (F := F) a b t p = k0_pay3 (F := F) a b t p := rfl
theorem k2_pay10_eq (x : Vec F S2048x1024 .bf16) (w : Vec F S1024x1024 .f32) : k2_pay10 (F := F) x w = k0_pay10 (F := F) x w := by unfold k2_pay10 k0_pay10; simp only [shapeCast_self]
theorem k2_pay11_eq (i : grid0.Coords) : k2_pay11 i = k0_pay11 i := rfl
theorem k2_pay12_eq (i : grid0.Coords) (x : Vec F S2048x1024 .bf16) (w : Vec F S1024x1024 .f32) : k2_pay12 (F := F) i x w = k0_pay12 (F := F) i x w := by unfold k2_pay12 k0_pay12; rw [k2_pay10_eq]; rfl
theorem k2_pay13_eq (i : grid0.Coords) (x : Vec F S2048x1024 .bf16) (w : Vec F S1024x1024 .f32) (m : Vec F S2048x1 .f32) : k2_pay13 (F := F) i x w m = k0_pay13 (F := F) i x w m := by unfold k2_pay13 k0_pay13; rw [k2_pay12_eq]
theorem k2_pay14_eq (i : grid0.Coords) (x : Vec F S2048x1024 .bf16) (w : Vec F S1024x1024 .f32) (m m' l : Vec F S2048x1 .f32) : k2_pay14 (F := F) i x w m m' l = k0_pay14 (F := F) i x w m m' l := by unfold k2_pay14 k0_pay14; rw [k2_pay12_eq, k2_pay13_eq]

end Cert.KernelIdeal.Hand

end
-- ==== Proof.IdealTileFacts1.lean ====
import proofs.«413414_j14594298871876_1_alg».proof.Proof.IdealData1
import proofs.«413414_j14594298871876_1_alg».proof.Proof.PayEq
import proofs.«413414_j14594298871876_1_alg».proof.Proof.IdealTileFacts0

noncomputable section

namespace Cert.KernelIdeal.Hand

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

theorem wtile1_apply (c : Dev nD) (t : Fin cfg1.N) (d : Vec Ideal S1024x1024 .f32) (lane k : Fin 1024)
    (h : 1024 * t.val + lane.val < 50257) :
    wtile1 V c t d (ix2 lane k) = (V c main_v93 : S50257x1024.Idx → EReal) (ix2 ⟨1024 * t.val + lane.val, h⟩ k) := by
  obtain ⟨-, e1, e2, -⟩ := point_facts0 t
  refine (fill_of_moved (cfg1.win 1) (grid1.coords t) d (iblk1 V c 1 t) (moved_row0 t lane k h)).trans ?_
  show (V c main_v93 : S50257x1024.Idx → EReal) (((cfg1.win 1).blk t).view.emb _) = _
  exact read_row _ _ _ t.val e1 e2 lane k h rfl rfl

theorem wtileZ1_apply (c : Dev nD) (t : Fin cfg1.N) (lane k : Fin 1024) (h : 1024 * t.val + lane.val < 50257) :
    wtileZ1 V c t (ix2 lane k) = (V c main_v93 : S50257x1024.Idx → EReal) (ix2 ⟨1024 * t.val + lane.val, h⟩ k) :=
  wtile1_apply V c t _ lane k h

theorem wtile1_congr_rows (c : Dev nD) (t : Fin cfg1.N) (d d' : Vec Ideal S1024x1024 .f32) (lane : Fin 1024)
    (h : 1024 * (25 * (grid1.coords t 0).val + (grid1.coords t 1).val) + lane.val < 50257) (k : Fin 1024) :
    wtile1 V c t d (ix2 lane k) = wtile1 V c t d' (ix2 lane k) := by
  have e : 25 * (grid1.coords t 0).val + (grid1.coords t 1).val = t.val := (point_facts0 t).1
  have h' : 1024 * t.val + lane.val < 50257 := by omega
  rw [wtile1_apply V c t d lane k h', wtile1_apply V c t d' lane k h']

theorem xin1_eq (c : Dev nD) (t : Fin cfg1.N) : xin1 V c t = (V c main_v80 : S2048x1024.Idx → Elt Ideal .bf16) := by
  obtain ⟨-, -, -, -, -, e5, e6, -⟩ := point_facts0 t
  exact funext fun j => read_block0 (V c main_v80 : S2048x1024.Idx → Elt Ideal .bf16) (((cfg1.win 0).blk t).view.emb j) j _ e5 e6
    2048 1024 rfl rfl

theorem tgin1_eq (c : Dev nD) (t : Fin cfg1.N) : tgin1 V c t = (V c main_v89 : S2048x1.Idx → Elt Ideal .i32) := by
  obtain ⟨-, -, -, -, -, -, -, e7, e8⟩ := point_facts0 t
  exact funext fun j => read_block0 (V c main_v89 : S2048x1.Idx → Elt Ideal .i32) (((cfg1.win 2).blk t).view.emb j) j _ e7 e8
    2048 1 rfl rfl

theorem tileFacts1 (c : Dev nD)
    (htg : ∀ (t : Fin cfg1.N) (s : Fin 2048), (tgin1 V c t (ix2 s (0 : Fin 1)) : BitVec 32).toNat < 50257) : TileFacts1 V c where
  pay12 t d d' := by
    simp only [k1_pay12_eq]
    exact Tile.masked_congr (grid1.coords t) (xin1 V c t) (wtile1 V c t d) (wtile1 V c t d')
      fun lane h k => wtile1_congr_rows V c t d d' lane h k
  pay3 t d d' tp := by
    simp only [k1_pay3_eq, k1_pay10_eq, k1_pay11_eq]
    exact Tile.target_congr (grid1.coords t) (xin1 V c t) (wtile1 V c t d) (wtile1 V c t d')
      (fun lane h k => wtile1_congr_rows V c t d d' lane h k) (tgin1 V c t) (htg t) tp

end Cert.KernelIdeal.Hand

end
-- ==== Proof.IdealTileFacts2.lean ====
import proofs.«413414_j14594298871876_1_alg».proof.Proof.IdealData2
import proofs.«413414_j14594298871876_1_alg».proof.Proof.PayEq
import proofs.«413414_j14594298871876_1_alg».proof.Proof.IdealTileFacts0

noncomputable section

namespace Cert.KernelIdeal.Hand

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

theorem wtile2_apply (c : Dev nD) (t : Fin cfg2.N) (d : Vec Ideal S1024x1024 .f32) (lane k : Fin 1024)
    (h : 1024 * t.val + lane.val < 50257) :
    wtile2 V c t d (ix2 lane k) = (V c main_v160 : S50257x1024.Idx → EReal) (ix2 ⟨1024 * t.val + lane.val, h⟩ k) := by
  obtain ⟨-, e1, e2, -⟩ := point_facts0 t
  refine (fill_of_moved (cfg2.win 1) (grid2.coords t) d (iblk2 V c 1 t) (moved_row0 t lane k h)).trans ?_
  show (V c main_v160 : S50257x1024.Idx → EReal) (((cfg2.win 1).blk t).view.emb _) = _
  exact read_row _ _ _ t.val e1 e2 lane k h rfl rfl

theorem wtileZ2_apply (c : Dev nD) (t : Fin cfg2.N) (lane k : Fin 1024) (h : 1024 * t.val + lane.val < 50257) :
    wtileZ2 V c t (ix2 lane k) = (V c main_v160 : S50257x1024.Idx → EReal) (ix2 ⟨1024 * t.val + lane.val, h⟩ k) :=
  wtile2_apply V c t _ lane k h

theorem wtile2_congr_rows (c : Dev nD) (t : Fin cfg2.N) (d d' : Vec Ideal S1024x1024 .f32) (lane : Fin 1024)
    (h : 1024 * (25 * (grid2.coords t 0).val + (grid2.coords t 1).val) + lane.val < 50257) (k : Fin 1024) :
    wtile2 V c t d (ix2 lane k) = wtile2 V c t d' (ix2 lane k) := by
  have e : 25 * (grid2.coords t 0).val + (grid2.coords t 1).val = t.val := (point_facts0 t).1
  have h' : 1024 * t.val + lane.val < 50257 := by omega
  rw [wtile2_apply V c t d lane k h', wtile2_apply V c t d' lane k h']

theorem xin2_eq (c : Dev nD) (t : Fin cfg2.N) : xin2 V c t = (V c main_v147 : S2048x1024.Idx → Elt Ideal .bf16) := by
  obtain ⟨-, -, -, -, -, e5, e6, -⟩ := point_facts0 t
  exact funext fun j => read_block0 (V c main_v147 : S2048x1024.Idx → Elt Ideal .bf16) (((cfg2.win 0).blk t).view.emb j) j _ e5 e6
    2048 1024 rfl rfl

theorem tgin2_eq (c : Dev nD) (t : Fin cfg2.N) : tgin2 V c t = (V c main_v156 : S2048x1.Idx → Elt Ideal .i32) := by
  obtain ⟨-, -, -, -, -, -, -, e7, e8⟩ := point_facts0 t
  exact funext fun j => read_block0 (V c main_v156 : S2048x1.Idx → Elt Ideal .i32) (((cfg2.win 2).blk t).view.emb j) j _ e7 e8
    2048 1 rfl rfl

theorem tileFacts2 (c : Dev nD)
    (htg : ∀ (t : Fin cfg2.N) (s : Fin 2048), (tgin2 V c t (ix2 s (0 : Fin 1)) : BitVec 32).toNat < 50257) : TileFacts2 V c where
  pay12 t d d' := by
    simp only [k2_pay12_eq]
    exact Tile.masked_congr (grid2.coords t) (xin2 V c t) (wtile2 V c t d) (wtile2 V c t d')
      fun lane h k => wtile2_congr_rows V c t d d' lane h k
  pay3 t d d' tp := by
    simp only [k2_pay3_eq, k2_pay10_eq, k2_pay11_eq]
    exact Tile.target_congr (grid2.coords t) (xin2 V c t) (wtile2 V c t d) (wtile2 V c t d')
      (fun lane h k => wtile2_congr_rows V c t d d' lane h k) (tgin2 V c t) (htg t) tp

end Cert.KernelIdeal.Hand

end
-- ==== Proof.IdealVal0.lean ====
import proofs.«413414_j14594298871876_1_alg».proof.Proof.IdealData0
import proofs.«413414_j14594298871876_1_alg».proof.Proof.IdealTile
import proofs.«413414_j14594298871876_1_alg».proof.Proof.OnlineSoftmax
import Idealize.ShloMosaic.Lib.Pipeline.Value
import Idealize.ShloMosaic.Lib.ValueIdx

noncomputable section

namespace Cert.KernelIdeal.Hand

open Idealize.ShloMosaic Idealize.ShloMosaic.TcCoe
open Cert.KernelIdeal Cert.KernelIdeal.Gen
open Idealize.ShloMosaic.ValueIdx
open Cert.OnlineSoftmax (mstep lstep tstep sweep)

variable (V : (c : Dev nD) → (b : Ref sig .tc) → Buf (Elt Ideal) ((c : Thread nD τ).loc b))

theorem coords_val : ∀ t : Fin cfg0.N, 25 * (grid0.coords t 0).val + (grid0.coords t 1).val = t.val :=
  (by decide +kernel : ∀ t : Fin grid0.N, 25 * (grid0.coords t 0).val + (grid0.coords t 1).val = t.val)

def rowOf (S : Run3) (s : Fin 2048) : EReal × EReal × EReal :=
  (S.1 (ix2 s (0 : Fin 1)), S.2.1 (ix2 s (0 : Fin 1)), S.2.2 (ix2 s (0 : Fin 1)))

theorem row_reset (s : Fin 2048) : rowOf reset0 s = ((⊥ : EReal), (0 : EReal), (0 : EReal)) := by
  unfold rowOf reset0
  rw [Tile.reset_max, Tile.reset_sum, Tile.reset_target]

-- one point's update at row s is one step of the online softmax on tile n, whatever blocks x, w, tg the point reads
theorem row_step (i : grid0.Coords) (n : ℕ) (hn : 25 * (i 0).val + (i 1).val = n)
    (x : Vec Ideal S2048x1024 .bf16) (w : Vec Ideal S1024x1024 .f32) (tg : Vec Ideal S2048x1 .i32)
    (s : Fin 2048) (z : Fin 50257 → EReal) (zraw : ℕ → EReal) (tgt : ℕ)
    (hz : ∀ (lane : Fin 1024) (h : 1024 * n + lane.val < 50257),
      ∑ d : Fin 1024, x (ix2 s d) * w (ix2 lane d) = z ⟨1024 * n + lane.val, h⟩)
    (hraw : ∀ lane : Fin 1024, 1024 * n + lane.val < 50257 →
      zraw (1024 * n + lane.val) = ∑ d : Fin 1024, x (ix2 s d) * w (ix2 lane d))
    (htg : (tg (ix2 s (0 : Fin 1)) : BitVec 32).toNat = tgt) (ht : tgt < 50257) (S : Run3) :
    rowOf (k0_pay2 (F := Ideal) (k0_pay13 (F := Ideal) i x w S.1),
        k0_pay1 (F := Ideal) (k0_pay14 (F := Ideal) i x w S.1 S.1 S.2.1),
        k0_pay3 (F := Ideal) (k0_pay10 (F := Ideal) x w) (k0_pay11 i) tg S.2.2) s
      = (mstep z n (rowOf S s).1, lstep z n (rowOf S s).1 (rowOf S s).2.1, tstep zraw tgt n (rowOf S s).2.2) := by
  subst hn htg
  unfold rowOf
  rw [Tile.store_max, Tile.store_sum]
  exact Prod.ext (Tile.rowmax_eq_mstep i x w s z hz S.1)
    (Prod.ext (Tile.rowsum_eq_lstep i x w s z hz S.1 S.2.1) (Tile.target_eq_tstep i x w tg S.2.2 s zraw hraw ht))

-- running values that restart at each multiple of 25 and step row s by the online softmax are its sweeps
theorem sweep_gen (scr : (n : ℕ) → n < grid0.N → Run3) (step : Fin grid0.N → Run3 → Run3) (reset : Run3)
    (hfirst : ∀ t : Fin grid0.N, t.val % 25 = 0 → scr t.val t.isLt = step t reset)
    (hnext : ∀ (n : ℕ) (h : n + 1 < grid0.N), ¬(n + 1) % 25 = 0 → scr (n + 1) h = step ⟨n + 1, h⟩ (scr n (Nat.lt_of_succ_lt h)))
    (s : Fin 2048) (z : Fin 50257 → EReal) (zraw : ℕ → EReal) (tgt : ℕ)
    (hreset : rowOf reset s = ((⊥ : EReal), (0 : EReal), (0 : EReal)))
    (hstep : ∀ (t : Fin grid0.N) (S : Run3), rowOf (step t S) s
      = (mstep z t.val (rowOf S s).1, lstep z t.val (rowOf S s).1 (rowOf S s).2.1, tstep zraw tgt t.val (rowOf S s).2.2))
    (cc j : ℕ) (hn : 25 * cc + j < grid0.N) (hj : j < 25) :
    rowOf (scr (25 * cc + j) hn) s = sweep z zraw tgt cc (j + 1) := by
  induction j with
  | zero =>
    rw [show scr (25 * cc + 0) hn = step ⟨25 * cc + 0, hn⟩ reset from
      hfirst ⟨25 * cc + 0, hn⟩ (by show (25 * cc + 0) % 25 = 0; omega), hstep, hreset]
    rfl
  | succ j ih =>
    have hn0 : 25 * cc + j < grid0.N := by omega
    rw [show scr (25 * cc + (j + 1)) hn = step ⟨25 * cc + (j + 1), hn⟩ (scr (25 * cc + j) hn0) from
      hnext (25 * cc + j) hn (by omega), hstep, ih hn0 (by omega)]
    rfl

theorem sweep_eq (c : Dev nD) (s : Fin 2048) (z : Fin 50257 → EReal) (zraw : ℕ → EReal) (tgt : ℕ)
    (hz : ∀ (t : Fin cfg0.N) (lane : Fin 1024) (h : 1024 * t.val + lane.val < 50257),
      ∑ d : Fin 1024, xin V c t (ix2 s d) * wtile0 V c t (ix2 lane d) = z ⟨1024 * t.val + lane.val, h⟩)
    (hraw : ∀ (t : Fin cfg0.N) (lane : Fin 1024), 1024 * t.val + lane.val < 50257 →
      zraw (1024 * t.val + lane.val) = ∑ d : Fin 1024, xin V c t (ix2 s d) * wtile0 V c t (ix2 lane d))
    (htg : ∀ t : Fin cfg0.N, (tgin V c t (ix2 s (0 : Fin 1)) : BitVec 32).toNat = tgt) (ht : tgt < 50257)
    (cc : ℕ) (hcc : cc < 2) (j : ℕ) (hj : j < 25) (hn : 25 * cc + j < cfg0.N) :
    rowOf (scrAt V c (25 * cc + j) hn) s = Cert.OnlineSoftmax.sweep z zraw tgt cc (j + 1) :=
  sweep_gen (scrAt V c) (step0 V c) reset0 (scrAt_first V c) (fun n h h0 => scrAt_next V c ⟨n + 1, h⟩ h0) s z zraw tgt
    (row_reset s) (fun t S => row_step (grid0.coords t) t.val (coords_val t) (xin V c t) (wtile0 V c t) (tgin V c t) s z zraw tgt
      (hz t) (hraw t) (htg t) ht S) cc j hn hj

def tileOf (v : Fin 50257) : Fin cfg0.N :=
  ⟨v.val / 1024, by have := N_0; have := v.isLt; show v.val / 1024 < grid0.N; omega⟩
def laneOf (v : Fin 50257) : Fin 1024 := ⟨v.val % 1024, Nat.mod_lt _ (by norm_num)⟩

def tile3 (c : Dev nD) (t : Fin cfg0.N) : S2048x1024.Idx → EReal :=
  k0_pay12 (F := Ideal) (grid0.coords t) (xin V c t) (wtile0 V c t)

def G3 (c : Dev nD) : S2048x50257.Idx → EReal := fun i => tile3 V c (tileOf (i 1)) (ix2 (i 0) (laneOf (i 1)))

theorem idx3 : ∀ t : Fin grid0.N, win0_3.index t (0 : Fin 2) = 0 ∧ win0_3.index t (1 : Fin 2) = t.val
    ∧ win0_3.xsize (grid0.coords t) (0 : Fin 2) = 2048
    ∧ win0_3.xsize (grid0.coords t) (1 : Fin 2) = (if t.val = 49 then 81 else 1024) := by
  decide +kernel

-- an element x of tile t's block lies in column tile t of the array, at its own row and lane
theorem G3_emb (c : Dev nD) (t : Fin cfg0.N) (x : S2048x1024.Idx) (e : S2048x50257.Idx)
    (h0 : (e 0).val = win0_3.index t (0 : Fin 2) * 2048 + 1 * (x 0).val)
    (h1 : (e 1).val = win0_3.index t (1 : Fin 2) * 1024 + 1 * (x 1).val) : tile3 V c t x = G3 V c e := by
  obtain ⟨i0, i1, -, -⟩ := idx3 t
  have hx : (x 1).val < 1024 := (x 1).isLt
  have hT : tileOf (e 1) = t := Fin.ext (by show (e 1).val / 1024 = t.val; omega)
  show _ = tile3 V c (tileOf (e 1)) (ix2 (e 0) (laneOf (e 1)))
  rw [hT]
  exact congrArg (tile3 V c t) (Shape.idx_ext₂ (by show (x 0).val = (e 0).val; omega)
    (by show (x 1).val = (e 1).val % 1024; omega))

theorem flushed3_eq (c : Dev nD) (t : Fin cfg0.N) :
    (dat0 V c).flushed 3 t = ((cfg0.win 3).blk t).view.read (Elt Ideal) (G3 V c) :=
  funext fun y => G3_emb V c t ((cfg0.win 3).xinj (grid0.coords t) y) (((cfg0.win 3).blk t).view.emb y) rfl rfl

theorem logits_final (c : Dev nD) (s : Fin 2048) (v : Fin 50257) :
    ((dat0 V c).arrAt 3 cfg0.N : S2048x50257.Idx → EReal) (ix2 s v)
      = k0_pay12 (F := Ideal) (grid0.coords (tileOf v)) (xin V c (tileOf v)) (wtile0 V c (tileOf v)) (ix2 s (laneOf v)) := by
  refine (dat0 V c).arrAt_apply_of_mem 3 (G3 V c) (fun t _ => flushed3_eq V c t) cfg0.N (tileOf v) (ix2 s v) (tileOf v).isLt
    (flush0_3 _) ?_
  show (ix2 s v : S2048x50257.Idx) ∈ ((View.whole main_v27_0).slice (win0_3.rect (tileOf v))).set
  rw [View.set_slice_whole, Rect.mem_set_unit]
  obtain ⟨i0, i1, x0, x1⟩ := idx3 (tileOf v)
  have hT : (tileOf v).val = v.val / 1024 := rfl
  have hv := v.isLt
  have hs := s.isLt
  intro a
  match a with
  | ⟨0, _⟩ =>
    show win0_3.index (tileOf v) (0 : Fin 2) * 2048 ≤ s.val
      ∧ s.val < win0_3.index (tileOf v) (0 : Fin 2) * 2048 + win0_3.xsize (grid0.coords (tileOf v)) (0 : Fin 2)
    rw [i0, x0]
    omega
  | ⟨1, _⟩ =>
    show win0_3.index (tileOf v) (1 : Fin 2) * 1024 ≤ v.val
      ∧ v.val < win0_3.index (tileOf v) (1 : Fin 2) * 1024 + win0_3.xsize (grid0.coords (tileOf v)) (1 : Fin 2)
    rw [i1, x1, hT]
    split <;> omega

theorem idx4 : ∀ t : Fin grid0.N, win0_4.index t (0 : Fin 3) = t.val / 25 ∧ win0_4.index t (1 : Fin 3) = 0 ∧ win0_4.index t (2 : Fin 3) = 0 := by
  decide +kernel

theorem last_lt (cc : Fin 2) : 25 * cc.val + 24 < grid0.N := by
  have := N_0
  have := cc.isLt
  omega

def total (f : (n : ℕ) → n < grid0.N → Run3) (n : ℕ) : Run3 := if h : n < grid0.N then f n h else f 0 (by decide)

theorem total_eq (f : (n : ℕ) → n < grid0.N → Run3) (n : ℕ) (h : n < grid0.N) : total f n = f n h := dif_pos h

-- a small output in closed form: entry (cc, s, 0) is row s of the component π of the running values f at position 25 cc + 24
def Gs (f : (n : ℕ) → n < grid0.N → Run3) (π : Run3 → Vec Ideal S2048x1 .f32) : S2x2048x1.Idx → EReal := fun i =>
  π (total f (25 * (i 0).val + 24)) (ix2 (i 1) (i 2))

-- e is the position in a small output of the element (x0, x1, x2) of the block of point t
abbrev At (t : Fin grid0.N) (x0 x1 x2 : ℕ) (e : S2x2048x1.Idx) : Prop :=
  (e 0).val = win0_4.index t (0 : Fin 3) * 1 + 1 * x0 ∧ (e 1).val = win0_4.index t (1 : Fin 3) * 2048 + 1 * x1
    ∧ (e 2).val = win0_4.index t (2 : Fin 3) * 1 + 1 * x2

theorem At.coords {t : Fin grid0.N} {x0 x1 x2 : ℕ} {e : S2x2048x1.Idx} (h : At t x0 x1 x2 e) (hx : x0 < 1) :
    (e 0).val = t.val / 25 ∧ (e 1).val = x1 ∧ (e 2).val = x2 := by
  obtain ⟨h0, h1, h2⟩ := h
  obtain ⟨k0, k1, k2⟩ := idx4 t
  exact ⟨by omega, by omega, by omega⟩

-- an array A that agrees with any G the blocks copied at the sweeps' last positions agree with holds row s of π at (cc, s, 0)
theorem small_window (f : (n : ℕ) → n < grid0.N → Run3) (π : Run3 → Vec Ideal S2048x1 .f32)
    (pay : Vec Ideal S2048x1 .f32 → Vec Ideal S1x2048x1 .f32)
    (hpay : ∀ (v : Vec Ideal S2048x1 .f32) (u : Fin 1) (s : Fin 2048) (c : Fin 1), pay v (ix3 u s c) = v (ix2 s c))
    (A : S2x2048x1.Idx → EReal) (emb : Fin grid0.N → S1x2048x1.Idx → S2x2048x1.Idx)
    (hemb : ∀ t y, At t (y 0).val (y 1).val (y 2).val (emb t y))
    (H : ∀ G : S2x2048x1.Idx → EReal, (∀ t : Fin grid0.N, t.val % 25 = 24 → ∀ y, pay (π (f t.val t.isLt)) y = G (emb t y)) →
      ∀ (t : Fin grid0.N) (y : S1x2048x1.Idx), t.val % 25 = 24 → A (emb t y) = G (emb t y))
    (cc : Fin 2) (s : Fin 2048) :
    A (ix3 cc s (0 : Fin 1)) = π (f (25 * cc.val + 24) (last_lt cc)) (ix2 s (0 : Fin 1)) := by
  have hG : ∀ t : Fin grid0.N, t.val % 25 = 24 → ∀ y, pay (π (f t.val t.isLt)) y = Gs f π (emb t y) := fun t hf x => by
    obtain ⟨e0, e1, e2⟩ := (hemb t x).coords (x 0).isLt
    refine ((congrArg (pay _) (eq_ix3 x)).trans (hpay _ _ _ _)).trans ?_
    show _ = π (total f (25 * ((emb t x) 0).val + 24)) (ix2 ((emb t x) 1) ((emb t x) 2))
    rw [e0, show 25 * (t.val / 25) + 24 = t.val by omega, total_eq f _ t.isLt,
      show (ix2 ((emb t x) 1) ((emb t x) 2) : S2048x1.Idx) = ix2 (x 1) (x 2) from Shape.idx_ext₂ e1 e2]
    rfl
  obtain ⟨e0, e1, e2⟩ := (hemb ⟨_, last_lt cc⟩ (ix3 (0 : Fin 1) s (0 : Fin 1))).coords Nat.one_pos
  have he : emb ⟨_, last_lt cc⟩ (ix3 (0 : Fin 1) s (0 : Fin 1)) = ix3 cc s (0 : Fin 1) := by
    funext a
    apply Fin.ext
    match a with
    | ⟨0, _⟩ =>
      show ((emb ⟨_, last_lt cc⟩ (ix3 (0 : Fin 1) s (0 : Fin 1))) 0).val = cc.val
      rw [e0]
      show (25 * cc.val + 24) / 25 = cc.val
      omega
    | ⟨1, _⟩ => exact e1
    | ⟨2, _⟩ => exact e2
  rw [← he, H _ hG _ _ (by show (25 * cc.val + 24) % 25 = 24; omega), he]
  exact congrArg (fun S : Run3 => π S (ix2 s (0 : Fin 1))) (total_eq f _ _)

theorem part_max_final (c : Dev nD) (cc : Fin 2) (s : Fin 2048) :
    ((dat0 V c).arrAt 4 cfg0.N : S2x2048x1.Idx → EReal) (ix3 cc s (0 : Fin 1))
      = (scrAt V c (25 * cc.val + 24) (last_lt cc)).1 (ix2 s (0 : Fin 1)) :=
  small_window (scrAt V c) (·.1) _ Tile.copy_max_apply ((dat0 V c).arrAt 4 cfg0.N) (fun t => ((cfg0.win 4).blk t).view.emb)
    (fun _ _ => ⟨rfl, rfl, rfl⟩) (fun G hG t y ht => (dat0 V c).arrAt_apply_of_mem 4 G (fun t h => funext (hG t ((flush0_4 t).1 h)))
      _ t _ t.isLt ((flush0_4 t).2 ht) (View.emb_mem_set _ y)) cc s

theorem part_sum_final (c : Dev nD) (cc : Fin 2) (s : Fin 2048) :
    ((dat0 V c).arrAt 5 cfg0.N : S2x2048x1.Idx → EReal) (ix3 cc s (0 : Fin 1))
      = (scrAt V c (25 * cc.val + 24) (last_lt cc)).2.1 (ix2 s (0 : Fin 1)) :=
  small_window (scrAt V c) (·.2.1) _ Tile.copy_sum_apply ((dat0 V c).arrAt 5 cfg0.N) (fun t => ((cfg0.win 5).blk t).view.emb)
    (fun _ _ => ⟨rfl, rfl, rfl⟩) (fun G hG t y ht => (dat0 V c).arrAt_apply_of_mem 5 G (fun t h => funext (hG t ((flush0_5 t).1 h)))
      _ t _ t.isLt ((flush0_5 t).2 ht) (View.emb_mem_set _ y)) cc s

theorem part_target_final (c : Dev nD) (cc : Fin 2) (s : Fin 2048) :
    ((dat0 V c).arrAt 6 cfg0.N : S2x2048x1.Idx → EReal) (ix3 cc s (0 : Fin 1))
      = (scrAt V c (25 * cc.val + 24) (last_lt cc)).2.2 (ix2 s (0 : Fin 1)) :=
  small_window (scrAt V c) (·.2.2) _ Tile.copy_target_apply ((dat0 V c).arrAt 6 cfg0.N) (fun t => ((cfg0.win 6).blk t).view.emb)
    (fun _ _ => ⟨rfl, rfl, rfl⟩) (fun G hG t y ht => (dat0 V c).arrAt_apply_of_mem 6 G (fun t h => funext (hG t ((flush0_6 t).1 h)))
      _ t _ t.isLt ((flush0_6 t).2 ht) (View.emb_mem_set _ y)) cc s

end Cert.KernelIdeal.Hand

end
-- ==== Proof.Bridge.lean ====
import proofs.«413414_j14594298871876_1_alg».proof.Proof.Spec

noncomputable section

namespace Cert.LossSpec

open Idealize.ShloMosaic

theorem w1024_eq : w1024 = ((1024 : ℝ) : EReal) := by
  show Ideal.ofBits .f32 0x44800000#32 = _
  simp [Ideal.ofBits, Ideal.ieee]
  rw [← EReal.coe_mul, EReal.coe_eq_coe_iff]
  norm_num

theorem w1_eq : w1 = (1 : EReal) := by
  show Ideal.ofBits .f32 0x3F800000#32 = _
  simp [Ideal.ofBits, Ideal.ieee]
  rw [← EReal.coe_mul, ← EReal.coe_one, EReal.coe_eq_coe_iff]
  norm_num

theorem wEps_pos : ∃ e : ℝ, 0 < e ∧ wEps = (e : EReal) := by
  show ∃ e : ℝ, 0 < e ∧ Ideal.ofBits .f32 0x3727C5AC#32 = (e : EReal)
  simp [Ideal.ofBits, Ideal.ieee]
  exact ⟨10995116 * (2 ^ 40)⁻¹, by positivity, by rw [EReal.coe_mul]⟩

theorem sum_mul_real {ι : Type*} [Fintype ι] (f g : ι → EReal) (hf : ∀ i, ∃ r : ℝ, f i = (r : EReal))
    (hg : ∀ i, ∃ r : ℝ, g i = (r : EReal)) : ∃ r : ℝ, ∑ i, f i * g i = (r : EReal) := by
  choose rf hrf using hf
  choose rg hrg using hg
  refine ⟨∑ i, rf i * rg i, ?_⟩
  rw [Cert.OnlineSoftmax.coe_finset_sum]
  exact Finset.sum_congr rfl (fun i _ => by rw [hrf, hrg, EReal.coe_mul])

theorem safe_lt (tg : Fin 2048 → BitVec 32) (k : ℕ) (htg : ∀ s, tg s = 4294967196#32 ∨ (tg s).toNat < 50257)
    (s : Fin 2048) : safe tg k s < 50257 := by
  unfold safe
  split_ifs with hv
  · obtain ⟨hlt, hne⟩ := hv
    have ht : tgtAt tg k s = tg ⟨s.val + k, hlt⟩ := by
      unfold tgtAt
      rw [dif_pos hlt]
    rcases htg ⟨s.val + k, hlt⟩ with h | h
    · exact absurd (ht.trans h) hne
    · rw [ht]
      exact h
  · norm_num

theorem mergedRow_eq_nllRow (Z : Fin 2048 → Fin 50257 → EReal) (hZ : ∀ s v, ∃ r : ℝ, Z s v = (r : EReal))
    (tg : Fin 2048 → BitVec 32) (k : ℕ) (htg : ∀ s, tg s = 4294967196#32 ∨ (tg s).toNat < 50257)
    (zraw : Fin 2048 → ℕ → EReal) (hraw : ∀ s (v : ℕ) (h : v < 50257), zraw s v = Z s ⟨v, h⟩)
    (Mp Lp Tp : Fin 2 → Fin 2048 → EReal)
    (hM : ∀ (c : Fin 2) s, Mp c s = (Cert.OnlineSoftmax.sweep (Z s) (zraw s) (safe tg k s) c.val 25).1)
    (hL : ∀ (c : Fin 2) s, Lp c s = (Cert.OnlineSoftmax.sweep (Z s) (zraw s) (safe tg k s) c.val 25).2.1)
    (hT : ∀ (c : Fin 2) s, Tp c s = (Cert.OnlineSoftmax.sweep (Z s) (zraw s) (safe tg k s) c.val 25).2.2)
    (s : Fin 2048) :
    mergedRow (Mp 0 s) (Lp 0 s) (Tp 0 s) (Mp 1 s) (Lp 1 s) (Tp 1 s) = nllRow Z tg k s := by
  have hs := safe_lt tg k htg s
  have hfin : (⟨safe tg k s % 50257, Nat.mod_lt _ (by norm_num)⟩ : Fin 50257) = ⟨safe tg k s, hs⟩ :=
    Fin.ext (Nat.mod_eq_of_lt hs)
  rw [hM 0 s, hL 0 s, hT 0 s, hM 1 s, hL 1 s, hT 1 s]
  unfold nllRow
  rw [hfin, ← Cert.OnlineSoftmax.merged_eq_closed (Z s) (hZ s) (zraw s) (hraw s) (safe tg k s) hs]
  rfl

theorem hostHead_eq_headLoss (Z : Fin 2048 → Fin 50257 → EReal) (hZ : ∀ s v, ∃ r : ℝ, Z s v = (r : EReal))
    (tg : Fin 2048 → BitVec 32) (k : ℕ) (htg : ∀ s, tg s = 4294967196#32 ∨ (tg s).toNat < 50257)
    (zraw : Fin 2048 → ℕ → EReal) (hraw : ∀ s (v : ℕ) (h : v < 50257), zraw s v = Z s ⟨v, h⟩)
    (Mp Lp Tp : Fin 2 → Fin 2048 → EReal)
    (hM : ∀ (c : Fin 2) s, Mp c s = (Cert.OnlineSoftmax.sweep (Z s) (zraw s) (safe tg k s) c.val 25).1)
    (hL : ∀ (c : Fin 2) s, Lp c s = (Cert.OnlineSoftmax.sweep (Z s) (zraw s) (safe tg k s) c.val 25).2.1)
    (hT : ∀ (c : Fin 2) s, Tp c s = (Cert.OnlineSoftmax.sweep (Z s) (zraw s) (safe tg k s) c.val 25).2.2)
    (vd : Fin 2048 → EReal) (hvd : ∀ s, vd s = if valid tg k s then 1 else 0) :
    hostHead Mp Lp Tp vd = headLoss Z tg k := by
  unfold hostHead headLoss
  have hnum : ∑ s : Fin 2048, mergedRow (Mp 0 s) (Lp 0 s) (Tp 0 s) (Mp 1 s) (Lp 1 s) (Tp 1 s) * vd s =
      ∑ s : Fin 2048, if valid tg k s then nllRow Z tg k s else 0 := by
    apply Finset.sum_congr rfl
    intro s _
    rw [mergedRow_eq_nllRow Z hZ tg k htg zraw hraw Mp Lp Tp hM hL hT s, hvd s]
    split_ifs
    · rw [mul_one]
    · rw [mul_zero]
  have hsum : ∑ s : Fin 2048, vd s = ((∑ s : Fin 2048, (if valid tg k s then (1 : ℝ) else 0) : ℝ) : EReal) := by
    rw [Cert.OnlineSoftmax.coe_finset_sum]
    apply Finset.sum_congr rfl
    intro s _
    rw [hvd s]
    split_ifs
    · rw [EReal.coe_one]
    · rw [EReal.coe_zero]
  rw [hnum, hsum, Finset.sum_boole, w1_eq, Nat.cast_max, Nat.cast_one, EReal.coe_strictMono.monotone.map_max, EReal.coe_one]

theorem rms_real (x : Fin 2048 → Fin 1024 → EReal) (hx : ∀ s d, ∃ r : ℝ, x s d = (r : EReal)) (g : Fin 1024 → EReal)
    (hg : ∀ d, ∃ r : ℝ, g d = (r : EReal)) (s : Fin 2048) (d : Fin 1024) : ∃ r : ℝ, rms x g s d = (r : EReal) := by
  choose rx hrx using hx
  choose rg hrg using hg
  obtain ⟨e, he, hwe⟩ := wEps_pos
  unfold rms
  have hq : ∑ e' : Fin 1024, x s e' * x s e' = ((∑ e' : Fin 1024, rx s e' * rx s e' : ℝ) : EReal) := by
    rw [Cert.OnlineSoftmax.coe_finset_sum]
    exact Finset.sum_congr rfl (fun e' _ => by rw [hrx, EReal.coe_mul])
  have hq0 : 0 ≤ ∑ e' : Fin 1024, rx s e' * rx s e' := Finset.sum_nonneg (fun i _ => mul_self_nonneg _)
  have hpos : 0 < (∑ e' : Fin 1024, rx s e' * rx s e') * (1 / 1024) + e := by positivity
  rw [hq, w1024_eq, Ideal.div_coe (by norm_num : (1024 : ℝ) ≠ 0), ← EReal.coe_mul, hwe, ← EReal.coe_add, Ideal.rsqrt_coe,
    if_neg (not_lt.mpr hpos.le), if_neg hpos.ne', hrx, hrg, ← EReal.coe_mul, ← EReal.coe_mul]
  exact ⟨_, rfl⟩

theorem proj_real (x : Fin 2048 → Fin 1024 → EReal) (hx : ∀ s d, ∃ r : ℝ, x s d = (r : EReal)) (P : Fin 1024 → Fin 1024 → EReal)
    (hP : ∀ e d, ∃ r : ℝ, P e d = (r : EReal)) (s : Fin 2048) (e : Fin 1024) : ∃ r : ℝ, proj x P s e = (r : EReal) := by
  unfold proj
  exact sum_mul_real _ _ (fun d => hx s d) (fun d => hP e d)

theorem logit_real (n : Fin 2048 → Fin 1024 → EReal) (hn : ∀ s d, ∃ r : ℝ, n s d = (r : EReal)) (W : Fin 50257 → Fin 1024 → EReal)
    (hW : ∀ v d, ∃ r : ℝ, W v d = (r : EReal)) (s : Fin 2048) (v : Fin 50257) : ∃ r : ℝ, logit n W s v = (r : EReal) := by
  unfold logit
  exact sum_mul_real _ _ (fun d => hn s d) (fun d => hW v d)

end Cert.LossSpec

end
-- ==== Proof.KernelHead0.lean ====
import proofs.«413414_j14594298871876_1_alg».proof.Proof.IdealVal0
import proofs.«413414_j14594298871876_1_alg».proof.Proof.IdealTileFacts0
import proofs.«413414_j14594298871876_1_alg».proof.Proof.Bridge
import proofs.«413414_j14594298871876_1_alg».proof.Proof.IdealHost

noncomputable section

namespace Cert.KernelIdeal.Hand

open Idealize.ShloMosaic Idealize.ShloMosaic.TcCoe Idealize.ShloMosaic.ValueIdx
open Cert.KernelIdeal Cert.KernelIdeal.Gen
open Cert.LossSpec (logit safe valid hostHead headLoss)

-- what a head's region finds in its four inputs: normed rows n, weights W, shifted targets and their mask
structure Finds (X : S2048x1024.Idx → EReal) (Wt : S50257x1024.Idx → EReal) (T : S2048x1.Idx → BitVec 32)
    (M : S2048x1.Idx → EReal) (n : Fin 2048 → Fin 1024 → EReal) (W : Fin 50257 → Fin 1024 → EReal)
    (tg : Fin 2048 → BitVec 32) (k : ℕ) : Prop where
  normed : ∀ (s : Fin 2048) (d : Fin 1024), X (ix2 s d) = n s d
  weights : ∀ (v : Fin 50257) (d : Fin 1024), Wt (ix2 v d) = W v d
  target : ∀ s : Fin 2048, T (ix2 s (0 : Fin 1)) = BitVec.ofNat 32 (safe tg k s)
  mask : ∀ s : Fin 2048, M (ix2 s (0 : Fin 1)) = (if valid tg k s then (1 : EReal) else 0)

def zrawOf (Z : Fin 2048 → Fin 50257 → EReal) (s : Fin 2048) (v : ℕ) : EReal := if h : v < 50257 then Z s ⟨v, h⟩ else 0

section
variable {X : S2048x1024.Idx → EReal} {Wt : S50257x1024.Idx → EReal} {T : S2048x1.Idx → BitVec 32} {M : S2048x1.Idx → EReal}
  {n : Fin 2048 → Fin 1024 → EReal} {W : Fin 50257 → Fin 1024 → EReal} {tg : Fin 2048 → BitVec 32} {k : ℕ}
  (hf : Finds X Wt T M n W tg k)
  (xs : Fin grid0.N → Vec Ideal S2048x1024 .bf16) (ws : Fin grid0.N → Vec Ideal S1024x1024 .f32)
  (ts : Fin grid0.N → Vec Ideal S2048x1 .i32) (hx : ∀ t, xs t = X)
  (hw : ∀ (t : Fin grid0.N) (lane j : Fin 1024) (h : 1024 * t.val + lane.val < 50257),
    ws t (ix2 lane j) = Wt (ix2 ⟨1024 * t.val + lane.val, h⟩ j))
  (ht : ∀ t, ts t = T)
include hf hx hw

-- a tile's product row against the normed row is the logits of the tile's columns
theorem Finds.dot_eq (t : Fin grid0.N) (s : Fin 2048) (lane : Fin 1024) (h : 1024 * t.val + lane.val < 50257) :
    ∑ d : Fin 1024, xs t (ix2 s d) * ws t (ix2 lane d) = logit n W s ⟨1024 * t.val + lane.val, h⟩ := by
  unfold Cert.LossSpec.logit
  refine Finset.sum_congr rfl fun d _ => ?_
  rw [hx t, hw t lane d h]
  exact congrArg₂ (· * ·) (hf.normed s d) (hf.weights _ d)

include ht

-- three arrays holding the components of the running values f after each core's sweep give the head's loss
theorem Finds.loss (hn : ∀ s d, ∃ r : ℝ, n s d = (r : EReal)) (hW : ∀ v d, ∃ r : ℝ, W v d = (r : EReal))
    (htg : ∀ s, tg s = 4294967196#32 ∨ (tg s).toNat < 50257) (f : (n : ℕ) → n < grid0.N → Run3)
    (hsw : ∀ (s : Fin 2048) (z : Fin 50257 → EReal) (zraw : ℕ → EReal) (tgt : ℕ),
      (∀ (t : Fin grid0.N) (lane : Fin 1024) (h : 1024 * t.val + lane.val < 50257),
        ∑ d : Fin 1024, xs t (ix2 s d) * ws t (ix2 lane d) = z ⟨1024 * t.val + lane.val, h⟩) →
      (∀ (t : Fin grid0.N) (lane : Fin 1024), 1024 * t.val + lane.val < 50257 →
        zraw (1024 * t.val + lane.val) = ∑ d : Fin 1024, xs t (ix2 s d) * ws t (ix2 lane d)) →
      (∀ t : Fin grid0.N, (ts t (ix2 s (0 : Fin 1)) : BitVec 32).toNat = tgt) → tgt < 50257 →
      ∀ cc : ℕ, cc < 2 → ∀ j : ℕ, j < 25 → ∀ hn : 25 * cc + j < grid0.N,
        rowOf (f (25 * cc + j) hn) s = Cert.OnlineSoftmax.sweep z zraw tgt cc (j + 1))
    (A B C : S2x2048x1.Idx → EReal)
    (hA : ∀ (cc : Fin 2) (s : Fin 2048), A (ix3 cc s (0 : Fin 1)) = (f (25 * cc.val + 24) (last_lt cc)).1 (ix2 s (0 : Fin 1)))
    (hB : ∀ (cc : Fin 2) (s : Fin 2048), B (ix3 cc s (0 : Fin 1)) = (f (25 * cc.val + 24) (last_lt cc)).2.1 (ix2 s (0 : Fin 1)))
    (hC : ∀ (cc : Fin 2) (s : Fin 2048), C (ix3 cc s (0 : Fin 1)) = (f (25 * cc.val + 24) (last_lt cc)).2.2 (ix2 s (0 : Fin 1))) :
    hostHead (fun cc s => A (ix3 cc s (0 : Fin 1))) (fun cc s => B (ix3 cc s (0 : Fin 1)))
        (fun cc s => C (ix3 cc s (0 : Fin 1))) (fun s => M (ix2 s (0 : Fin 1))) = headLoss (logit n W) tg k := by
  have hs : ∀ (cc : Fin 2) (s : Fin 2048), rowOf (f (25 * cc.val + 24) (last_lt cc)) s
      = Cert.OnlineSoftmax.sweep (logit n W s) (zrawOf (logit n W) s) (safe tg k s) cc.val 25 := fun cc s => by
    have hlt := Cert.LossSpec.safe_lt tg k htg s
    refine hsw s _ _ _ (fun t lane h => hf.dot_eq xs ws hx hw t s lane h) (fun t lane h => ?_) (fun t => ?_) hlt
      cc.val cc.isLt 24 (by norm_num) (last_lt cc)
    · unfold zrawOf
      rw [dif_pos h]
      exact (hf.dot_eq xs ws hx hw t s lane h).symm
    · rw [ht t, hf.target s, BitVec.toNat_ofNat]
      exact Nat.mod_eq_of_lt (by omega)
  exact Cert.LossSpec.hostHead_eq_headLoss _ (Cert.LossSpec.logit_real n hn W hW) tg k htg (zrawOf (logit n W))
    (fun s v h => by unfold zrawOf; rw [dif_pos h]) _ _ _
    (fun cc s => (hA cc s).trans (congrArg (·.1) (hs cc s))) (fun cc s => (hB cc s).trans (congrArg (·.2.1) (hs cc s)))
    (fun cc s => (hC cc s).trans (congrArg (·.2.2) (hs cc s))) _ hf.mask

end

variable (m : (ℓ : Loc nD τ sig) → Buf (Elt Ideal) ℓ)

theorem finds0 (c : Dev nD) : Finds (V5 m c main_v15) (V5 m c main_arg2) (V5 m c main_v24) (V5 m c main_v26)
    (Cert.LossSpec.rms (Host.args m c).x (Host.args m c).g0) (Host.args m c).W0 (Host.args m c).tg 1 where
  normed := Host.normed0 m c
  weights := fun v d => by
    show (V5 m c main_arg2 : S50257x1024.Idx → EReal) (ix2 v d) = _
    rw [Host.weights0 m c]
    rfl
  target := Host.tgt0 m c
  mask := Host.mask0 m c

theorem head0_logits (c : Dev nD) (s : Fin 2048) (v : Fin 50257) :
    ((dat0 (fun c b => V5 m c b) c).arrAt 3 cfg0.N : S2048x50257.Idx → EReal) (ix2 s v)
      = Cert.LossSpec.Z0 (Host.args m c) s v := by
  have hv := v.isLt
  have hT : (tileOf v).val = v.val / 1024 := rfl
  have hL : (laneOf v).val = v.val % 1024 := rfl
  have hlt : 1024 * (tileOf v).val + (laneOf v).val < 50257 := by
    rw [hT, hL]
    omega
  rw [logits_final, Tile.masked_apply, coords_val, if_pos hlt, (finds0 m c).dot_eq (xin _ c) (wtile0 _ c) (xin_eq _ c)
    (wtile0_apply _ c) (tileOf v) s (laneOf v) hlt]
  refine congrArg (Cert.LossSpec.Z0 (Host.args m c) s) (Fin.ext ?_)
  show 1024 * (tileOf v).val + (laneOf v).val = v.val
  rw [hT, hL]
  omega

theorem head0_loss (c : Dev nD)
    (h0 : ∀ i, ∃ r : ℝ, (m ((c : Thread nD τ).loc main_arg0) : S1x2048x1024.Idx → EReal) i = (r : EReal))
    (h2 : ∀ i, ∃ r : ℝ, (m ((c : Thread nD τ).loc main_arg2) : S50257x1024.Idx → EReal) i = (r : EReal))
    (h3 : ∀ i, ∃ r : ℝ, (m ((c : Thread nD τ).loc main_arg3) : S1024.Idx → EReal) i = (r : EReal))
    (h4 : ∀ i, ∃ r : ℝ, (m ((c : Thread nD τ).loc main_arg4) : S2x1024x1024.Idx → EReal) i = (r : EReal))
    (h5 : ∀ i, ∃ r : ℝ, (m ((c : Thread nD τ).loc main_arg5) : S2x1024.Idx → EReal) i = (r : EReal))
    (h6 : ∀ i, ∃ r : ℝ, (m ((c : Thread nD τ).loc main_arg6) : S2x50257x1024.Idx → EReal) i = (r : EReal))
    (h1 : ∀ i, (m ((c : Thread nD τ).loc main_arg1) : S1x2048.Idx → BitVec 32) i = 4294967196#32
      ∨ ((m ((c : Thread nD τ).loc main_arg1) : S1x2048.Idx → BitVec 32) i).toNat < 50257) :
    Cert.LossSpec.hostHead (Host.part ((dat0 (fun c b => V5 m c b) c).arrAt 4 cfg0.N))
        (Host.part ((dat0 (fun c b => V5 m c b) c).arrAt 5 cfg0.N))
        (Host.part ((dat0 (fun c b => V5 m c b) c).arrAt 6 cfg0.N)) (Host.col (V5 m c main_v26))
      = Cert.LossSpec.headLoss (Cert.LossSpec.Z0 (Host.args m c)) (Host.args m c).tg 1 :=
  (finds0 m c).loss (xin _ c) (wtile0 _ c) (tgin _ c) (xin_eq _ c) (wtile0_apply _ c) (tgin_eq _ c)
    (Cert.LossSpec.rms_real _ (fun s d => h0 (ix3 (0 : Fin 1) s d)) _ (fun d => h3 (ix1 d))) (fun v d => h2 (ix2 v d))
    (fun s => h1 (ix2 (0 : Fin 1) s)) (scrAt _ c) (sweep_eq _ c) _ _ _ (part_max_final _ c) (part_sum_final _ c)
    (part_target_final _ c)

end Cert.KernelIdeal.Hand

end
-- ==== Proof.IdealVal1.lean ====
import proofs.«413414_j14594298871876_1_alg».proof.Proof.IdealVal0
import proofs.«413414_j14594298871876_1_alg».proof.Proof.IdealData1
import proofs.«413414_j14594298871876_1_alg».proof.Proof.PayEq

noncomputable section

namespace Cert.KernelIdeal.Hand

open Idealize.ShloMosaic Idealize.ShloMosaic.TcCoe
open Cert.KernelIdeal Cert.KernelIdeal.Gen
open Idealize.ShloMosaic.ValueIdx

variable (V : (c : Dev nD) → (b : Ref sig .tc) → Buf (Elt Ideal) ((c : Thread nD τ).loc b))

def rowOf1 (S : Run3_1) (s : Fin 2048) : EReal × EReal × EReal := rowOf S s

theorem sweep1_eq (c : Dev nD) (s : Fin 2048) (z : Fin 50257 → EReal) (zraw : ℕ → EReal) (tgt : ℕ)
    (hz : ∀ (t : Fin cfg1.N) (lane : Fin 1024) (h : 1024 * t.val + lane.val < 50257),
      ∑ d : Fin 1024, xin1 V c t (ix2 s d) * wtileZ1 V c t (ix2 lane d) = z ⟨1024 * t.val + lane.val, h⟩)
    (hraw : ∀ (t : Fin cfg1.N) (lane : Fin 1024), 1024 * t.val + lane.val < 50257 →
      zraw (1024 * t.val + lane.val) = ∑ d : Fin 1024, xin1 V c t (ix2 s d) * wtileZ1 V c t (ix2 lane d))
    (htg : ∀ t : Fin cfg1.N, (tgin1 V c t (ix2 s (0 : Fin 1)) : BitVec 32).toNat = tgt) (ht : tgt < 50257)
    (cc : ℕ) (hcc : cc < 2) (j : ℕ) (hj : j < 25) (hn : 25 * cc + j < cfg1.N) :
    rowOf1 (scrAt1 V c (25 * cc + j) hn) s = Cert.OnlineSoftmax.sweep z zraw tgt cc (j + 1) :=
  sweep_gen (scrAt1 V c) (step1 V c) reset1 (scrAt1_first V c) (fun n h h0 => scrAt1_next V c ⟨n + 1, h⟩ h0) s z zraw tgt
    (row_reset s) (fun t S => by
      unfold step1
      rw [k1_pay13_eq, k1_pay14_eq, k1_pay10_eq]
      exact row_step (grid1.coords t) t.val (coords_val t) (xin1 V c t) (wtileZ1 V c t) (tgin1 V c t) s z zraw tgt
        (hz t) (hraw t) (htg t) ht S) cc j hn hj

theorem part1_max_final (c : Dev nD) (cc : Fin 2) (s : Fin 2048) :
    ((dat1 V c).arrAt 3 cfg1.N : S2x2048x1.Idx → EReal) (ix3 cc s (0 : Fin 1))
      = (scrAt1 V c (25 * cc.val + 24) (last_lt cc)).1 (ix2 s (0 : Fin 1)) :=
  small_window (scrAt1 V c) (·.1) _ Tile.copy_max_apply ((dat1 V c).arrAt 3 cfg1.N) (fun t => ((cfg1.win 3).blk t).view.emb)
    (fun _ _ => ⟨rfl, rfl, rfl⟩) (fun G hG t y ht => (dat1 V c).arrAt_apply_of_mem 3 G (fun t h => funext (hG t ((flush1_3 t).1 h)))
      _ t _ t.isLt ((flush1_3 t).2 ht) (View.emb_mem_set _ y)) cc s

theorem part1_sum_final (c : Dev nD) (cc : Fin 2) (s : Fin 2048) :
    ((dat1 V c).arrAt 4 cfg1.N : S2x2048x1.Idx → EReal) (ix3 cc s (0 : Fin 1))
      = (scrAt1 V c (25 * cc.val + 24) (last_lt cc)).2.1 (ix2 s (0 : Fin 1)) :=
  small_window (scrAt1 V c) (·.2.1) _ Tile.copy_sum_apply ((dat1 V c).arrAt 4 cfg1.N) (fun t => ((cfg1.win 4).blk t).view.emb)
    (fun _ _ => ⟨rfl, rfl, rfl⟩) (fun G hG t y ht => (dat1 V c).arrAt_apply_of_mem 4 G (fun t h => funext (hG t ((flush1_4 t).1 h)))
      _ t _ t.isLt ((flush1_4 t).2 ht) (View.emb_mem_set _ y)) cc s

theorem part1_target_final (c : Dev nD) (cc : Fin 2) (s : Fin 2048) :
    ((dat1 V c).arrAt 5 cfg1.N : S2x2048x1.Idx → EReal) (ix3 cc s (0 : Fin 1))
      = (scrAt1 V c (25 * cc.val + 24) (last_lt cc)).2.2 (ix2 s (0 : Fin 1)) :=
  small_window (scrAt1 V c) (·.2.2) _ Tile.copy_target_apply ((dat1 V c).arrAt 5 cfg1.N) (fun t => ((cfg1.win 5).blk t).view.emb)
    (fun _ _ => ⟨rfl, rfl, rfl⟩) (fun G hG t y ht => (dat1 V c).arrAt_apply_of_mem 5 G (fun t h => funext (hG t ((flush1_5 t).1 h)))
      _ t _ t.isLt ((flush1_5 t).2 ht) (View.emb_mem_set _ y)) cc s

end Cert.KernelIdeal.Hand

end
-- ==== Proof.KernelHead1.lean ====
import proofs.«413414_j14594298871876_1_alg».proof.Proof.KernelHead0
import proofs.«413414_j14594298871876_1_alg».proof.Proof.IdealVal1
import proofs.«413414_j14594298871876_1_alg».proof.Proof.IdealTileFacts1

noncomputable section

namespace Cert.KernelIdeal.Hand

open Idealize.ShloMosaic Idealize.ShloMosaic.TcCoe Idealize.ShloMosaic.ValueIdx
open Cert.KernelIdeal Cert.KernelIdeal.Gen
open Cert.LossSpec (logit safe valid hostHead headLoss)

variable (m : (ℓ : Loc nD τ sig) → Buf (Elt Ideal) ℓ) (outs : Outs (F := Ideal))

theorem finds1 (c : Dev nD) : Finds (V11 m outs c main_v80) (V11 m outs c main_v93) (V11 m outs c main_v89) (V11 m outs c main_v91)
    (Cert.LossSpec.rms (Cert.LossSpec.proj (Host.args m c).x ((Host.args m c).P 0)) ((Host.args m c).G 0)) ((Host.args m c).Wa 0)
    (Host.args m c).tg 2 where
  normed := Host.normed1 m outs c
  weights := Host.weights1 m outs c
  target := Host.tgt1 m outs c
  mask := Host.mask1 m outs c

theorem head1_loss (c : Dev nD)
    (h0 : ∀ i, ∃ r : ℝ, (m ((c : Thread nD τ).loc main_arg0) : S1x2048x1024.Idx → EReal) i = (r : EReal))
    (h2 : ∀ i, ∃ r : ℝ, (m ((c : Thread nD τ).loc main_arg2) : S50257x1024.Idx → EReal) i = (r : EReal))
    (h3 : ∀ i, ∃ r : ℝ, (m ((c : Thread nD τ).loc main_arg3) : S1024.Idx → EReal) i = (r : EReal))
    (h4 : ∀ i, ∃ r : ℝ, (m ((c : Thread nD τ).loc main_arg4) : S2x1024x1024.Idx → EReal) i = (r : EReal))
    (h5 : ∀ i, ∃ r : ℝ, (m ((c : Thread nD τ).loc main_arg5) : S2x1024.Idx → EReal) i = (r : EReal))
    (h6 : ∀ i, ∃ r : ℝ, (m ((c : Thread nD τ).loc main_arg6) : S2x50257x1024.Idx → EReal) i = (r : EReal))
    (h1 : ∀ i, (m ((c : Thread nD τ).loc main_arg1) : S1x2048.Idx → BitVec 32) i = 4294967196#32
      ∨ ((m ((c : Thread nD τ).loc main_arg1) : S1x2048.Idx → BitVec 32) i).toNat < 50257) :
    Cert.LossSpec.hostHead (Host.part ((dat1 (fun c b => V11 m outs c b) c).arrAt 3 cfg1.N))
        (Host.part ((dat1 (fun c b => V11 m outs c b) c).arrAt 4 cfg1.N))
        (Host.part ((dat1 (fun c b => V11 m outs c b) c).arrAt 5 cfg1.N)) (Host.col (V11 m outs c main_v91))
      = Cert.LossSpec.headLoss (Cert.LossSpec.Za (Host.args m c) (0 : Fin 2)) (Host.args m c).tg 2 :=
  (finds1 m outs c).loss (xin1 _ c) (wtileZ1 _ c) (tgin1 _ c) (xin1_eq _ c) (wtileZ1_apply _ c) (tgin1_eq _ c)
    (Cert.LossSpec.rms_real _ (Cert.LossSpec.proj_real _ (fun s d => h0 (ix3 (0 : Fin 1) s d)) _ (fun e d => h4 (ix3 (0 : Fin 2) e d))) _
      (fun d => h5 (ix2 (0 : Fin 2) d))) (fun v d => h6 (ix3 (0 : Fin 2) v d)) (fun s => h1 (ix2 (0 : Fin 1) s))
    (scrAt1 _ c) (sweep1_eq _ c) _ _ _ (part1_max_final _ c) (part1_sum_final _ c) (part1_target_final _ c)

end Cert.KernelIdeal.Hand

end
-- ==== Proof.IdealVal2.lean ====
import proofs.«413414_j14594298871876_1_alg».proof.Proof.IdealVal0
import proofs.«413414_j14594298871876_1_alg».proof.Proof.IdealData2
import proofs.«413414_j14594298871876_1_alg».proof.Proof.PayEq

noncomputable section

namespace Cert.KernelIdeal.Hand

open Idealize.ShloMosaic Idealize.ShloMosaic.TcCoe
open Cert.KernelIdeal Cert.KernelIdeal.Gen
open Idealize.ShloMosaic.ValueIdx

variable (V : (c : Dev nD) → (b : Ref sig .tc) → Buf (Elt Ideal) ((c : Thread nD τ).loc b))

def rowOf2 (S : Run3_2) (s : Fin 2048) : EReal × EReal × EReal := rowOf S s

theorem sweep2_eq (c : Dev nD) (s : Fin 2048) (z : Fin 50257 → EReal) (zraw : ℕ → EReal) (tgt : ℕ)
    (hz : ∀ (t : Fin cfg2.N) (lane : Fin 1024) (h : 1024 * t.val + lane.val < 50257),
      ∑ d : Fin 1024, xin2 V c t (ix2 s d) * wtileZ2 V c t (ix2 lane d) = z ⟨1024 * t.val + lane.val, h⟩)
    (hraw : ∀ (t : Fin cfg2.N) (lane : Fin 1024), 1024 * t.val + lane.val < 50257 →
      zraw (1024 * t.val + lane.val) = ∑ d : Fin 1024, xin2 V c t (ix2 s d) * wtileZ2 V c t (ix2 lane d))
    (htg : ∀ t : Fin cfg2.N, (tgin2 V c t (ix2 s (0 : Fin 1)) : BitVec 32).toNat = tgt) (ht : tgt < 50257)
    (cc : ℕ) (hcc : cc < 2) (j : ℕ) (hj : j < 25) (hn : 25 * cc + j < cfg2.N) :
    rowOf2 (scrAt2 V c (25 * cc + j) hn) s = Cert.OnlineSoftmax.sweep z zraw tgt cc (j + 1) :=
  sweep_gen (scrAt2 V c) (step2 V c) reset2 (scrAt2_first V c) (fun n h h0 => scrAt2_next V c ⟨n + 1, h⟩ h0) s z zraw tgt
    (row_reset s) (fun t S => by
      unfold step2
      rw [k2_pay13_eq, k2_pay14_eq, k2_pay10_eq]
      exact row_step (grid2.coords t) t.val (coords_val t) (xin2 V c t) (wtileZ2 V c t) (tgin2 V c t) s z zraw tgt
        (hz t) (hraw t) (htg t) ht S) cc j hn hj

theorem part2_max_final (c : Dev nD) (cc : Fin 2) (s : Fin 2048) :
    ((dat2 V c).arrAt 3 cfg2.N : S2x2048x1.Idx → EReal) (ix3 cc s (0 : Fin 1))
      = (scrAt2 V c (25 * cc.val + 24) (last_lt cc)).1 (ix2 s (0 : Fin 1)) :=
  small_window (scrAt2 V c) (·.1) _ Tile.copy_max_apply ((dat2 V c).arrAt 3 cfg2.N) (fun t => ((cfg2.win 3).blk t).view.emb)
    (fun _ _ => ⟨rfl, rfl, rfl⟩) (fun G hG t y ht => (dat2 V c).arrAt_apply_of_mem 3 G (fun t h => funext (hG t ((flush2_3 t).1 h)))
      _ t _ t.isLt ((flush2_3 t).2 ht) (View.emb_mem_set _ y)) cc s

theorem part2_sum_final (c : Dev nD) (cc : Fin 2) (s : Fin 2048) :
    ((dat2 V c).arrAt 4 cfg2.N : S2x2048x1.Idx → EReal) (ix3 cc s (0 : Fin 1))
      = (scrAt2 V c (25 * cc.val + 24) (last_lt cc)).2.1 (ix2 s (0 : Fin 1)) :=
  small_window (scrAt2 V c) (·.2.1) _ Tile.copy_sum_apply ((dat2 V c).arrAt 4 cfg2.N) (fun t => ((cfg2.win 4).blk t).view.emb)
    (fun _ _ => ⟨rfl, rfl, rfl⟩) (fun G hG t y ht => (dat2 V c).arrAt_apply_of_mem 4 G (fun t h => funext (hG t ((flush2_4 t).1 h)))
      _ t _ t.isLt ((flush2_4 t).2 ht) (View.emb_mem_set _ y)) cc s

theorem part2_target_final (c : Dev nD) (cc : Fin 2) (s : Fin 2048) :
    ((dat2 V c).arrAt 5 cfg2.N : S2x2048x1.Idx → EReal) (ix3 cc s (0 : Fin 1))
      = (scrAt2 V c (25 * cc.val + 24) (last_lt cc)).2.2 (ix2 s (0 : Fin 1)) :=
  small_window (scrAt2 V c) (·.2.2) _ Tile.copy_target_apply ((dat2 V c).arrAt 5 cfg2.N) (fun t => ((cfg2.win 5).blk t).view.emb)
    (fun _ _ => ⟨rfl, rfl, rfl⟩) (fun G hG t y ht => (dat2 V c).arrAt_apply_of_mem 5 G (fun t h => funext (hG t ((flush2_5 t).1 h)))
      _ t _ t.isLt ((flush2_5 t).2 ht) (View.emb_mem_set _ y)) cc s

end Cert.KernelIdeal.Hand

end
-- ==== Proof.KernelHead2.lean ====
import proofs.«413414_j14594298871876_1_alg».proof.Proof.KernelHead0
import proofs.«413414_j14594298871876_1_alg».proof.Proof.IdealVal2
import proofs.«413414_j14594298871876_1_alg».proof.Proof.IdealTileFacts2

noncomputable section

namespace Cert.KernelIdeal.Hand

open Idealize.ShloMosaic Idealize.ShloMosaic.TcCoe Idealize.ShloMosaic.ValueIdx
open Cert.KernelIdeal Cert.KernelIdeal.Gen
open Cert.LossSpec (logit safe valid hostHead headLoss)

variable (m : (ℓ : Loc nD τ sig) → Buf (Elt Ideal) ℓ) (outs : Outs (F := Ideal))

theorem finds2 (c : Dev nD) : Finds (V17 m outs c main_v147) (V17 m outs c main_v160) (V17 m outs c main_v156) (V17 m outs c main_v158)
    (Cert.LossSpec.rms (Cert.LossSpec.proj (Host.args m c).x ((Host.args m c).P 1)) ((Host.args m c).G 1)) ((Host.args m c).Wa 1)
    (Host.args m c).tg 3 where
  normed := Host.normed2 m outs c
  weights := Host.weights2 m outs c
  target := Host.tgt2 m outs c
  mask := Host.mask2 m outs c

theorem head2_loss (c : Dev nD)
    (h0 : ∀ i, ∃ r : ℝ, (m ((c : Thread nD τ).loc main_arg0) : S1x2048x1024.Idx → EReal) i = (r : EReal))
    (h2 : ∀ i, ∃ r : ℝ, (m ((c : Thread nD τ).loc main_arg2) : S50257x1024.Idx → EReal) i = (r : EReal))
    (h3 : ∀ i, ∃ r : ℝ, (m ((c : Thread nD τ).loc main_arg3) : S1024.Idx → EReal) i = (r : EReal))
    (h4 : ∀ i, ∃ r : ℝ, (m ((c : Thread nD τ).loc main_arg4) : S2x1024x1024.Idx → EReal) i = (r : EReal))
    (h5 : ∀ i, ∃ r : ℝ, (m ((c : Thread nD τ).loc main_arg5) : S2x1024.Idx → EReal) i = (r : EReal))
    (h6 : ∀ i, ∃ r : ℝ, (m ((c : Thread nD τ).loc main_arg6) : S2x50257x1024.Idx → EReal) i = (r : EReal))
    (h1 : ∀ i, (m ((c : Thread nD τ).loc main_arg1) : S1x2048.Idx → BitVec 32) i = 4294967196#32
      ∨ ((m ((c : Thread nD τ).loc main_arg1) : S1x2048.Idx → BitVec 32) i).toNat < 50257) :
    Cert.LossSpec.hostHead (Host.part ((dat2 (fun c b => V17 m outs c b) c).arrAt 3 cfg2.N))
        (Host.part ((dat2 (fun c b => V17 m outs c b) c).arrAt 4 cfg2.N))
        (Host.part ((dat2 (fun c b => V17 m outs c b) c).arrAt 5 cfg2.N)) (Host.col (V17 m outs c main_v158))
      = Cert.LossSpec.headLoss (Cert.LossSpec.Za (Host.args m c) (1 : Fin 2)) (Host.args m c).tg 3 :=
  (finds2 m outs c).loss (xin2 _ c) (wtileZ2 _ c) (tgin2 _ c) (xin2_eq _ c) (wtileZ2_apply _ c) (tgin2_eq _ c)
    (Cert.LossSpec.rms_real _ (Cert.LossSpec.proj_real _ (fun s d => h0 (ix3 (0 : Fin 1) s d)) _ (fun e d => h4 (ix3 (1 : Fin 2) e d))) _
      (fun d => h5 (ix2 (1 : Fin 2) d))) (fun v d => h6 (ix3 (1 : Fin 2) v d)) (fun s => h1 (ix2 (0 : Fin 1) s))
    (scrAt2 _ c) (sweep2_eq _ c) _ _ _ (part2_max_final _ c) (part2_sum_final _ c) (part2_target_final _ c)

end Cert.KernelIdeal.Hand

end
-- ==== Proof.PreFacts.lean ====
import proofs.«413414_j14594298871876_1_alg».proof.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Cert.Pre_finite_inputs

instance : Subsingleton S_.Idx := ⟨fun a b => funext fun d => d.elim0⟩

theorem inf_bits : Ideal.ofBits .f32 0x7F800000#32 = (⊤ : EReal) := by simp [Ideal.ofBits, Ideal.ieee]

theorem real_of_abs_lt_inf (x : Ideal .f32)
    (h : FloatOps.cmpf (F := Ideal) .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_bits] at h'
  unfold Ideal.cmp at h'
  induction x using EReal.rec with
  | bot => simp at h'
  | coe r => exact ⟨r, rfl⟩
  | top => simp at h'

theorem all_real {s : Shape} {axes : List (Fin s.rank)} (a : FVec Ideal s .f32) (bc : S_.BroadcastsInDim s (![] : Fin 0 → Fin s.rank))
    (hr : s.ReducesTo axes S_) (hu : 0 < S_.numel) (c : IVec S_ 1)
    (h : Host.reduce IntOp.andi (cmpf .olt (Host.absf a) (broadcastInDim s ![] bc (constant S_ .f32 0x7F800000#32))) c hr hu
      ValueIdx.ix0 = 1#1) :
    ∀ i, ∃ r : ℝ, a i = (r : EReal) := fun i =>
  real_of_abs_lt_inf (a i) (Host.reduce_andi_all _ _ hr hu _ h i)

theorem toNat_lt_of_signed (w : BitVec 32) (h0 : IntOp.cmpi .sge w 0#32 = 1#1) (h1 : IntOp.cmpi .slt w 50257#32 = 1#1) :
    w.toNat < 50257 := by
  have e0 : (0#32 : BitVec 32).toInt = 0 := by decide
  have e1 : (50257#32 : BitVec 32).toInt = 50257 := by decide
  rw [IntOp.cmpi_sge, e0] at h0
  rw [IntOp.cmpi_slt, e1] at h1
  have hw := w.isLt
  rw [BitVec.toInt_eq_toNat_cond] at h0 h1
  by_cases hc : 2 * w.toNat < 2 ^ 32
  · rw [if_pos hc] at h1
    omega
  · rw [if_neg hc] at h0
    omega

theorem target_word (w : BitVec 32)
    (h : IntOp.ori (IntOp.cmpi .eq w 4294967196#32) (IntOp.andi (IntOp.cmpi .sge w 0#32) (IntOp.cmpi .slt w 50257#32)) = 1#1) :
    w = 4294967196#32 ∨ w.toNat < 50257 := by
  rcases IntOp.ori_eq_one.1 h with h | h
  · exact Or.inl (IntOp.cmpi_eq.1 h)
  · obtain ⟨h0, h1⟩ := IntOp.andi_eq_one.1 h
    exact Or.inr (toNat_lt_of_signed w h0 h1)

theorem andi_apply_eq_one (x y : IVec S_ 1) (i : S_.Idx) : andi x y i = 1#1 ↔ x i = 1#1 ∧ y i = 1#1 :=
  IntOp.andi_eq_one

theorem decode [Cert.Pre_finite_inputs.Facts] (a0 : FVec Ideal S1x2048x1024 .f32) (a1 : IVec S1x2048 32)
    (a2 : FVec Ideal S50257x1024 .f32) (a3 : FVec Ideal S1024 .f32) (a4 : FVec Ideal S2x1024x1024 .f32)
    (a5 : FVec Ideal S2x1024 .f32) (a6 : FVec Ideal S2x50257x1024 .f32)
    (h : Cert.Pre_finite_inputs.fn (F := Ideal) a0 a1 a2 a3 a4 a5 a6 = fun _ => 1#1) :
    (∀ i, ∃ r : ℝ, a0 i = (r : EReal)) ∧ (∀ i, ∃ r : ℝ, a2 i = (r : EReal)) ∧ (∀ i, ∃ r : ℝ, a3 i = (r : EReal)) ∧
      (∀ i, ∃ r : ℝ, a4 i = (r : EReal)) ∧ (∀ i, ∃ r : ℝ, a5 i = (r : EReal)) ∧ (∀ i, ∃ r : ℝ, a6 i = (r : EReal)) ∧
      (∀ i, a1 i = 4294967196#32 ∨ (a1 i).toNat < 50257) := by
  have e := congrFun h ValueIdx.ix0
  unfold Cert.Pre_finite_inputs.fn Cert.Pre_finite_inputs.fn_part1 Cert.Pre_finite_inputs.fn_part2 at e
  dsimp only at e
  simp only [andi_apply_eq_one] at e
  obtain ⟨⟨⟨⟨⟨⟨h0, h2⟩, h3⟩, h4⟩, h5⟩, h6⟩, h1⟩ := e
  refine ⟨all_real a0 _ _ _ _ h0, all_real a2 _ _ _ _ h2, all_real a3 _ _ _ _ h3, all_real a4 _ _ _ _ h4,
    all_real a5 _ _ _ _ h5, all_real a6 _ _ _ _ h6, fun i => ?_⟩
  exact target_word (a1 i) (Host.reduce_andi_all _ _ _ _ _ h1 i)

end Cert.PreFacts

end
-- ==== Proof.SpecArrays.lean ====
import proofs.«413414_j14594298871876_1_alg».proof.Proof.Spec

noncomputable section

namespace Cert.LossSpec

open Idealize.ShloMosaic

def logitsArr (a : Args) : (⟨3, ![1, 2048, 50257]⟩ : Shape).Idx → EReal := fun i => Z0 a (i 1) (i 2)

def lossArr (a : Args) : (⟨0, ![]⟩ : Shape).Idx → EReal := fun _ => loss a

end Cert.LossSpec

end
-- ==== Proof.KernelValue.lean ====
import proofs.«413414_j14594298871876_1_alg».proof.Defs
import proofs.«413414_j14594298871876_1_alg».proof.Proof.Gen.Pre_finite_inputs
import proofs.«413414_j14594298871876_1_alg».proof.Proof.IdealRegions
import proofs.«413414_j14594298871876_1_alg».proof.Proof.IdealHost
import proofs.«413414_j14594298871876_1_alg».proof.Proof.IdealBody0
import proofs.«413414_j14594298871876_1_alg».proof.Proof.IdealBody1
import proofs.«413414_j14594298871876_1_alg».proof.Proof.IdealBody2
import proofs.«413414_j14594298871876_1_alg».proof.Proof.IdealTileFacts0
import proofs.«413414_j14594298871876_1_alg».proof.Proof.IdealTileFacts1
import proofs.«413414_j14594298871876_1_alg».proof.Proof.IdealTileFacts2
import proofs.«413414_j14594298871876_1_alg».proof.Proof.KernelHead0
import proofs.«413414_j14594298871876_1_alg».proof.Proof.KernelHead1
import proofs.«413414_j14594298871876_1_alg».proof.Proof.KernelHead2
import proofs.«413414_j14594298871876_1_alg».proof.Proof.Bridge
import proofs.«413414_j14594298871876_1_alg».proof.Proof.PreFacts
import proofs.«413414_j14594298871876_1_alg».proof.Proof.SpecArrays

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligationLoose)
open Cert.KernelIdeal Cert.KernelIdeal.Gen

variable (m : (ℓ : Loc nD τ sig) → Buf (Elt Ideal) ℓ)

theorem tg_range (c : Dev nD)
    (h1 : ∀ i, (m ((c : Thread nD τ).loc main_arg1) : S1x2048.Idx → BitVec 32) i = 4294967196#32
      ∨ ((m ((c : Thread nD τ).loc main_arg1) : S1x2048.Idx → BitVec 32) i).toNat < 50257) (s : Fin 2048) :
    (Host.args m c).tg s = 4294967196#32 ∨ ((Host.args m c).tg s).toNat < 50257 := h1 (ix2 (0 : Fin 1) s)

theorem safe_word_lt (tg : Fin 2048 → BitVec 32) (k : ℕ) (htg : ∀ s, tg s = 4294967196#32 ∨ (tg s).toNat < 50257) (s : Fin 2048) :
    (BitVec.ofNat 32 (Cert.LossSpec.safe tg k s)).toNat < 50257 := by
  have h := Cert.LossSpec.safe_lt tg k htg s
  rw [BitVec.toNat_ofNat, Nat.mod_eq_of_lt (by omega)]; exact h

section Range
variable (c : Dev nD)
  (h1 : ∀ i, (m ((c : Thread nD τ).loc main_arg1) : S1x2048.Idx → BitVec 32) i = 4294967196#32
    ∨ ((m ((c : Thread nD τ).loc main_arg1) : S1x2048.Idx → BitVec 32) i).toNat < 50257)
include h1

theorem htg0 (t : Fin cfg0.N) (s : Fin 2048) : (tgin (Vin0 m) c t (ix2 s (0 : Fin 1)) : BitVec 32).toNat < 50257 := by
  rw [tgin_eq]
  show ((V5 m c main_v24 : S2048x1.Idx → BitVec 32) (ix2 s (0 : Fin 1))).toNat < 50257
  rw [Host.tgt0]
  exact safe_word_lt _ 1 (tg_range m c h1) s

theorem htg1 (t : Fin cfg1.N) (s : Fin 2048) : (tgin1 (Vin1 m) c t (ix2 s (0 : Fin 1)) : BitVec 32).toNat < 50257 := by
  rw [tgin1_eq]
  show ((V11 m (outsX m) c main_v89 : S2048x1.Idx → BitVec 32) (ix2 s (0 : Fin 1))).toNat < 50257
  rw [Host.tgt1]
  exact safe_word_lt _ 2 (tg_range m c h1) s

theorem htg2 (t : Fin cfg2.N) (s : Fin 2048) : (tgin2 (Vin2 m) c t (ix2 s (0 : Fin 1)) : BitVec 32).toNat < 50257 := by
  rw [tgin2_eq]
  show ((V17 m (outsX m) c main_v156 : S2048x1.Idx → BitVec 32) (ix2 s (0 : Fin 1))).toNat < 50257
  rw [Host.tgt2]
  exact safe_word_lt _ 3 (tg_range m c h1) s

theorem hbody0 : BodyObligationLoose (dat0 (Vin0 m) c) (defs₀ (F := Ideal)) Variants.none () Set.univ :=
  body_obligation0 (Vin0 m) c (tileFacts0 (Vin0 m) c (htg0 m c h1))
theorem hbody1 : BodyObligationLoose (dat1 (Vin1 m) c) (defs₀ (F := Ideal)) Variants.none () Set.univ :=
  body_obligation1 (Vin1 m) c (tileFacts1 (Vin1 m) c (htg1 m c h1))
theorem hbody2 : BodyObligationLoose (dat2 (Vin2 m) c) (defs₀ (F := Ideal)) Variants.none () Set.univ :=
  body_obligation2 (Vin2 m) c (tileFacts2 (Vin2 m) c (htg2 m c h1))

end Range

theorem logits_value (c : Dev nD) :
    (V19 m (outsX m) c main_v200 : S1x2048x50257.Idx → EReal) = Cert.LossSpec.logitsArr (Host.args m c) := by
  funext i
  obtain ⟨a, s, v, rfl⟩ : ∃ (a : Fin 1) (s : Fin 2048) (v : Fin 50257), i = ix3 a s v := ⟨_, _, _, eq_ix3 i⟩
  obtain rfl : a = 0 := Subsingleton.elim _ _
  rw [Host.logits, outs6_0]
  exact head0_logits m c s v

section Loss
variable (c : Dev nD)
  (h0 : ∀ i, ∃ r : ℝ, (m ((c : Thread nD τ).loc main_arg0) : S1x2048x1024.Idx → EReal) i = (r : EReal))
  (h2 : ∀ i, ∃ r : ℝ, (m ((c : Thread nD τ).loc main_arg2) : S50257x1024.Idx → EReal) i = (r : EReal))
  (h3 : ∀ i, ∃ r : ℝ, (m ((c : Thread nD τ).loc main_arg3) : S1024.Idx → EReal) i = (r : EReal))
  (h4 : ∀ i, ∃ r : ℝ, (m ((c : Thread nD τ).loc main_arg4) : S2x1024x1024.Idx → EReal) i = (r : EReal))
  (h5 : ∀ i, ∃ r : ℝ, (m ((c : Thread nD τ).loc main_arg5) : S2x1024.Idx → EReal) i = (r : EReal))
  (h6 : ∀ i, ∃ r : ℝ, (m ((c : Thread nD τ).loc main_arg6) : S2x50257x1024.Idx → EReal) i = (r : EReal))
  (h1 : ∀ i, (m ((c : Thread nD τ).loc main_arg1) : S1x2048.Idx → BitVec 32) i = 4294967196#32
    ∨ ((m ((c : Thread nD τ).loc main_arg1) : S1x2048.Idx → BitVec 32) i).toNat < 50257)
include h0 h2 h3 h4 h5 h6 h1

theorem loss_value : (V19 m (outsX m) c main_v199 : S_.Idx → EReal) = Cert.LossSpec.lossArr (Host.args m c) := by
  funext i
  rw [eq_ix0 i, Host.loss, outs6_1, outs6_2, outs6_3, outs12_0, outs12_1, outs12_2, outs18_0, outs18_1, outs18_2]
  rw [head0_loss m c h0 h2 h3 h4 h5 h6 h1, head1_loss m (outsX m) c h0 h2 h3 h4 h5 h6 h1, head2_loss m (outsX m) c h0 h2 h3 h4 h5 h6 h1]
  rfl

end Loss

theorem kernel_value (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v200) = Cert.LossSpec.logitsArr (Host.args m c)
      ∧ r.2.mem ((c.tc : Thread nD τ).loc main_v199) = Cert.LossSpec.lossArr (Host.args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hd := fun c : Dev nD => Cert.PreFacts.decode _ _ _ _ _ _ _ (hpre c)
  refine (θ_run defs _ _).mono (fun r h c => ?_)
    (kernel_run m ρ (fun c => hbody0 m c (hd c).2.2.2.2.2.2) (fun c => hbody1 m c (hd c).2.2.2.2.2.2) (fun c => hbody2 m c (hd c).2.2.2.2.2.2))
  obtain ⟨h0, h2, h3, h4, h5, h6, h1⟩ := hd c
  obtain ⟨e200, e199, rest⟩ := h c
  exact ⟨e200.trans (logits_value m c), e199.trans (loss_value m c h0 h2 h3 h4 h5 h6 h1), rest⟩

end Cert.KernelIdeal.Hand

end
-- ==== Proof.RefReadS.lean ====
import proofs.«413414_j14594298871876_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S1x2048x1024, .f32⟩ : BufTy).Contents (Elt F)) (x1 : (⟨S1x2048, .i32⟩ : BufTy).Contents (Elt F)) (x2 : (⟨S50257x1024, .f32⟩ : BufTy).Contents (Elt F)) (x3 : (⟨S1024, .f32⟩ : BufTy).Contents (Elt F)) (x4 : (⟨S2x1024x1024, .f32⟩ : BufTy).Contents (Elt F)) (x5 : (⟨S2x1024, .f32⟩ : BufTy).Contents (Elt F)) (x6 : (⟨S2x50257x1024, .f32⟩ : BufTy).Contents (Elt F))

def val_main_v0 : (⟨S1x2048x1024, .f32⟩ : BufTy).Contents (Elt F) :=
  mulf (x0) (x0)

theorem val_main_v0_apply (i : S1x2048x1024.Idx) :
    val_main_v0 (F := F) x0 i = FloatOps.mulf (x0 i) (x0 i) := rfl

def val_main_cst : (⟨S_, .f32⟩ : BufTy).Contents (Elt F) :=
  constant S_ .f32 0x00000000#32

def val_main_v1 : (⟨S1x2048, .f32⟩ : BufTy).Contents (Elt F) :=
  Host.reduceAdd (val_main_v0 (F := F) x0) (val_main_cst (F := F)) reducesTo_S1x2048x1024_S1x2048_d2 h_S_

abbrev idx_main_v1 (i : S1x2048.Idx) (k : Fin 1024) : S1x2048x1024.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v1_apply (x0 : (⟨S1x2048x1024, .f32⟩ : BufTy).Contents (Elt Ideal)) (i : S1x2048.Idx) :
    val_main_v1 (F := Ideal) x0 i = (val_main_cst (F := Ideal)) (Shape.Idx.first h_S_) + ∑ k : Fin 1024, (val_main_v0 (F := Ideal) x0) (idx_main_v1 i k) := by
  unfold val_main_v1
  generalize val_main_v0 (F := Ideal) x0 = y0
  simp only [Host.reduceAdd, Ideal.hostReduceAdd_def]
  rw [Ideal.hostReduceAdd_single reducesTo_S1x2048x1024_S1x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v2 : (⟨S1x2048x1, .f32⟩ : BufTy).Contents (Elt F) :=
  broadcastInDim S1x2048x1 ![0, 1] bcast_S1x2048_S1x2048x1_0_1 (val_main_v1 (F := F) x0)

abbrev idx_main_v2 (i : S1x2048x1.Idx) : S1x2048.Idx := fun a => match a with
  | ⟨0, _⟩ => ⟨0, Nat.one_pos⟩
  | ⟨1, _⟩ => ⟨(i 1).val, (i 1).isLt⟩

theorem val_main_v2_apply (i : S1x2048x1.Idx) :
    val_main_v2 (F := F) x0 i = val_main_v1 (F := F) x0 (idx_main_v2 i) := by
  unfold val_main_v2
  generalize val_main_v1 (F := F) x0 = y
  exact broadcastInDim_apply _ bcast_S1x2048_S1x2048x1_0_1 y i (idx_main_v2 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

def val_main_cst_0 : (⟨S_, .f32⟩ : BufTy).Contents (Elt F) :=
  constant S_ .f32 0x44800000#32

def val_main_v3 : (⟨S1x2048x1, .f32⟩ : BufTy).Contents (Elt F) :=
  broadcastInDim S1x2048x1 ![] bcast_S_S1x2048x1 (val_main_cst_0 (F := F))

def val_main_v4 : (⟨S1x2048x1, .f32⟩ : BufTy).Contents (Elt F) :=
  Host.divf (val_main_v2 (F := F) x0) (val_main_v3 (F := F))

theorem val_main_v4_apply (i : S1x2048x1.Idx) :
    val_main_v4 (F := F) x0 i = FloatOps.hostDivf (val_main_v2 (F := F) x0 i) (val_main_v3 (F := F) i) := rfl

def val_main_cst_1 : (⟨S_, .f32⟩ : BufTy).Contents (Elt F) :=
  constant S_ .f32 0x3727C5AC#32

def val_main_v5 : (⟨S1x2048x1, .f32⟩ : BufTy).Contents (Elt F) :=
  broadcastInDim S1x2048x1 ![] bcast_S_S1x2048x1 (val_main_cst_1 (F := F))

def val_main_v6 : (⟨S1x2048x1, .f32⟩ : BufTy).Contents (Elt F) :=
  addf (val_main_v4 (F := F) x0) (val_main_v5 (F := F))

theorem val_main_v6_apply (i : S1x2048x1.Idx) :
    val_main_v6 (F := F) x0 i = FloatOps.addf (val_main_v4 (F := F) x0 i) (val_main_v5 (F := F) i) := rfl

def val_main_v7 : (⟨S1x2048x1, .f32⟩ : BufTy).Contents (Elt F) :=
  Host.rsqrt (val_main_v6 (F := F) x0)

theorem val_main_v7_apply (i : S1x2048x1.Idx) :
    val_main_v7 (F := F) x0 i = FloatOps.hostUnary .rsqrt (val_main_v6 (F := F) x0 i) := rfl

def val_main_v8 : (⟨S1x2048x1024, .f32⟩ : BufTy).Contents (Elt F) :=
  broadcastInDim S1x2048x1024 ![0, 1, 2] bcast_S1x2048x1_S1x2048x1024_0_1_2 (val_main_v7 (F := F) x0)

abbrev idx_main_v8 (i : S1x2048x1024.Idx) : S1x2048x1.Idx := fun a => match a with
  | ⟨0, _⟩ => ⟨0, Nat.one_pos⟩
  | ⟨1, _⟩ => ⟨(i 1).val, (i 1).isLt⟩
  | ⟨2, _⟩ => ⟨0, Nat.one_pos⟩

theorem val_main_v8_apply (i : S1x2048x1024.Idx) :
    val_main_v8 (F := F) x0 i = val_main_v7 (F := F) x0 (idx_main_v8 i) := by
  unfold val_main_v8
  generalize val_main_v7 (F := F) x0 = y
  exact broadcastInDim_apply _ bcast_S1x2048x1_S1x2048x1024_0_1_2 y i (idx_main_v8 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)]
    | ⟨2, _⟩ => by show 0 = if (1 : Nat) = 1 then 0 else (i 2).val; rw [if_pos rfl])

def val_main_v9 : (⟨S1x2048x1024, .f32⟩ : BufTy).Contents (Elt F) :=
  mulf (x0) (val_main_v8 (F := F) x0)

theorem val_main_v9_apply (i : S1x2048x1024.Idx) :
    val_main_v9 (F := F) x0 i = FloatOps.mulf (x0 i) (val_main_v8 (F := F) x0 i) := rfl

def val_main_v10 : (⟨S1x1x1024, .f32⟩ : BufTy).Contents (Elt F) :=
  broadcastInDim S1x1x1024 ![2] bcast_S1024_S1x1x1024_2 (x3)

abbrev idx_main_v10 (i : S1x1x1024.Idx) : S1024.Idx := fun a => match a with
  | ⟨0, _⟩ => ⟨(i 2).val, (i 2).isLt⟩

theorem val_main_v10_apply (i : S1x1x1024.Idx) :
    val_main_v10 (F := F) x3 i = x3 (idx_main_v10 i) := by
  unfold val_main_v10
  exact broadcastInDim_apply _ bcast_S1024_S1x1x1024_2 x3 i (idx_main_v10 i) (fun a => match a with
    | ⟨0, _⟩ => by show (i 2).val = if (1024 : Nat) = 1 then 0 else (i 2).val; rw [if_neg (by decide)])

def val_main_v11 : (⟨S1x2048x1024, .f32⟩ : BufTy).Contents (Elt F) :=
  broadcastInDim S1x2048x1024 ![0, 1, 2] bcast_S1x1x1024_S1x2048x1024_0_1_2 (val_main_v10 (F := F) x3)

abbrev idx_main_v11 (i : S1x2048x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩

theorem val_main_v11_apply (i : S1x2048x1024.Idx) :
    val_main_v11 (F := F) x3 i = val_main_v10 (F := F) x3 (idx_main_v11 i) := by
  unfold val_main_v11
  generalize val_main_v10 (F := F) x3 = y
  exact broadcastInDim_apply _ bcast_S1x1x1024_S1x2048x1024_0_1_2 y i (idx_main_v11 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

def val_main_v12 : (⟨S1x2048x1024, .f32⟩ : BufTy).Contents (Elt F) :=
  mulf (val_main_v9 (F := F) x0) (val_main_v11 (F := F) x3)

theorem val_main_v12_apply (i : S1x2048x1024.Idx) :
    val_main_v12 (F := F) x0 x3 i = FloatOps.mulf (val_main_v9 (F := F) x0 i) (val_main_v11 (F := F) x3 i) := rfl

def val_main_v13 : (⟨S1x2048x50257, .f32⟩ : BufTy).Contents (Elt F) :=
  Host.dotGeneral dot_S1x2048x1024_S50257x1024_S1x2048x50257_2_1_01_0_n_n none (val_main_v12 (F := F) x0 x3) (x2)

theorem lhs_main_v13_0 (i : S1x2048x50257.Idx) (q : dot_S1x2048x1024_S50257x1024_S1x2048x50257_2_1_01_0_n_n.contr.Idx) :
    (dot_S1x2048x1024_S50257x1024_S1x2048x50257_2_1_01_0_n_n.lhsIdx i q 0).val = (i 0).val := by
  unfold DotDims.lhsIdx
  rw [dif_neg (show ¬(0 : Fin S1x2048x1024.rank) ∈ dot_S1x2048x1024_S50257x1024_S1x2048x50257_2_1_01_0_n_n.lhsBatch by decide), dif_pos (show (0 : Fin S1x2048x1024.rank) ∈ dot_S1x2048x1024_S50257x1024_S1x2048x50257_2_1_01_0_n_n.lhsNonContracting by decide)]
  rfl

theorem lhs_main_v13_1 (i : S1x2048x50257.Idx) (q : dot_S1x2048x1024_S50257x1024_S1x2048x50257_2_1_01_0_n_n.contr.Idx) :
    (dot_S1x2048x1024_S50257x1024_S1x2048x50257_2_1_01_0_n_n.lhsIdx i q 1).val = (i 1).val := by
  unfold DotDims.lhsIdx
  rw [dif_neg (show ¬(1 : Fin S1x2048x1024.rank) ∈ dot_S1x2048x1024_S50257x1024_S1x2048x50257_2_1_01_0_n_n.lhsBatch by decide), dif_pos (show (1 : Fin S1x2048x1024.rank) ∈ dot_S1x2048x1024_S50257x1024_S1x2048x50257_2_1_01_0_n_n.lhsNonContracting by decide)]
  rfl

theorem lhs_main_v13_2 (i : S1x2048x50257.Idx) (q : dot_S1x2048x1024_S50257x1024_S1x2048x50257_2_1_01_0_n_n.contr.Idx) :
    (dot_S1x2048x1024_S50257x1024_S1x2048x50257_2_1_01_0_n_n.lhsIdx i q 2).val = (q ⟨0, by decide⟩).val :=
  dot_S1x2048x1024_S50257x1024_S1x2048x50257_2_1_01_0_n_n.lhsIdx_val_of_single rfl i q

theorem rhs_main_v13_0 (i : S1x2048x50257.Idx) (q : dot_S1x2048x1024_S50257x1024_S1x2048x50257_2_1_01_0_n_n.contr.Idx) :
    (dot_S1x2048x1024_S50257x1024_S1x2048x50257_2_1_01_0_n_n.rhsIdx i q 0).val = (i 2).val := by
  unfold DotDims.rhsIdx
  rw [dif_neg (show ¬(0 : Fin S50257x1024.rank) ∈ dot_S1x2048x1024_S50257x1024_S1x2048x50257_2_1_01_0_n_n.rhsBatch by decide), dif_pos (show (0 : Fin S50257x1024.rank) ∈ dot_S1x2048x1024_S50257x1024_S1x2048x50257_2_1_01_0_n_n.rhsNonContracting by decide)]
  rfl

theorem rhs_main_v13_1 (i : S1x2048x50257.Idx) (q : dot_S1x2048x1024_S50257x1024_S1x2048x50257_2_1_01_0_n_n.contr.Idx) :
    (dot_S1x2048x1024_S50257x1024_S1x2048x50257_2_1_01_0_n_n.rhsIdx i q 1).val = (q ⟨0, by decide⟩).val :=
  dot_S1x2048x1024_S50257x1024_S1x2048x50257_2_1_01_0_n_n.rhsIdx_val_of_single rfl i q

abbrev lidx_main_v13 (i : S1x2048x50257.Idx) (k : Fin 1024) : S1x2048x1024.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v13 (i : S1x2048x50257.Idx) (k : Fin 1024) : S50257x1024.Idx := fun a => match a with
  | ⟨0, _⟩ => ⟨(i 2).val, (i 2).isLt⟩
  | ⟨1, _⟩ => ⟨k.val, k.isLt⟩

theorem val_main_v13_apply (x0 : (⟨S1x2048x1024, .f32⟩ : BufTy).Contents (Elt Ideal)) (x2 : (⟨S50257x1024, .f32⟩ : BufTy).Contents (Elt Ideal)) (x3 : (⟨S1024, .f32⟩ : BufTy).Contents (Elt Ideal)) (i : S1x2048x50257.Idx) :
    val_main_v13 (F := Ideal) x0 x2 x3 i = ∑ k : Fin 1024, (val_main_v12 (F := Ideal) x0 x3) (lidx_main_v13 i k) * x2 (ridx_main_v13 i k) := by
  unfold val_main_v13
  generalize val_main_v12 (F := Ideal) x0 x3 = y0
  simp only [Host.dotGeneral]
  rw [Ideal.dotGeneral_apply, ← Equiv.sum_comp (ValueIdx.contrEquiv1 dot_S1x2048x1024_S50257x1024_S1x2048x50257_2_1_01_0_n_n 1024 rfl rfl).symm]
  refine Finset.sum_congr rfl fun k _ => ?_
  have hk := ValueIdx.contrEquiv1_symm_val dot_S1x2048x1024_S50257x1024_S1x2048x50257_2_1_01_0_n_n 1024 rfl rfl k
  have el : dot_S1x2048x1024_S50257x1024_S1x2048x50257_2_1_01_0_n_n.lhsIdx i ((ValueIdx.contrEquiv1 dot_S1x2048x1024_S50257x1024_S1x2048x50257_2_1_01_0_n_n 1024 rfl rfl).symm k) = lidx_main_v13 i k := funext fun a => Fin.ext (by
    match a with
    | ⟨0, _⟩ => exact lhs_main_v13_0 _ _
    | ⟨1, _⟩ => exact lhs_main_v13_1 _ _
    | ⟨2, _⟩ => exact (lhs_main_v13_2 _ _).trans hk)
  have er : dot_S1x2048x1024_S50257x1024_S1x2048x50257_2_1_01_0_n_n.rhsIdx i ((ValueIdx.contrEquiv1 dot_S1x2048x1024_S50257x1024_S1x2048x50257_2_1_01_0_n_n 1024 rfl rfl).symm k) = ridx_main_v13 i k := funext fun a => Fin.ext (by
    match a with
    | ⟨0, _⟩ => exact rhs_main_v13_0 _ _
    | ⟨1, _⟩ => exact (rhs_main_v13_1 _ _).trans hk)
  rw [el, er]

def val_main_v14 : (⟨S1x2047x50257, .f32⟩ : BufTy).Contents (Elt F) :=
  extractStridedSlice S1x2047x50257 ![0, 0, 0] (val_main_v13 (F := F) x0 x2 x3) slices_S1x2048x50257_S1x2047x50257_0_0_0

abbrev idx_main_v14 (i : S1x2047x50257.Idx) : S1x2048x50257.Idx := fun a => match a with
  | ⟨0, _⟩ => ⟨(i 0).val, (i 0).isLt⟩
  | ⟨1, _⟩ => ⟨(i 1).val, by have h1 : (i 1).val < 2047 := (i 1).isLt; show (i 1).val < 2048; omega⟩
  | ⟨2, _⟩ => ⟨(i 2).val, (i 2).isLt⟩

theorem val_main_v14_apply (i : S1x2047x50257.Idx) :
    val_main_v14 (F := F) x0 x2 x3 i = val_main_v13 (F := F) x0 x2 x3 (idx_main_v14 i) := by
  unfold val_main_v14
  generalize val_main_v13 (F := F) x0 x2 x3 = y
  exact extractStridedSlice_apply ![0, 0, 0] y slices_S1x2048x50257_S1x2047x50257_0_0_0 i (idx_main_v14 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v15 : (⟨S1x2047, .i32⟩ : BufTy).Contents (Elt F) :=
  extractStridedSlice S1x2047 ![0, 1] (x1) slices_S1x2048_S1x2047_0_1

abbrev idx_main_v15 (i : S1x2047.Idx) : S1x2048.Idx := fun a => match a with
  | ⟨0, _⟩ => ⟨(i 0).val, (i 0).isLt⟩
  | ⟨1, _⟩ => ⟨1 + (i 1).val, by have h1 : (i 1).val < 2047 := (i 1).isLt; show 1 + (i 1).val < 2048; omega⟩

theorem val_main_v15_apply (i : S1x2047.Idx) :
    val_main_v15 (F := F) x1 i = x1 (idx_main_v15 i) := by
  unfold val_main_v15
  exact extractStridedSlice_apply ![0, 1] x1 slices_S1x2048_S1x2047_0_1 i (idx_main_v15 i) (fun a => match a with
    | ⟨0, _⟩ => by show (i 0).val = 0 + (i 0).val; omega
    | ⟨1, _⟩ => by show 1 + (i 1).val = 1 + (i 1).val; omega)

def val_main_call0_cst : (⟨S_, .f32⟩ : BufTy).Contents (Elt F) :=
  constant S_ .f32 0xFF800000#32

def val_main_call0_v0 : (⟨S1x2047, .f32⟩ : BufTy).Contents (Elt F) :=
  Host.reduce FloatOps.maximumf (val_main_v14 (F := F) x0 x2 x3) (val_main_call0_cst (F := F)) reducesTo_S1x2047x50257_S1x2047_d2 h_S_

def val_main_call0_cst_0 : (⟨S_, .f32⟩ : BufTy).Contents (Elt F) :=
  constant S_ .f32 0xFF800000#32

def val_main_call0_v1 : (⟨S1x2047, .f32⟩ : BufTy).Contents (Elt F) :=
  broadcastInDim S1x2047 ![] bcast_S_S1x2047 (val_main_call0_cst_0 (F := F))

def val_main_call0_v2 : (⟨S1x2047, .f32⟩ : BufTy).Contents (Elt F) :=
  maximumf (val_main_call0_v1 (F := F)) (val_main_call0_v0 (F := F) x0 x2 x3)

theorem val_main_call0_v2_apply (i : S1x2047.Idx) :
    val_main_call0_v2 (F := F) x0 x2 x3 i = FloatOps.maximumf (val_main_call0_v1 (F := F) i) (val_main_call0_v0 (F := F) x0 x2 x3 i) := rfl

def val_main_call0_v3 : (⟨S1x2047x1, .f32⟩ : BufTy).Contents (Elt F) :=
  broadcastInDim S1x2047x1 ![0, 1] bcast_S1x2047_S1x2047x1_0_1 (val_main_call0_v2 (F := F) x0 x2 x3)

abbrev idx_main_call0_v3 (i : S1x2047x1.Idx) : S1x2047.Idx := fun a => match a with
  | ⟨0, _⟩ => ⟨0, Nat.one_pos⟩
  | ⟨1, _⟩ => ⟨(i 1).val, (i 1).isLt⟩

theorem val_main_call0_v3_apply (i : S1x2047x1.Idx) :
    val_main_call0_v3 (F := F) x0 x2 x3 i = val_main_call0_v2 (F := F) x0 x2 x3 (idx_main_call0_v3 i) := by
  unfold val_main_call0_v3
  generalize val_main_call0_v2 (F := F) x0 x2 x3 = y
  exact broadcastInDim_apply _ bcast_S1x2047_S1x2047x1_0_1 y i (idx_main_call0_v3 i) (fun a => match a with
    | ⟨0, _⟩ => by show 0 = if (1 : Nat) = 1 then 0 else (i 0).val; rw [if_pos rfl]
    | ⟨1, _⟩ => by show (i 1).val = if (2047 : Nat) = 1 then 0 else (i 1).val; rw [if_neg (by decide)])

def val_main_call0_v4 : (⟨S1x2047x50257, .f32⟩ : BufTy).Contents (Elt F) :=
  broadcastInDim S1x2047x50257 ![0, 1, 2] bcast_S1x2047x1_S1x2047x50257_0_1_2 (val_main_call0_v3 (F := F) x0 x2 x3)

abbrev idx_main_call0_v4 (i : S1x2047x50257.Idx) : S1x2047x1.Idx := fun a => match a with
  | ⟨0, _⟩ => ⟨0, Nat.one_pos⟩
  | ⟨1, _⟩ => ⟨(i 1).val, (i 1).isLt⟩
  | ⟨2, _⟩ => ⟨0, Nat.one_pos⟩

theorem val_main_call0_v4_apply (i : S1x2047x50257.Idx) :
    val_main_call0_v4 (F := F) x0 x2 x3 i = val_main_call0_v3 (F := F) x0 x2 x3 (idx_main_call0_v4 i) := by
  unfold val_main_call0_v4
  generalize val_main_call0_v3 (F := F) x0 x2 x3 = y
  exact broadcastInDim_apply _ bcast_S1x2047x1_S1x2047x50257_0_1_2 y i (idx_main_call0_v4 i) (fun a => match a with
    | ⟨0, _⟩ => by show 0 = if (1 : Nat) = 1 then 0 else (i 0).val; rw [if_pos rfl]
    | ⟨1, _⟩ => by show (i 1).val = if (2047 : Nat) = 1 then 0 else (i 1).val; rw [if_neg (by decide)]
    | ⟨2, _⟩ => by show 0 = if (1 : Nat) = 1 then 0 else (i 2).val; rw [if_pos rfl])

def val_main_call0_v5 : (⟨S1x2047x50257, .f32⟩ : BufTy).Contents (Elt F) :=
  subf (val_main_v14 (F := F) x0 x2 x3) (val_main_call0_v4 (F := F) x0 x2 x3)

theorem val_main_call0_v5_apply (i : S1x2047x50257.Idx) :
    val_main_call0_v5 (F := F) x0 x2 x3 i = FloatOps.subf (val_main_v14 (F := F) x0 x2 x3 i) (val_main_call0_v4 (F := F) x0 x2 x3 i) := rfl

def val_main_call0_v6 : (⟨S1x2047x50257, .f32⟩ : BufTy).Contents (Elt F) :=
  Host.exp (val_main_call0_v5 (F := F) x0 x2 x3)

theorem val_main_call0_v6_apply (i : S1x2047x50257.Idx) :
    val_main_call0_v6 (F := F) x0 x2 x3 i = FloatOps.hostUnary .exp (val_main_call0_v5 (F := F) x0 x2 x3 i) := rfl

def val_main_call0_cst_1 : (⟨S_, .f32⟩ : BufTy).Contents (Elt F) :=
  constant S_ .f32 0x00000000#32

def val_main_call0_v7 : (⟨S1x2047, .f32⟩ : BufTy).Contents (Elt F) :=
  Host.reduceAdd (val_main_call0_v6 (F := F) x0 x2 x3) (val_main_call0_cst_1 (F := F)) reducesTo_S1x2047x50257_S1x2047_d2 h_S_

abbrev idx_main_call0_v7 (i : S1x2047.Idx) (k : Fin 50257) : S1x2047x50257.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_call0_v7_apply (x0 : (⟨S1x2048x1024, .f32⟩ : BufTy).Contents (Elt Ideal)) (x2 : (⟨S50257x1024, .f32⟩ : BufTy).Contents (Elt Ideal)) (x3 : (⟨S1024, .f32⟩ : BufTy).Contents (Elt Ideal)) (i : S1x2047.Idx) :
    val_main_call0_v7 (F := Ideal) x0 x2 x3 i = (val_main_call0_cst_1 (F := Ideal)) (Shape.Idx.first h_S_) + ∑ k : Fin 50257, (val_main_call0_v6 (F := Ideal) x0 x2 x3) (idx_main_call0_v7 i k) := by
  unfold val_main_call0_v7
  generalize val_main_call0_v6 (F := Ideal) x0 x2 x3 = y0
  simp only [Host.reduceAdd, Ideal.hostReduceAdd_def]
  rw [Ideal.hostReduceAdd_single reducesTo_S1x2047x50257_S1x2047_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_call0_v8 : (⟨S1x2047x1, .f32⟩ : BufTy).Contents (Elt F) :=
  broadcastInDim S1x2047x1 ![0, 1] bcast_S1x2047_S1x2047x1_0_1 (val_main_call0_v7 (F := F) x0 x2 x3)

abbrev idx_main_call0_v8 (i : S1x2047x1.Idx) : S1x2047.Idx := fun a => match a with
  | ⟨0, _⟩ => ⟨0, Nat.one_pos⟩
  | ⟨1, _⟩ => ⟨(i 1).val, (i 1).isLt⟩

theorem val_main_call0_v8_apply (i : S1x2047x1.Idx) :
    val_main_call0_v8 (F := F) x0 x2 x3 i = val_main_call0_v7 (F := F) x0 x2 x3 (idx_main_call0_v8 i) := by
  unfold val_main_call0_v8
  generalize val_main_call0_v7 (F := F) x0 x2 x3 = y
  exact broadcastInDim_apply _ bcast_S1x2047_S1x2047x1_0_1 y i (idx_main_call0_v8 i) (fun a => match a with
    | ⟨0, _⟩ => by show 0 = if (1 : Nat) = 1 then 0 else (i 0).val; rw [if_pos rfl]
    | ⟨1, _⟩ => by show (i 1).val = if (2047 : Nat) = 1 then 0 else (i 1).val; rw [if_neg (by decide)])

def val_main_call0_v9 : (⟨S1x2047x1, .f32⟩ : BufTy).Contents (Elt F) :=
  Host.log (val_main_call0_v8 (F := F) x0 x2 x3)

theorem val_main_call0_v9_apply (i : S1x2047x1.Idx) :
    val_main_call0_v9 (F := F) x0 x2 x3 i = FloatOps.hostUnary .log (val_main_call0_v8 (F := F) x0 x2 x3 i) := rfl

def val_main_call0_v10 : (⟨S1x2047x50257, .f32⟩ : BufTy).Contents (Elt F) :=
  broadcastInDim S1x2047x50257 ![0, 1, 2] bcast_S1x2047x1_S1x2047x50257_0_1_2 (val_main_call0_v9 (F := F) x0 x2 x3)

abbrev idx_main_call0_v10 (i : S1x2047x50257.Idx) : S1x2047x1.Idx := fun a => match a with
  | ⟨0, _⟩ => ⟨0, Nat.one_pos⟩
  | ⟨1, _⟩ => ⟨(i 1).val, (i 1).isLt⟩
  | ⟨2, _⟩ => ⟨0, Nat.one_pos⟩

theorem val_main_call0_v10_apply (i : S1x2047x50257.Idx) :
    val_main_call0_v10 (F := F) x0 x2 x3 i = val_main_call0_v9 (F := F) x0 x2 x3 (idx_main_call0_v10 i) := by
  unfold val_main_call0_v10
  generalize val_main_call0_v9 (F := F) x0 x2 x3 = y
  exact broadcastInDim_apply _ bcast_S1x2047x1_S1x2047x50257_0_1_2 y i (idx_main_call0_v10 i) (fun a => match a with
    | ⟨0, _⟩ => by show 0 = if (1 : Nat) = 1 then 0 else (i 0).val; rw [if_pos rfl]
    | ⟨1, _⟩ => by show (i 1).val = if (2047 : Nat) = 1 then 0 else (i 1).val; rw [if_neg (by decide)]
    | ⟨2, _⟩ => by show 0 = if (1 : Nat) = 1 then 0 else (i 2).val; rw [if_pos rfl])

def val_main_v16 : (⟨S1x2047x50257, .f32⟩ : BufTy).Contents (Elt F) :=
  subf (val_main_call0_v5 (F := F) x0 x2 x3) (val_main_call0_v10 (F := F) x0 x2 x3)

theorem val_main_v16_apply (i : S1x2047x50257.Idx) :
    val_main_v16 (F := F) x0 x2 x3 i = FloatOps.subf (val_main_call0_v5 (F := F) x0 x2 x3 i) (val_main_call0_v10 (F := F) x0 x2 x3 i) := rfl

def val_main_c : (⟨S_, .i32⟩ : BufTy).Contents (Elt F) :=
  constantI S_ 32 4294967196#32

def val_main_v17 : (⟨S1x2047, .i32⟩ : BufTy).Contents (Elt F) :=
  broadcastInDim S1x2047 ![] bcast_S_S1x2047 (val_main_c (F := F))

def val_main_v18 : (⟨S1x2047, .i1⟩ : BufTy).Contents (Elt F) :=
  cmpi .ne (val_main_v15 (F := F) x1) (val_main_v17 (F := F))

theorem val_main_v18_apply (i : S1x2047.Idx) :
    val_main_v18 (F := F) x1 i = IntOp.cmpi .ne (val_main_v15 (F := F) x1 i) (val_main_v17 (F := F) i) := rfl

def val_main_c_2 : (⟨S_, .i32⟩ : BufTy).Contents (Elt F) :=
  constantI S_ 32 0#32

def val_main_call1_v0 : (⟨S_, .i32⟩ : BufTy).Contents (Elt F) :=
  id (val_main_c_2 (F := F))

def val_main_call1_v1 : (⟨S1x2047, .i32⟩ : BufTy).Contents (Elt F) :=
  broadcastInDim S1x2047 ![] bcast_S_S1x2047 (val_main_call1_v0 (F := F))

def val_main_v19 : (⟨S1x2047, .i32⟩ : BufTy).Contents (Elt F) :=
  select (val_main_v18 (F := F) x1) (val_main_v15 (F := F) x1) (val_main_call1_v1 (F := F))

theorem val_main_v19_apply (i : S1x2047.Idx) :
    val_main_v19 (F := F) x1 i = Scalar.select (val_main_v18 (F := F) x1 i) (val_main_v15 (F := F) x1 i) (val_main_call1_v1 (F := F) i) := rfl

def val_main_v20 : (⟨S1x2047x1, .i32⟩ : BufTy).Contents (Elt F) :=
  broadcastInDim S1x2047x1 ![0, 1] bcast_S1x2047_S1x2047x1_0_1 (val_main_v19 (F := F) x1)

abbrev idx_main_v20 (i : S1x2047x1.Idx) : S1x2047.Idx := fun a => match a with
  | ⟨0, _⟩ => ⟨0, Nat.one_pos⟩
  | ⟨1, _⟩ => ⟨(i 1).val, (i 1).isLt⟩

theorem val_main_v20_apply (i : S1x2047x1.Idx) :
    val_main_v20 (F := F) x1 i = val_main_v19 (F := F) x1 (idx_main_v20 i) := by
  unfold val_main_v20
  generalize val_main_v19 (F := F) x1 = y
  exact broadcastInDim_apply _ bcast_S1x2047_S1x2047x1_0_1 y i (idx_main_v20 i) (fun a => match a with
    | ⟨0, _⟩ => by show 0 = if (1 : Nat) = 1 then 0 else (i 0).val; rw [if_pos rfl]
    | ⟨1, _⟩ => by show (i 1).val = if (2047 : Nat) = 1 then 0 else (i 1).val; rw [if_neg (by decide)])

def val_main_call2_c : (⟨S_, .i32⟩ : BufTy).Contents (Elt F) :=
  constantI S_ 32 0#32

def val_main_call2_v0 : (⟨S1x2047x1, .i32⟩ : BufTy).Contents (Elt F) :=
  broadcastInDim S1x2047x1 ![] bcast_S_S1x2047x1 (val_main_call2_c (F := F))

def val_main_call2_v1 : (⟨S1x2047x1, .i1⟩ : BufTy).Contents (Elt F) :=
  cmpi .slt (val_main_v20 (F := F) x1) (val_main_call2_v0 (F := F))

theorem val_main_call2_v1_apply (i : S1x2047x1.Idx) :
    val_main_call2_v1 (F := F) x1 i = IntOp.cmpi .slt (val_main_v20 (F := F) x1 i) (val_main_call2_v0 (F := F) i) := rfl

def val_main_call2_c_0 : (⟨S_, .i32⟩ : BufTy).Contents (Elt F) :=
  constantI S_ 32 50257#32

def val_main_call2_v2 : (⟨S1x2047x1, .i32⟩ : BufTy).Contents (Elt F) :=
  broadcastInDim S1x2047x1 ![] bcast_S_S1x2047x1 (val_main_call2_c_0 (F := F))

def val_main_call2_v3 : (⟨S1x2047x1, .i32⟩ : BufTy).Contents (Elt F) :=
  addi (val_main_v20 (F := F) x1) (val_main_call2_v2 (F := F))

theorem val_main_call2_v3_apply (i : S1x2047x1.Idx) :
    val_main_call2_v3 (F := F) x1 i = IntOp.addi (val_main_v20 (F := F) x1 i) (val_main_call2_v2 (F := F) i) := rfl

def val_main_call2_v4 : (⟨S1x2047x1, .i32⟩ : BufTy).Contents (Elt F) :=
  select (val_main_call2_v1 (F := F) x1) (val_main_call2_v3 (F := F) x1) (val_main_v20 (F := F) x1)

theorem val_main_call2_v4_apply (i : S1x2047x1.Idx) :
    val_main_call2_v4 (F := F) x1 i = Scalar.select (val_main_call2_v1 (F := F) x1 i) (val_main_call2_v3 (F := F) x1 i) (val_main_v20 (F := F) x1 i) := rfl

def val_main_call2_v5 : (⟨S2047x1x1, .i32⟩ : BufTy).Contents (Elt F) :=
  shapeCast _ (val_main_call2_v4 (F := F) x1) shapeCasts_S1x2047x1_S2047x1x1

abbrev idx_main_call2_v5 (i : S2047x1x1.Idx) : S1x2047x1.Idx := fun a => match a with
  | ⟨0, _⟩ => ⟨0, Nat.one_pos⟩
  | ⟨1, _⟩ => ⟨(((i 0).val * 1 + (i 1).val) * 1 + (i 2).val) / 1 % 2047, by have h0 : (i 0).val < 2047 := (i 0).isLt; have h1 : (i 1).val < 1 := (i 1).isLt; have h2 : (i 2).val < 1 := (i 2).isLt; show (((i 0).val * 1 + (i 1).val) * 1 + (i 2).val) / 1 % 2047 < 2047; omega⟩
  | ⟨2, _⟩ => ⟨0, Nat.one_pos⟩

theorem val_main_call2_v5_apply (i : S2047x1x1.Idx) :
    val_main_call2_v5 (F := F) x1 i = val_main_call2_v4 (F := F) x1 (idx_main_call2_v5 i) := by
  unfold val_main_call2_v5
  generalize val_main_call2_v4 (F := F) x1 = y
  exact shapeCast_apply y shapeCasts_S1x2047x1_S2047x1x1 i (idx_main_call2_v5 i)
    (by rewrite [Shape.rowMajor_val_three, Shape.rowMajor_val_three]; have h0 : (i 0).val < 2047 := (i 0).isLt; have h1 : (i 1).val < 1 := (i 1).isLt; have h2 : (i 2).val < 1 := (i 2).isLt; show (0 * 2047 + (((i 0).val * 1 + (i 1).val) * 1 + (i 2).val) / 1 % 2047) * 1 + 0 = ((i 0).val * 1 + (i 1).val) * 1 + (i 2).val; omega)

def val_main_call2_c_1 : (⟨S1, .i32⟩ : BufTy).Contents (Elt F) :=
  constantI S1 32 50256#32

def val_main_call2_c_2 : (⟨S_, .i32⟩ : BufTy).Contents (Elt F) :=
  constantI S_ 32 0#32

def val_main_call2_v6 : (⟨S2047x1x1, .i32⟩ : BufTy).Contents (Elt F) :=
  broadcastInDim S2047x1x1 ![] bcast_S_S2047x1x1 (val_main_call2_c_2 (F := F))

def val_main_call2_v7 : (⟨S2047x1x1, .i1⟩ : BufTy).Contents (Elt F) :=
  cmpi .sge (val_main_call2_v5 (F := F) x1) (val_main_call2_v6 (F := F))

def val_main_call2_v8 : (⟨S1x1x1, .i32⟩ : BufTy).Contents (Elt F) :=
  broadcastInDim S1x1x1 ![2] bcast_S1_S1x1x1_2 (val_main_call2_c_1 (F := F))

def val_main_call2_v9 : (⟨S2047x1x1, .i32⟩ : BufTy).Contents (Elt F) :=
  broadcastInDim S2047x1x1 ![0, 1, 2] bcast_S1x1x1_S2047x1x1_0_1_2 (val_main_call2_v8 (F := F))

def val_main_call2_v10 : (⟨S2047x1x1, .i1⟩ : BufTy).Contents (Elt F) :=
  cmpi .sle (val_main_call2_v5 (F := F) x1) (val_main_call2_v9 (F := F))

def val_main_call2_v11 : (⟨S2047x1x1, .i1⟩ : BufTy).Contents (Elt F) :=
  andi (val_main_call2_v7 (F := F) x1) (val_main_call2_v10 (F := F) x1)

def val_main_call2_c_3 : (⟨S_, .i1⟩ : BufTy).Contents (Elt F) :=
  constantI S_ 1 1#1

def val_main_call2_v12 : (⟨S2047x1, .i1⟩ : BufTy).Contents (Elt F) :=
  Host.reduce IntOp.andi (val_main_call2_v11 (F := F) x1) (val_main_call2_c_3 (F := F)) reducesTo_S2047x1x1_S2047x1_d2 h_S_

def val_main_call2_v13 : (⟨S1x2047x1, .f32⟩ : BufTy).Contents (Elt F) :=
  Host.gather gather_S1x2047x50257_S2047x1x1_S1x2047x1_0_2_1_0_2_2_111 (val_main_v16 (F := F) x0 x2 x3) (val_main_call2_v5 (F := F) x1)

def val_main_call2_v14 : (⟨S1x2047x1, .i1⟩ : BufTy).Contents (Elt F) :=
  broadcastInDim S1x2047x1 ![1, 2] bcast_S2047x1_S1x2047x1_1_2 (val_main_call2_v12 (F := F) x1)

abbrev idx_main_call2_v14 (i : S1x2047x1.Idx) : S2047x1.Idx := fun a => match a with
  | ⟨0, _⟩ => ⟨(i 1).val, (i 1).isLt⟩
  | ⟨1, _⟩ => ⟨0, Nat.one_pos⟩

theorem val_main_call2_v14_apply (i : S1x2047x1.Idx) :
    val_main_call2_v14 (F := F) x1 i = val_main_call2_v12 (F := F) x1 (idx_main_call2_v14 i) := by
  unfold val_main_call2_v14
  generalize val_main_call2_v12 (F := F) x1 = y
  exact broadcastInDim_apply _ bcast_S2047x1_S1x2047x1_1_2 y i (idx_main_call2_v14 i) (fun a => match a with
    | ⟨0, _⟩ => by show (i 1).val = if (2047 : Nat) = 1 then 0 else (i 1).val; rw [if_neg (by decide)]
    | ⟨1, _⟩ => by show 0 = if (1 : Nat) = 1 then 0 else (i 2).val; rw [if_pos rfl])

def val_main_call2_cst : (⟨S_, .f32⟩ : BufTy).Contents (Elt F) :=
  constant S_ .f32 0x7FC00000#32

def val_main_call2_v15 : (⟨S1x2047x1, .f32⟩ : BufTy).Contents (Elt F) :=
  broadcastInDim S1x2047x1 ![] bcast_S_S1x2047x1 (val_main_call2_cst (F := F))

def val_main_v21 : (⟨S1x2047x1, .f32⟩ : BufTy).Contents (Elt F) :=
  select (val_main_call2_v14 (F := F) x1) (val_main_call2_v13 (F := F) x0 x1 x2 x3) (val_main_call2_v15 (F := F))

theorem val_main_v21_apply (i : S1x2047x1.Idx) :
    val_main_v21 (F := F) x0 x1 x2 x3 i = Scalar.select (val_main_call2_v14 (F := F) x1 i) (val_main_call2_v13 (F := F) x0 x1 x2 x3 i) (val_main_call2_v15 (F := F) i) := rfl

def val_main_v22 : (⟨S1x2047, .f32⟩ : BufTy).Contents (Elt F) :=
  shapeCast _ (val_main_v21 (F := F) x0 x1 x2 x3) shapeCasts_S1x2047x1_S1x2047

abbrev idx_main_v22 (i : S1x2047.Idx) : S1x2047x1.Idx := fun a => match a with
  | ⟨0, _⟩ => ⟨0, Nat.one_pos⟩
  | ⟨1, _⟩ => ⟨((i 0).val * 2047 + (i 1).val) / 1 % 2047, by have h0 : (i 0).val < 1 := (i 0).isLt; have h1 : (i 1).val < 2047 := (i 1).isLt; show ((i 0).val * 2047 + (i 1).val) / 1 % 2047 < 2047; omega⟩
  | ⟨2, _⟩ => ⟨0, Nat.one_pos⟩

theorem val_main_v22_apply (i : S1x2047.Idx) :
    val_main_v22 (F := F) x0 x1 x2 x3 i = val_main_v21 (F := F) x0 x1 x2 x3 (idx_main_v22 i) := by
  unfold val_main_v22
  generalize val_main_v21 (F := F) x0 x1 x2 x3 = y
  exact shapeCast_apply y shapeCasts_S1x2047x1_S1x2047 i (idx_main_v22 i)
    (by rewrite [Shape.rowMajor_val_three, Shape.rowMajor_val_two]; have h0 : (i 0).val < 1 := (i 0).isLt; have h1 : (i 1).val < 2047 := (i 1).isLt; show (0 * 2047 + ((i 0).val * 2047 + (i 1).val) / 1 % 2047) * 1 + 0 = (i 0).val * 2047 + (i 1).val; omega)

def val_main_v23 : (⟨S1x2047, .f32⟩ : BufTy).Contents (Elt F) :=
  Host.negf (val_main_v22 (F := F) x0 x1 x2 x3)

theorem val_main_v23_apply (i : S1x2047.Idx) :
    val_main_v23 (F := F) x0 x1 x2 x3 i = FloatOps.hostNegf (val_main_v22 (F := F) x0 x1 x2 x3 i) := rfl

def val_main_cst_3 : (⟨S_, .f32⟩ : BufTy).Contents (Elt F) :=
  constant S_ .f32 0x00000000#32

def val_main_call3_v0 : (⟨S_, .f32⟩ : BufTy).Contents (Elt F) :=
  id (val_main_cst_3 (F := F))

def val_main_call3_v1 : (⟨S1x2047, .f32⟩ : BufTy).Contents (Elt F) :=
  broadcastInDim S1x2047 ![] bcast_S_S1x2047 (val_main_call3_v0 (F := F))

def val_main_v24 : (⟨S1x2047, .f32⟩ : BufTy).Contents (Elt F) :=
  select (val_main_v18 (F := F) x1) (val_main_v23 (F := F) x0 x1 x2 x3) (val_main_call3_v1 (F := F))

theorem val_main_v24_apply (i : S1x2047.Idx) :
    val_main_v24 (F := F) x0 x1 x2 x3 i = Scalar.select (val_main_v18 (F := F) x1 i) (val_main_v23 (F := F) x0 x1 x2 x3 i) (val_main_call3_v1 (F := F) i) := rfl

def val_main_cst_4 : (⟨S_, .f32⟩ : BufTy).Contents (Elt F) :=
  constant S_ .f32 0x00000000#32

def val_main_v25 : (⟨S_, .f32⟩ : BufTy).Contents (Elt F) :=
  Host.reduceAdd (val_main_v24 (F := F) x0 x1 x2 x3) (val_main_cst_4 (F := F)) reducesTo_S1x2047_S_d0_1 h_S_

theorem val_main_v25_apply (x0 : (⟨S1x2048x1024, .f32⟩ : BufTy).Contents (Elt Ideal)) (x1 : (⟨S1x2048, .i32⟩ : BufTy).Contents (Elt Ideal)) (x2 : (⟨S50257x1024, .f32⟩ : BufTy).Contents (Elt Ideal)) (x3 : (⟨S1024, .f32⟩ : BufTy).Contents (Elt Ideal)) (i : S_.Idx) :
    val_main_v25 (F := Ideal) x0 x1 x2 x3 i = (val_main_cst_4 (F := Ideal)) (Shape.Idx.first h_S_) + ∑ j : S1x2047.Idx, (val_main_v24 (F := Ideal) x0 x1 x2 x3) j := by
  unfold val_main_v25
  generalize val_main_v24 (F := Ideal) x0 x1 x2 x3 = y0
  simp only [Host.reduceAdd, Ideal.hostReduceAdd_def]
  exact Ideal.hostReduceAdd_total reducesTo_S1x2047_S_d0_1 (fun b => b.elim0) y0 _ i

def val_main_v26 : (⟨S1x2047, .i32⟩ : BufTy).Contents (Elt F) :=
  extui 32 (val_main_v18 (F := F) x1) natLt_1_32

def val_main_c_5 : (⟨S_, .i32⟩ : BufTy).Contents (Elt F) :=
  constantI S_ 32 0#32

def val_main_v27 : (⟨S_, .i32⟩ : BufTy).Contents (Elt F) :=
  Host.reduce IntOp.addi (val_main_v26 (F := F) x1) (val_main_c_5 (F := F)) reducesTo_S1x2047_S_d0_1 h_S_

def val_main_c_6 : (⟨S_, .i32⟩ : BufTy).Contents (Elt F) :=
  constantI S_ 32 1#32

def val_main_v28 : (⟨S_, .i32⟩ : BufTy).Contents (Elt F) :=
  maxsi (val_main_v27 (F := F) x1) (val_main_c_6 (F := F))

theorem val_main_v28_apply (i : S_.Idx) :
    val_main_v28 (F := F) x1 i = IntOp.maxsi (val_main_v27 (F := F) x1 i) (val_main_c_6 (F := F) i) := rfl

def val_main_v29 : (⟨S_, .f32⟩ : BufTy).Contents (Elt F) :=
  sitofp .f32 (val_main_v28 (F := F) x1)

theorem val_main_v29_apply (i : S_.Idx) :
    val_main_v29 (F := F) x1 i = FloatOps.sitofp .f32 (val_main_v28 (F := F) x1 i) := rfl

def val_main_v30 : (⟨S_, .f32⟩ : BufTy).Contents (Elt F) :=
  Host.divf (val_main_v25 (F := F) x0 x1 x2 x3) (val_main_v29 (F := F) x1)

theorem val_main_v30_apply (i : S_.Idx) :
    val_main_v30 (F := F) x0 x1 x2 x3 i = FloatOps.hostDivf (val_main_v25 (F := F) x0 x1 x2 x3 i) (val_main_v29 (F := F) x1 i) := rfl

def val_main_v31 : (⟨S1x1024x1024, .f32⟩ : BufTy).Contents (Elt F) :=
  extractStridedSlice S1x1024x1024 ![0, 0, 0] (x4) slices_S2x1024x1024_S1x1024x1024_0_0_0

abbrev idx_main_v31 (i : S1x1024x1024.Idx) : S2x1024x1024.Idx := fun a => match a with
  | ⟨0, _⟩ => ⟨(i 0).val, by have h0 : (i 0).val < 1 := (i 0).isLt; show (i 0).val < 2; omega⟩
  | ⟨1, _⟩ => ⟨(i 1).val, (i 1).isLt⟩
  | ⟨2, _⟩ => ⟨(i 2).val, (i 2).isLt⟩

theorem val_main_v31_apply (i : S1x1024x1024.Idx) :
    val_main_v31 (F := F) x4 i = x4 (idx_main_v31 i) := by
  unfold val_main_v31
  exact extractStridedSlice_apply ![0, 0, 0] x4 slices_S2x1024x1024_S1x1024x1024_0_0_0 i (idx_main_v31 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v32 : (⟨S1024x1024, .f32⟩ : BufTy).Contents (Elt F) :=
  shapeCast _ (val_main_v31 (F := F) x4) shapeCasts_S1x1024x1024_S1024x1024

abbrev idx_main_v32 (i : S1024x1024.Idx) : S1x1024x1024.Idx := fun a => match a with
  | ⟨0, _⟩ => ⟨0, Nat.one_pos⟩
  | ⟨1, _⟩ => ⟨((i 0).val * 1024 + (i 1).val) / 1024 % 1024, by have h0 : (i 0).val < 1024 := (i 0).isLt; have h1 : (i 1).val < 1024 := (i 1).isLt; show ((i 0).val * 1024 + (i 1).val) / 1024 % 1024 < 1024; omega⟩
  | ⟨2, _⟩ => ⟨((i 0).val * 1024 + (i 1).val) % 1024, by have h0 : (i 0).val < 1024 := (i 0).isLt; have h1 : (i 1).val < 1024 := (i 1).isLt; show ((i 0).val * 1024 + (i 1).val) % 1024 < 1024; omega⟩

theorem val_main_v32_apply (i : S1024x1024.Idx) :
    val_main_v32 (F := F) x4 i = val_main_v31 (F := F) x4 (idx_main_v32 i) := by
  unfold val_main_v32
  generalize val_main_v31 (F := F) x4 = y
  exact shapeCast_apply y shapeCasts_S1x1024x1024_S1024x1024 i (idx_main_v32 i)
    (by rewrite [Shape.rowMajor_val_three, Shape.rowMajor_val_two]; have h0 : (i 0).val < 1024 := (i 0).isLt; have h1 : (i 1).val < 1024 := (i 1).isLt; show (0 * 1024 + ((i 0).val * 1024 + (i 1).val) / 1024 % 1024) * 1024 + ((i 0).val * 1024 + (i 1).val) % 1024 = (i 0).val * 1024 + (i 1).val; omega)

def val_main_v33 : (⟨S1x2048x1024, .f32⟩ : BufTy).Contents (Elt F) :=
  Host.dotGeneral dot_S1x2048x1024_S1024x1024_S1x2048x1024_2_1_01_0_n_n none (x0) (val_main_v32 (F := F) x4)

theorem lhs_main_v33_0 (i : S1x2048x1024.Idx) (q : dot_S1x2048x1024_S1024x1024_S1x2048x1024_2_1_01_0_n_n.contr.Idx) :
    (dot_S1x2048x1024_S1024x1024_S1x2048x1024_2_1_01_0_n_n.lhsIdx i q 0).val = (i 0).val := by
  unfold DotDims.lhsIdx
  rw [dif_neg (show ¬(0 : Fin S1x2048x1024.rank) ∈ dot_S1x2048x1024_S1024x1024_S1x2048x1024_2_1_01_0_n_n.lhsBatch by decide), dif_pos (show (0 : Fin S1x2048x1024.rank) ∈ dot_S1x2048x1024_S1024x1024_S1x2048x1024_2_1_01_0_n_n.lhsNonContracting by decide)]
  rfl

theorem lhs_main_v33_1 (i : S1x2048x1024.Idx) (q : dot_S1x2048x1024_S1024x1024_S1x2048x1024_2_1_01_0_n_n.contr.Idx) :
    (dot_S1x2048x1024_S1024x1024_S1x2048x1024_2_1_01_0_n_n.lhsIdx i q 1).val = (i 1).val := by
  unfold DotDims.lhsIdx
  rw [dif_neg (show ¬(1 : Fin S1x2048x1024.rank) ∈ dot_S1x2048x1024_S1024x1024_S1x2048x1024_2_1_01_0_n_n.lhsBatch by decide), dif_pos (show (1 : Fin S1x2048x1024.rank) ∈ dot_S1x2048x1024_S1024x1024_S1x2048x1024_2_1_01_0_n_n.lhsNonContracting by decide)]
  rfl

theorem lhs_main_v33_2 (i : S1x2048x1024.Idx) (q : dot_S1x2048x1024_S1024x1024_S1x2048x1024_2_1_01_0_n_n.contr.Idx) :
    (dot_S1x2048x1024_S1024x1024_S1x2048x1024_2_1_01_0_n_n.lhsIdx i q 2).val = (q ⟨0, by decide⟩).val :=
  dot_S1x2048x1024_S1024x1024_S1x2048x1024_2_1_01_0_n_n.lhsIdx_val_of_single rfl i q

theorem rhs_main_v33_0 (i : S1x2048x1024.Idx) (q : dot_S1x2048x1024_S1024x1024_S1x2048x1024_2_1_01_0_n_n.contr.Idx) :
    (dot_S1x2048x1024_S1024x1024_S1x2048x1024_2_1_01_0_n_n.rhsIdx i q 0).val = (i 2).val := by
  unfold DotDims.rhsIdx
  rw [dif_neg (show ¬(0 : Fin S1024x1024.rank) ∈ dot_S1x2048x1024_S1024x1024_S1x2048x1024_2_1_01_0_n_n.rhsBatch by decide), dif_pos (show (0 : Fin S1024x1024.rank) ∈ dot_S1x2048x1024_S1024x1024_S1x2048x1024_2_1_01_0_n_n.rhsNonContracting by decide)]
  rfl

theorem rhs_main_v33_1 (i : S1x2048x1024.Idx) (q : dot_S1x2048x1024_S1024x1024_S1x2048x1024_2_1_01_0_n_n.contr.Idx) :
    (dot_S1x2048x1024_S1024x1024_S1x2048x1024_2_1_01_0_n_n.rhsIdx i q 1).val = (q ⟨0, by decide⟩).val :=
  dot_S1x2048x1024_S1024x1024_S1x2048x1024_2_1_01_0_n_n.rhsIdx_val_of_single rfl i q

abbrev lidx_main_v33 (i : S1x2048x1024.Idx) (k : Fin 1024) : S1x2048x1024.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v33 (i : S1x2048x1024.Idx) (k : Fin 1024) : S1024x1024.Idx := fun a => match a with
  | ⟨0, _⟩ => ⟨(i 2).val, (i 2).isLt⟩
  | ⟨1, _⟩ => ⟨k.val, k.isLt⟩

theorem val_main_v33_apply (x0 : (⟨S1x2048x1024, .f32⟩ : BufTy).Contents (Elt Ideal)) (x4 : (⟨S2x1024x1024, .f32⟩ : BufTy).Contents (Elt Ideal)) (i : S1x2048x1024.Idx) :
    val_main_v33 (F := Ideal) x0 x4 i = ∑ k : Fin 1024, x0 (lidx_main_v33 i k) * (val_main_v32 (F := Ideal) x4) (ridx_main_v33 i k) := by
  unfold val_main_v33
  generalize val_main_v32 (F := Ideal) x4 = y0
  simp only [Host.dotGeneral]
  rw [Ideal.dotGeneral_apply, ← Equiv.sum_comp (ValueIdx.contrEquiv1 dot_S1x2048x1024_S1024x1024_S1x2048x1024_2_1_01_0_n_n 1024 rfl rfl).symm]
  refine Finset.sum_congr rfl fun k _ => ?_
  have hk := ValueIdx.contrEquiv1_symm_val dot_S1x2048x1024_S1024x1024_S1x2048x1024_2_1_01_0_n_n 1024 rfl rfl k
  have el : dot_S1x2048x1024_S1024x1024_S1x2048x1024_2_1_01_0_n_n.lhsIdx i ((ValueIdx.contrEquiv1 dot_S1x2048x1024_S1024x1024_S1x2048x1024_2_1_01_0_n_n 1024 rfl rfl).symm k) = lidx_main_v33 i k := funext fun a => Fin.ext (by
    match a with
    | ⟨0, _⟩ => exact lhs_main_v33_0 _ _
    | ⟨1, _⟩ => exact lhs_main_v33_1 _ _
    | ⟨2, _⟩ => exact (lhs_main_v33_2 _ _).trans hk)
  have er : dot_S1x2048x1024_S1024x1024_S1x2048x1024_2_1_01_0_n_n.rhsIdx i ((ValueIdx.contrEquiv1 dot_S1x2048x1024_S1024x1024_S1x2048x1024_2_1_01_0_n_n 1024 rfl rfl).symm k) = ridx_main_v33 i k := funext fun a => Fin.ext (by
    match a with
    | ⟨0, _⟩ => exact rhs_main_v33_0 _ _
    | ⟨1, _⟩ => exact (rhs_main_v33_1 _ _).trans hk)
  rw [el, er]

def val_main_v34 : (⟨S1x1024, .f32⟩ : BufTy).Contents (Elt F) :=
  extractStridedSlice S1x1024 ![0, 0] (x5) slices_S2x1024_S1x1024_0_0

abbrev idx_main_v34 (i : S1x1024.Idx) : S2x1024.Idx := fun a => match a with
  | ⟨0, _⟩ => ⟨(i 0).val, by have h0 : (i 0).val < 1 := (i 0).isLt; show (i 0).val < 2; omega⟩
  | ⟨1, _⟩ => ⟨(i 1).val, (i 1).isLt⟩

theorem val_main_v34_apply (i : S1x1024.Idx) :
    val_main_v34 (F := F) x5 i = x5 (idx_main_v34 i) := by
  unfold val_main_v34
  exact extractStridedSlice_apply ![0, 0] x5 slices_S2x1024_S1x1024_0_0 i (idx_main_v34 i) (fun a => match a with
    | ⟨0, _⟩ => by show (i 0).val = 0 + (i 0).val; omega
    | ⟨1, _⟩ => by show (i 1).val = 0 + (i 1).val; omega)

def val_main_v35 : (⟨S1024, .f32⟩ : BufTy).Contents (Elt F) :=
  shapeCast _ (val_main_v34 (F := F) x5) shapeCasts_S1x1024_S1024

abbrev idx_main_v35 (i : S1024.Idx) : S1x1024.Idx := fun a => match a with
  | ⟨0, _⟩ => ⟨0, Nat.one_pos⟩
  | ⟨1, _⟩ => ⟨((i 0).val) % 1024, by have h0 : (i 0).val < 1024 := (i 0).isLt; show ((i 0).val) % 1024 < 1024; omega⟩

theorem val_main_v35_apply (i : S1024.Idx) :
    val_main_v35 (F := F) x5 i = val_main_v34 (F := F) x5 (idx_main_v35 i) := by
  unfold val_main_v35
  generalize val_main_v34 (F := F) x5 = y
  exact shapeCast_apply y shapeCasts_S1x1024_S1024 i (idx_main_v35 i)
    (by rewrite [Shape.rowMajor_val_two, Shape.rowMajor_val_one]; have h0 : (i 0).val < 1024 := (i 0).isLt; show 0 * 1024 + ((i 0).val) % 1024 = (i 0).val; omega)

def val_main_v36 : (⟨S1x2048x1024, .f32⟩ : BufTy).Contents (Elt F) :=
  mulf (val_main_v33 (F := F) x0 x4) (val_main_v33 (F := F) x0 x4)

theorem val_main_v36_apply (i : S1x2048x1024.Idx) :
    val_main_v36 (F := F) x0 x4 i = FloatOps.mulf (val_main_v33 (F := F) x0 x4 i) (val_main_v33 (F := F) x0 x4 i) := rfl

def val_main_cst_7 : (⟨S_, .f32⟩ : BufTy).Contents (Elt F) :=
  constant S_ .f32 0x00000000#32

def val_main_v37 : (⟨S1x2048, .f32⟩ : BufTy).Contents (Elt F) :=
  Host.reduceAdd (val_main_v36 (F := F) x0 x4) (val_main_cst_7 (F := F)) reducesTo_S1x2048x1024_S1x2048_d2 h_S_

abbrev idx_main_v37 (i : S1x2048.Idx) (k : Fin 1024) : S1x2048x1024.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v37_apply (x0 : (⟨S1x2048x1024, .f32⟩ : BufTy).Contents (Elt Ideal)) (x4 : (⟨S2x1024x1024, .f32⟩ : BufTy).Contents (Elt Ideal)) (i : S1x2048.Idx) :
    val_main_v37 (F := Ideal) x0 x4 i = (val_main_cst_7 (F := Ideal)) (Shape.Idx.first h_S_) + ∑ k : Fin 1024, (val_main_v36 (F := Ideal) x0 x4) (idx_main_v37 i k) := by
  unfold val_main_v37
  generalize val_main_v36 (F := Ideal) x0 x4 = y0
  simp only [Host.reduceAdd, Ideal.hostReduceAdd_def]
  rw [Ideal.hostReduceAdd_single reducesTo_S1x2048x1024_S1x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v38 : (⟨S1x2048x1, .f32⟩ : BufTy).Contents (Elt F) :=
  broadcastInDim S1x2048x1 ![0, 1] bcast_S1x2048_S1x2048x1_0_1 (val_main_v37 (F := F) x0 x4)

abbrev idx_main_v38 (i : S1x2048x1.Idx) : S1x2048.Idx := fun a => match a with
  | ⟨0, _⟩ => ⟨0, Nat.one_pos⟩
  | ⟨1, _⟩ => ⟨(i 1).val, (i 1).isLt⟩

theorem val_main_v38_apply (i : S1x2048x1.Idx) :
    val_main_v38 (F := F) x0 x4 i = val_main_v37 (F := F) x0 x4 (idx_main_v38 i) := by
  unfold val_main_v38
  generalize val_main_v37 (F := F) x0 x4 = y
  exact broadcastInDim_apply _ bcast_S1x2048_S1x2048x1_0_1 y i (idx_main_v38 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

def val_main_cst_8 : (⟨S_, .f32⟩ : BufTy).Contents (Elt F) :=
  constant S_ .f32 0x44800000#32

def val_main_v39 : (⟨S1x2048x1, .f32⟩ : BufTy).Contents (Elt F) :=
  broadcastInDim S1x2048x1 ![] bcast_S_S1x2048x1 (val_main_cst_8 (F := F))

def val_main_v40 : (⟨S1x2048x1, .f32⟩ : BufTy).Contents (Elt F) :=
  Host.divf (val_main_v38 (F := F) x0 x4) (val_main_v39 (F := F))

theorem val_main_v40_apply (i : S1x2048x1.Idx) :
    val_main_v40 (F := F) x0 x4 i = FloatOps.hostDivf (val_main_v38 (F := F) x0 x4 i) (val_main_v39 (F := F) i) := rfl

def val_main_cst_9 : (⟨S_, .f32⟩ : BufTy).Contents (Elt F) :=
  constant S_ .f32 0x3727C5AC#32

def val_main_v41 : (⟨S1x2048x1, .f32⟩ : BufTy).Contents (Elt F) :=
  broadcastInDim S1x2048x1 ![] bcast_S_S1x2048x1 (val_main_cst_9 (F := F))

def val_main_v42 : (⟨S1x2048x1, .f32⟩ : BufTy).Contents (Elt F) :=
  addf (val_main_v40 (F := F) x0 x4) (val_main_v41 (F := F))

theorem val_main_v42_apply (i : S1x2048x1.Idx) :
    val_main_v42 (F := F) x0 x4 i = FloatOps.addf (val_main_v40 (F := F) x0 x4 i) (val_main_v41 (F := F) i) := rfl

def val_main_v43 : (⟨S1x2048x1, .f32⟩ : BufTy).Contents (Elt F) :=
  Host.rsqrt (val_main_v42 (F := F) x0 x4)

theorem val_main_v43_apply (i : S1x2048x1.Idx) :
    val_main_v43 (F := F) x0 x4 i = FloatOps.hostUnary .rsqrt (val_main_v42 (F := F) x0 x4 i) := rfl

def val_main_v44 : (⟨S1x2048x1024, .f32⟩ : BufTy).Contents (Elt F) :=
  broadcastInDim S1x2048x1024 ![0, 1, 2] bcast_S1x2048x1_S1x2048x1024_0_1_2 (val_main_v43 (F := F) x0 x4)

abbrev idx_main_v44 (i : S1x2048x1024.Idx) : S1x2048x1.Idx := fun a => match a with
  | ⟨0, _⟩ => ⟨0, Nat.one_pos⟩
  | ⟨1, _⟩ => ⟨(i 1).val, (i 1).isLt⟩
  | ⟨2, _⟩ => ⟨0, Nat.one_pos⟩

theorem val_main_v44_apply (i : S1x2048x1024.Idx) :
    val_main_v44 (F := F) x0 x4 i = val_main_v43 (F := F) x0 x4 (idx_main_v44 i) := by
  unfold val_main_v44
  generalize val_main_v43 (F := F) x0 x4 = y
  exact broadcastInDim_apply _ bcast_S1x2048x1_S1x2048x1024_0_1_2 y i (idx_main_v44 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)]
    | ⟨2, _⟩ => by show 0 = if (1 : Nat) = 1 then 0 else (i 2).val; rw [if_pos rfl])

def val_main_v45 : (⟨S1x2048x1024, .f32⟩ : BufTy).Contents (Elt F) :=
  mulf (val_main_v33 (F := F) x0 x4) (val_main_v44 (F := F) x0 x4)

theorem val_main_v45_apply (i : S1x2048x1024.Idx) :
    val_main_v45 (F := F) x0 x4 i = FloatOps.mulf (val_main_v33 (F := F) x0 x4 i) (val_main_v44 (F := F) x0 x4 i) := rfl

def val_main_v46 : (⟨S1x1x1024, .f32⟩ : BufTy).Contents (Elt F) :=
  broadcastInDim S1x1x1024 ![2] bcast_S1024_S1x1x1024_2 (val_main_v35 (F := F) x5)

abbrev idx_main_v46 (i : S1x1x1024.Idx) : S1024.Idx := fun a => match a with
  | ⟨0, _⟩ => ⟨(i 2).val, (i 2).isLt⟩

theorem val_main_v46_apply (i : S1x1x1024.Idx) :
    val_main_v46 (F := F) x5 i = val_main_v35 (F := F) x5 (idx_main_v46 i) := by
  unfold val_main_v46
  generalize val_main_v35 (F := F) x5 = y
  exact broadcastInDim_apply _ bcast_S1024_S1x1x1024_2 y i (idx_main_v46 i) (fun a => match a with
    | ⟨0, _⟩ => by show (i 2).val = if (1024 : Nat) = 1 then 0 else (i 2).val; rw [if_neg (by decide)])

def val_main_v47 : (⟨S1x2048x1024, .f32⟩ : BufTy).Contents (Elt F) :=
  broadcastInDim S1x2048x1024 ![0, 1, 2] bcast_S1x1x1024_S1x2048x1024_0_1_2 (val_main_v46 (F := F) x5)

abbrev idx_main_v47 (i : S1x2048x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩

theorem val_main_v47_apply (i : S1x2048x1024.Idx) :
    val_main_v47 (F := F) x5 i = val_main_v46 (F := F) x5 (idx_main_v47 i) := by
  unfold val_main_v47
  generalize val_main_v46 (F := F) x5 = y
  exact broadcastInDim_apply _ bcast_S1x1x1024_S1x2048x1024_0_1_2 y i (idx_main_v47 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

def val_main_v48 : (⟨S1x2048x1024, .f32⟩ : BufTy).Contents (Elt F) :=
  mulf (val_main_v45 (F := F) x0 x4) (val_main_v47 (F := F) x5)

theorem val_main_v48_apply (i : S1x2048x1024.Idx) :
    val_main_v48 (F := F) x0 x4 x5 i = FloatOps.mulf (val_main_v45 (F := F) x0 x4 i) (val_main_v47 (F := F) x5 i) := rfl

def val_main_v49 : (⟨S1x50257x1024, .f32⟩ : BufTy).Contents (Elt F) :=
  extractStridedSlice S1x50257x1024 ![0, 0, 0] (x6) slices_S2x50257x1024_S1x50257x1024_0_0_0

abbrev idx_main_v49 (i : S1x50257x1024.Idx) : S2x50257x1024.Idx := fun a => match a with
  | ⟨0, _⟩ => ⟨(i 0).val, by have h0 : (i 0).val < 1 := (i 0).isLt; show (i 0).val < 2; omega⟩
  | ⟨1, _⟩ => ⟨(i 1).val, (i 1).isLt⟩
  | ⟨2, _⟩ => ⟨(i 2).val, (i 2).isLt⟩

theorem val_main_v49_apply (i : S1x50257x1024.Idx) :
    val_main_v49 (F := F) x6 i = x6 (idx_main_v49 i) := by
  unfold val_main_v49
  exact extractStridedSlice_apply ![0, 0, 0] x6 slices_S2x50257x1024_S1x50257x1024_0_0_0 i (idx_main_v49 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v50 : (⟨S50257x1024, .f32⟩ : BufTy).Contents (Elt F) :=
  shapeCast _ (val_main_v49 (F := F) x6) shapeCasts_S1x50257x1024_S50257x1024

abbrev idx_main_v50 (i : S50257x1024.Idx) : S1x50257x1024.Idx := fun a => match a with
  | ⟨0, _⟩ => ⟨0, Nat.one_pos⟩
  | ⟨1, _⟩ => ⟨((i 0).val * 1024 + (i 1).val) / 1024 % 50257, by have h0 : (i 0).val < 50257 := (i 0).isLt; have h1 : (i 1).val < 1024 := (i 1).isLt; show ((i 0).val * 1024 + (i 1).val) / 1024 % 50257 < 50257; omega⟩
  | ⟨2, _⟩ => ⟨((i 0).val * 1024 + (i 1).val) % 1024, by have h0 : (i 0).val < 50257 := (i 0).isLt; have h1 : (i 1).val < 1024 := (i 1).isLt; show ((i 0).val * 1024 + (i 1).val) % 1024 < 1024; omega⟩

theorem val_main_v50_apply (i : S50257x1024.Idx) :
    val_main_v50 (F := F) x6 i = val_main_v49 (F := F) x6 (idx_main_v50 i) := by
  unfold val_main_v50
  generalize val_main_v49 (F := F) x6 = y
  exact shapeCast_apply y shapeCasts_S1x50257x1024_S50257x1024 i (idx_main_v50 i)
    (by rewrite [Shape.rowMajor_val_three, Shape.rowMajor_val_two]; have h0 : (i 0).val < 50257 := (i 0).isLt; have h1 : (i 1).val < 1024 := (i 1).isLt; show (0 * 50257 + ((i 0).val * 1024 + (i 1).val) / 1024 % 50257) * 1024 + ((i 0).val * 1024 + (i 1).val) % 1024 = (i 0).val * 1024 + (i 1).val; omega)

def val_main_v51 : (⟨S1x2048x50257, .f32⟩ : BufTy).Contents (Elt F) :=
  Host.dotGeneral dot_S1x2048x1024_S50257x1024_S1x2048x50257_2_1_01_0_n_n none (val_main_v48 (F := F) x0 x4 x5) (val_main_v50 (F := F) x6)

theorem lhs_main_v51_0 (i : S1x2048x50257.Idx) (q : dot_S1x2048x1024_S50257x1024_S1x2048x50257_2_1_01_0_n_n.contr.Idx) :
    (dot_S1x2048x1024_S50257x1024_S1x2048x50257_2_1_01_0_n_n.lhsIdx i q 0).val = (i 0).val := by
  unfold DotDims.lhsIdx
  rw [dif_neg (show ¬(0 : Fin S1x2048x1024.rank) ∈ dot_S1x2048x1024_S50257x1024_S1x2048x50257_2_1_01_0_n_n.lhsBatch by decide), dif_pos (show (0 : Fin S1x2048x1024.rank) ∈ dot_S1x2048x1024_S50257x1024_S1x2048x50257_2_1_01_0_n_n.lhsNonContracting by decide)]
  rfl

theorem lhs_main_v51_1 (i : S1x2048x50257.Idx) (q : dot_S1x2048x1024_S50257x1024_S1x2048x50257_2_1_01_0_n_n.contr.Idx) :
    (dot_S1x2048x1024_S50257x1024_S1x2048x50257_2_1_01_0_n_n.lhsIdx i q 1).val = (i 1).val := by
  unfold DotDims.lhsIdx
  rw [dif_neg (show ¬(1 : Fin S1x2048x1024.rank) ∈ dot_S1x2048x1024_S50257x1024_S1x2048x50257_2_1_01_0_n_n.lhsBatch by decide), dif_pos (show (1 : Fin S1x2048x1024.rank) ∈ dot_S1x2048x1024_S50257x1024_S1x2048x50257_2_1_01_0_n_n.lhsNonContracting by decide)]
  rfl

theorem lhs_main_v51_2 (i : S1x2048x50257.Idx) (q : dot_S1x2048x1024_S50257x1024_S1x2048x50257_2_1_01_0_n_n.contr.Idx) :
    (dot_S1x2048x1024_S50257x1024_S1x2048x50257_2_1_01_0_n_n.lhsIdx i q 2).val = (q ⟨0, by decide⟩).val :=
  dot_S1x2048x1024_S50257x1024_S1x2048x50257_2_1_01_0_n_n.lhsIdx_val_of_single rfl i q

theorem rhs_main_v51_0 (i : S1x2048x50257.Idx) (q : dot_S1x2048x1024_S50257x1024_S1x2048x50257_2_1_01_0_n_n.contr.Idx) :
    (dot_S1x2048x1024_S50257x1024_S1x2048x50257_2_1_01_0_n_n.rhsIdx i q 0).val = (i 2).val := by
  unfold DotDims.rhsIdx
  rw [dif_neg (show ¬(0 : Fin S50257x1024.rank) ∈ dot_S1x2048x1024_S50257x1024_S1x2048x50257_2_1_01_0_n_n.rhsBatch by decide), dif_pos (show (0 : Fin S50257x1024.rank) ∈ dot_S1x2048x1024_S50257x1024_S1x2048x50257_2_1_01_0_n_n.rhsNonContracting by decide)]
  rfl

theorem rhs_main_v51_1 (i : S1x2048x50257.Idx) (q : dot_S1x2048x1024_S50257x1024_S1x2048x50257_2_1_01_0_n_n.contr.Idx) :
    (dot_S1x2048x1024_S50257x1024_S1x2048x50257_2_1_01_0_n_n.rhsIdx i q 1).val = (q ⟨0, by decide⟩).val :=
  dot_S1x2048x1024_S50257x1024_S1x2048x50257_2_1_01_0_n_n.rhsIdx_val_of_single rfl i q

abbrev lidx_main_v51 (i : S1x2048x50257.Idx) (k : Fin 1024) : S1x2048x1024.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v51 (i : S1x2048x50257.Idx) (k : Fin 1024) : S50257x1024.Idx := fun a => match a with
  | ⟨0, _⟩ => ⟨(i 2).val, (i 2).isLt⟩
  | ⟨1, _⟩ => ⟨k.val, k.isLt⟩

theorem val_main_v51_apply (x0 : (⟨S1x2048x1024, .f32⟩ : BufTy).Contents (Elt Ideal)) (x4 : (⟨S2x1024x1024, .f32⟩ : BufTy).Contents (Elt Ideal)) (x5 : (⟨S2x1024, .f32⟩ : BufTy).Contents (Elt Ideal)) (x6 : (⟨S2x50257x1024, .f32⟩ : BufTy).Contents (Elt Ideal)) (i : S1x2048x50257.Idx) :
    val_main_v51 (F := Ideal) x0 x4 x5 x6 i = ∑ k : Fin 1024, (val_main_v48 (F := Ideal) x0 x4 x5) (lidx_main_v51 i k) * (val_main_v50 (F := Ideal) x6) (ridx_main_v51 i k) := by
  unfold val_main_v51
  generalize val_main_v48 (F := Ideal) x0 x4 x5 = y0
  generalize val_main_v50 (F := Ideal) x6 = y1
  simp only [Host.dotGeneral]
  rw [Ideal.dotGeneral_apply, ← Equiv.sum_comp (ValueIdx.contrEquiv1 dot_S1x2048x1024_S50257x1024_S1x2048x50257_2_1_01_0_n_n 1024 rfl rfl).symm]
  refine Finset.sum_congr rfl fun k _ => ?_
  have hk := ValueIdx.contrEquiv1_symm_val dot_S1x2048x1024_S50257x1024_S1x2048x50257_2_1_01_0_n_n 1024 rfl rfl k
  have el : dot_S1x2048x1024_S50257x1024_S1x2048x50257_2_1_01_0_n_n.lhsIdx i ((ValueIdx.contrEquiv1 dot_S1x2048x1024_S50257x1024_S1x2048x50257_2_1_01_0_n_n 1024 rfl rfl).symm k) = lidx_main_v51 i k := funext fun a => Fin.ext (by
    match a with
    | ⟨0, _⟩ => exact lhs_main_v51_0 _ _
    | ⟨1, _⟩ => exact lhs_main_v51_1 _ _
    | ⟨2, _⟩ => exact (lhs_main_v51_2 _ _).trans hk)
  have er : dot_S1x2048x1024_S50257x1024_S1x2048x50257_2_1_01_0_n_n.rhsIdx i ((ValueIdx.contrEquiv1 dot_S1x2048x1024_S50257x1024_S1x2048x50257_2_1_01_0_n_n 1024 rfl rfl).symm k) = ridx_main_v51 i k := funext fun a => Fin.ext (by
    match a with
    | ⟨0, _⟩ => exact rhs_main_v51_0 _ _
    | ⟨1, _⟩ => exact (rhs_main_v51_1 _ _).trans hk)
  rw [el, er]

def val_main_v52 : (⟨S1x2046x50257, .f32⟩ : BufTy).Contents (Elt F) :=
  extractStridedSlice S1x2046x50257 ![0, 0, 0] (val_main_v51 (F := F) x0 x4 x5 x6) slices_S1x2048x50257_S1x2046x50257_0_0_0

abbrev idx_main_v52 (i : S1x2046x50257.Idx) : S1x2048x50257.Idx := fun a => match a with
  | ⟨0, _⟩ => ⟨(i 0).val, (i 0).isLt⟩
  | ⟨1, _⟩ => ⟨(i 1).val, by have h1 : (i 1).val < 2046 := (i 1).isLt; show (i 1).val < 2048; omega⟩
  | ⟨2, _⟩ => ⟨(i 2).val, (i 2).isLt⟩

theorem val_main_v52_apply (i : S1x2046x50257.Idx) :
    val_main_v52 (F := F) x0 x4 x5 x6 i = val_main_v51 (F := F) x0 x4 x5 x6 (idx_main_v52 i) := by
  unfold val_main_v52
  generalize val_main_v51 (F := F) x0 x4 x5 x6 = y
  exact extractStridedSlice_apply ![0, 0, 0] y slices_S1x2048x50257_S1x2046x50257_0_0_0 i (idx_main_v52 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v53 : (⟨S1x2046, .i32⟩ : BufTy).Contents (Elt F) :=
  extractStridedSlice S1x2046 ![0, 2] (x1) slices_S1x2048_S1x2046_0_2

abbrev idx_main_v53 (i : S1x2046.Idx) : S1x2048.Idx := fun a => match a with
  | ⟨0, _⟩ => ⟨(i 0).val, (i 0).isLt⟩
  | ⟨1, _⟩ => ⟨2 + (i 1).val, by have h1 : (i 1).val < 2046 := (i 1).isLt; show 2 + (i 1).val < 2048; omega⟩

theorem val_main_v53_apply (i : S1x2046.Idx) :
    val_main_v53 (F := F) x1 i = x1 (idx_main_v53 i) := by
  unfold val_main_v53
  exact extractStridedSlice_apply ![0, 2] x1 slices_S1x2048_S1x2046_0_2 i (idx_main_v53 i) (fun a => match a with
    | ⟨0, _⟩ => by show (i 0).val = 0 + (i 0).val; omega
    | ⟨1, _⟩ => by show 2 + (i 1).val = 2 + (i 1).val; omega)

def val_main_call4_cst : (⟨S_, .f32⟩ : BufTy).Contents (Elt F) :=
  constant S_ .f32 0xFF800000#32

def val_main_call4_v0 : (⟨S1x2046, .f32⟩ : BufTy).Contents (Elt F) :=
  Host.reduce FloatOps.maximumf (val_main_v52 (F := F) x0 x4 x5 x6) (val_main_call4_cst (F := F)) reducesTo_S1x2046x50257_S1x2046_d2 h_S_

def val_main_call4_cst_0 : (⟨S_, .f32⟩ : BufTy).Contents (Elt F) :=
  constant S_ .f32 0xFF800000#32

def val_main_call4_v1 : (⟨S1x2046, .f32⟩ : BufTy).Contents (Elt F) :=
  broadcastInDim S1x2046 ![] bcast_S_S1x2046 (val_main_call4_cst_0 (F := F))

def val_main_call4_v2 : (⟨S1x2046, .f32⟩ : BufTy).Contents (Elt F) :=
  maximumf (val_main_call4_v1 (F := F)) (val_main_call4_v0 (F := F) x0 x4 x5 x6)

theorem val_main_call4_v2_apply (i : S1x2046.Idx) :
    val_main_call4_v2 (F := F) x0 x4 x5 x6 i = FloatOps.maximumf (val_main_call4_v1 (F := F) i) (val_main_call4_v0 (F := F) x0 x4 x5 x6 i) := rfl

def val_main_call4_v3 : (⟨S1x2046x1, .f32⟩ : BufTy).Contents (Elt F) :=
  broadcastInDim S1x2046x1 ![0, 1] bcast_S1x2046_S1x2046x1_0_1 (val_main_call4_v2 (F := F) x0 x4 x5 x6)

abbrev idx_main_call4_v3 (i : S1x2046x1.Idx) : S1x2046.Idx := fun a => match a with
  | ⟨0, _⟩ => ⟨0, Nat.one_pos⟩
  | ⟨1, _⟩ => ⟨(i 1).val, (i 1).isLt⟩

theorem val_main_call4_v3_apply (i : S1x2046x1.Idx) :
    val_main_call4_v3 (F := F) x0 x4 x5 x6 i = val_main_call4_v2 (F := F) x0 x4 x5 x6 (idx_main_call4_v3 i) := by
  unfold val_main_call4_v3
  generalize val_main_call4_v2 (F := F) x0 x4 x5 x6 = y
  exact broadcastInDim_apply _ bcast_S1x2046_S1x2046x1_0_1 y i (idx_main_call4_v3 i) (fun a => match a with
    | ⟨0, _⟩ => by show 0 = if (1 : Nat) = 1 then 0 else (i 0).val; rw [if_pos rfl]
    | ⟨1, _⟩ => by show (i 1).val = if (2046 : Nat) = 1 then 0 else (i 1).val; rw [if_neg (by decide)])

def val_main_call4_v4 : (⟨S1x2046x50257, .f32⟩ : BufTy).Contents (Elt F) :=
  broadcastInDim S1x2046x50257 ![0, 1, 2] bcast_S1x2046x1_S1x2046x50257_0_1_2 (val_main_call4_v3 (F := F) x0 x4 x5 x6)

abbrev idx_main_call4_v4 (i : S1x2046x50257.Idx) : S1x2046x1.Idx := fun a => match a with
  | ⟨0, _⟩ => ⟨0, Nat.one_pos⟩
  | ⟨1, _⟩ => ⟨(i 1).val, (i 1).isLt⟩
  | ⟨2, _⟩ => ⟨0, Nat.one_pos⟩

theorem val_main_call4_v4_apply (i : S1x2046x50257.Idx) :
    val_main_call4_v4 (F := F) x0 x4 x5 x6 i = val_main_call4_v3 (F := F) x0 x4 x5 x6 (idx_main_call4_v4 i) := by
  unfold val_main_call4_v4
  generalize val_main_call4_v3 (F := F) x0 x4 x5 x6 = y
  exact broadcastInDim_apply _ bcast_S1x2046x1_S1x2046x50257_0_1_2 y i (idx_main_call4_v4 i) (fun a => match a with
    | ⟨0, _⟩ => by show 0 = if (1 : Nat) = 1 then 0 else (i 0).val; rw [if_pos rfl]
    | ⟨1, _⟩ => by show (i 1).val = if (2046 : Nat) = 1 then 0 else (i 1).val; rw [if_neg (by decide)]
    | ⟨2, _⟩ => by show 0 = if (1 : Nat) = 1 then 0 else (i 2).val; rw [if_pos rfl])

def val_main_call4_v5 : (⟨S1x2046x50257, .f32⟩ : BufTy).Contents (Elt F) :=
  subf (val_main_v52 (F := F) x0 x4 x5 x6) (val_main_call4_v4 (F := F) x0 x4 x5 x6)

theorem val_main_call4_v5_apply (i : S1x2046x50257.Idx) :
    val_main_call4_v5 (F := F) x0 x4 x5 x6 i = FloatOps.subf (val_main_v52 (F := F) x0 x4 x5 x6 i) (val_main_call4_v4 (F := F) x0 x4 x5 x6 i) := rfl

def val_main_call4_v6 : (⟨S1x2046x50257, .f32⟩ : BufTy).Contents (Elt F) :=
  Host.exp (val_main_call4_v5 (F := F) x0 x4 x5 x6)

theorem val_main_call4_v6_apply (i : S1x2046x50257.Idx) :
    val_main_call4_v6 (F := F) x0 x4 x5 x6 i = FloatOps.hostUnary .exp (val_main_call4_v5 (F := F) x0 x4 x5 x6 i) := rfl

def val_main_call4_cst_1 : (⟨S_, .f32⟩ : BufTy).Contents (Elt F) :=
  constant S_ .f32 0x00000000#32

def val_main_call4_v7 : (⟨S1x2046, .f32⟩ : BufTy).Contents (Elt F) :=
  Host.reduceAdd (val_main_call4_v6 (F := F) x0 x4 x5 x6) (val_main_call4_cst_1 (F := F)) reducesTo_S1x2046x50257_S1x2046_d2 h_S_

abbrev idx_main_call4_v7 (i : S1x2046.Idx) (k : Fin 50257) : S1x2046x50257.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_call4_v7_apply (x0 : (⟨S1x2048x1024, .f32⟩ : BufTy).Contents (Elt Ideal)) (x4 : (⟨S2x1024x1024, .f32⟩ : BufTy).Contents (Elt Ideal)) (x5 : (⟨S2x1024, .f32⟩ : BufTy).Contents (Elt Ideal)) (x6 : (⟨S2x50257x1024, .f32⟩ : BufTy).Contents (Elt Ideal)) (i : S1x2046.Idx) :
    val_main_call4_v7 (F := Ideal) x0 x4 x5 x6 i = (val_main_call4_cst_1 (F := Ideal)) (Shape.Idx.first h_S_) + ∑ k : Fin 50257, (val_main_call4_v6 (F := Ideal) x0 x4 x5 x6) (idx_main_call4_v7 i k) := by
  unfold val_main_call4_v7
  generalize val_main_call4_v6 (F := Ideal) x0 x4 x5 x6 = y0
  simp only [Host.reduceAdd, Ideal.hostReduceAdd_def]
  rw [Ideal.hostReduceAdd_single reducesTo_S1x2046x50257_S1x2046_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_call4_v8 : (⟨S1x2046x1, .f32⟩ : BufTy).Contents (Elt F) :=
  broadcastInDim S1x2046x1 ![0, 1] bcast_S1x2046_S1x2046x1_0_1 (val_main_call4_v7 (F := F) x0 x4 x5 x6)

abbrev idx_main_call4_v8 (i : S1x2046x1.Idx) : S1x2046.Idx := fun a => match a with
  | ⟨0, _⟩ => ⟨0, Nat.one_pos⟩
  | ⟨1, _⟩ => ⟨(i 1).val, (i 1).isLt⟩

theorem val_main_call4_v8_apply (i : S1x2046x1.Idx) :
    val_main_call4_v8 (F := F) x0 x4 x5 x6 i = val_main_call4_v7 (F := F) x0 x4 x5 x6 (idx_main_call4_v8 i) := by
  unfold val_main_call4_v8
  generalize val_main_call4_v7 (F := F) x0 x4 x5 x6 = y
  exact broadcastInDim_apply _ bcast_S1x2046_S1x2046x1_0_1 y i (idx_main_call4_v8 i) (fun a => match a with
    | ⟨0, _⟩ => by show 0 = if (1 : Nat) = 1 then 0 else (i 0).val; rw [if_pos rfl]
    | ⟨1, _⟩ => by show (i 1).val = if (2046 : Nat) = 1 then 0 else (i 1).val; rw [if_neg (by decide)])

def val_main_call4_v9 : (⟨S1x2046x1, .f32⟩ : BufTy).Contents (Elt F) :=
  Host.log (val_main_call4_v8 (F := F) x0 x4 x5 x6)

theorem val_main_call4_v9_apply (i : S1x2046x1.Idx) :
    val_main_call4_v9 (F := F) x0 x4 x5 x6 i = FloatOps.hostUnary .log (val_main_call4_v8 (F := F) x0 x4 x5 x6 i) := rfl

def val_main_call4_v10 : (⟨S1x2046x50257, .f32⟩ : BufTy).Contents (Elt F) :=
  broadcastInDim S1x2046x50257 ![0, 1, 2] bcast_S1x2046x1_S1x2046x50257_0_1_2 (val_main_call4_v9 (F := F) x0 x4 x5 x6)

abbrev idx_main_call4_v10 (i : S1x2046x50257.Idx) : S1x2046x1.Idx := fun a => match a with
  | ⟨0, _⟩ => ⟨0, Nat.one_pos⟩
  | ⟨1, _⟩ => ⟨(i 1).val, (i 1).isLt⟩
  | ⟨2, _⟩ => ⟨0, Nat.one_pos⟩

theorem val_main_call4_v10_apply (i : S1x2046x50257.Idx) :
    val_main_call4_v10 (F := F) x0 x4 x5 x6 i = val_main_call4_v9 (F := F) x0 x4 x5 x6 (idx_main_call4_v10 i) := by
  unfold val_main_call4_v10
  generalize val_main_call4_v9 (F := F) x0 x4 x5 x6 = y
  exact broadcastInDim_apply _ bcast_S1x2046x1_S1x2046x50257_0_1_2 y i (idx_main_call4_v10 i) (fun a => match a with
    | ⟨0, _⟩ => by show 0 = if (1 : Nat) = 1 then 0 else (i 0).val; rw [if_pos rfl]
    | ⟨1, _⟩ => by show (i 1).val = if (2046 : Nat) = 1 then 0 else (i 1).val; rw [if_neg (by decide)]
    | ⟨2, _⟩ => by show 0 = if (1 : Nat) = 1 then 0 else (i 2).val; rw [if_pos rfl])

def val_main_v54 : (⟨S1x2046x50257, .f32⟩ : BufTy).Contents (Elt F) :=
  subf (val_main_call4_v5 (F := F) x0 x4 x5 x6) (val_main_call4_v10 (F := F) x0 x4 x5 x6)

theorem val_main_v54_apply (i : S1x2046x50257.Idx) :
    val_main_v54 (F := F) x0 x4 x5 x6 i = FloatOps.subf (val_main_call4_v5 (F := F) x0 x4 x5 x6 i) (val_main_call4_v10 (F := F) x0 x4 x5 x6 i) := rfl

def val_main_c_10 : (⟨S_, .i32⟩ : BufTy).Contents (Elt F) :=
  constantI S_ 32 4294967196#32

def val_main_v55 : (⟨S1x2046, .i32⟩ : BufTy).Contents (Elt F) :=
  broadcastInDim S1x2046 ![] bcast_S_S1x2046 (val_main_c_10 (F := F))

def val_main_v56 : (⟨S1x2046, .i1⟩ : BufTy).Contents (Elt F) :=
  cmpi .ne (val_main_v53 (F := F) x1) (val_main_v55 (F := F))

theorem val_main_v56_apply (i : S1x2046.Idx) :
    val_main_v56 (F := F) x1 i = IntOp.cmpi .ne (val_main_v53 (F := F) x1 i) (val_main_v55 (F := F) i) := rfl

def val_main_c_11 : (⟨S_, .i32⟩ : BufTy).Contents (Elt F) :=
  constantI S_ 32 0#32

def val_main_call5_v0 : (⟨S_, .i32⟩ : BufTy).Contents (Elt F) :=
  id (val_main_c_11 (F := F))

def val_main_call5_v1 : (⟨S1x2046, .i32⟩ : BufTy).Contents (Elt F) :=
  broadcastInDim S1x2046 ![] bcast_S_S1x2046 (val_main_call5_v0 (F := F))

def val_main_v57 : (⟨S1x2046, .i32⟩ : BufTy).Contents (Elt F) :=
  select (val_main_v56 (F := F) x1) (val_main_v53 (F := F) x1) (val_main_call5_v1 (F := F))

theorem val_main_v57_apply (i : S1x2046.Idx) :
    val_main_v57 (F := F) x1 i = Scalar.select (val_main_v56 (F := F) x1 i) (val_main_v53 (F := F) x1 i) (val_main_call5_v1 (F := F) i) := rfl

def val_main_v58 : (⟨S1x2046x1, .i32⟩ : BufTy).Contents (Elt F) :=
  broadcastInDim S1x2046x1 ![0, 1] bcast_S1x2046_S1x2046x1_0_1 (val_main_v57 (F := F) x1)

abbrev idx_main_v58 (i : S1x2046x1.Idx) : S1x2046.Idx := fun a => match a with
  | ⟨0, _⟩ => ⟨0, Nat.one_pos⟩
  | ⟨1, _⟩ => ⟨(i 1).val, (i 1).isLt⟩

theorem val_main_v58_apply (i : S1x2046x1.Idx) :
    val_main_v58 (F := F) x1 i = val_main_v57 (F := F) x1 (idx_main_v58 i) := by
  unfold val_main_v58
  generalize val_main_v57 (F := F) x1 = y
  exact broadcastInDim_apply _ bcast_S1x2046_S1x2046x1_0_1 y i (idx_main_v58 i) (fun a => match a with
    | ⟨0, _⟩ => by show 0 = if (1 : Nat) = 1 then 0 else (i 0).val; rw [if_pos rfl]
    | ⟨1, _⟩ => by show (i 1).val = if (2046 : Nat) = 1 then 0 else (i 1).val; rw [if_neg (by decide)])

def val_main_call6_c : (⟨S_, .i32⟩ : BufTy).Contents (Elt F) :=
  constantI S_ 32 0#32

def val_main_call6_v0 : (⟨S1x2046x1, .i32⟩ : BufTy).Contents (Elt F) :=
  broadcastInDim S1x2046x1 ![] bcast_S_S1x2046x1 (val_main_call6_c (F := F))

def val_main_call6_v1 : (⟨S1x2046x1, .i1⟩ : BufTy).Contents (Elt F) :=
  cmpi .slt (val_main_v58 (F := F) x1) (val_main_call6_v0 (F := F))

theorem val_main_call6_v1_apply (i : S1x2046x1.Idx) :
    val_main_call6_v1 (F := F) x1 i = IntOp.cmpi .slt (val_main_v58 (F := F) x1 i) (val_main_call6_v0 (F := F) i) := rfl

def val_main_call6_c_0 : (⟨S_, .i32⟩ : BufTy).Contents (Elt F) :=
  constantI S_ 32 50257#32

def val_main_call6_v2 : (⟨S1x2046x1, .i32⟩ : BufTy).Contents (Elt F) :=
  broadcastInDim S1x2046x1 ![] bcast_S_S1x2046x1 (val_main_call6_c_0 (F := F))

def val_main_call6_v3 : (⟨S1x2046x1, .i32⟩ : BufTy).Contents (Elt F) :=
  addi (val_main_v58 (F := F) x1) (val_main_call6_v2 (F := F))

theorem val_main_call6_v3_apply (i : S1x2046x1.Idx) :
    val_main_call6_v3 (F := F) x1 i = IntOp.addi (val_main_v58 (F := F) x1 i) (val_main_call6_v2 (F := F) i) := rfl

def val_main_call6_v4 : (⟨S1x2046x1, .i32⟩ : BufTy).Contents (Elt F) :=
  select (val_main_call6_v1 (F := F) x1) (val_main_call6_v3 (F := F) x1) (val_main_v58 (F := F) x1)

theorem val_main_call6_v4_apply (i : S1x2046x1.Idx) :
    val_main_call6_v4 (F := F) x1 i = Scalar.select (val_main_call6_v1 (F := F) x1 i) (val_main_call6_v3 (F := F) x1 i) (val_main_v58 (F := F) x1 i) := rfl

def val_main_call6_v5 : (⟨S2046x1x1, .i32⟩ : BufTy).Contents (Elt F) :=
  shapeCast _ (val_main_call6_v4 (F := F) x1) shapeCasts_S1x2046x1_S2046x1x1

abbrev idx_main_call6_v5 (i : S2046x1x1.Idx) : S1x2046x1.Idx := fun a => match a with
  | ⟨0, _⟩ => ⟨0, Nat.one_pos⟩
  | ⟨1, _⟩ => ⟨(((i 0).val * 1 + (i 1).val) * 1 + (i 2).val) / 1 % 2046, by have h0 : (i 0).val < 2046 := (i 0).isLt; have h1 : (i 1).val < 1 := (i 1).isLt; have h2 : (i 2).val < 1 := (i 2).isLt; show (((i 0).val * 1 + (i 1).val) * 1 + (i 2).val) / 1 % 2046 < 2046; omega⟩
  | ⟨2, _⟩ => ⟨0, Nat.one_pos⟩

theorem val_main_call6_v5_apply (i : S2046x1x1.Idx) :
    val_main_call6_v5 (F := F) x1 i = val_main_call6_v4 (F := F) x1 (idx_main_call6_v5 i) := by
  unfold val_main_call6_v5
  generalize val_main_call6_v4 (F := F) x1 = y
  exact shapeCast_apply y shapeCasts_S1x2046x1_S2046x1x1 i (idx_main_call6_v5 i)
    (by rewrite [Shape.rowMajor_val_three, Shape.rowMajor_val_three]; have h0 : (i 0).val < 2046 := (i 0).isLt; have h1 : (i 1).val < 1 := (i 1).isLt; have h2 : (i 2).val < 1 := (i 2).isLt; show (0 * 2046 + (((i 0).val * 1 + (i 1).val) * 1 + (i 2).val) / 1 % 2046) * 1 + 0 = ((i 0).val * 1 + (i 1).val) * 1 + (i 2).val; omega)

def val_main_call6_c_1 : (⟨S1, .i32⟩ : BufTy).Contents (Elt F) :=
  constantI S1 32 50256#32

def val_main_call6_c_2 : (⟨S_, .i32⟩ : BufTy).Contents (Elt F) :=
  constantI S_ 32 0#32

def val_main_call6_v6 : (⟨S2046x1x1, .i32⟩ : BufTy).Contents (Elt F) :=
  broadcastInDim S2046x1x1 ![] bcast_S_S2046x1x1 (val_main_call6_c_2 (F := F))

def val_main_call6_v7 : (⟨S2046x1x1, .i1⟩ : BufTy).Contents (Elt F) :=
  cmpi .sge (val_main_call6_v5 (F := F) x1) (val_main_call6_v6 (F := F))

def val_main_call6_v8 : (⟨S1x1x1, .i32⟩ : BufTy).Contents (Elt F) :=
  broadcastInDim S1x1x1 ![2] bcast_S1_S1x1x1_2 (val_main_call6_c_1 (F := F))

def val_main_call6_v9 : (⟨S2046x1x1, .i32⟩ : BufTy).Contents (Elt F) :=
  broadcastInDim S2046x1x1 ![0, 1, 2] bcast_S1x1x1_S2046x1x1_0_1_2 (val_main_call6_v8 (F := F))

def val_main_call6_v10 : (⟨S2046x1x1, .i1⟩ : BufTy).Contents (Elt F) :=
  cmpi .sle (val_main_call6_v5 (F := F) x1) (val_main_call6_v9 (F := F))

def val_main_call6_v11 : (⟨S2046x1x1, .i1⟩ : BufTy).Contents (Elt F) :=
  andi (val_main_call6_v7 (F := F) x1) (val_main_call6_v10 (F := F) x1)

def val_main_call6_c_3 : (⟨S_, .i1⟩ : BufTy).Contents (Elt F) :=
  constantI S_ 1 1#1

def val_main_call6_v12 : (⟨S2046x1, .i1⟩ : BufTy).Contents (Elt F) :=
  Host.reduce IntOp.andi (val_main_call6_v11 (F := F) x1) (val_main_call6_c_3 (F := F)) reducesTo_S2046x1x1_S2046x1_d2 h_S_

def val_main_call6_v13 : (⟨S1x2046x1, .f32⟩ : BufTy).Contents (Elt F) :=
  Host.gather gather_S1x2046x50257_S2046x1x1_S1x2046x1_0_2_1_0_2_2_111 (val_main_v54 (F := F) x0 x4 x5 x6) (val_main_call6_v5 (F := F) x1)

def val_main_call6_v14 : (⟨S1x2046x1, .i1⟩ : BufTy).Contents (Elt F) :=
  broadcastInDim S1x2046x1 ![1, 2] bcast_S2046x1_S1x2046x1_1_2 (val_main_call6_v12 (F := F) x1)

abbrev idx_main_call6_v14 (i : S1x2046x1.Idx) : S2046x1.Idx := fun a => match a with
  | ⟨0, _⟩ => ⟨(i 1).val, (i 1).isLt⟩
  | ⟨1, _⟩ => ⟨0, Nat.one_pos⟩

theorem val_main_call6_v14_apply (i : S1x2046x1.Idx) :
    val_main_call6_v14 (F := F) x1 i = val_main_call6_v12 (F := F) x1 (idx_main_call6_v14 i) := by
  unfold val_main_call6_v14
  generalize val_main_call6_v12 (F := F) x1 = y
  exact broadcastInDim_apply _ bcast_S2046x1_S1x2046x1_1_2 y i (idx_main_call6_v14 i) (fun a => match a with
    | ⟨0, _⟩ => by show (i 1).val = if (2046 : Nat) = 1 then 0 else (i 1).val; rw [if_neg (by decide)]
    | ⟨1, _⟩ => by show 0 = if (1 : Nat) = 1 then 0 else (i 2).val; rw [if_pos rfl])

def val_main_call6_cst : (⟨S_, .f32⟩ : BufTy).Contents (Elt F) :=
  constant S_ .f32 0x7FC00000#32

def val_main_call6_v15 : (⟨S1x2046x1, .f32⟩ : BufTy).Contents (Elt F) :=
  broadcastInDim S1x2046x1 ![] bcast_S_S1x2046x1 (val_main_call6_cst (F := F))

def val_main_v59 : (⟨S1x2046x1, .f32⟩ : BufTy).Contents (Elt F) :=
  select (val_main_call6_v14 (F := F) x1) (val_main_call6_v13 (F := F) x0 x1 x4 x5 x6) (val_main_call6_v15 (F := F))

theorem val_main_v59_apply (i : S1x2046x1.Idx) :
    val_main_v59 (F := F) x0 x1 x4 x5 x6 i = Scalar.select (val_main_call6_v14 (F := F) x1 i) (val_main_call6_v13 (F := F) x0 x1 x4 x5 x6 i) (val_main_call6_v15 (F := F) i) := rfl

def val_main_v60 : (⟨S1x2046, .f32⟩ : BufTy).Contents (Elt F) :=
  shapeCast _ (val_main_v59 (F := F) x0 x1 x4 x5 x6) shapeCasts_S1x2046x1_S1x2046

abbrev idx_main_v60 (i : S1x2046.Idx) : S1x2046x1.Idx := fun a => match a with
  | ⟨0, _⟩ => ⟨0, Nat.one_pos⟩
  | ⟨1, _⟩ => ⟨((i 0).val * 2046 + (i 1).val) / 1 % 2046, by have h0 : (i 0).val < 1 := (i 0).isLt; have h1 : (i 1).val < 2046 := (i 1).isLt; show ((i 0).val * 2046 + (i 1).val) / 1 % 2046 < 2046; omega⟩
  | ⟨2, _⟩ => ⟨0, Nat.one_pos⟩

theorem val_main_v60_apply (i : S1x2046.Idx) :
    val_main_v60 (F := F) x0 x1 x4 x5 x6 i = val_main_v59 (F := F) x0 x1 x4 x5 x6 (idx_main_v60 i) := by
  unfold val_main_v60
  generalize val_main_v59 (F := F) x0 x1 x4 x5 x6 = y
  exact shapeCast_apply y shapeCasts_S1x2046x1_S1x2046 i (idx_main_v60 i)
    (by rewrite [Shape.rowMajor_val_three, Shape.rowMajor_val_two]; have h0 : (i 0).val < 1 := (i 0).isLt; have h1 : (i 1).val < 2046 := (i 1).isLt; show (0 * 2046 + ((i 0).val * 2046 + (i 1).val) / 1 % 2046) * 1 + 0 = (i 0).val * 2046 + (i 1).val; omega)

def val_main_v61 : (⟨S1x2046, .f32⟩ : BufTy).Contents (Elt F) :=
  Host.negf (val_main_v60 (F := F) x0 x1 x4 x5 x6)

theorem val_main_v61_apply (i : S1x2046.Idx) :
    val_main_v61 (F := F) x0 x1 x4 x5 x6 i = FloatOps.hostNegf (val_main_v60 (F := F) x0 x1 x4 x5 x6 i) := rfl

def val_main_cst_12 : (⟨S_, .f32⟩ : BufTy).Contents (Elt F) :=
  constant S_ .f32 0x00000000#32

def val_main_call7_v0 : (⟨S_, .f32⟩ : BufTy).Contents (Elt F) :=
  id (val_main_cst_12 (F := F))

def val_main_call7_v1 : (⟨S1x2046, .f32⟩ : BufTy).Contents (Elt F) :=
  broadcastInDim S1x2046 ![] bcast_S_S1x2046 (val_main_call7_v0 (F := F))

def val_main_v62 : (⟨S1x2046, .f32⟩ : BufTy).Contents (Elt F) :=
  select (val_main_v56 (F := F) x1) (val_main_v61 (F := F) x0 x1 x4 x5 x6) (val_main_call7_v1 (F := F))

theorem val_main_v62_apply (i : S1x2046.Idx) :
    val_main_v62 (F := F) x0 x1 x4 x5 x6 i = Scalar.select (val_main_v56 (F := F) x1 i) (val_main_v61 (F := F) x0 x1 x4 x5 x6 i) (val_main_call7_v1 (F := F) i) := rfl

def val_main_cst_13 : (⟨S_, .f32⟩ : BufTy).Contents (Elt F) :=
  constant S_ .f32 0x00000000#32

def val_main_v63 : (⟨S_, .f32⟩ : BufTy).Contents (Elt F) :=
  Host.reduceAdd (val_main_v62 (F := F) x0 x1 x4 x5 x6) (val_main_cst_13 (F := F)) reducesTo_S1x2046_S_d0_1 h_S_

theorem val_main_v63_apply (x0 : (⟨S1x2048x1024, .f32⟩ : BufTy).Contents (Elt Ideal)) (x1 : (⟨S1x2048, .i32⟩ : BufTy).Contents (Elt Ideal)) (x4 : (⟨S2x1024x1024, .f32⟩ : BufTy).Contents (Elt Ideal)) (x5 : (⟨S2x1024, .f32⟩ : BufTy).Contents (Elt Ideal)) (x6 : (⟨S2x50257x1024, .f32⟩ : BufTy).Contents (Elt Ideal)) (i : S_.Idx) :
    val_main_v63 (F := Ideal) x0 x1 x4 x5 x6 i = (val_main_cst_13 (F := Ideal)) (Shape.Idx.first h_S_) + ∑ j : S1x2046.Idx, (val_main_v62 (F := Ideal) x0 x1 x4 x5 x6) j := by
  unfold val_main_v63
  generalize val_main_v62 (F := Ideal) x0 x1 x4 x5 x6 = y0
  simp only [Host.reduceAdd, Ideal.hostReduceAdd_def]
  exact Ideal.hostReduceAdd_total reducesTo_S1x2046_S_d0_1 (fun b => b.elim0) y0 _ i

def val_main_v64 : (⟨S1x2046, .i32⟩ : BufTy).Contents (Elt F) :=
  extui 32 (val_main_v56 (F := F) x1) natLt_1_32

def val_main_c_14 : (⟨S_, .i32⟩ : BufTy).Contents (Elt F) :=
  constantI S_ 32 0#32

def val_main_v65 : (⟨S_, .i32⟩ : BufTy).Contents (Elt F) :=
  Host.reduce IntOp.addi (val_main_v64 (F := F) x1) (val_main_c_14 (F := F)) reducesTo_S1x2046_S_d0_1 h_S_

def val_main_c_15 : (⟨S_, .i32⟩ : BufTy).Contents (Elt F) :=
  constantI S_ 32 1#32

def val_main_v66 : (⟨S_, .i32⟩ : BufTy).Contents (Elt F) :=
  maxsi (val_main_v65 (F := F) x1) (val_main_c_15 (F := F))

theorem val_main_v66_apply (i : S_.Idx) :
    val_main_v66 (F := F) x1 i = IntOp.maxsi (val_main_v65 (F := F) x1 i) (val_main_c_15 (F := F) i) := rfl

def val_main_v67 : (⟨S_, .f32⟩ : BufTy).Contents (Elt F) :=
  sitofp .f32 (val_main_v66 (F := F) x1)

theorem val_main_v67_apply (i : S_.Idx) :
    val_main_v67 (F := F) x1 i = FloatOps.sitofp .f32 (val_main_v66 (F := F) x1 i) := rfl

def val_main_v68 : (⟨S_, .f32⟩ : BufTy).Contents (Elt F) :=
  Host.divf (val_main_v63 (F := F) x0 x1 x4 x5 x6) (val_main_v67 (F := F) x1)

theorem val_main_v68_apply (i : S_.Idx) :
    val_main_v68 (F := F) x0 x1 x4 x5 x6 i = FloatOps.hostDivf (val_main_v63 (F := F) x0 x1 x4 x5 x6 i) (val_main_v67 (F := F) x1 i) := rfl

def val_main_v69 : (⟨S1x1024x1024, .f32⟩ : BufTy).Contents (Elt F) :=
  extractStridedSlice S1x1024x1024 ![1, 0, 0] (x4) slices_S2x1024x1024_S1x1024x1024_1_0_0

abbrev idx_main_v69 (i : S1x1024x1024.Idx) : S2x1024x1024.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
  | ⟨2, _⟩ => ⟨(i 2).val, (i 2).isLt⟩

theorem val_main_v69_apply (i : S1x1024x1024.Idx) :
    val_main_v69 (F := F) x4 i = x4 (idx_main_v69 i) := by
  unfold val_main_v69
  exact extractStridedSlice_apply ![1, 0, 0] x4 slices_S2x1024x1024_S1x1024x1024_1_0_0 i (idx_main_v69 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v70 : (⟨S1024x1024, .f32⟩ : BufTy).Contents (Elt F) :=
  shapeCast _ (val_main_v69 (F := F) x4) shapeCasts_S1x1024x1024_S1024x1024

abbrev idx_main_v70 (i : S1024x1024.Idx) : S1x1024x1024.Idx := fun a => match a with
  | ⟨0, _⟩ => ⟨0, Nat.one_pos⟩
  | ⟨1, _⟩ => ⟨((i 0).val * 1024 + (i 1).val) / 1024 % 1024, by have h0 : (i 0).val < 1024 := (i 0).isLt; have h1 : (i 1).val < 1024 := (i 1).isLt; show ((i 0).val * 1024 + (i 1).val) / 1024 % 1024 < 1024; omega⟩
  | ⟨2, _⟩ => ⟨((i 0).val * 1024 + (i 1).val) % 1024, by have h0 : (i 0).val < 1024 := (i 0).isLt; have h1 : (i 1).val < 1024 := (i 1).isLt; show ((i 0).val * 1024 + (i 1).val) % 1024 < 1024; omega⟩

theorem val_main_v70_apply (i : S1024x1024.Idx) :
    val_main_v70 (F := F) x4 i = val_main_v69 (F := F) x4 (idx_main_v70 i) := by
  unfold val_main_v70
  generalize val_main_v69 (F := F) x4 = y
  exact shapeCast_apply y shapeCasts_S1x1024x1024_S1024x1024 i (idx_main_v70 i)
    (by rewrite [Shape.rowMajor_val_three, Shape.rowMajor_val_two]; have h0 : (i 0).val < 1024 := (i 0).isLt; have h1 : (i 1).val < 1024 := (i 1).isLt; show (0 * 1024 + ((i 0).val * 1024 + (i 1).val) / 1024 % 1024) * 1024 + ((i 0).val * 1024 + (i 1).val) % 1024 = (i 0).val * 1024 + (i 1).val; omega)

def val_main_v71 : (⟨S1x2048x1024, .f32⟩ : BufTy).Contents (Elt F) :=
  Host.dotGeneral dot_S1x2048x1024_S1024x1024_S1x2048x1024_2_1_01_0_n_n none (x0) (val_main_v70 (F := F) x4)

theorem lhs_main_v71_0 (i : S1x2048x1024.Idx) (q : dot_S1x2048x1024_S1024x1024_S1x2048x1024_2_1_01_0_n_n.contr.Idx) :
    (dot_S1x2048x1024_S1024x1024_S1x2048x1024_2_1_01_0_n_n.lhsIdx i q 0).val = (i 0).val := by
  unfold DotDims.lhsIdx
  rw [dif_neg (show ¬(0 : Fin S1x2048x1024.rank) ∈ dot_S1x2048x1024_S1024x1024_S1x2048x1024_2_1_01_0_n_n.lhsBatch by decide), dif_pos (show (0 : Fin S1x2048x1024.rank) ∈ dot_S1x2048x1024_S1024x1024_S1x2048x1024_2_1_01_0_n_n.lhsNonContracting by decide)]
  rfl

theorem lhs_main_v71_1 (i : S1x2048x1024.Idx) (q : dot_S1x2048x1024_S1024x1024_S1x2048x1024_2_1_01_0_n_n.contr.Idx) :
    (dot_S1x2048x1024_S1024x1024_S1x2048x1024_2_1_01_0_n_n.lhsIdx i q 1).val = (i 1).val := by
  unfold DotDims.lhsIdx
  rw [dif_neg (show ¬(1 : Fin S1x2048x1024.rank) ∈ dot_S1x2048x1024_S1024x1024_S1x2048x1024_2_1_01_0_n_n.lhsBatch by decide), dif_pos (show (1 : Fin S1x2048x1024.rank) ∈ dot_S1x2048x1024_S1024x1024_S1x2048x1024_2_1_01_0_n_n.lhsNonContracting by decide)]
  rfl

theorem lhs_main_v71_2 (i : S1x2048x1024.Idx) (q : dot_S1x2048x1024_S1024x1024_S1x2048x1024_2_1_01_0_n_n.contr.Idx) :
    (dot_S1x2048x1024_S1024x1024_S1x2048x1024_2_1_01_0_n_n.lhsIdx i q 2).val = (q ⟨0, by decide⟩).val :=
  dot_S1x2048x1024_S1024x1024_S1x2048x1024_2_1_01_0_n_n.lhsIdx_val_of_single rfl i q

theorem rhs_main_v71_0 (i : S1x2048x1024.Idx) (q : dot_S1x2048x1024_S1024x1024_S1x2048x1024_2_1_01_0_n_n.contr.Idx) :
    (dot_S1x2048x1024_S1024x1024_S1x2048x1024_2_1_01_0_n_n.rhsIdx i q 0).val = (i 2).val := by
  unfold DotDims.rhsIdx
  rw [dif_neg (show ¬(0 : Fin S1024x1024.rank) ∈ dot_S1x2048x1024_S1024x1024_S1x2048x1024_2_1_01_0_n_n.rhsBatch by decide), dif_pos (show (0 : Fin S1024x1024.rank) ∈ dot_S1x2048x1024_S1024x1024_S1x2048x1024_2_1_01_0_n_n.rhsNonContracting by decide)]
  rfl

theorem rhs_main_v71_1 (i : S1x2048x1024.Idx) (q : dot_S1x2048x1024_S1024x1024_S1x2048x1024_2_1_01_0_n_n.contr.Idx) :
    (dot_S1x2048x1024_S1024x1024_S1x2048x1024_2_1_01_0_n_n.rhsIdx i q 1).val = (q ⟨0, by decide⟩).val :=
  dot_S1x2048x1024_S1024x1024_S1x2048x1024_2_1_01_0_n_n.rhsIdx_val_of_single rfl i q

abbrev lidx_main_v71 (i : S1x2048x1024.Idx) (k : Fin 1024) : S1x2048x1024.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v71 (i : S1x2048x1024.Idx) (k : Fin 1024) : S1024x1024.Idx := fun a => match a with
  | ⟨0, _⟩ => ⟨(i 2).val, (i 2).isLt⟩
  | ⟨1, _⟩ => ⟨k.val, k.isLt⟩

theorem val_main_v71_apply (x0 : (⟨S1x2048x1024, .f32⟩ : BufTy).Contents (Elt Ideal)) (x4 : (⟨S2x1024x1024, .f32⟩ : BufTy).Contents (Elt Ideal)) (i : S1x2048x1024.Idx) :
    val_main_v71 (F := Ideal) x0 x4 i = ∑ k : Fin 1024, x0 (lidx_main_v71 i k) * (val_main_v70 (F := Ideal) x4) (ridx_main_v71 i k) := by
  unfold val_main_v71
  generalize val_main_v70 (F := Ideal) x4 = y0
  simp only [Host.dotGeneral]
  rw [Ideal.dotGeneral_apply, ← Equiv.sum_comp (ValueIdx.contrEquiv1 dot_S1x2048x1024_S1024x1024_S1x2048x1024_2_1_01_0_n_n 1024 rfl rfl).symm]
  refine Finset.sum_congr rfl fun k _ => ?_
  have hk := ValueIdx.contrEquiv1_symm_val dot_S1x2048x1024_S1024x1024_S1x2048x1024_2_1_01_0_n_n 1024 rfl rfl k
  have el : dot_S1x2048x1024_S1024x1024_S1x2048x1024_2_1_01_0_n_n.lhsIdx i ((ValueIdx.contrEquiv1 dot_S1x2048x1024_S1024x1024_S1x2048x1024_2_1_01_0_n_n 1024 rfl rfl).symm k) = lidx_main_v71 i k := funext fun a => Fin.ext (by
    match a with
    | ⟨0, _⟩ => exact lhs_main_v71_0 _ _
    | ⟨1, _⟩ => exact lhs_main_v71_1 _ _
    | ⟨2, _⟩ => exact (lhs_main_v71_2 _ _).trans hk)
  have er : dot_S1x2048x1024_S1024x1024_S1x2048x1024_2_1_01_0_n_n.rhsIdx i ((ValueIdx.contrEquiv1 dot_S1x2048x1024_S1024x1024_S1x2048x1024_2_1_01_0_n_n 1024 rfl rfl).symm k) = ridx_main_v71 i k := funext fun a => Fin.ext (by
    match a with
    | ⟨0, _⟩ => exact rhs_main_v71_0 _ _
    | ⟨1, _⟩ => exact (rhs_main_v71_1 _ _).trans hk)
  rw [el, er]

def val_main_v72 : (⟨S1x1024, .f32⟩ : BufTy).Contents (Elt F) :=
  extractStridedSlice S1x1024 ![1, 0] (x5) slices_S2x1024_S1x1024_1_0

abbrev idx_main_v72 (i : S1x1024.Idx) : S2x1024.Idx := fun a => match a with
  | ⟨0, _⟩ => ⟨1 + (i 0).val, by have h0 : (i 0).val < 1 := (i 0).isLt; show 1 + (i 0).val < 2; omega⟩
  | ⟨1, _⟩ => ⟨(i 1).val, (i 1).isLt⟩

theorem val_main_v72_apply (i : S1x1024.Idx) :
    val_main_v72 (F := F) x5 i = x5 (idx_main_v72 i) := by
  unfold val_main_v72
  exact extractStridedSlice_apply ![1, 0] x5 slices_S2x1024_S1x1024_1_0 i (idx_main_v72 i) (fun a => match a with
    | ⟨0, _⟩ => by show 1 + (i 0).val = 1 + (i 0).val; omega
    | ⟨1, _⟩ => by show (i 1).val = 0 + (i 1).val; omega)

def val_main_v73 : (⟨S1024, .f32⟩ : BufTy).Contents (Elt F) :=
  shapeCast _ (val_main_v72 (F := F) x5) shapeCasts_S1x1024_S1024

abbrev idx_main_v73 (i : S1024.Idx) : S1x1024.Idx := fun a => match a with
  | ⟨0, _⟩ => ⟨0, Nat.one_pos⟩
  | ⟨1, _⟩ => ⟨((i 0).val) % 1024, by have h0 : (i 0).val < 1024 := (i 0).isLt; show ((i 0).val) % 1024 < 1024; omega⟩

theorem val_main_v73_apply (i : S1024.Idx) :
    val_main_v73 (F := F) x5 i = val_main_v72 (F := F) x5 (idx_main_v73 i) := by
  unfold val_main_v73
  generalize val_main_v72 (F := F) x5 = y
  exact shapeCast_apply y shapeCasts_S1x1024_S1024 i (idx_main_v73 i)
    (by rewrite [Shape.rowMajor_val_two, Shape.rowMajor_val_one]; have h0 : (i 0).val < 1024 := (i 0).isLt; show 0 * 1024 + ((i 0).val) % 1024 = (i 0).val; omega)

def val_main_v74 : (⟨S1x2048x1024, .f32⟩ : BufTy).Contents (Elt F) :=
  mulf (val_main_v71 (F := F) x0 x4) (val_main_v71 (F := F) x0 x4)

theorem val_main_v74_apply (i : S1x2048x1024.Idx) :
    val_main_v74 (F := F) x0 x4 i = FloatOps.mulf (val_main_v71 (F := F) x0 x4 i) (val_main_v71 (F := F) x0 x4 i) := rfl

def val_main_cst_16 : (⟨S_, .f32⟩ : BufTy).Contents (Elt F) :=
  constant S_ .f32 0x00000000#32

def val_main_v75 : (⟨S1x2048, .f32⟩ : BufTy).Contents (Elt F) :=
  Host.reduceAdd (val_main_v74 (F := F) x0 x4) (val_main_cst_16 (F := F)) reducesTo_S1x2048x1024_S1x2048_d2 h_S_

abbrev idx_main_v75 (i : S1x2048.Idx) (k : Fin 1024) : S1x2048x1024.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v75_apply (x0 : (⟨S1x2048x1024, .f32⟩ : BufTy).Contents (Elt Ideal)) (x4 : (⟨S2x1024x1024, .f32⟩ : BufTy).Contents (Elt Ideal)) (i : S1x2048.Idx) :
    val_main_v75 (F := Ideal) x0 x4 i = (val_main_cst_16 (F := Ideal)) (Shape.Idx.first h_S_) + ∑ k : Fin 1024, (val_main_v74 (F := Ideal) x0 x4) (idx_main_v75 i k) := by
  unfold val_main_v75
  generalize val_main_v74 (F := Ideal) x0 x4 = y0
  simp only [Host.reduceAdd, Ideal.hostReduceAdd_def]
  rw [Ideal.hostReduceAdd_single reducesTo_S1x2048x1024_S1x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v76 : (⟨S1x2048x1, .f32⟩ : BufTy).Contents (Elt F) :=
  broadcastInDim S1x2048x1 ![0, 1] bcast_S1x2048_S1x2048x1_0_1 (val_main_v75 (F := F) x0 x4)

abbrev idx_main_v76 (i : S1x2048x1.Idx) : S1x2048.Idx := fun a => match a with
  | ⟨0, _⟩ => ⟨0, Nat.one_pos⟩
  | ⟨1, _⟩ => ⟨(i 1).val, (i 1).isLt⟩

theorem val_main_v76_apply (i : S1x2048x1.Idx) :
    val_main_v76 (F := F) x0 x4 i = val_main_v75 (F := F) x0 x4 (idx_main_v76 i) := by
  unfold val_main_v76
  generalize val_main_v75 (F := F) x0 x4 = y
  exact broadcastInDim_apply _ bcast_S1x2048_S1x2048x1_0_1 y i (idx_main_v76 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

def val_main_cst_17 : (⟨S_, .f32⟩ : BufTy).Contents (Elt F) :=
  constant S_ .f32 0x44800000#32

def val_main_v77 : (⟨S1x2048x1, .f32⟩ : BufTy).Contents (Elt F) :=
  broadcastInDim S1x2048x1 ![] bcast_S_S1x2048x1 (val_main_cst_17 (F := F))

def val_main_v78 : (⟨S1x2048x1, .f32⟩ : BufTy).Contents (Elt F) :=
  Host.divf (val_main_v76 (F := F) x0 x4) (val_main_v77 (F := F))

theorem val_main_v78_apply (i : S1x2048x1.Idx) :
    val_main_v78 (F := F) x0 x4 i = FloatOps.hostDivf (val_main_v76 (F := F) x0 x4 i) (val_main_v77 (F := F) i) := rfl

def val_main_cst_18 : (⟨S_, .f32⟩ : BufTy).Contents (Elt F) :=
  constant S_ .f32 0x3727C5AC#32

def val_main_v79 : (⟨S1x2048x1, .f32⟩ : BufTy).Contents (Elt F) :=
  broadcastInDim S1x2048x1 ![] bcast_S_S1x2048x1 (val_main_cst_18 (F := F))

def val_main_v80 : (⟨S1x2048x1, .f32⟩ : BufTy).Contents (Elt F) :=
  addf (val_main_v78 (F := F) x0 x4) (val_main_v79 (F := F))

theorem val_main_v80_apply (i : S1x2048x1.Idx) :
    val_main_v80 (F := F) x0 x4 i = FloatOps.addf (val_main_v78 (F := F) x0 x4 i) (val_main_v79 (F := F) i) := rfl

def val_main_v81 : (⟨S1x2048x1, .f32⟩ : BufTy).Contents (Elt F) :=
  Host.rsqrt (val_main_v80 (F := F) x0 x4)

theorem val_main_v81_apply (i : S1x2048x1.Idx) :
    val_main_v81 (F := F) x0 x4 i = FloatOps.hostUnary .rsqrt (val_main_v80 (F := F) x0 x4 i) := rfl

def val_main_v82 : (⟨S1x2048x1024, .f32⟩ : BufTy).Contents (Elt F) :=
  broadcastInDim S1x2048x1024 ![0, 1, 2] bcast_S1x2048x1_S1x2048x1024_0_1_2 (val_main_v81 (F := F) x0 x4)

abbrev idx_main_v82 (i : S1x2048x1024.Idx) : S1x2048x1.Idx := fun a => match a with
  | ⟨0, _⟩ => ⟨0, Nat.one_pos⟩
  | ⟨1, _⟩ => ⟨(i 1).val, (i 1).isLt⟩
  | ⟨2, _⟩ => ⟨0, Nat.one_pos⟩

theorem val_main_v82_apply (i : S1x2048x1024.Idx) :
    val_main_v82 (F := F) x0 x4 i = val_main_v81 (F := F) x0 x4 (idx_main_v82 i) := by
  unfold val_main_v82
  generalize val_main_v81 (F := F) x0 x4 = y
  exact broadcastInDim_apply _ bcast_S1x2048x1_S1x2048x1024_0_1_2 y i (idx_main_v82 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)]
    | ⟨2, _⟩ => by show 0 = if (1 : Nat) = 1 then 0 else (i 2).val; rw [if_pos rfl])

def val_main_v83 : (⟨S1x2048x1024, .f32⟩ : BufTy).Contents (Elt F) :=
  mulf (val_main_v71 (F := F) x0 x4) (val_main_v82 (F := F) x0 x4)

theorem val_main_v83_apply (i : S1x2048x1024.Idx) :
    val_main_v83 (F := F) x0 x4 i = FloatOps.mulf (val_main_v71 (F := F) x0 x4 i) (val_main_v82 (F := F) x0 x4 i) := rfl

def val_main_v84 : (⟨S1x1x1024, .f32⟩ : BufTy).Contents (Elt F) :=
  broadcastInDim S1x1x1024 ![2] bcast_S1024_S1x1x1024_2 (val_main_v73 (F := F) x5)

abbrev idx_main_v84 (i : S1x1x1024.Idx) : S1024.Idx := fun a => match a with
  | ⟨0, _⟩ => ⟨(i 2).val, (i 2).isLt⟩

theorem val_main_v84_apply (i : S1x1x1024.Idx) :
    val_main_v84 (F := F) x5 i = val_main_v73 (F := F) x5 (idx_main_v84 i) := by
  unfold val_main_v84
  generalize val_main_v73 (F := F) x5 = y
  exact broadcastInDim_apply _ bcast_S1024_S1x1x1024_2 y i (idx_main_v84 i) (fun a => match a with
    | ⟨0, _⟩ => by show (i 2).val = if (1024 : Nat) = 1 then 0 else (i 2).val; rw [if_neg (by decide)])

def val_main_v85 : (⟨S1x2048x1024, .f32⟩ : BufTy).Contents (Elt F) :=
  broadcastInDim S1x2048x1024 ![0, 1, 2] bcast_S1x1x1024_S1x2048x1024_0_1_2 (val_main_v84 (F := F) x5)

abbrev idx_main_v85 (i : S1x2048x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩

theorem val_main_v85_apply (i : S1x2048x1024.Idx) :
    val_main_v85 (F := F) x5 i = val_main_v84 (F := F) x5 (idx_main_v85 i) := by
  unfold val_main_v85
  generalize val_main_v84 (F := F) x5 = y
  exact broadcastInDim_apply _ bcast_S1x1x1024_S1x2048x1024_0_1_2 y i (idx_main_v85 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

def val_main_v86 : (⟨S1x2048x1024, .f32⟩ : BufTy).Contents (Elt F) :=
  mulf (val_main_v83 (F := F) x0 x4) (val_main_v85 (F := F) x5)

theorem val_main_v86_apply (i : S1x2048x1024.Idx) :
    val_main_v86 (F := F) x0 x4 x5 i = FloatOps.mulf (val_main_v83 (F := F) x0 x4 i) (val_main_v85 (F := F) x5 i) := rfl

def val_main_v87 : (⟨S1x50257x1024, .f32⟩ : BufTy).Contents (Elt F) :=
  extractStridedSlice S1x50257x1024 ![1, 0, 0] (x6) slices_S2x50257x1024_S1x50257x1024_1_0_0

abbrev idx_main_v87 (i : S1x50257x1024.Idx) : S2x50257x1024.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
  | ⟨2, _⟩ => ⟨(i 2).val, (i 2).isLt⟩

theorem val_main_v87_apply (i : S1x50257x1024.Idx) :
    val_main_v87 (F := F) x6 i = x6 (idx_main_v87 i) := by
  unfold val_main_v87
  exact extractStridedSlice_apply ![1, 0, 0] x6 slices_S2x50257x1024_S1x50257x1024_1_0_0 i (idx_main_v87 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v88 : (⟨S50257x1024, .f32⟩ : BufTy).Contents (Elt F) :=
  shapeCast _ (val_main_v87 (F := F) x6) shapeCasts_S1x50257x1024_S50257x1024

abbrev idx_main_v88 (i : S50257x1024.Idx) : S1x50257x1024.Idx := fun a => match a with
  | ⟨0, _⟩ => ⟨0, Nat.one_pos⟩
  | ⟨1, _⟩ => ⟨((i 0).val * 1024 + (i 1).val) / 1024 % 50257, by have h0 : (i 0).val < 50257 := (i 0).isLt; have h1 : (i 1).val < 1024 := (i 1).isLt; show ((i 0).val * 1024 + (i 1).val) / 1024 % 50257 < 50257; omega⟩
  | ⟨2, _⟩ => ⟨((i 0).val * 1024 + (i 1).val) % 1024, by have h0 : (i 0).val < 50257 := (i 0).isLt; have h1 : (i 1).val < 1024 := (i 1).isLt; show ((i 0).val * 1024 + (i 1).val) % 1024 < 1024; omega⟩

theorem val_main_v88_apply (i : S50257x1024.Idx) :
    val_main_v88 (F := F) x6 i = val_main_v87 (F := F) x6 (idx_main_v88 i) := by
  unfold val_main_v88
  generalize val_main_v87 (F := F) x6 = y
  exact shapeCast_apply y shapeCasts_S1x50257x1024_S50257x1024 i (idx_main_v88 i)
    (by rewrite [Shape.rowMajor_val_three, Shape.rowMajor_val_two]; have h0 : (i 0).val < 50257 := (i 0).isLt; have h1 : (i 1).val < 1024 := (i 1).isLt; show (0 * 50257 + ((i 0).val * 1024 + (i 1).val) / 1024 % 50257) * 1024 + ((i 0).val * 1024 + (i 1).val) % 1024 = (i 0).val * 1024 + (i 1).val; omega)

def val_main_v89 : (⟨S1x2048x50257, .f32⟩ : BufTy).Contents (Elt F) :=
  Host.dotGeneral dot_S1x2048x1024_S50257x1024_S1x2048x50257_2_1_01_0_n_n none (val_main_v86 (F := F) x0 x4 x5) (val_main_v88 (F := F) x6)

theorem lhs_main_v89_0 (i : S1x2048x50257.Idx) (q : dot_S1x2048x1024_S50257x1024_S1x2048x50257_2_1_01_0_n_n.contr.Idx) :
    (dot_S1x2048x1024_S50257x1024_S1x2048x50257_2_1_01_0_n_n.lhsIdx i q 0).val = (i 0).val := by
  unfold DotDims.lhsIdx
  rw [dif_neg (show ¬(0 : Fin S1x2048x1024.rank) ∈ dot_S1x2048x1024_S50257x1024_S1x2048x50257_2_1_01_0_n_n.lhsBatch by decide), dif_pos (show (0 : Fin S1x2048x1024.rank) ∈ dot_S1x2048x1024_S50257x1024_S1x2048x50257_2_1_01_0_n_n.lhsNonContracting by decide)]
  rfl

theorem lhs_main_v89_1 (i : S1x2048x50257.Idx) (q : dot_S1x2048x1024_S50257x1024_S1x2048x50257_2_1_01_0_n_n.contr.Idx) :
    (dot_S1x2048x1024_S50257x1024_S1x2048x50257_2_1_01_0_n_n.lhsIdx i q 1).val = (i 1).val := by
  unfold DotDims.lhsIdx
  rw [dif_neg (show ¬(1 : Fin S1x2048x1024.rank) ∈ dot_S1x2048x1024_S50257x1024_S1x2048x50257_2_1_01_0_n_n.lhsBatch by decide), dif_pos (show (1 : Fin S1x2048x1024.rank) ∈ dot_S1x2048x1024_S50257x1024_S1x2048x50257_2_1_01_0_n_n.lhsNonContracting by decide)]
  rfl

theorem lhs_main_v89_2 (i : S1x2048x50257.Idx) (q : dot_S1x2048x1024_S50257x1024_S1x2048x50257_2_1_01_0_n_n.contr.Idx) :
    (dot_S1x2048x1024_S50257x1024_S1x2048x50257_2_1_01_0_n_n.lhsIdx i q 2).val = (q ⟨0, by decide⟩).val :=
  dot_S1x2048x1024_S50257x1024_S1x2048x50257_2_1_01_0_n_n.lhsIdx_val_of_single rfl i q

theorem rhs_main_v89_0 (i : S1x2048x50257.Idx) (q : dot_S1x2048x1024_S50257x1024_S1x2048x50257_2_1_01_0_n_n.contr.Idx) :
    (dot_S1x2048x1024_S50257x1024_S1x2048x50257_2_1_01_0_n_n.rhsIdx i q 0).val = (i 2).val := by
  unfold DotDims.rhsIdx
  rw [dif_neg (show ¬(0 : Fin S50257x1024.rank) ∈ dot_S1x2048x1024_S50257x1024_S1x2048x50257_2_1_01_0_n_n.rhsBatch by decide), dif_pos (show (0 : Fin S50257x1024.rank) ∈ dot_S1x2048x1024_S50257x1024_S1x2048x50257_2_1_01_0_n_n.rhsNonContracting by decide)]
  rfl

theorem rhs_main_v89_1 (i : S1x2048x50257.Idx) (q : dot_S1x2048x1024_S50257x1024_S1x2048x50257_2_1_01_0_n_n.contr.Idx) :
    (dot_S1x2048x1024_S50257x1024_S1x2048x50257_2_1_01_0_n_n.rhsIdx i q 1).val = (q ⟨0, by decide⟩).val :=
  dot_S1x2048x1024_S50257x1024_S1x2048x50257_2_1_01_0_n_n.rhsIdx_val_of_single rfl i q

abbrev lidx_main_v89 (i : S1x2048x50257.Idx) (k : Fin 1024) : S1x2048x1024.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v89 (i : S1x2048x50257.Idx) (k : Fin 1024) : S50257x1024.Idx := fun a => match a with
  | ⟨0, _⟩ => ⟨(i 2).val, (i 2).isLt⟩
  | ⟨1, _⟩ => ⟨k.val, k.isLt⟩

theorem val_main_v89_apply (x0 : (⟨S1x2048x1024, .f32⟩ : BufTy).Contents (Elt Ideal)) (x4 : (⟨S2x1024x1024, .f32⟩ : BufTy).Contents (Elt Ideal)) (x5 : (⟨S2x1024, .f32⟩ : BufTy).Contents (Elt Ideal)) (x6 : (⟨S2x50257x1024, .f32⟩ : BufTy).Contents (Elt Ideal)) (i : S1x2048x50257.Idx) :
    val_main_v89 (F := Ideal) x0 x4 x5 x6 i = ∑ k : Fin 1024, (val_main_v86 (F := Ideal) x0 x4 x5) (lidx_main_v89 i k) * (val_main_v88 (F := Ideal) x6) (ridx_main_v89 i k) := by
  unfold val_main_v89
  generalize val_main_v86 (F := Ideal) x0 x4 x5 = y0
  generalize val_main_v88 (F := Ideal) x6 = y1
  simp only [Host.dotGeneral]
  rw [Ideal.dotGeneral_apply, ← Equiv.sum_comp (ValueIdx.contrEquiv1 dot_S1x2048x1024_S50257x1024_S1x2048x50257_2_1_01_0_n_n 1024 rfl rfl).symm]
  refine Finset.sum_congr rfl fun k _ => ?_
  have hk := ValueIdx.contrEquiv1_symm_val dot_S1x2048x1024_S50257x1024_S1x2048x50257_2_1_01_0_n_n 1024 rfl rfl k
  have el : dot_S1x2048x1024_S50257x1024_S1x2048x50257_2_1_01_0_n_n.lhsIdx i ((ValueIdx.contrEquiv1 dot_S1x2048x1024_S50257x1024_S1x2048x50257_2_1_01_0_n_n 1024 rfl rfl).symm k) = lidx_main_v89 i k := funext fun a => Fin.ext (by
    match a with
    | ⟨0, _⟩ => exact lhs_main_v89_0 _ _
    | ⟨1, _⟩ => exact lhs_main_v89_1 _ _
    | ⟨2, _⟩ => exact (lhs_main_v89_2 _ _).trans hk)
  have er : dot_S1x2048x1024_S50257x1024_S1x2048x50257_2_1_01_0_n_n.rhsIdx i ((ValueIdx.contrEquiv1 dot_S1x2048x1024_S50257x1024_S1x2048x50257_2_1_01_0_n_n 1024 rfl rfl).symm k) = ridx_main_v89 i k := funext fun a => Fin.ext (by
    match a with
    | ⟨0, _⟩ => exact rhs_main_v89_0 _ _
    | ⟨1, _⟩ => exact (rhs_main_v89_1 _ _).trans hk)
  rw [el, er]

def val_main_v90 : (⟨S1x2045x50257, .f32⟩ : BufTy).Contents (Elt F) :=
  extractStridedSlice S1x2045x50257 ![0, 0, 0] (val_main_v89 (F := F) x0 x4 x5 x6) slices_S1x2048x50257_S1x2045x50257_0_0_0

abbrev idx_main_v90 (i : S1x2045x50257.Idx) : S1x2048x50257.Idx := fun a => match a with
  | ⟨0, _⟩ => ⟨(i 0).val, (i 0).isLt⟩
  | ⟨1, _⟩ => ⟨(i 1).val, by have h1 : (i 1).val < 2045 := (i 1).isLt; show (i 1).val < 2048; omega⟩
  | ⟨2, _⟩ => ⟨(i 2).val, (i 2).isLt⟩

theorem val_main_v90_apply (i : S1x2045x50257.Idx) :
    val_main_v90 (F := F) x0 x4 x5 x6 i = val_main_v89 (F := F) x0 x4 x5 x6 (idx_main_v90 i) := by
  unfold val_main_v90
  generalize val_main_v89 (F := F) x0 x4 x5 x6 = y
  exact extractStridedSlice_apply ![0, 0, 0] y slices_S1x2048x50257_S1x2045x50257_0_0_0 i (idx_main_v90 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v91 : (⟨S1x2045, .i32⟩ : BufTy).Contents (Elt F) :=
  extractStridedSlice S1x2045 ![0, 3] (x1) slices_S1x2048_S1x2045_0_3

abbrev idx_main_v91 (i : S1x2045.Idx) : S1x2048.Idx := fun a => match a with
  | ⟨0, _⟩ => ⟨(i 0).val, (i 0).isLt⟩
  | ⟨1, _⟩ => ⟨3 + (i 1).val, by have h1 : (i 1).val < 2045 := (i 1).isLt; show 3 + (i 1).val < 2048; omega⟩

theorem val_main_v91_apply (i : S1x2045.Idx) :
    val_main_v91 (F := F) x1 i = x1 (idx_main_v91 i) := by
  unfold val_main_v91
  exact extractStridedSlice_apply ![0, 3] x1 slices_S1x2048_S1x2045_0_3 i (idx_main_v91 i) (fun a => match a with
    | ⟨0, _⟩ => by show (i 0).val = 0 + (i 0).val; omega
    | ⟨1, _⟩ => by show 3 + (i 1).val = 3 + (i 1).val; omega)

def val_main_call8_cst : (⟨S_, .f32⟩ : BufTy).Contents (Elt F) :=
  constant S_ .f32 0xFF800000#32

def val_main_call8_v0 : (⟨S1x2045, .f32⟩ : BufTy).Contents (Elt F) :=
  Host.reduce FloatOps.maximumf (val_main_v90 (F := F) x0 x4 x5 x6) (val_main_call8_cst (F := F)) reducesTo_S1x2045x50257_S1x2045_d2 h_S_

def val_main_call8_cst_0 : (⟨S_, .f32⟩ : BufTy).Contents (Elt F) :=
  constant S_ .f32 0xFF800000#32

def val_main_call8_v1 : (⟨S1x2045, .f32⟩ : BufTy).Contents (Elt F) :=
  broadcastInDim S1x2045 ![] bcast_S_S1x2045 (val_main_call8_cst_0 (F := F))

def val_main_call8_v2 : (⟨S1x2045, .f32⟩ : BufTy).Contents (Elt F) :=
  maximumf (val_main_call8_v1 (F := F)) (val_main_call8_v0 (F := F) x0 x4 x5 x6)

theorem val_main_call8_v2_apply (i : S1x2045.Idx) :
    val_main_call8_v2 (F := F) x0 x4 x5 x6 i = FloatOps.maximumf (val_main_call8_v1 (F := F) i) (val_main_call8_v0 (F := F) x0 x4 x5 x6 i) := rfl

def val_main_call8_v3 : (⟨S1x2045x1, .f32⟩ : BufTy).Contents (Elt F) :=
  broadcastInDim S1x2045x1 ![0, 1] bcast_S1x2045_S1x2045x1_0_1 (val_main_call8_v2 (F := F) x0 x4 x5 x6)

abbrev idx_main_call8_v3 (i : S1x2045x1.Idx) : S1x2045.Idx := fun a => match a with
  | ⟨0, _⟩ => ⟨0, Nat.one_pos⟩
  | ⟨1, _⟩ => ⟨(i 1).val, (i 1).isLt⟩

theorem val_main_call8_v3_apply (i : S1x2045x1.Idx) :
    val_main_call8_v3 (F := F) x0 x4 x5 x6 i = val_main_call8_v2 (F := F) x0 x4 x5 x6 (idx_main_call8_v3 i) := by
  unfold val_main_call8_v3
  generalize val_main_call8_v2 (F := F) x0 x4 x5 x6 = y
  exact broadcastInDim_apply _ bcast_S1x2045_S1x2045x1_0_1 y i (idx_main_call8_v3 i) (fun a => match a with
    | ⟨0, _⟩ => by show 0 = if (1 : Nat) = 1 then 0 else (i 0).val; rw [if_pos rfl]
    | ⟨1, _⟩ => by show (i 1).val = if (2045 : Nat) = 1 then 0 else (i 1).val; rw [if_neg (by decide)])

def val_main_call8_v4 : (⟨S1x2045x50257, .f32⟩ : BufTy).Contents (Elt F) :=
  broadcastInDim S1x2045x50257 ![0, 1, 2] bcast_S1x2045x1_S1x2045x50257_0_1_2 (val_main_call8_v3 (F := F) x0 x4 x5 x6)

abbrev idx_main_call8_v4 (i : S1x2045x50257.Idx) : S1x2045x1.Idx := fun a => match a with
  | ⟨0, _⟩ => ⟨0, Nat.one_pos⟩
  | ⟨1, _⟩ => ⟨(i 1).val, (i 1).isLt⟩
  | ⟨2, _⟩ => ⟨0, Nat.one_pos⟩

theorem val_main_call8_v4_apply (i : S1x2045x50257.Idx) :
    val_main_call8_v4 (F := F) x0 x4 x5 x6 i = val_main_call8_v3 (F := F) x0 x4 x5 x6 (idx_main_call8_v4 i) := by
  unfold val_main_call8_v4
  generalize val_main_call8_v3 (F := F) x0 x4 x5 x6 = y
  exact broadcastInDim_apply _ bcast_S1x2045x1_S1x2045x50257_0_1_2 y i (idx_main_call8_v4 i) (fun a => match a with
    | ⟨0, _⟩ => by show 0 = if (1 : Nat) = 1 then 0 else (i 0).val; rw [if_pos rfl]
    | ⟨1, _⟩ => by show (i 1).val = if (2045 : Nat) = 1 then 0 else (i 1).val; rw [if_neg (by decide)]
    | ⟨2, _⟩ => by show 0 = if (1 : Nat) = 1 then 0 else (i 2).val; rw [if_pos rfl])

def val_main_call8_v5 : (⟨S1x2045x50257, .f32⟩ : BufTy).Contents (Elt F) :=
  subf (val_main_v90 (F := F) x0 x4 x5 x6) (val_main_call8_v4 (F := F) x0 x4 x5 x6)

theorem val_main_call8_v5_apply (i : S1x2045x50257.Idx) :
    val_main_call8_v5 (F := F) x0 x4 x5 x6 i = FloatOps.subf (val_main_v90 (F := F) x0 x4 x5 x6 i) (val_main_call8_v4 (F := F) x0 x4 x5 x6 i) := rfl

def val_main_call8_v6 : (⟨S1x2045x50257, .f32⟩ : BufTy).Contents (Elt F) :=
  Host.exp (val_main_call8_v5 (F := F) x0 x4 x5 x6)

theorem val_main_call8_v6_apply (i : S1x2045x50257.Idx) :
    val_main_call8_v6 (F := F) x0 x4 x5 x6 i = FloatOps.hostUnary .exp (val_main_call8_v5 (F := F) x0 x4 x5 x6 i) := rfl

def val_main_call8_cst_1 : (⟨S_, .f32⟩ : BufTy).Contents (Elt F) :=
  constant S_ .f32 0x00000000#32

def val_main_call8_v7 : (⟨S1x2045, .f32⟩ : BufTy).Contents (Elt F) :=
  Host.reduceAdd (val_main_call8_v6 (F := F) x0 x4 x5 x6) (val_main_call8_cst_1 (F := F)) reducesTo_S1x2045x50257_S1x2045_d2 h_S_

abbrev idx_main_call8_v7 (i : S1x2045.Idx) (k : Fin 50257) : S1x2045x50257.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_call8_v7_apply (x0 : (⟨S1x2048x1024, .f32⟩ : BufTy).Contents (Elt Ideal)) (x4 : (⟨S2x1024x1024, .f32⟩ : BufTy).Contents (Elt Ideal)) (x5 : (⟨S2x1024, .f32⟩ : BufTy).Contents (Elt Ideal)) (x6 : (⟨S2x50257x1024, .f32⟩ : BufTy).Contents (Elt Ideal)) (i : S1x2045.Idx) :
    val_main_call8_v7 (F := Ideal) x0 x4 x5 x6 i = (val_main_call8_cst_1 (F := Ideal)) (Shape.Idx.first h_S_) + ∑ k : Fin 50257, (val_main_call8_v6 (F := Ideal) x0 x4 x5 x6) (idx_main_call8_v7 i k) := by
  unfold val_main_call8_v7
  generalize val_main_call8_v6 (F := Ideal) x0 x4 x5 x6 = y0
  simp only [Host.reduceAdd, Ideal.hostReduceAdd_def]
  rw [Ideal.hostReduceAdd_single reducesTo_S1x2045x50257_S1x2045_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_call8_v8 : (⟨S1x2045x1, .f32⟩ : BufTy).Contents (Elt F) :=
  broadcastInDim S1x2045x1 ![0, 1] bcast_S1x2045_S1x2045x1_0_1 (val_main_call8_v7 (F := F) x0 x4 x5 x6)

abbrev idx_main_call8_v8 (i : S1x2045x1.Idx) : S1x2045.Idx := fun a => match a with
  | ⟨0, _⟩ => ⟨0, Nat.one_pos⟩
  | ⟨1, _⟩ => ⟨(i 1).val, (i 1).isLt⟩

theorem val_main_call8_v8_apply (i : S1x2045x1.Idx) :
    val_main_call8_v8 (F := F) x0 x4 x5 x6 i = val_main_call8_v7 (F := F) x0 x4 x5 x6 (idx_main_call8_v8 i) := by
  unfold val_main_call8_v8
  generalize val_main_call8_v7 (F := F) x0 x4 x5 x6 = y
  exact broadcastInDim_apply _ bcast_S1x2045_S1x2045x1_0_1 y i (idx_main_call8_v8 i) (fun a => match a with
    | ⟨0, _⟩ => by show 0 = if (1 : Nat) = 1 then 0 else (i 0).val; rw [if_pos rfl]
    | ⟨1, _⟩ => by show (i 1).val = if (2045 : Nat) = 1 then 0 else (i 1).val; rw [if_neg (by decide)])

def val_main_call8_v9 : (⟨S1x2045x1, .f32⟩ : BufTy).Contents (Elt F) :=
  Host.log (val_main_call8_v8 (F := F) x0 x4 x5 x6)

theorem val_main_call8_v9_apply (i : S1x2045x1.Idx) :
    val_main_call8_v9 (F := F) x0 x4 x5 x6 i = FloatOps.hostUnary .log (val_main_call8_v8 (F := F) x0 x4 x5 x6 i) := rfl

def val_main_call8_v10 : (⟨S1x2045x50257, .f32⟩ : BufTy).Contents (Elt F) :=
  broadcastInDim S1x2045x50257 ![0, 1, 2] bcast_S1x2045x1_S1x2045x50257_0_1_2 (val_main_call8_v9 (F := F) x0 x4 x5 x6)

abbrev idx_main_call8_v10 (i : S1x2045x50257.Idx) : S1x2045x1.Idx := fun a => match a with
  | ⟨0, _⟩ => ⟨0, Nat.one_pos⟩
  | ⟨1, _⟩ => ⟨(i 1).val, (i 1).isLt⟩
  | ⟨2, _⟩ => ⟨0, Nat.one_pos⟩

theorem val_main_call8_v10_apply (i : S1x2045x50257.Idx) :
    val_main_call8_v10 (F := F) x0 x4 x5 x6 i = val_main_call8_v9 (F := F) x0 x4 x5 x6 (idx_main_call8_v10 i) := by
  unfold val_main_call8_v10
  generalize val_main_call8_v9 (F := F) x0 x4 x5 x6 = y
  exact broadcastInDim_apply _ bcast_S1x2045x1_S1x2045x50257_0_1_2 y i (idx_main_call8_v10 i) (fun a => match a with
    | ⟨0, _⟩ => by show 0 = if (1 : Nat) = 1 then 0 else (i 0).val; rw [if_pos rfl]
    | ⟨1, _⟩ => by show (i 1).val = if (2045 : Nat) = 1 then 0 else (i 1).val; rw [if_neg (by decide)]
    | ⟨2, _⟩ => by show 0 = if (1 : Nat) = 1 then 0 else (i 2).val; rw [if_pos rfl])

def val_main_v92 : (⟨S1x2045x50257, .f32⟩ : BufTy).Contents (Elt F) :=
  subf (val_main_call8_v5 (F := F) x0 x4 x5 x6) (val_main_call8_v10 (F := F) x0 x4 x5 x6)

theorem val_main_v92_apply (i : S1x2045x50257.Idx) :
    val_main_v92 (F := F) x0 x4 x5 x6 i = FloatOps.subf (val_main_call8_v5 (F := F) x0 x4 x5 x6 i) (val_main_call8_v10 (F := F) x0 x4 x5 x6 i) := rfl

def val_main_c_19 : (⟨S_, .i32⟩ : BufTy).Contents (Elt F) :=
  constantI S_ 32 4294967196#32

def val_main_v93 : (⟨S1x2045, .i32⟩ : BufTy).Contents (Elt F) :=
  broadcastInDim S1x2045 ![] bcast_S_S1x2045 (val_main_c_19 (F := F))

def val_main_v94 : (⟨S1x2045, .i1⟩ : BufTy).Contents (Elt F) :=
  cmpi .ne (val_main_v91 (F := F) x1) (val_main_v93 (F := F))

theorem val_main_v94_apply (i : S1x2045.Idx) :
    val_main_v94 (F := F) x1 i = IntOp.cmpi .ne (val_main_v91 (F := F) x1 i) (val_main_v93 (F := F) i) := rfl

def val_main_c_20 : (⟨S_, .i32⟩ : BufTy).Contents (Elt F) :=
  constantI S_ 32 0#32

def val_main_call9_v0 : (⟨S_, .i32⟩ : BufTy).Contents (Elt F) :=
  id (val_main_c_20 (F := F))

def val_main_call9_v1 : (⟨S1x2045, .i32⟩ : BufTy).Contents (Elt F) :=
  broadcastInDim S1x2045 ![] bcast_S_S1x2045 (val_main_call9_v0 (F := F))

def val_main_v95 : (⟨S1x2045, .i32⟩ : BufTy).Contents (Elt F) :=
  select (val_main_v94 (F := F) x1) (val_main_v91 (F := F) x1) (val_main_call9_v1 (F := F))

theorem val_main_v95_apply (i : S1x2045.Idx) :
    val_main_v95 (F := F) x1 i = Scalar.select (val_main_v94 (F := F) x1 i) (val_main_v91 (F := F) x1 i) (val_main_call9_v1 (F := F) i) := rfl

def val_main_v96 : (⟨S1x2045x1, .i32⟩ : BufTy).Contents (Elt F) :=
  broadcastInDim S1x2045x1 ![0, 1] bcast_S1x2045_S1x2045x1_0_1 (val_main_v95 (F := F) x1)

abbrev idx_main_v96 (i : S1x2045x1.Idx) : S1x2045.Idx := fun a => match a with
  | ⟨0, _⟩ => ⟨0, Nat.one_pos⟩
  | ⟨1, _⟩ => ⟨(i 1).val, (i 1).isLt⟩

theorem val_main_v96_apply (i : S1x2045x1.Idx) :
    val_main_v96 (F := F) x1 i = val_main_v95 (F := F) x1 (idx_main_v96 i) := by
  unfold val_main_v96
  generalize val_main_v95 (F := F) x1 = y
  exact broadcastInDim_apply _ bcast_S1x2045_S1x2045x1_0_1 y i (idx_main_v96 i) (fun a => match a with
    | ⟨0, _⟩ => by show 0 = if (1 : Nat) = 1 then 0 else (i 0).val; rw [if_pos rfl]
    | ⟨1, _⟩ => by show (i 1).val = if (2045 : Nat) = 1 then 0 else (i 1).val; rw [if_neg (by decide)])

def val_main_call10_c : (⟨S_, .i32⟩ : BufTy).Contents (Elt F) :=
  constantI S_ 32 0#32

def val_main_call10_v0 : (⟨S1x2045x1, .i32⟩ : BufTy).Contents (Elt F) :=
  broadcastInDim S1x2045x1 ![] bcast_S_S1x2045x1 (val_main_call10_c (F := F))

def val_main_call10_v1 : (⟨S1x2045x1, .i1⟩ : BufTy).Contents (Elt F) :=
  cmpi .slt (val_main_v96 (F := F) x1) (val_main_call10_v0 (F := F))

theorem val_main_call10_v1_apply (i : S1x2045x1.Idx) :
    val_main_call10_v1 (F := F) x1 i = IntOp.cmpi .slt (val_main_v96 (F := F) x1 i) (val_main_call10_v0 (F := F) i) := rfl

def val_main_call10_c_0 : (⟨S_, .i32⟩ : BufTy).Contents (Elt F) :=
  constantI S_ 32 50257#32

def val_main_call10_v2 : (⟨S1x2045x1, .i32⟩ : BufTy).Contents (Elt F) :=
  broadcastInDim S1x2045x1 ![] bcast_S_S1x2045x1 (val_main_call10_c_0 (F := F))

def val_main_call10_v3 : (⟨S1x2045x1, .i32⟩ : BufTy).Contents (Elt F) :=
  addi (val_main_v96 (F := F) x1) (val_main_call10_v2 (F := F))

theorem val_main_call10_v3_apply (i : S1x2045x1.Idx) :
    val_main_call10_v3 (F := F) x1 i = IntOp.addi (val_main_v96 (F := F) x1 i) (val_main_call10_v2 (F := F) i) := rfl

def val_main_call10_v4 : (⟨S1x2045x1, .i32⟩ : BufTy).Contents (Elt F) :=
  select (val_main_call10_v1 (F := F) x1) (val_main_call10_v3 (F := F) x1) (val_main_v96 (F := F) x1)

theorem val_main_call10_v4_apply (i : S1x2045x1.Idx) :
    val_main_call10_v4 (F := F) x1 i = Scalar.select (val_main_call10_v1 (F := F) x1 i) (val_main_call10_v3 (F := F) x1 i) (val_main_v96 (F := F) x1 i) := rfl

def val_main_call10_v5 : (⟨S2045x1x1, .i32⟩ : BufTy).Contents (Elt F) :=
  shapeCast _ (val_main_call10_v4 (F := F) x1) shapeCasts_S1x2045x1_S2045x1x1

abbrev idx_main_call10_v5 (i : S2045x1x1.Idx) : S1x2045x1.Idx := fun a => match a with
  | ⟨0, _⟩ => ⟨0, Nat.one_pos⟩
  | ⟨1, _⟩ => ⟨(((i 0).val * 1 + (i 1).val) * 1 + (i 2).val) / 1 % 2045, by have h0 : (i 0).val < 2045 := (i 0).isLt; have h1 : (i 1).val < 1 := (i 1).isLt; have h2 : (i 2).val < 1 := (i 2).isLt; show (((i 0).val * 1 + (i 1).val) * 1 + (i 2).val) / 1 % 2045 < 2045; omega⟩
  | ⟨2, _⟩ => ⟨0, Nat.one_pos⟩

theorem val_main_call10_v5_apply (i : S2045x1x1.Idx) :
    val_main_call10_v5 (F := F) x1 i = val_main_call10_v4 (F := F) x1 (idx_main_call10_v5 i) := by
  unfold val_main_call10_v5
  generalize val_main_call10_v4 (F := F) x1 = y
  exact shapeCast_apply y shapeCasts_S1x2045x1_S2045x1x1 i (idx_main_call10_v5 i)
    (by rewrite [Shape.rowMajor_val_three, Shape.rowMajor_val_three]; have h0 : (i 0).val < 2045 := (i 0).isLt; have h1 : (i 1).val < 1 := (i 1).isLt; have h2 : (i 2).val < 1 := (i 2).isLt; show (0 * 2045 + (((i 0).val * 1 + (i 1).val) * 1 + (i 2).val) / 1 % 2045) * 1 + 0 = ((i 0).val * 1 + (i 1).val) * 1 + (i 2).val; omega)

def val_main_call10_c_1 : (⟨S1, .i32⟩ : BufTy).Contents (Elt F) :=
  constantI S1 32 50256#32

def val_main_call10_c_2 : (⟨S_, .i32⟩ : BufTy).Contents (Elt F) :=
  constantI S_ 32 0#32

def val_main_call10_v6 : (⟨S2045x1x1, .i32⟩ : BufTy).Contents (Elt F) :=
  broadcastInDim S2045x1x1 ![] bcast_S_S2045x1x1 (val_main_call10_c_2 (F := F))

def val_main_call10_v7 : (⟨S2045x1x1, .i1⟩ : BufTy).Contents (Elt F) :=
  cmpi .sge (val_main_call10_v5 (F := F) x1) (val_main_call10_v6 (F := F))

def val_main_call10_v8 : (⟨S1x1x1, .i32⟩ : BufTy).Contents (Elt F) :=
  broadcastInDim S1x1x1 ![2] bcast_S1_S1x1x1_2 (val_main_call10_c_1 (F := F))

def val_main_call10_v9 : (⟨S2045x1x1, .i32⟩ : BufTy).Contents (Elt F) :=
  broadcastInDim S2045x1x1 ![0, 1, 2] bcast_S1x1x1_S2045x1x1_0_1_2 (val_main_call10_v8 (F := F))

def val_main_call10_v10 : (⟨S2045x1x1, .i1⟩ : BufTy).Contents (Elt F) :=
  cmpi .sle (val_main_call10_v5 (F := F) x1) (val_main_call10_v9 (F := F))

def val_main_call10_v11 : (⟨S2045x1x1, .i1⟩ : BufTy).Contents (Elt F) :=
  andi (val_main_call10_v7 (F := F) x1) (val_main_call10_v10 (F := F) x1)

def val_main_call10_c_3 : (⟨S_, .i1⟩ : BufTy).Contents (Elt F) :=
  constantI S_ 1 1#1

def val_main_call10_v12 : (⟨S2045x1, .i1⟩ : BufTy).Contents (Elt F) :=
  Host.reduce IntOp.andi (val_main_call10_v11 (F := F) x1) (val_main_call10_c_3 (F := F)) reducesTo_S2045x1x1_S2045x1_d2 h_S_

def val_main_call10_v13 : (⟨S1x2045x1, .f32⟩ : BufTy).Contents (Elt F) :=
  Host.gather gather_S1x2045x50257_S2045x1x1_S1x2045x1_0_2_1_0_2_2_111 (val_main_v92 (F := F) x0 x4 x5 x6) (val_main_call10_v5 (F := F) x1)

def val_main_call10_v14 : (⟨S1x2045x1, .i1⟩ : BufTy).Contents (Elt F) :=
  broadcastInDim S1x2045x1 ![1, 2] bcast_S2045x1_S1x2045x1_1_2 (val_main_call10_v12 (F := F) x1)

abbrev idx_main_call10_v14 (i : S1x2045x1.Idx) : S2045x1.Idx := fun a => match a with
  | ⟨0, _⟩ => ⟨(i 1).val, (i 1).isLt⟩
  | ⟨1, _⟩ => ⟨0, Nat.one_pos⟩

theorem val_main_call10_v14_apply (i : S1x2045x1.Idx) :
    val_main_call10_v14 (F := F) x1 i = val_main_call10_v12 (F := F) x1 (idx_main_call10_v14 i) := by
  unfold val_main_call10_v14
  generalize val_main_call10_v12 (F := F) x1 = y
  exact broadcastInDim_apply _ bcast_S2045x1_S1x2045x1_1_2 y i (idx_main_call10_v14 i) (fun a => match a with
    | ⟨0, _⟩ => by show (i 1).val = if (2045 : Nat) = 1 then 0 else (i 1).val; rw [if_neg (by decide)]
    | ⟨1, _⟩ => by show 0 = if (1 : Nat) = 1 then 0 else (i 2).val; rw [if_pos rfl])

def val_main_call10_cst : (⟨S_, .f32⟩ : BufTy).Contents (Elt F) :=
  constant S_ .f32 0x7FC00000#32

def val_main_call10_v15 : (⟨S1x2045x1, .f32⟩ : BufTy).Contents (Elt F) :=
  broadcastInDim S1x2045x1 ![] bcast_S_S1x2045x1 (val_main_call10_cst (F := F))

def val_main_v97 : (⟨S1x2045x1, .f32⟩ : BufTy).Contents (Elt F) :=
  select (val_main_call10_v14 (F := F) x1) (val_main_call10_v13 (F := F) x0 x1 x4 x5 x6) (val_main_call10_v15 (F := F))

theorem val_main_v97_apply (i : S1x2045x1.Idx) :
    val_main_v97 (F := F) x0 x1 x4 x5 x6 i = Scalar.select (val_main_call10_v14 (F := F) x1 i) (val_main_call10_v13 (F := F) x0 x1 x4 x5 x6 i) (val_main_call10_v15 (F := F) i) := rfl

def val_main_v98 : (⟨S1x2045, .f32⟩ : BufTy).Contents (Elt F) :=
  shapeCast _ (val_main_v97 (F := F) x0 x1 x4 x5 x6) shapeCasts_S1x2045x1_S1x2045

abbrev idx_main_v98 (i : S1x2045.Idx) : S1x2045x1.Idx := fun a => match a with
  | ⟨0, _⟩ => ⟨0, Nat.one_pos⟩
  | ⟨1, _⟩ => ⟨((i 0).val * 2045 + (i 1).val) / 1 % 2045, by have h0 : (i 0).val < 1 := (i 0).isLt; have h1 : (i 1).val < 2045 := (i 1).isLt; show ((i 0).val * 2045 + (i 1).val) / 1 % 2045 < 2045; omega⟩
  | ⟨2, _⟩ => ⟨0, Nat.one_pos⟩

theorem val_main_v98_apply (i : S1x2045.Idx) :
    val_main_v98 (F := F) x0 x1 x4 x5 x6 i = val_main_v97 (F := F) x0 x1 x4 x5 x6 (idx_main_v98 i) := by
  unfold val_main_v98
  generalize val_main_v97 (F := F) x0 x1 x4 x5 x6 = y
  exact shapeCast_apply y shapeCasts_S1x2045x1_S1x2045 i (idx_main_v98 i)
    (by rewrite [Shape.rowMajor_val_three, Shape.rowMajor_val_two]; have h0 : (i 0).val < 1 := (i 0).isLt; have h1 : (i 1).val < 2045 := (i 1).isLt; show (0 * 2045 + ((i 0).val * 2045 + (i 1).val) / 1 % 2045) * 1 + 0 = (i 0).val * 2045 + (i 1).val; omega)

def val_main_v99 : (⟨S1x2045, .f32⟩ : BufTy).Contents (Elt F) :=
  Host.negf (val_main_v98 (F := F) x0 x1 x4 x5 x6)

theorem val_main_v99_apply (i : S1x2045.Idx) :
    val_main_v99 (F := F) x0 x1 x4 x5 x6 i = FloatOps.hostNegf (val_main_v98 (F := F) x0 x1 x4 x5 x6 i) := rfl

def val_main_cst_21 : (⟨S_, .f32⟩ : BufTy).Contents (Elt F) :=
  constant S_ .f32 0x00000000#32

def val_main_call11_v0 : (⟨S_, .f32⟩ : BufTy).Contents (Elt F) :=
  id (val_main_cst_21 (F := F))

def val_main_call11_v1 : (⟨S1x2045, .f32⟩ : BufTy).Contents (Elt F) :=
  broadcastInDim S1x2045 ![] bcast_S_S1x2045 (val_main_call11_v0 (F := F))

def val_main_v100 : (⟨S1x2045, .f32⟩ : BufTy).Contents (Elt F) :=
  select (val_main_v94 (F := F) x1) (val_main_v99 (F := F) x0 x1 x4 x5 x6) (val_main_call11_v1 (F := F))

theorem val_main_v100_apply (i : S1x2045.Idx) :
    val_main_v100 (F := F) x0 x1 x4 x5 x6 i = Scalar.select (val_main_v94 (F := F) x1 i) (val_main_v99 (F := F) x0 x1 x4 x5 x6 i) (val_main_call11_v1 (F := F) i) := rfl

def val_main_cst_22 : (⟨S_, .f32⟩ : BufTy).Contents (Elt F) :=
  constant S_ .f32 0x00000000#32

def val_main_v101 : (⟨S_, .f32⟩ : BufTy).Contents (Elt F) :=
  Host.reduceAdd (val_main_v100 (F := F) x0 x1 x4 x5 x6) (val_main_cst_22 (F := F)) reducesTo_S1x2045_S_d0_1 h_S_

theorem val_main_v101_apply (x0 : (⟨S1x2048x1024, .f32⟩ : BufTy).Contents (Elt Ideal)) (x1 : (⟨S1x2048, .i32⟩ : BufTy).Contents (Elt Ideal)) (x4 : (⟨S2x1024x1024, .f32⟩ : BufTy).Contents (Elt Ideal)) (x5 : (⟨S2x1024, .f32⟩ : BufTy).Contents (Elt Ideal)) (x6 : (⟨S2x50257x1024, .f32⟩ : BufTy).Contents (Elt Ideal)) (i : S_.Idx) :
    val_main_v101 (F := Ideal) x0 x1 x4 x5 x6 i = (val_main_cst_22 (F := Ideal)) (Shape.Idx.first h_S_) + ∑ j : S1x2045.Idx, (val_main_v100 (F := Ideal) x0 x1 x4 x5 x6) j := by
  unfold val_main_v101
  generalize val_main_v100 (F := Ideal) x0 x1 x4 x5 x6 = y0
  simp only [Host.reduceAdd, Ideal.hostReduceAdd_def]
  exact Ideal.hostReduceAdd_total reducesTo_S1x2045_S_d0_1 (fun b => b.elim0) y0 _ i

def val_main_v102 : (⟨S1x2045, .i32⟩ : BufTy).Contents (Elt F) :=
  extui 32 (val_main_v94 (F := F) x1) natLt_1_32

def val_main_c_23 : (⟨S_, .i32⟩ : BufTy).Contents (Elt F) :=
  constantI S_ 32 0#32

def val_main_v103 : (⟨S_, .i32⟩ : BufTy).Contents (Elt F) :=
  Host.reduce IntOp.addi (val_main_v102 (F := F) x1) (val_main_c_23 (F := F)) reducesTo_S1x2045_S_d0_1 h_S_

def val_main_c_24 : (⟨S_, .i32⟩ : BufTy).Contents (Elt F) :=
  constantI S_ 32 1#32

def val_main_v104 : (⟨S_, .i32⟩ : BufTy).Contents (Elt F) :=
  maxsi (val_main_v103 (F := F) x1) (val_main_c_24 (F := F))

theorem val_main_v104_apply (i : S_.Idx) :
    val_main_v104 (F := F) x1 i = IntOp.maxsi (val_main_v103 (F := F) x1 i) (val_main_c_24 (F := F) i) := rfl

def val_main_v105 : (⟨S_, .f32⟩ : BufTy).Contents (Elt F) :=
  sitofp .f32 (val_main_v104 (F := F) x1)

theorem val_main_v105_apply (i : S_.Idx) :
    val_main_v105 (F := F) x1 i = FloatOps.sitofp .f32 (val_main_v104 (F := F) x1 i) := rfl

def val_main_v106 : (⟨S_, .f32⟩ : BufTy).Contents (Elt F) :=
  Host.divf (val_main_v101 (F := F) x0 x1 x4 x5 x6) (val_main_v105 (F := F) x1)

theorem val_main_v106_apply (i : S_.Idx) :
    val_main_v106 (F := F) x0 x1 x4 x5 x6 i = FloatOps.hostDivf (val_main_v101 (F := F) x0 x1 x4 x5 x6 i) (val_main_v105 (F := F) x1 i) := rfl

def val_main_cst_25 : (⟨S_, .f32⟩ : BufTy).Contents (Elt F) :=
  constant S_ .f32 0x00000000#32

def val_main_v107 : (⟨S_, .f32⟩ : BufTy).Contents (Elt F) :=
  addf (val_main_cst_25 (F := F)) (val_main_v68 (F := F) x0 x1 x4 x5 x6)

theorem val_main_v107_apply (i : S_.Idx) :
    val_main_v107 (F := F) x0 x1 x4 x5 x6 i = FloatOps.addf (val_main_cst_25 (F := F) i) (val_main_v68 (F := F) x0 x1 x4 x5 x6 i) := rfl

def val_main_v108 : (⟨S_, .f32⟩ : BufTy).Contents (Elt F) :=
  addf (val_main_v107 (F := F) x0 x1 x4 x5 x6) (val_main_v106 (F := F) x0 x1 x4 x5 x6)

theorem val_main_v108_apply (i : S_.Idx) :
    val_main_v108 (F := F) x0 x1 x4 x5 x6 i = FloatOps.addf (val_main_v107 (F := F) x0 x1 x4 x5 x6 i) (val_main_v106 (F := F) x0 x1 x4 x5 x6 i) := rfl

def val_main_cst_26 : (⟨S_, .f32⟩ : BufTy).Contents (Elt F) :=
  constant S_ .f32 0x40000000#32

def val_main_v109 : (⟨S_, .f32⟩ : BufTy).Contents (Elt F) :=
  Host.divf (val_main_v108 (F := F) x0 x1 x4 x5 x6) (val_main_cst_26 (F := F))

theorem val_main_v109_apply (i : S_.Idx) :
    val_main_v109 (F := F) x0 x1 x4 x5 x6 i = FloatOps.hostDivf (val_main_v108 (F := F) x0 x1 x4 x5 x6 i) (val_main_cst_26 (F := F) i) := rfl

def val_main_cst_27 : (⟨S_, .f32⟩ : BufTy).Contents (Elt F) :=
  constant S_ .f32 0x3E99999A#32

def val_main_v110 : (⟨S_, .f32⟩ : BufTy).Contents (Elt F) :=
  mulf (val_main_cst_27 (F := F)) (val_main_v109 (F := F) x0 x1 x4 x5 x6)

theorem val_main_v110_apply (i : S_.Idx) :
    val_main_v110 (F := F) x0 x1 x4 x5 x6 i = FloatOps.mulf (val_main_cst_27 (F := F) i) (val_main_v109 (F := F) x0 x1 x4 x5 x6 i) := rfl

def val_main_v111 : (⟨S_, .f32⟩ : BufTy).Contents (Elt F) :=
  addf (val_main_v30 (F := F) x0 x1 x2 x3) (val_main_v110 (F := F) x0 x1 x4 x5 x6)

theorem val_main_v111_apply (i : S_.Idx) :
    val_main_v111 (F := F) x0 x1 x2 x3 x4 x5 x6 i = FloatOps.addf (val_main_v30 (F := F) x0 x1 x2 x3 i) (val_main_v110 (F := F) x0 x1 x4 x5 x6 i) := rfl

end Cert.ReferenceIdeal.ReadP

end
-- ==== Proof.RefOps.lean ====
import Idealize.ShloMosaic.Lib.ValueIdx
import Idealize.ShloMosaic.Lib.IndicatorCount
import Idealize.ShloMosaic.PureOps.Ideal.Laws
import Idealize.ShloMosaic.PureOps.Reduce
import Idealize.ShloMosaic.PureOps.ShapeOps

noncomputable section

open Idealize.ShloMosaic Idealize.ShloMosaic.ValueIdx

namespace Cert.ReferenceIdeal.RefOps

theorem ext1 {n0 : ℕ} {i j : (⟨1, ![n0]⟩ : Shape).Idx} (h0 : (i 0).val = (j 0).val) : i = j :=
  funext fun a => Fin.ext (by match a with | ⟨0, _⟩ => exact h0)

theorem ext2 {n0 n1 : ℕ} {i j : (⟨2, ![n0, n1]⟩ : Shape).Idx} (h0 : (i 0).val = (j 0).val) (h1 : (i 1).val = (j 1).val) :
    i = j :=
  funext fun a => Fin.ext (by match a with | ⟨0, _⟩ => exact h0 | ⟨1, _⟩ => exact h1)

theorem ext3 {n0 n1 n2 : ℕ} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

theorem div_row {m : ℕ} (a : Fin m) (d : Fin 1024) : (a.val * 1024 + d.val) / 1024 % m = a.val := by
  have h : (a.val * 1024 + d.val) / 1024 = a.val := by have := d.isLt; omega
  rw [h, Nat.mod_eq_of_lt a.isLt]

theorem mod_col (a : ℕ) (d : Fin 1024) : (a * 1024 + d.val) % 1024 = d.val := by have := d.isLt; omega

theorem lift3 {a b m : ℕ} (h : (⟨3, ![a, b, m]⟩ : Shape).Reduces [2] (⟨2, ![a, b]⟩ : Shape))
    (j : (⟨2, ![a, b]⟩ : Shape).Idx) (k : Fin ((⟨3, ![a, b, m]⟩ : Shape).size 2)) :
    h.lift j k = ix3 (j 0) (j 1) (⟨k.val, k.isLt⟩ : Fin m) := by
  funext c; apply Fin.ext
  fin_cases c <;> rfl

theorem fold_max_eq_sup {ι : Type} [DecidableEq ι] (s : Finset ι) (f : ι → EReal) :
    s.fold (FloatOps.maximumf (F := Ideal) (φ := .f32)) (⊥ : EReal) f = s.sup f := by
  induction s using Finset.induction_on with
  | empty => rfl
  | insert a s ha ih =>
    rw [Finset.fold_insert ha, Finset.sup_insert, ih]
    rfl

theorem reduce_max_last {n : ℕ} {u : Shape} (x : FVec Ideal ⟨3, ![1, n, 50257]⟩ .f32) (init : FVec Ideal u .f32)
    (h' : (⟨3, ![1, n, 50257]⟩ : Shape).ReducesTo [2] (⟨2, ![1, n]⟩ : Shape))
    (h : (⟨3, ![1, n, 50257]⟩ : Shape).Reduces [2] (⟨2, ![1, n]⟩ : Shape)) (hu : 0 < u.numel)
    (hinit : init (Shape.Idx.first hu) = (⊥ : EReal)) (j : (⟨2, ![1, n]⟩ : Shape).Idx) :
    Host.reduce FloatOps.maximumf x init h' hu j = Finset.univ.sup fun v : Fin 50257 => x (ix3 (j 0) (j 1) v) := by
  rw [Host.reduce_eq_fold_single FloatOps.maximumf x init h' h hu, hinit]
  have hf : (x ∘ h.lift j) = fun k : Fin 50257 => x (ix3 (j 0) (j 1) k) := funext fun k => congrArg x (lift3 h j k)
  refine Eq.trans ?_ (fold_max_eq_sup (Finset.univ : Finset (Fin 50257)) fun v => x (ix3 (j 0) (j 1) v))
  exact congrArg (fun f => Finset.fold (FloatOps.maximumf (F := Ideal) (φ := .f32)) (⊥ : EReal) f (Finset.univ : Finset (Fin 50257))) hf

theorem andi_one (b : BitVec 1) : IntOp.andi b 1#1 = b := by revert b; decide

theorem reduce_and_unit {n : ℕ} {u : Shape} (x : IVec ⟨3, ![n, 1, 1]⟩ 1) (init : IVec u 1)
    (h' : (⟨3, ![n, 1, 1]⟩ : Shape).ReducesTo [2] (⟨2, ![n, 1]⟩ : Shape))
    (h : (⟨3, ![n, 1, 1]⟩ : Shape).Reduces [2] (⟨2, ![n, 1]⟩ : Shape)) (hu : 0 < u.numel)
    (hinit : init (Shape.Idx.first hu) = 1#1) (j : (⟨2, ![n, 1]⟩ : Shape).Idx) :
    Host.reduce IntOp.andi x init h' hu j = x (ix3 (j 0) (j 1) (0 : Fin 1)) := by
  rw [Host.reduce_eq_fold_single IntOp.andi x init h' h hu, hinit]
  have hf : (x ∘ h.lift j) = fun k : Fin 1 => x (ix3 (j 0) (j 1) k) := funext fun k => congrArg x (lift3 h j k)
  refine Eq.trans (congrArg (fun f => Finset.fold IntOp.andi 1#1 f (Finset.univ : Finset (Fin 1))) hf) ?_
  rw [Finset.univ_unique, Finset.fold_singleton]
  exact andi_one _

theorem reduce_addi_count {n : ℕ} {u : Shape} (b : IVec ⟨2, ![1, n]⟩ 1) (init : IVec u 32)
    (h' : (⟨2, ![1, n]⟩ : Shape).ReducesTo [0, 1] (⟨0, ![]⟩ : Shape)) (hu : 0 < u.numel)
    (hinit : init (Shape.Idx.first hu) = 0#32) (j : (⟨0, ![]⟩ : Shape).Idx) :
    Host.reduce IntOp.addi (fun i => (b i).setWidth 32) init h' hu j
      = BitVec.ofNat 32 (Finset.univ.filter fun i => b i = 1#1).card := by
  rw [Host.reduce_eq_fold IntOp.addi _ init h' hu j, hinit, Finset.filter_true_of_mem (fun i _ => funext fun a => a.elim0)]
  exact IndicatorCount.fold_addi_setWidth_eq_card b Finset.univ

abbrev alongDims (n : ℕ)
    (wf : GatherDims.WF ⟨3, ![1, n, 50257]⟩ ⟨3, ![n, 1, 1]⟩ ⟨3, ![1, n, 1]⟩ [0] [2] [1] [2] [0] 2 ![1, 1, 1]) :
    GatherDims ⟨3, ![1, n, 50257]⟩ ⟨3, ![n, 1, 1]⟩ ⟨3, ![1, n, 1]⟩ where
  offsetDims := [0]
  collapsedSliceDims := [2]
  operandBatchingDims := [1]
  startIndicesBatchingDims := [0]
  startIndexMap := [2]
  indexVectorDim := 2
  sliceSizes := ![1, 1, 1]
  wf := wf

theorem gather_along_row {α : Type} {n w : ℕ}
    (wf : GatherDims.WF ⟨3, ![1, n, 50257]⟩ ⟨3, ![n, 1, 1]⟩ ⟨3, ![1, n, 1]⟩ [0] [2] [1] [2] [0] 2 ![1, 1, 1])
    (x : (⟨3, ![1, n, 50257]⟩ : Shape).Idx → α) (idx : IVec ⟨3, ![n, 1, 1]⟩ w) (r : Fin n) (c : Fin 50257)
    (hc : min (idx (ix3 r (0 : Fin 1) (0 : Fin 1))).toInt.toNat (50257 - 1) = c.val) :
    Host.gather (alongDims n wf) x idx (ix3 (0 : Fin 1) r (0 : Fin 1)) = x (ix3 (0 : Fin 1) r c) := by
  generalize hy : ix3 (0 : Fin 1) r (0 : Fin 1) = y
  have hy1 : (y 1).val = r.val := by rw [← hy]; rfl
  have hy2 : (y 2).val = 0 := by rw [← hy]; rfl
  unfold Host.gather
  congr 1
  funext a
  refine Fin.ext ?_
  show (alongDims n wf).start y idx a + (alongDims n wf).batchCoord y a + (alongDims n wf).offCoord y a = _
  match a with
  | ⟨0, h0⟩ =>
    have h : (alongDims n wf).start y idx ⟨0, h0⟩ + (alongDims n wf).batchCoord y ⟨0, h0⟩ + (alongDims n wf).offCoord y ⟨0, h0⟩ < 1 :=
      (alongDims n wf).lt y idx ⟨0, h0⟩
    show _ = 0
    omega
  | ⟨1, h1⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨1, h1⟩ : Fin (⟨3, ![1, n, 50257]⟩ : Shape).rank) ∈ (alongDims n wf).operandBatchingDims from List.mem_singleton.mpr rfl)]
    exact hy1
  | ⟨2, h2⟩ =>
    rw [GatherDims.batchCoord_eq_zero _ _ _ (fun h => absurd (congrArg Fin.val (List.mem_singleton.mp h)) (by show ¬ (2 = 1); omega)),
      GatherDims.offCoord_eq_zero _ _ _ (fun h => ((GatherDims.mem_sKept _ _).mp h).1 (List.mem_singleton.mpr rfl))]
    simp only [Nat.add_zero]
    unfold GatherDims.start
    rw [dif_pos (show (⟨2, h2⟩ : Fin (⟨3, ![1, n, 50257]⟩ : Shape).rank) ∈ (alongDims n wf).startIndexMap from List.mem_singleton.mpr rfl)]
    have hsi : (alongDims n wf).siIdx y ⟨List.idxOf (⟨2, h2⟩ : Fin (⟨3, ![1, n, 50257]⟩ : Shape).rank) (alongDims n wf).startIndexMap,
        List.idxOf_lt_length_iff.2 (List.mem_singleton.mpr rfl)⟩ = ix3 r (0 : Fin 1) (0 : Fin 1) := ext3 hy1 hy2 rfl
    rw [hsi]
    exact hc

end Cert.ReferenceIdeal.RefOps

end
-- ==== Proof.RefMathA.lean ====
import proofs.«413414_j14594298871876_1_alg».proof.Proof.Spec
import Idealize.ShloMosaic.Lib.ValueIdx
import Idealize.ShloMosaic.Lib.Affine
import Idealize.ShloMosaic.PureOps.Ideal.Laws

noncomputable section

namespace Cert.ReferenceIdeal.RefMathA

open Idealize.ShloMosaic Idealize.ShloMosaic.ValueIdx Cert.LossSpec

def pick (t : BitVec 32) : BitVec 32 := Scalar.select (IntOp.cmpi .ne t 4294967196#32) t 0#32

def wrap (t : BitVec 32) : BitVec 32 :=
  Scalar.select (IntOp.cmpi .slt (pick t) 0#32) (IntOp.addi (pick t) 50257#32) (pick t)

def inRange (t : BitVec 32) : BitVec 1 :=
  IntOp.andi (IntOp.cmpi .sge (wrap t) 0#32) (IntOp.cmpi .sle (wrap t) 50256#32)

def col (t : BitVec 32) : Fin 50257 := ⟨min (wrap t).toInt.toNat (50257 - 1), by omega⟩

def lsm (z : Fin 50257 → EReal) (v : Fin 50257) : EReal :=
  (z v - Finset.univ.sup z)
    - Ideal.log (Ideal.ofBits .f32 0x00000000#32 + ∑ u : Fin 50257, Ideal.exp (z u - Finset.univ.sup z))

def rowRef (z : Fin 50257 → EReal) (t : BitVec 32) : EReal :=
  Scalar.select (IntOp.cmpi .ne t 4294967196#32)
    (-(Scalar.select (inRange t) (lsm z (col t)) (Ideal.ofBits .f32 0x7FC00000#32)))
    (Ideal.ofBits .f32 0x00000000#32)

theorem select_of_eq_one {α : Type} {c : BitVec 1} (a b : α) (h : c = 1#1) : Scalar.select c a b = a := if_pos h

theorem select_of_ne_one {α : Type} {c : BitVec 1} (a b : α) (h : ¬ c = 1#1) : Scalar.select c a b = b := if_neg h

-- A label below 50257 is its own column: not ignored, not negative, in range, unclamped.
theorem rowRef_eq (z : Fin 50257 → EReal) (t : BitVec 32) (htg : t = 4294967196#32 ∨ t.toNat < 50257) :
    rowRef z t = if t = 4294967196#32 then 0
      else Cert.OnlineSoftmax.closed z ⟨t.toNat % 50257, Nat.mod_lt _ (by norm_num)⟩ := by
  unfold rowRef
  by_cases ht : t = 4294967196#32
  · rw [if_pos ht, select_of_ne_one _ _ (by rw [IntOp.cmpi_ne]; exact not_not.mpr ht), Ideal.ofBits_zero_f32]
  · have hlt : t.toNat < 50257 := htg.resolve_left ht
    have hne : IntOp.cmpi .ne t 4294967196#32 = 1#1 := IntOp.cmpi_ne.2 ht
    have hint : t.toInt = (t.toNat : ℤ) := BitVec.toInt_eq_toNat_of_lt (by omega)
    have e0 : (0#32 : BitVec 32).toInt = 0 := by decide
    have e1 : (50256#32 : BitVec 32).toInt = 50256 := by decide
    have hwrap : wrap t = t := by
      unfold wrap pick
      rw [select_of_eq_one _ _ hne]
      exact select_of_ne_one _ _ (by rw [IntOp.cmpi_slt, hint, e0]; omega)
    have hin : inRange t = 1#1 := by
      unfold inRange
      rw [hwrap, IntOp.andi_eq_one, IntOp.cmpi_sge, IntOp.cmpi_sle, hint, e0, e1]
      constructor <;> omega
    have hcol : col t = ⟨t.toNat % 50257, Nat.mod_lt _ (by norm_num)⟩ := by
      unfold col
      apply Fin.ext
      show min (wrap t).toInt.toNat (50257 - 1) = t.toNat % 50257
      rw [hwrap, hint, Int.toNat_natCast, Nat.mod_eq_of_lt hlt]
      omega
    rw [if_neg ht, select_of_eq_one _ _ hne, select_of_eq_one _ _ hin, hcol]
    unfold lsm Cert.OnlineSoftmax.closed
    rw [Ideal.ofBits_zero_f32, zero_add]

def up {n : ℕ} (r : Fin n) (h : n ≤ 2048 := by omega) : Fin 2048 := ⟨r.val, lt_of_lt_of_le r.isLt h⟩

def ahead (k : ℕ) {n : ℕ} (r : Fin n) (h : n + k ≤ 2048 := by omega) : Fin 2048 :=
  ⟨k + r.val, by have := r.isLt; omega⟩

theorem toInt_ofNat_small (c : ℕ) (hc : c ≤ 2048) : (BitVec.ofNat 32 c).toInt = (c : ℤ) := by
  have h1 : (BitVec.ofNat 32 c).toNat = c := by
    rw [BitVec.toNat_ofNat]
    exact Nat.mod_eq_of_lt (by omega)
  rw [BitVec.toInt_eq_toNat_of_lt (by omega), h1]

theorem maxsi_one (c : ℕ) (hc : c ≤ 2048) : (IntOp.maxsi (BitVec.ofNat 32 c) 1#32).toInt = ((max c 1 : ℕ) : ℤ) := by
  unfold IntOp.maxsi
  have e1 : (1#32 : BitVec 32).toInt = 1 := by decide
  have ec := toInt_ofNat_small c hc
  have hiff : (1#32 : BitVec 32).slt (BitVec.ofNat 32 c) = true ↔ 1 < c := by
    rw [BitVec.slt_iff_toInt_lt, e1, ec]
    exact_mod_cast Iff.rfl
  by_cases h : 1 < c
  · rw [if_pos (hiff.2 h), ec, max_eq_left (by omega)]
  · rw [if_neg (fun hh => h (hiff.1 hh)), e1, max_eq_right (by omega)]
    rfl

section Head

variable {n k : ℕ} (hk : n + k = 2048) {Z : Fin 2048 → Fin 50257 → EReal} {tg : Fin 2048 → BitVec 32}
include hk

theorem tgtAt_up (r : Fin n) : tgtAt tg k (up r) = tg (ahead k r) := by
  unfold tgtAt
  rw [dif_pos (show (up r).val + k < 2048 by have := r.isLt; show r.val + k < 2048; omega)]
  exact congrArg tg (Fin.ext (Nat.add_comm _ _))

theorem valid_up (r : Fin n) : valid tg k (up r) ↔ ¬ tg (ahead k r) = 4294967196#32 := by
  unfold valid
  rw [tgtAt_up hk r]
  exact and_iff_right (by have := r.isLt; show r.val + k < 2048; omega)

theorem term_eq (htg : ∀ s : Fin 2048, tg s = 4294967196#32 ∨ (tg s).toNat < 50257) (r : Fin n) :
    rowRef (Z (up r)) (tg (ahead k r)) = if valid tg k (up r) then nllRow Z tg k (up r) else 0 := by
  rw [rowRef_eq _ _ (htg _)]
  by_cases hW : tg (ahead k r) = 4294967196#32
  · rw [if_pos hW, if_neg fun hv => (valid_up hk r).1 hv hW]
  · have hv : valid tg k (up r) := (valid_up hk r).2 hW
    rw [if_neg hW, if_pos hv]
    unfold nllRow
    refine congrArg (Cert.OnlineSoftmax.closed (Z (up r))) (Fin.ext ?_)
    show (tg (ahead k r)).toNat % 50257 = safe tg k (up r) % 50257
    unfold safe
    rw [if_pos hv, tgtAt_up hk r]

-- Rows past n contribute nothing, so a sum over the n rows is the sum over all 2048.
theorem sum_rows {M : Type*} [AddCommMonoid M] (F : (⟨2, ![1, n]⟩ : Shape).Idx → M) (G : Fin 2048 → M)
    (h0 : ∀ s : Fin 2048, n ≤ s.val → G s = 0) (h : ∀ r : Fin n, F (ix2 (0 : Fin 1) r) = G (up r)) :
    ∑ j, F j = ∑ s, G s := by
  rw [sum_idx2, Fin.sum_univ_one]
  exact Fintype.sum_of_injective (fun r : Fin n => up r) (fun a b hab => Fin.ext (Fin.mk.inj hab)) _ G
    (fun s hs => h0 s (not_lt.mp fun hlt => hs ⟨⟨s.val, hlt⟩, rfl⟩)) h

theorem not_valid (s : Fin 2048) (hs : n ≤ s.val) : ¬ valid tg k s := fun hv => by have := hv.1; omega

-- Row r of the head reads logits row r and the target k places ahead; the rows past n have no target.
theorem head_loss (htg : ∀ s : Fin 2048, tg s = 4294967196#32 ∨ (tg s).toNat < 50257)
    (row : (⟨2, ![1, n]⟩ : Shape).Idx → EReal) (ne : (⟨2, ![1, n]⟩ : Shape).Idx → BitVec 1)
    (hrow : ∀ r : Fin n, row (ix2 (0 : Fin 1) r) = rowRef (Z (up r)) (tg (ahead k r)))
    (hne : ∀ r : Fin n, ne (ix2 (0 : Fin 1) r) = IntOp.cmpi .ne (tg (ahead k r)) 4294967196#32)
    (cnt : BitVec 32) (hcnt : cnt = BitVec.ofNat 32 (Finset.univ.filter fun j => ne j = 1#1).card) :
    Ideal.div (Ideal.ofBits .f32 0x00000000#32 + ∑ j, row j) (FloatOps.sitofp (F := Ideal) .f32 (IntOp.maxsi cnt 1#32))
      = headLoss Z tg k := by
  have hc : (Finset.univ.filter (valid tg k)).card ≤ 2048 :=
    (Finset.card_le_univ _).trans (by rw [Fintype.card_fin])
  rw [hcnt, Ideal.ofBits_zero_f32, zero_add, Finset.card_filter,
    sum_rows hk row (fun s => if valid tg k s then nllRow Z tg k s else 0) (fun s hs => if_neg (not_valid hk s hs))
      fun r => (hrow r).trans (term_eq hk htg r),
    sum_rows hk (fun j => if ne j = 1#1 then 1 else 0) (fun s => if valid tg k s then 1 else 0)
      (fun s hs => if_neg (not_valid hk s hs))
      fun r => if_congr (by rw [hne r, IntOp.cmpi_ne]; exact (valid_up hk r).symm) rfl rfl,
    ← Finset.card_filter]
  show Ideal.div _ (((IntOp.maxsi (BitVec.ofNat 32 (Finset.univ.filter (valid tg k)).card) 1#32).toInt : ℝ) : EReal) = _
  rw [maxsi_one _ hc, Int.cast_natCast]
  rfl

end Head

end Cert.ReferenceIdeal.RefMathA

end
-- ==== Proof.RefValueCore.lean ====
import proofs.«413414_j14594298871876_1_alg».proof.Proof.RefReadS
import proofs.«413414_j14594298871876_1_alg».proof.Proof.RefOps
import proofs.«413414_j14594298871876_1_alg».proof.Proof.RefMathA
import proofs.«413414_j14594298871876_1_alg».proof.Proof.SpecArrays

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP Cert.ReferenceIdeal.RefOps Cert.ReferenceIdeal.RefMathA Cert.LossSpec

theorem ofBits_neg_inf : Ideal.ofBits .f32 0xFF800000#32 = (⊥ : EReal) := by simp [Ideal.ofBits, Ideal.ieee]

section Stages

variable (x0 : (⟨S1x2048x1024, .f32⟩ : BufTy).Contents (Elt Ideal)) (x1 : (⟨S1x2048, .i32⟩ : BufTy).Contents (Elt Ideal)) (x2 : (⟨S50257x1024, .f32⟩ : BufTy).Contents (Elt Ideal))
  (x3 : (⟨S1024, .f32⟩ : BufTy).Contents (Elt Ideal)) (x4 : (⟨S2x1024x1024, .f32⟩ : BufTy).Contents (Elt Ideal)) (x5 : (⟨S2x1024, .f32⟩ : BufTy).Contents (Elt Ideal)) (x6 : (⟨S2x50257x1024, .f32⟩ : BufTy).Contents (Elt Ideal))

abbrev argsOf : Args := Args.ofArrays x0 x1 x2 x3 x4 x5 x6

abbrev T (s : Fin 2048) : BitVec 32 := x1 (ix2 0 s)

abbrev L0 (s : Fin 2048) (v : Fin 50257) : EReal := val_main_v13 x0 x2 x3 (ix3 0 s v)

abbrev L1 (s : Fin 2048) (v : Fin 50257) : EReal := val_main_v51 x0 x4 x5 x6 (ix3 0 s v)

abbrev L2 (s : Fin 2048) (v : Fin 50257) : EReal := val_main_v89 x0 x4 x5 x6 (ix3 0 s v)

theorem q0_sum (s : Fin 2048) :
    val_main_v1 x0 (ix2 0 s) = Ideal.ofBits .f32 0x00000000#32
      + ∑ e : Fin 1024, x0 (ix3 0 s e) * x0 (ix3 0 s e) := by
  rw [val_main_v1_apply]
  refine congrArg (_ + ·) (Finset.sum_congr rfl fun e _ => ?_)
  have ee : idx_main_v1 (ix2 0 s) e = ix3 0 s e := ext3 rfl rfl rfl
  rw [val_main_v0_apply, ee]
  rfl

theorem z0_eq : L0 x0 x2 x3 = Z0 (argsOf x0 x1 x2 x3 x4 x5 x6) := funext fun s => funext fun v => by
  show val_main_v13 x0 x2 x3 (ix3 0 s v) = _
  rw [val_main_v13_apply]
  unfold Z0 logit
  refine Finset.sum_congr rfl fun d _ => ?_
  have el : lidx_main_v13 (ix3 0 s v) d = ix3 0 s d := ext3 rfl rfl rfl
  have er : ridx_main_v13 (ix3 0 s v) d = ix2 v d := ext2 rfl rfl
  have e1 : idx_main_v8 (ix3 0 s d) = ix3 0 s 0 := ext3 rfl rfl rfl
  have e2 : idx_main_v10 (idx_main_v11 (ix3 0 s d)) = ix1 d := ext1 rfl
  have e : idx_main_v2 (ix3 0 s 0) = ix2 0 s := ext2 rfl rfl
  rw [el, er, val_main_v12_apply, val_main_v9_apply, val_main_v8_apply, e1, val_main_v7_apply, val_main_v6_apply,
    val_main_v4_apply, val_main_v2_apply, e, q0_sum x0, val_main_v11_apply, val_main_v10_apply, e2, Ideal.ofBits_zero_f32, zero_add]
  rfl

theorem p1_proj (s : Fin 2048) (e : Fin 1024) :
    val_main_v33 x0 x4 (ix3 0 s e) = ∑ d : Fin 1024, x0 (ix3 0 s d) * x4 (ix3 (0 : Fin 2) e d) := by
  rw [val_main_v33_apply]
  refine Finset.sum_congr rfl fun d _ => ?_
  have el : lidx_main_v33 (ix3 0 s e) d = ix3 0 s d := ext3 rfl rfl rfl
  have er : idx_main_v31 (idx_main_v32 (ridx_main_v33 (ix3 0 s e) d)) = ix3 (0 : Fin 2) e d :=
    ext3 rfl (div_row e d) (mod_col e.val d)
  rw [el, val_main_v32_apply, val_main_v31_apply, er]

theorem p1_gain (d : Fin 1024) : val_main_v35 x5 (ix1 d) = x5 (ix2 (0 : Fin 2) d) := by
  rw [val_main_v35_apply, val_main_v34_apply]
  exact congrArg x5 (ext2 rfl (by have hd := d.isLt; show d.val % 1024 = d.val; omega))

theorem p1_W (v : Fin 50257) (d : Fin 1024) : val_main_v50 x6 (ix2 v d) = x6 (ix3 (0 : Fin 2) v d) := by
  rw [val_main_v50_apply, val_main_v49_apply]
  exact congrArg x6 (ext3 rfl (div_row v d) (mod_col v.val d))

theorem q1_sum (s : Fin 2048) :
    val_main_v37 x0 x4 (ix2 0 s) = Ideal.ofBits .f32 0x00000000#32
      + ∑ e : Fin 1024, val_main_v33 x0 x4 (ix3 0 s e) * val_main_v33 x0 x4 (ix3 0 s e) := by
  rw [val_main_v37_apply]
  refine congrArg (_ + ·) (Finset.sum_congr rfl fun e _ => ?_)
  have ee : idx_main_v37 (ix2 0 s) e = ix3 0 s e := ext3 rfl rfl rfl
  rw [val_main_v36_apply, ee]
  rfl

theorem z1_eq : L1 x0 x4 x5 x6 = Za (argsOf x0 x1 x2 x3 x4 x5 x6) 0 := funext fun s => funext fun v => by
  show val_main_v51 x0 x4 x5 x6 (ix3 0 s v) = _
  rw [val_main_v51_apply]
  unfold Za logit
  refine Finset.sum_congr rfl fun d _ => ?_
  have el : lidx_main_v51 (ix3 0 s v) d = ix3 0 s d := ext3 rfl rfl rfl
  have er : ridx_main_v51 (ix3 0 s v) d = ix2 v d := ext2 rfl rfl
  have e1 : idx_main_v44 (ix3 0 s d) = ix3 0 s 0 := ext3 rfl rfl rfl
  have e2 : idx_main_v46 (idx_main_v47 (ix3 0 s d)) = ix1 d := ext1 rfl
  have e : idx_main_v38 (ix3 0 s 0) = ix2 0 s := ext2 rfl rfl
  rw [el, er, val_main_v48_apply, val_main_v45_apply, val_main_v44_apply, e1, val_main_v43_apply, val_main_v42_apply,
    val_main_v40_apply, val_main_v38_apply, e, q1_sum x0 x4, val_main_v47_apply, val_main_v46_apply, e2, p1_gain x5, p1_W x6, Ideal.ofBits_zero_f32, zero_add]
  simp only [p1_proj x0 x4]
  rfl

theorem p2_proj (s : Fin 2048) (e : Fin 1024) :
    val_main_v71 x0 x4 (ix3 0 s e) = ∑ d : Fin 1024, x0 (ix3 0 s d) * x4 (ix3 (1 : Fin 2) e d) := by
  rw [val_main_v71_apply]
  refine Finset.sum_congr rfl fun d _ => ?_
  have el : lidx_main_v71 (ix3 0 s e) d = ix3 0 s d := ext3 rfl rfl rfl
  have er : idx_main_v69 (idx_main_v70 (ridx_main_v71 (ix3 0 s e) d)) = ix3 (1 : Fin 2) e d :=
    ext3 rfl (div_row e d) (mod_col e.val d)
  rw [el, val_main_v70_apply, val_main_v69_apply, er]

theorem p2_gain (d : Fin 1024) : val_main_v73 x5 (ix1 d) = x5 (ix2 (1 : Fin 2) d) := by
  rw [val_main_v73_apply, val_main_v72_apply]
  exact congrArg x5 (ext2 rfl (by have hd := d.isLt; show d.val % 1024 = d.val; omega))

theorem p2_W (v : Fin 50257) (d : Fin 1024) : val_main_v88 x6 (ix2 v d) = x6 (ix3 (1 : Fin 2) v d) := by
  rw [val_main_v88_apply, val_main_v87_apply]
  exact congrArg x6 (ext3 rfl (div_row v d) (mod_col v.val d))

theorem q2_sum (s : Fin 2048) :
    val_main_v75 x0 x4 (ix2 0 s) = Ideal.ofBits .f32 0x00000000#32
      + ∑ e : Fin 1024, val_main_v71 x0 x4 (ix3 0 s e) * val_main_v71 x0 x4 (ix3 0 s e) := by
  rw [val_main_v75_apply]
  refine congrArg (_ + ·) (Finset.sum_congr rfl fun e _ => ?_)
  have ee : idx_main_v75 (ix2 0 s) e = ix3 0 s e := ext3 rfl rfl rfl
  rw [val_main_v74_apply, ee]
  rfl

theorem z2_eq : L2 x0 x4 x5 x6 = Za (argsOf x0 x1 x2 x3 x4 x5 x6) 1 := funext fun s => funext fun v => by
  show val_main_v89 x0 x4 x5 x6 (ix3 0 s v) = _
  rw [val_main_v89_apply]
  unfold Za logit
  refine Finset.sum_congr rfl fun d _ => ?_
  have el : lidx_main_v89 (ix3 0 s v) d = ix3 0 s d := ext3 rfl rfl rfl
  have er : ridx_main_v89 (ix3 0 s v) d = ix2 v d := ext2 rfl rfl
  have e1 : idx_main_v82 (ix3 0 s d) = ix3 0 s 0 := ext3 rfl rfl rfl
  have e2 : idx_main_v84 (idx_main_v85 (ix3 0 s d)) = ix1 d := ext1 rfl
  have e : idx_main_v76 (ix3 0 s 0) = ix2 0 s := ext2 rfl rfl
  rw [el, er, val_main_v86_apply, val_main_v83_apply, val_main_v82_apply, e1, val_main_v81_apply, val_main_v80_apply,
    val_main_v78_apply, val_main_v76_apply, e, q2_sum x0 x4, val_main_v85_apply, val_main_v84_apply, e2, p2_gain x5, p2_W x6, Ideal.ofBits_zero_f32, zero_add]
  simp only [p2_proj x0 x4]
  rfl

theorem h0_sl (r : Fin 2047) (v : Fin 50257) :
    val_main_v14 x0 x2 x3 (ix3 0 r v) = L0 x0 x2 x3 (up r) v := by
  rw [val_main_v14_apply]
  exact congrArg (val_main_v13 x0 x2 x3) (ext3 rfl rfl rfl)

theorem h0_ts (r : Fin 2047) : val_main_v15 x1 (ix2 0 r) = T x1 (ahead 1 r) := by
  rw [val_main_v15_apply]
  exact congrArg x1 (ext2 rfl rfl)

theorem h0_ne (r : Fin 2047) :
    val_main_v18 x1 (ix2 0 r) = IntOp.cmpi .ne (T x1 (ahead 1 r)) 4294967196#32 := by
  rw [val_main_v18_apply, h0_ts x1]
  rfl

theorem h0_t5 (r : Fin 2047) :
    val_main_call2_v5 x1 (ix3 r 0 0) = wrap (T x1 (ahead 1 r)) := by
  have e5 : idx_main_call2_v5 (ix3 r 0 0) = ix3 0 r 0 :=
    ext3 rfl (by have hr := r.isLt; show ((r.val * 1 + 0) * 1 + 0) / 1 % 2047 = r.val; omega) rfl
  have e20 : idx_main_v20 (ix3 0 r 0) = ix2 0 r := ext2 rfl rfl
  rw [val_main_call2_v5_apply, e5, val_main_call2_v4_apply, val_main_call2_v1_apply, val_main_call2_v3_apply,
    val_main_v20_apply, e20, val_main_v19_apply, h0_ne x1, h0_ts x1]
  rfl

theorem h0_t14 (r : Fin 2047) :
    val_main_call2_v14 x1 (ix3 0 r 0) = inRange (T x1 (ahead 1 r)) := by
  rw [val_main_call2_v14_apply]
  unfold val_main_call2_v12
  exact (reduce_and_unit _ _ _ (by decide) h_S_ rfl _).trans (by unfold inRange; rw [← h0_t5 x1 r]; rfl)

theorem h0_m5 (r : Fin 2047) (v : Fin 50257) :
    val_main_call0_v5 x0 x2 x3 (ix3 0 r v)
      = L0 x0 x2 x3 (up r) v - Finset.univ.sup (L0 x0 x2 x3 (up r)) := by
  have e : idx_main_call0_v3 (idx_main_call0_v4 (ix3 0 r v)) = ix2 0 r := ext2 rfl rfl
  rw [val_main_call0_v5_apply, h0_sl x0 x2 x3, val_main_call0_v4_apply, val_main_call0_v3_apply, e, val_main_call0_v2_apply]
  exact congrArg (L0 x0 x2 x3 (up r) v - ·) ((max_eq_right (le_of_eq_of_le ofBits_neg_inf bot_le)).trans
    ((reduce_max_last _ _ _ (by decide) h_S_ ofBits_neg_inf _).trans (congrArg Finset.univ.sup (funext fun u => h0_sl x0 x2 x3 r u))))

theorem h0_ls (r : Fin 2047) (v : Fin 50257) :
    val_main_v16 x0 x2 x3 (ix3 0 r v) = lsm (L0 x0 x2 x3 (up r)) v := by
  have e : idx_main_call0_v8 (idx_main_call0_v10 (ix3 0 r v)) = ix2 0 r := ext2 rfl rfl
  have e7 (u : Fin 50257) : idx_main_call0_v7 (ix2 0 r) u = ix3 0 r u := ext3 rfl rfl rfl
  rw [val_main_v16_apply, h0_m5 x0 x2 x3, val_main_call0_v10_apply, val_main_call0_v9_apply, val_main_call0_v8_apply, e,
    val_main_call0_v7_apply]
  simp only [val_main_call0_v6_apply, e7, h0_m5 x0 x2 x3, lsm, Ideal.subf_def, Ideal.hostUnary_log_def, Ideal.hostUnary_exp_def]
  rfl

theorem h0_row (r : Fin 2047) :
    val_main_v24 x0 x1 x2 x3 (ix2 0 r) = rowRef (L0 x0 x2 x3 (up r)) (T x1 (ahead 1 r)) := by
  have h13 : val_main_call2_v13 x0 x1 x2 x3 (ix3 0 r 0)
      = lsm (L0 x0 x2 x3 (up r)) (col (T x1 (ahead 1 r))) := by
    unfold val_main_call2_v13
    exact (gather_along_row _ _ _ r _ (by rw [h0_t5 x1]; rfl)).trans (h0_ls x0 x2 x3 r _)
  have e : idx_main_v22 (ix2 0 r) = ix3 0 r 0 :=
    ext3 rfl (by have hr := r.isLt; show (0 * 2047 + r.val) / 1 % 2047 = r.val; omega) rfl
  rw [val_main_v24_apply, h0_ne x1, val_main_v23_apply, val_main_v22_apply, e, val_main_v21_apply, h0_t14 x1, h13]
  rfl

theorem h0_loss (htg : ∀ s : Fin 2048, T x1 s = 4294967196#32 ∨ (T x1 s).toNat < 50257) :
    val_main_v30 x0 x1 x2 x3 ix0 = headLoss (L0 x0 x2 x3) (T x1) 1 := by
  rw [val_main_v30_apply, val_main_v29_apply, val_main_v28_apply, val_main_v25_apply]
  exact head_loss (show 2047 + 1 = 2048 from rfl) htg _ _ (h0_row x0 x1 x2 x3) (h0_ne x1) _ (reduce_addi_count _ _ _ h_S_ rfl ix0)

theorem h1_sl (r : Fin 2046) (v : Fin 50257) :
    val_main_v52 x0 x4 x5 x6 (ix3 0 r v) = L1 x0 x4 x5 x6 (up r) v := by
  rw [val_main_v52_apply]
  exact congrArg (val_main_v51 x0 x4 x5 x6) (ext3 rfl rfl rfl)

theorem h1_ts (r : Fin 2046) : val_main_v53 x1 (ix2 0 r) = T x1 (ahead 2 r) := by
  rw [val_main_v53_apply]
  exact congrArg x1 (ext2 rfl rfl)

theorem h1_ne (r : Fin 2046) :
    val_main_v56 x1 (ix2 0 r) = IntOp.cmpi .ne (T x1 (ahead 2 r)) 4294967196#32 := by
  rw [val_main_v56_apply, h1_ts x1]
  rfl

theorem h1_t5 (r : Fin 2046) :
    val_main_call6_v5 x1 (ix3 r 0 0) = wrap (T x1 (ahead 2 r)) := by
  have e5 : idx_main_call6_v5 (ix3 r 0 0) = ix3 0 r 0 :=
    ext3 rfl (by have hr := r.isLt; show ((r.val * 1 + 0) * 1 + 0) / 1 % 2046 = r.val; omega) rfl
  have e20 : idx_main_v58 (ix3 0 r 0) = ix2 0 r := ext2 rfl rfl
  rw [val_main_call6_v5_apply, e5, val_main_call6_v4_apply, val_main_call6_v1_apply, val_main_call6_v3_apply,
    val_main_v58_apply, e20, val_main_v57_apply, h1_ne x1, h1_ts x1]
  rfl

theorem h1_t14 (r : Fin 2046) :
    val_main_call6_v14 x1 (ix3 0 r 0) = inRange (T x1 (ahead 2 r)) := by
  rw [val_main_call6_v14_apply]
  unfold val_main_call6_v12
  exact (reduce_and_unit _ _ _ (by decide) h_S_ rfl _).trans (by unfold inRange; rw [← h1_t5 x1 r]; rfl)

theorem h1_m5 (r : Fin 2046) (v : Fin 50257) :
    val_main_call4_v5 x0 x4 x5 x6 (ix3 0 r v)
      = L1 x0 x4 x5 x6 (up r) v - Finset.univ.sup (L1 x0 x4 x5 x6 (up r)) := by
  have e : idx_main_call4_v3 (idx_main_call4_v4 (ix3 0 r v)) = ix2 0 r := ext2 rfl rfl
  rw [val_main_call4_v5_apply, h1_sl x0 x4 x5 x6, val_main_call4_v4_apply, val_main_call4_v3_apply, e, val_main_call4_v2_apply]
  exact congrArg (L1 x0 x4 x5 x6 (up r) v - ·) ((max_eq_right (le_of_eq_of_le ofBits_neg_inf bot_le)).trans
    ((reduce_max_last _ _ _ (by decide) h_S_ ofBits_neg_inf _).trans (congrArg Finset.univ.sup (funext fun u => h1_sl x0 x4 x5 x6 r u))))

theorem h1_ls (r : Fin 2046) (v : Fin 50257) :
    val_main_v54 x0 x4 x5 x6 (ix3 0 r v) = lsm (L1 x0 x4 x5 x6 (up r)) v := by
  have e : idx_main_call4_v8 (idx_main_call4_v10 (ix3 0 r v)) = ix2 0 r := ext2 rfl rfl
  have e7 (u : Fin 50257) : idx_main_call4_v7 (ix2 0 r) u = ix3 0 r u := ext3 rfl rfl rfl
  rw [val_main_v54_apply, h1_m5 x0 x4 x5 x6, val_main_call4_v10_apply, val_main_call4_v9_apply, val_main_call4_v8_apply, e,
    val_main_call4_v7_apply]
  simp only [val_main_call4_v6_apply, e7, h1_m5 x0 x4 x5 x6, lsm, Ideal.subf_def, Ideal.hostUnary_log_def, Ideal.hostUnary_exp_def]
  rfl

theorem h1_row (r : Fin 2046) :
    val_main_v62 x0 x1 x4 x5 x6 (ix2 0 r) = rowRef (L1 x0 x4 x5 x6 (up r)) (T x1 (ahead 2 r)) := by
  have h13 : val_main_call6_v13 x0 x1 x4 x5 x6 (ix3 0 r 0)
      = lsm (L1 x0 x4 x5 x6 (up r)) (col (T x1 (ahead 2 r))) := by
    unfold val_main_call6_v13
    exact (gather_along_row _ _ _ r _ (by rw [h1_t5 x1]; rfl)).trans (h1_ls x0 x4 x5 x6 r _)
  have e : idx_main_v60 (ix2 0 r) = ix3 0 r 0 :=
    ext3 rfl (by have hr := r.isLt; show (0 * 2046 + r.val) / 1 % 2046 = r.val; omega) rfl
  rw [val_main_v62_apply, h1_ne x1, val_main_v61_apply, val_main_v60_apply, e, val_main_v59_apply, h1_t14 x1, h13]
  rfl

theorem h1_loss (htg : ∀ s : Fin 2048, T x1 s = 4294967196#32 ∨ (T x1 s).toNat < 50257) :
    val_main_v68 x0 x1 x4 x5 x6 ix0 = headLoss (L1 x0 x4 x5 x6) (T x1) 2 := by
  rw [val_main_v68_apply, val_main_v67_apply, val_main_v66_apply, val_main_v63_apply]
  exact head_loss (show 2046 + 2 = 2048 from rfl) htg _ _ (h1_row x0 x1 x4 x5 x6) (h1_ne x1) _ (reduce_addi_count _ _ _ h_S_ rfl ix0)

theorem h2_sl (r : Fin 2045) (v : Fin 50257) :
    val_main_v90 x0 x4 x5 x6 (ix3 0 r v) = L2 x0 x4 x5 x6 (up r) v := by
  rw [val_main_v90_apply]
  exact congrArg (val_main_v89 x0 x4 x5 x6) (ext3 rfl rfl rfl)

theorem h2_ts (r : Fin 2045) : val_main_v91 x1 (ix2 0 r) = T x1 (ahead 3 r) := by
  rw [val_main_v91_apply]
  exact congrArg x1 (ext2 rfl rfl)

theorem h2_ne (r : Fin 2045) :
    val_main_v94 x1 (ix2 0 r) = IntOp.cmpi .ne (T x1 (ahead 3 r)) 4294967196#32 := by
  rw [val_main_v94_apply, h2_ts x1]
  rfl

theorem h2_t5 (r : Fin 2045) :
    val_main_call10_v5 x1 (ix3 r 0 0) = wrap (T x1 (ahead 3 r)) := by
  have e5 : idx_main_call10_v5 (ix3 r 0 0) = ix3 0 r 0 :=
    ext3 rfl (by have hr := r.isLt; show ((r.val * 1 + 0) * 1 + 0) / 1 % 2045 = r.val; omega) rfl
  have e20 : idx_main_v96 (ix3 0 r 0) = ix2 0 r := ext2 rfl rfl
  rw [val_main_call10_v5_apply, e5, val_main_call10_v4_apply, val_main_call10_v1_apply, val_main_call10_v3_apply,
    val_main_v96_apply, e20, val_main_v95_apply, h2_ne x1, h2_ts x1]
  rfl

theorem h2_t14 (r : Fin 2045) :
    val_main_call10_v14 x1 (ix3 0 r 0) = inRange (T x1 (ahead 3 r)) := by
  rw [val_main_call10_v14_apply]
  unfold val_main_call10_v12
  exact (reduce_and_unit _ _ _ (by decide) h_S_ rfl _).trans (by unfold inRange; rw [← h2_t5 x1 r]; rfl)

theorem h2_m5 (r : Fin 2045) (v : Fin 50257) :
    val_main_call8_v5 x0 x4 x5 x6 (ix3 0 r v)
      = L2 x0 x4 x5 x6 (up r) v - Finset.univ.sup (L2 x0 x4 x5 x6 (up r)) := by
  have e : idx_main_call8_v3 (idx_main_call8_v4 (ix3 0 r v)) = ix2 0 r := ext2 rfl rfl
  rw [val_main_call8_v5_apply, h2_sl x0 x4 x5 x6, val_main_call8_v4_apply, val_main_call8_v3_apply, e, val_main_call8_v2_apply]
  exact congrArg (L2 x0 x4 x5 x6 (up r) v - ·) ((max_eq_right (le_of_eq_of_le ofBits_neg_inf bot_le)).trans
    ((reduce_max_last _ _ _ (by decide) h_S_ ofBits_neg_inf _).trans (congrArg Finset.univ.sup (funext fun u => h2_sl x0 x4 x5 x6 r u))))

theorem h2_ls (r : Fin 2045) (v : Fin 50257) :
    val_main_v92 x0 x4 x5 x6 (ix3 0 r v) = lsm (L2 x0 x4 x5 x6 (up r)) v := by
  have e : idx_main_call8_v8 (idx_main_call8_v10 (ix3 0 r v)) = ix2 0 r := ext2 rfl rfl
  have e7 (u : Fin 50257) : idx_main_call8_v7 (ix2 0 r) u = ix3 0 r u := ext3 rfl rfl rfl
  rw [val_main_v92_apply, h2_m5 x0 x4 x5 x6, val_main_call8_v10_apply, val_main_call8_v9_apply, val_main_call8_v8_apply, e,
    val_main_call8_v7_apply]
  simp only [val_main_call8_v6_apply, e7, h2_m5 x0 x4 x5 x6, lsm, Ideal.subf_def, Ideal.hostUnary_log_def, Ideal.hostUnary_exp_def]
  rfl

theorem h2_row (r : Fin 2045) :
    val_main_v100 x0 x1 x4 x5 x6 (ix2 0 r) = rowRef (L2 x0 x4 x5 x6 (up r)) (T x1 (ahead 3 r)) := by
  have h13 : val_main_call10_v13 x0 x1 x4 x5 x6 (ix3 0 r 0)
      = lsm (L2 x0 x4 x5 x6 (up r)) (col (T x1 (ahead 3 r))) := by
    unfold val_main_call10_v13
    exact (gather_along_row _ _ _ r _ (by rw [h2_t5 x1]; rfl)).trans (h2_ls x0 x4 x5 x6 r _)
  have e : idx_main_v98 (ix2 0 r) = ix3 0 r 0 :=
    ext3 rfl (by have hr := r.isLt; show (0 * 2045 + r.val) / 1 % 2045 = r.val; omega) rfl
  rw [val_main_v100_apply, h2_ne x1, val_main_v99_apply, val_main_v98_apply, e, val_main_v97_apply, h2_t14 x1, h13]
  rfl

theorem h2_loss (htg : ∀ s : Fin 2048, T x1 s = 4294967196#32 ∨ (T x1 s).toNat < 50257) :
    val_main_v106 x0 x1 x4 x5 x6 ix0 = headLoss (L2 x0 x4 x5 x6) (T x1) 3 := by
  rw [val_main_v106_apply, val_main_v105_apply, val_main_v104_apply, val_main_v101_apply]
  exact head_loss (show 2045 + 3 = 2048 from rfl) htg _ _ (h2_row x0 x1 x4 x5 x6) (h2_ne x1) _ (reduce_addi_count _ _ _ h_S_ rfl ix0)

theorem logits_arr : val_main_v13 x0 x2 x3 = logitsArr (argsOf x0 x1 x2 x3 x4 x5 x6) :=
  funext fun i => (congrArg (val_main_v13 x0 x2 x3) (ext3 (i := i) (j := ix3 0 (i 1) (i 2))
    (by have h0 : (i 0).val < 1 := (i 0).isLt; show (i 0).val = 0; omega) rfl rfl)).trans (congrFun (congrFun (z0_eq x0 x1 x2 x3 x4 x5 x6) _) _)

-- The three heads' losses are the specification's, and so is their combination.
theorem loss_eq (htg : ∀ s : Fin 2048, T x1 s = 4294967196#32 ∨ (T x1 s).toNat < 50257) :
    val_main_v111 x0 x1 x2 x3 x4 x5 x6 ix0 = loss (argsOf x0 x1 x2 x3 x4 x5 x6) := by
  rw [val_main_v111_apply, val_main_v110_apply, val_main_v109_apply, val_main_v108_apply, val_main_v107_apply, h0_loss x0 x1 x2 x3 htg, h1_loss x0 x1 x4 x5 x6 htg,
    h2_loss x0 x1 x4 x5 x6 htg, z0_eq x0 x1 x2 x3 x4 x5 x6, z1_eq x0 x1 x2 x3 x4 x5 x6, z2_eq x0 x1 x2 x3 x4 x5 x6]
  rfl

theorem loss_arr (htg : ∀ s : Fin 2048, T x1 s = 4294967196#32 ∨ (T x1 s).toNat < 50257) :
    val_main_v111 x0 x1 x2 x3 x4 x5 x6 = lossArr (argsOf x0 x1 x2 x3 x4 x5 x6) :=
  funext fun i => (congrArg (val_main_v111 x0 x1 x2 x3 x4 x5 x6) (eq_ix0 i)).trans (loss_eq x0 x1 x2 x3 x4 x5 x6 htg)

end Stages

section Memory

variable (m' : (ℓ : Loc nD τ sig) → Buf (Elt Ideal) ℓ) (c : Dev nD)

abbrev argsAt : Cert.LossSpec.Args :=
  Cert.LossSpec.Args.ofArrays (m' ((c.tc : Thread nD τ).loc main_arg0)) (m' ((c.tc : Thread nD τ).loc main_arg1))
    (m' ((c.tc : Thread nD τ).loc main_arg2)) (m' ((c.tc : Thread nD τ).loc main_arg3)) (m' ((c.tc : Thread nD τ).loc main_arg4))
    (m' ((c.tc : Thread nD τ).loc main_arg5)) (m' ((c.tc : Thread nD τ).loc main_arg6))

theorem ref_logits_array :
    val_main_v13 (F := Ideal) (m' ((c.tc : Thread nD τ).loc main_arg0)) (m' ((c.tc : Thread nD τ).loc main_arg2))
      (m' ((c.tc : Thread nD τ).loc main_arg3))
      = Cert.LossSpec.logitsArr (argsAt m' c) :=
  logits_arr _ _ _ _ _ _ _

theorem ref_loss_stage_array (htg : ∀ s : Fin 2048, (argsAt m' c).tg s = 4294967196#32 ∨ ((argsAt m' c).tg s).toNat < 50257) :
    val_main_v111 (F := Ideal) (m' ((c.tc : Thread nD τ).loc main_arg0)) (m' ((c.tc : Thread nD τ).loc main_arg1)) (m' ((c.tc : Thread nD τ).loc main_arg2)) (m' ((c.tc : Thread nD τ).loc main_arg3))
      (m' ((c.tc : Thread nD τ).loc main_arg4)) (m' ((c.tc : Thread nD τ).loc main_arg5)) (m' ((c.tc : Thread nD τ).loc main_arg6)) = Cert.LossSpec.lossArr (argsAt m' c) :=
  loss_arr _ _ _ _ _ _ _ htg

end Memory

end Cert.ReferenceIdeal.RefValue

end
-- ==== Proof.RefRunP.lean ====
import proofs.«413414_j14594298871876_1_alg».proof.Proof.Gen.ReferenceIdeal
import proofs.«413414_j14594298871876_1_alg».proof.Proof.RefReadS
import Idealize.ShloMosaic.Lib.StableHlo.Run
import Idealize.ShloMosaic.Lib.Tactic

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ binary main_arg0 main_arg0 main_v0 (mulf : (⟨S1x2048x1024, .f32⟩ : BufTy).Contents (Elt F) → (⟨S1x2048x1024, .f32⟩ : BufTy).Contents (Elt F) → (⟨S1x2048x1024, .f32⟩ : BufTy).Contents (Elt F)),
    nullary main_cst (constant S_ .f32 0x00000000#32),
    binary main_v0 main_cst main_v1 ((fun x v => Host.reduceAdd x v reducesTo_S1x2048x1024_S1x2048_d2 h_S_) : (⟨S1x2048x1024, .f32⟩ : BufTy).Contents (Elt F) → (⟨S_, .f32⟩ : BufTy).Contents (Elt F) → (⟨S1x2048, .f32⟩ : BufTy).Contents (Elt F)),
    unary main_v1 main_v2 (broadcastInDim S1x2048x1 ![0, 1] bcast_S1x2048_S1x2048x1_0_1 : (⟨S1x2048, .f32⟩ : BufTy).Contents (Elt F) → (⟨S1x2048x1, .f32⟩ : BufTy).Contents (Elt F)),
    nullary main_cst_0 (constant S_ .f32 0x44800000#32),
    unary main_cst_0 main_v3 (broadcastInDim S1x2048x1 ![] bcast_S_S1x2048x1 : (⟨S_, .f32⟩ : BufTy).Contents (Elt F) → (⟨S1x2048x1, .f32⟩ : BufTy).Contents (Elt F)),
    binary main_v2 main_v3 main_v4 (Host.divf : (⟨S1x2048x1, .f32⟩ : BufTy).Contents (Elt F) → (⟨S1x2048x1, .f32⟩ : BufTy).Contents (Elt F) → (⟨S1x2048x1, .f32⟩ : BufTy).Contents (Elt F)),
    nullary main_cst_1 (constant S_ .f32 0x3727C5AC#32),
    unary main_cst_1 main_v5 (broadcastInDim S1x2048x1 ![] bcast_S_S1x2048x1 : (⟨S_, .f32⟩ : BufTy).Contents (Elt F) → (⟨S1x2048x1, .f32⟩ : BufTy).Contents (Elt F)),
    binary main_v4 main_v5 main_v6 (addf : (⟨S1x2048x1, .f32⟩ : BufTy).Contents (Elt F) → (⟨S1x2048x1, .f32⟩ : BufTy).Contents (Elt F) → (⟨S1x2048x1, .f32⟩ : BufTy).Contents (Elt F)),
    unary main_v6 main_v7 (Host.rsqrt : (⟨S1x2048x1, .f32⟩ : BufTy).Contents (Elt F) → (⟨S1x2048x1, .f32⟩ : BufTy).Contents (Elt F)),
    unary main_v7 main_v8 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_arg0 main_v8 main_v9 (mulf : (⟨S1x2048x1024, .f32⟩ : BufTy).Contents (Elt F) → (⟨S1x2048x1024, .f32⟩ : BufTy).Contents (Elt F) → (⟨S1x2048x1024, .f32⟩ : BufTy).Contents (Elt F)),
    unary main_arg3 main_v10 (broadcastInDim S1x1x1024 ![2] bcast_S1024_S1x1x1024_2 : (⟨S1024, .f32⟩ : BufTy).Contents (Elt F) → (⟨S1x1x1024, .f32⟩ : BufTy).Contents (Elt F)),
    unary main_v10 main_v11 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v9 main_v11 main_v12 (mulf : (⟨S1x2048x1024, .f32⟩ : BufTy).Contents (Elt F) → (⟨S1x2048x1024, .f32⟩ : BufTy).Contents (Elt F) → (⟨S1x2048x1024, .f32⟩ : BufTy).Contents (Elt F)),
    binary main_v12 main_arg2 main_v13 ((fun l r => Host.dotGeneral dot_S1x2048x1024_S50257x1024_S1x2048x50257_2_1_01_0_n_n none l r) : (⟨S1x2048x1024, .f32⟩ : BufTy).Contents (Elt F) → (⟨S50257x1024, .f32⟩ : BufTy).Contents (Elt F) → (⟨S1x2048x50257, .f32⟩ : BufTy).Contents (Elt F)),
    unary main_v13 main_v14 ((extractStridedSlice S1x2047x50257 ![0, 0, 0] · slices_S1x2048x50257_S1x2047x50257_0_0_0) : (⟨S1x2048x50257, .f32⟩ : BufTy).Contents (Elt F) → (⟨S1x2047x50257, .f32⟩ : BufTy).Contents (Elt F)),
    unary main_arg1 main_v15 ((extractStridedSlice S1x2047 ![0, 1] · slices_S1x2048_S1x2047_0_1) : (⟨S1x2048, .i32⟩ : BufTy).Contents (Elt F) → (⟨S1x2047, .i32⟩ : BufTy).Contents (Elt F)),
    TRef.nullary (TRef.of (T := ⟨S_, .f32⟩) main_call0_cst) (constant S_ .f32 0xFF800000#32),
    TRef.binary (TRef.of (T := ⟨S1x2047x50257, .f32⟩) main_v14) (TRef.of (T := ⟨S_, .f32⟩) main_call0_cst) (TRef.of (T := ⟨S1x2047, .f32⟩) main_call0_v0) (fun x v => Host.reduce FloatOps.maximumf x v reducesTo_S1x2047x50257_S1x2047_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S1x2047, .f32⟩) main_call0_v1) (broadcastInDim S1x2047 ![] bcast_S_S1x2047),
    TRef.binary (TRef.of (T := ⟨S1x2047, .f32⟩) main_call0_v1) (TRef.of (T := ⟨S1x2047, .f32⟩) main_call0_v0) (TRef.of (T := ⟨S1x2047, .f32⟩) main_call0_v2) maximumf,
    TRef.unary (TRef.of (T := ⟨S1x2047, .f32⟩) main_call0_v2) (TRef.of (T := ⟨S1x2047x1, .f32⟩) main_call0_v3) (broadcastInDim S1x2047x1 ![0, 1] bcast_S1x2047_S1x2047x1_0_1),
    TRef.unary (TRef.of (T := ⟨S1x2047x1, .f32⟩) main_call0_v3) (TRef.of (T := ⟨S1x2047x50257, .f32⟩) main_call0_v4) (broadcastInDim S1x2047x50257 ![0, 1, 2] bcast_S1x2047x1_S1x2047x50257_0_1_2),
    TRef.binary (TRef.of (T := ⟨S1x2047x50257, .f32⟩) main_v14) (TRef.of (T := ⟨S1x2047x50257, .f32⟩) main_call0_v4) (TRef.of (T := ⟨S1x2047x50257, .f32⟩) main_call0_v5) subf,
    TRef.unary (TRef.of (T := ⟨S1x2047x50257, .f32⟩) main_call0_v5) (TRef.of (T := ⟨S1x2047x50257, .f32⟩) main_call0_v6) Host.exp,
    TRef.nullary (TRef.of (T := ⟨S_, .f32⟩) main_call0_cst_1) (constant S_ .f32 0x00000000#32),
    TRef.binary (TRef.of (T := ⟨S1x2047x50257, .f32⟩) main_call0_v6) (TRef.of (T := ⟨S_, .f32⟩) main_call0_cst_1) (TRef.of (T := ⟨S1x2047, .f32⟩) main_call0_v7) (fun x v => Host.reduceAdd x v reducesTo_S1x2047x50257_S1x2047_d2 h_S_),
    TRef.unary (TRef.of (T := ⟨S1x2047, .f32⟩) main_call0_v7) (TRef.of (T := ⟨S1x2047x1, .f32⟩) main_call0_v8) (broadcastInDim S1x2047x1 ![0, 1] bcast_S1x2047_S1x2047x1_0_1),
    TRef.unary (TRef.of (T := ⟨S1x2047x1, .f32⟩) main_call0_v8) (TRef.of (T := ⟨S1x2047x1, .f32⟩) main_call0_v9) Host.log,
    TRef.unary (TRef.of (T := ⟨S1x2047x1, .f32⟩) main_call0_v9) (TRef.of (T := ⟨S1x2047x50257, .f32⟩) main_call0_v10) (broadcastInDim S1x2047x50257 ![0, 1, 2] bcast_S1x2047x1_S1x2047x50257_0_1_2),
    TRef.binary (TRef.of (T := ⟨S1x2047x50257, .f32⟩) main_call0_v5) (TRef.of (T := ⟨S1x2047x50257, .f32⟩) main_call0_v10) (TRef.of (T := ⟨S1x2047x50257, .f32⟩) main_v16) subf,
    nullary main_c (constantI S_ 32 4294967196#32),
    unary main_c main_v17 (broadcastInDim S1x2047 ![] bcast_S_S1x2047 : (⟨S_, .i32⟩ : BufTy).Contents (Elt F) → (⟨S1x2047, .i32⟩ : BufTy).Contents (Elt F)),
    binary main_v15 main_v17 main_v18 (cmpi .ne : (⟨S1x2047, .i32⟩ : BufTy).Contents (Elt F) → (⟨S1x2047, .i32⟩ : BufTy).Contents (Elt F) → (⟨S1x2047, .i1⟩ : BufTy).Contents (Elt F)),
    nullary main_c_2 (constantI S_ 32 0#32),
    TRef.unary (TRef.of (T := ⟨S_, .i32⟩) main_c_2) (TRef.of (T := ⟨S_, .i32⟩) main_call1_v0) id,
    TRef.unary (TRef.of (T := ⟨S_, .i32⟩) main_call1_v0) (TRef.of (T := ⟨S1x2047, .i32⟩) main_call1_v1) (broadcastInDim S1x2047 ![] bcast_S_S1x2047),
    TRef.ternary (TRef.of (T := ⟨S1x2047, .i1⟩) main_v18) (TRef.of (T := ⟨S1x2047, .i32⟩) main_v15) (TRef.of (T := ⟨S1x2047, .i32⟩) main_call1_v1) (TRef.of (T := ⟨S1x2047, .i32⟩) main_v19) select,
    unary main_v19 main_v20 (broadcastInDim S1x2047x1 ![0, 1] bcast_S1x2047_S1x2047x1_0_1 : (⟨S1x2047, .i32⟩ : BufTy).Contents (Elt F) → (⟨S1x2047x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1x2047x1, .i32⟩) main_call2_v0) (broadcastInDim S1x2047x1 ![] bcast_S_S1x2047x1),
    TRef.binary (TRef.of (T := ⟨S1x2047x1, .i32⟩) main_v20) (TRef.of (T := ⟨S1x2047x1, .i32⟩) main_call2_v0) (TRef.of (T := ⟨S1x2047x1, .i1⟩) main_call2_v1) (cmpi .slt),
    TRef.nullary (TRef.of (T := ⟨S_, .i32⟩) main_call2_c_0) (constantI S_ 32 50257#32),
    TRef.unary (TRef.of (T := ⟨S_, .i32⟩) main_call2_c_0) (TRef.of (T := ⟨S1x2047x1, .i32⟩) main_call2_v2) (broadcastInDim S1x2047x1 ![] bcast_S_S1x2047x1),
    TRef.binary (TRef.of (T := ⟨S1x2047x1, .i32⟩) main_v20) (TRef.of (T := ⟨S1x2047x1, .i32⟩) main_call2_v2) (TRef.of (T := ⟨S1x2047x1, .i32⟩) main_call2_v3) addi,
    TRef.ternary (TRef.of (T := ⟨S1x2047x1, .i1⟩) main_call2_v1) (TRef.of (T := ⟨S1x2047x1, .i32⟩) main_call2_v3) (TRef.of (T := ⟨S1x2047x1, .i32⟩) main_v20) (TRef.of (T := ⟨S1x2047x1, .i32⟩) main_call2_v4) select,
    TRef.reshape (TRef.of (T := ⟨S1x2047x1, .i32⟩) main_call2_v4) (TRef.of (T := ⟨S2047x1x1, .i32⟩) main_call2_v5) rfl shapeCasts_S1x2047x1_S2047x1x1,
    TRef.nullary (TRef.of (T := ⟨S1, .i32⟩) main_call2_c_1) (constantI S1 32 50256#32),
    TRef.nullary (TRef.of (T := ⟨S_, .i32⟩) main_call2_c_2) (constantI S_ 32 0#32),
    TRef.unary (TRef.of (T := ⟨S_, .i32⟩) main_call2_c_2) (TRef.of (T := ⟨S2047x1x1, .i32⟩) main_call2_v6) (broadcastInDim S2047x1x1 ![] bcast_S_S2047x1x1),
    TRef.binary (TRef.of (T := ⟨S2047x1x1, .i32⟩) main_call2_v5) (TRef.of (T := ⟨S2047x1x1, .i32⟩) main_call2_v6) (TRef.of (T := ⟨S2047x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S2047x1x1, .i32⟩) main_call2_v9) (broadcastInDim S2047x1x1 ![0, 1, 2] bcast_S1x1x1_S2047x1x1_0_1_2),
    TRef.binary (TRef.of (T := ⟨S2047x1x1, .i32⟩) main_call2_v5) (TRef.of (T := ⟨S2047x1x1, .i32⟩) main_call2_v9) (TRef.of (T := ⟨S2047x1x1, .i1⟩) main_call2_v10) (cmpi .sle),
    TRef.binary (TRef.of (T := ⟨S2047x1x1, .i1⟩) main_call2_v7) (TRef.of (T := ⟨S2047x1x1, .i1⟩) main_call2_v10) (TRef.of (T := ⟨S2047x1x1, .i1⟩) main_call2_v11) andi,
    TRef.nullary (TRef.of (T := ⟨S_, .i1⟩) main_call2_c_3) (constantI S_ 1 1#1),
    TRef.binary (TRef.of (T := ⟨S2047x1x1, .i1⟩) main_call2_v11) (TRef.of (T := ⟨S_, .i1⟩) main_call2_c_3) (TRef.of (T := ⟨S2047x1, .i1⟩) main_call2_v12) (fun x v => Host.reduce IntOp.andi x v reducesTo_S2047x1x1_S2047x1_d2 h_S_),
    TRef.binary (TRef.of (T := ⟨S1x2047x50257, .f32⟩) main_v16) (TRef.of (T := ⟨S2047x1x1, .i32⟩) main_call2_v5) (TRef.of (T := ⟨S1x2047x1, .f32⟩) main_call2_v13) (fun x i => Host.gather gather_S1x2047x50257_S2047x1x1_S1x2047x1_0_2_1_0_2_2_111 x i),
    TRef.unary (TRef.of (T := ⟨S2047x1, .i1⟩) main_call2_v12) (TRef.of (T := ⟨S1x2047x1, .i1⟩) main_call2_v14) (broadcastInDim S1x2047x1 ![1, 2] bcast_S2047x1_S1x2047x1_1_2),
    TRef.nullary (TRef.of (T := ⟨S_, .f32⟩) main_call2_cst) (constant S_ .f32 0x7FC00000#32),
    TRef.unary (TRef.of (T := ⟨S_, .f32⟩) main_call2_cst) (TRef.of (T := ⟨S1x2047x1, .f32⟩) main_call2_v15) (broadcastInDim S1x2047x1 ![] bcast_S_S1x2047x1),
    TRef.ternary (TRef.of (T := ⟨S1x2047x1, .i1⟩) main_call2_v14) (TRef.of (T := ⟨S1x2047x1, .f32⟩) main_call2_v13) (TRef.of (T := ⟨S1x2047x1, .f32⟩) main_call2_v15) (TRef.of (T := ⟨S1x2047x1, .f32⟩) main_v21) select,
    reshape main_v21 main_v22 rfl shapeCasts_S1x2047x1_S1x2047,
    unary main_v22 main_v23 (Host.negf : (⟨S1x2047, .f32⟩ : BufTy).Contents (Elt F) → (⟨S1x2047, .f32⟩ : BufTy).Contents (Elt F)),
    nullary main_cst_3 (constant S_ .f32 0x00000000#32),
    TRef.unary (TRef.of (T := ⟨S_, .f32⟩) main_cst_3) (TRef.of (T := ⟨S_, .f32⟩) main_call3_v0) id,
    TRef.unary (TRef.of (T := ⟨S_, .f32⟩) main_call3_v0) (TRef.of (T := ⟨S1x2047, .f32⟩) main_call3_v1) (broadcastInDim S1x2047 ![] bcast_S_S1x2047),
    TRef.ternary (TRef.of (T := ⟨S1x2047, .i1⟩) main_v18) (TRef.of (T := ⟨S1x2047, .f32⟩) main_v23) (TRef.of (T := ⟨S1x2047, .f32⟩) main_call3_v1) (TRef.of (T := ⟨S1x2047, .f32⟩) main_v24) select,
    nullary main_cst_4 (constant S_ .f32 0x00000000#32),
    binary main_v24 main_cst_4 main_v25 ((fun x v => Host.reduceAdd x v reducesTo_S1x2047_S_d0_1 h_S_) : (⟨S1x2047, .f32⟩ : BufTy).Contents (Elt F) → (⟨S_, .f32⟩ : BufTy).Contents (Elt F) → (⟨S_, .f32⟩ : BufTy).Contents (Elt F)),
    unary main_v18 main_v26 ((extui 32 · natLt_1_32) : (⟨S1x2047, .i1⟩ : BufTy).Contents (Elt F) → (⟨S1x2047, .i32⟩ : BufTy).Contents (Elt F)),
    nullary main_c_5 (constantI S_ 32 0#32),
    binary main_v26 main_c_5 main_v27 ((fun x v => Host.reduce IntOp.addi x v reducesTo_S1x2047_S_d0_1 h_S_) : (⟨S1x2047, .i32⟩ : BufTy).Contents (Elt F) → (⟨S_, .i32⟩ : BufTy).Contents (Elt F) → (⟨S_, .i32⟩ : BufTy).Contents (Elt F)),
    nullary main_c_6 (constantI S_ 32 1#32),
    binary main_v27 main_c_6 main_v28 (maxsi : (⟨S_, .i32⟩ : BufTy).Contents (Elt F) → (⟨S_, .i32⟩ : BufTy).Contents (Elt F) → (⟨S_, .i32⟩ : BufTy).Contents (Elt F)),
    unary main_v28 main_v29 (sitofp .f32 : (⟨S_, .i32⟩ : BufTy).Contents (Elt F) → (⟨S_, .f32⟩ : BufTy).Contents (Elt F)),
    binary main_v25 main_v29 main_v30 (Host.divf : (⟨S_, .f32⟩ : BufTy).Contents (Elt F) → (⟨S_, .f32⟩ : BufTy).Contents (Elt F) → (⟨S_, .f32⟩ : BufTy).Contents (Elt F)),
    unary main_arg4 main_v31 ((extractStridedSlice S1x1024x1024 ![0, 0, 0] · slices_S2x1024x1024_S1x1024x1024_0_0_0) : (⟨S2x1024x1024, .f32⟩ : BufTy).Contents (Elt F) → (⟨S1x1024x1024, .f32⟩ : BufTy).Contents (Elt F)),
    reshape main_v31 main_v32 rfl shapeCasts_S1x1024x1024_S1024x1024,
    binary main_arg0 main_v32 main_v33 ((fun l r => Host.dotGeneral dot_S1x2048x1024_S1024x1024_S1x2048x1024_2_1_01_0_n_n none l r) : (⟨S1x2048x1024, .f32⟩ : BufTy).Contents (Elt F) → (⟨S1024x1024, .f32⟩ : BufTy).Contents (Elt F) → (⟨S1x2048x1024, .f32⟩ : BufTy).Contents (Elt F)),
    unary main_arg5 main_v34 ((extractStridedSlice S1x1024 ![0, 0] · slices_S2x1024_S1x1024_0_0) : (⟨S2x1024, .f32⟩ : BufTy).Contents (Elt F) → (⟨S1x1024, .f32⟩ : BufTy).Contents (Elt F)),
    reshape main_v34 main_v35 rfl shapeCasts_S1x1024_S1024,
    binary main_v33 main_v33 main_v36 (mulf : (⟨S1x2048x1024, .f32⟩ : BufTy).Contents (Elt F) → (⟨S1x2048x1024, .f32⟩ : BufTy).Contents (Elt F) → (⟨S1x2048x1024, .f32⟩ : BufTy).Contents (Elt F)),
    nullary main_cst_7 (constant S_ .f32 0x00000000#32),
    binary main_v36 main_cst_7 main_v37 ((fun x v => Host.reduceAdd x v reducesTo_S1x2048x1024_S1x2048_d2 h_S_) : (⟨S1x2048x1024, .f32⟩ : BufTy).Contents (Elt F) → (⟨S_, .f32⟩ : BufTy).Contents (Elt F) → (⟨S1x2048, .f32⟩ : BufTy).Contents (Elt F)),
    unary main_v37 main_v38 (broadcastInDim S1x2048x1 ![0, 1] bcast_S1x2048_S1x2048x1_0_1 : (⟨S1x2048, .f32⟩ : BufTy).Contents (Elt F) → (⟨S1x2048x1, .f32⟩ : BufTy).Contents (Elt F)),
    nullary main_cst_8 (constant S_ .f32 0x44800000#32),
    unary main_cst_8 main_v39 (broadcastInDim S1x2048x1 ![] bcast_S_S1x2048x1 : (⟨S_, .f32⟩ : BufTy).Contents (Elt F) → (⟨S1x2048x1, .f32⟩ : BufTy).Contents (Elt F)),
    binary main_v38 main_v39 main_v40 (Host.divf : (⟨S1x2048x1, .f32⟩ : BufTy).Contents (Elt F) → (⟨S1x2048x1, .f32⟩ : BufTy).Contents (Elt F) → (⟨S1x2048x1, .f32⟩ : BufTy).Contents (Elt F)),
    nullary main_cst_9 (constant S_ .f32 0x3727C5AC#32),
    unary main_cst_9 main_v41 (broadcastInDim S1x2048x1 ![] bcast_S_S1x2048x1 : (⟨S_, .f32⟩ : BufTy).Contents (Elt F) → (⟨S1x2048x1, .f32⟩ : BufTy).Contents (Elt F)),
    binary main_v40 main_v41 main_v42 (addf : (⟨S1x2048x1, .f32⟩ : BufTy).Contents (Elt F) → (⟨S1x2048x1, .f32⟩ : BufTy).Contents (Elt F) → (⟨S1x2048x1, .f32⟩ : BufTy).Contents (Elt F)),
    unary main_v42 main_v43 (Host.rsqrt : (⟨S1x2048x1, .f32⟩ : BufTy).Contents (Elt F) → (⟨S1x2048x1, .f32⟩ : BufTy).Contents (Elt F)),
    unary main_v43 main_v44 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_v33 main_v44 main_v45 (mulf : (⟨S1x2048x1024, .f32⟩ : BufTy).Contents (Elt F) → (⟨S1x2048x1024, .f32⟩ : BufTy).Contents (Elt F) → (⟨S1x2048x1024, .f32⟩ : BufTy).Contents (Elt F)),
    unary main_v35 main_v46 (broadcastInDim S1x1x1024 ![2] bcast_S1024_S1x1x1024_2 : (⟨S1024, .f32⟩ : BufTy).Contents (Elt F) → (⟨S1x1x1024, .f32⟩ : BufTy).Contents (Elt F)),
    unary main_v46 main_v47 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v45 main_v47 main_v48 (mulf : (⟨S1x2048x1024, .f32⟩ : BufTy).Contents (Elt F) → (⟨S1x2048x1024, .f32⟩ : BufTy).Contents (Elt F) → (⟨S1x2048x1024, .f32⟩ : BufTy).Contents (Elt F)),
    unary main_arg6 main_v49 ((extractStridedSlice S1x50257x1024 ![0, 0, 0] · slices_S2x50257x1024_S1x50257x1024_0_0_0) : (⟨S2x50257x1024, .f32⟩ : BufTy).Contents (Elt F) → (⟨S1x50257x1024, .f32⟩ : BufTy).Contents (Elt F)),
    reshape main_v49 main_v50 rfl shapeCasts_S1x50257x1024_S50257x1024,
    binary main_v48 main_v50 main_v51 ((fun l r => Host.dotGeneral dot_S1x2048x1024_S50257x1024_S1x2048x50257_2_1_01_0_n_n none l r) : (⟨S1x2048x1024, .f32⟩ : BufTy).Contents (Elt F) → (⟨S50257x1024, .f32⟩ : BufTy).Contents (Elt F) → (⟨S1x2048x50257, .f32⟩ : BufTy).Contents (Elt F)),
    unary main_v51 main_v52 ((extractStridedSlice S1x2046x50257 ![0, 0, 0] · slices_S1x2048x50257_S1x2046x50257_0_0_0) : (⟨S1x2048x50257, .f32⟩ : BufTy).Contents (Elt F) → (⟨S1x2046x50257, .f32⟩ : BufTy).Contents (Elt F)),
    unary main_arg1 main_v53 ((extractStridedSlice S1x2046 ![0, 2] · slices_S1x2048_S1x2046_0_2) : (⟨S1x2048, .i32⟩ : BufTy).Contents (Elt F) → (⟨S1x2046, .i32⟩ : BufTy).Contents (Elt F)),
    TRef.nullary (TRef.of (T := ⟨S_, .f32⟩) main_call4_cst) (constant S_ .f32 0xFF800000#32),
    TRef.binary (TRef.of (T := ⟨S1x2046x50257, .f32⟩) main_v52) (TRef.of (T := ⟨S_, .f32⟩) main_call4_cst) (TRef.of (T := ⟨S1x2046, .f32⟩) main_call4_v0) (fun x v => Host.reduce FloatOps.maximumf x v reducesTo_S1x2046x50257_S1x2046_d2 h_S_),
    TRef.nullary (TRef.of (T := ⟨S_, .f32⟩) main_call4_cst_0) (constant S_ .f32 0xFF800000#32),
    TRef.unary (TRef.of (T := ⟨S_, .f32⟩) main_call4_cst_0) (TRef.of (T := ⟨S1x2046, .f32⟩) main_call4_v1) (broadcastInDim S1x2046 ![] bcast_S_S1x2046),
    TRef.binary (TRef.of (T := ⟨S1x2046, .f32⟩) main_call4_v1) (TRef.of (T := ⟨S1x2046, .f32⟩) main_call4_v0) (TRef.of (T := ⟨S1x2046, .f32⟩) main_call4_v2) maximumf,
    TRef.unary (TRef.of (T := ⟨S1x2046, .f32⟩) main_call4_v2) (TRef.of (T := ⟨S1x2046x1, .f32⟩) main_call4_v3) (broadcastInDim S1x2046x1 ![0, 1] bcast_S1x2046_S1x2046x1_0_1),
    TRef.unary (TRef.of (T := ⟨S1x2046x1, .f32⟩) main_call4_v3) (TRef.of (T := ⟨S1x2046x50257, .f32⟩) main_call4_v4) (broadcastInDim S1x2046x50257 ![0, 1, 2] bcast_S1x2046x1_S1x2046x50257_0_1_2),
    TRef.binary (TRef.of (T := ⟨S1x2046x50257, .f32⟩) main_v52) (TRef.of (T := ⟨S1x2046x50257, .f32⟩) main_call4_v4) (TRef.of (T := ⟨S1x2046x50257, .f32⟩) main_call4_v5) subf,
    TRef.unary (TRef.of (T := ⟨S1x2046x50257, .f32⟩) main_call4_v5) (TRef.of (T := ⟨S1x2046x50257, .f32⟩) main_call4_v6) Host.exp,
    TRef.nullary (TRef.of (T := ⟨S_, .f32⟩) main_call4_cst_1) (constant S_ .f32 0x00000000#32),
    TRef.binary (TRef.of (T := ⟨S1x2046x50257, .f32⟩) main_call4_v6) (TRef.of (T := ⟨S_, .f32⟩) main_call4_cst_1) (TRef.of (T := ⟨S1x2046, .f32⟩) main_call4_v7) (fun x v => Host.reduceAdd x v reducesTo_S1x2046x50257_S1x2046_d2 h_S_),
    TRef.unary (TRef.of (T := ⟨S1x2046, .f32⟩) main_call4_v7) (TRef.of (T := ⟨S1x2046x1, .f32⟩) main_call4_v8) (broadcastInDim S1x2046x1 ![0, 1] bcast_S1x2046_S1x2046x1_0_1),
    TRef.unary (TRef.of (T := ⟨S1x2046x1, .f32⟩) main_call4_v8) (TRef.of (T := ⟨S1x2046x1, .f32⟩) main_call4_v9) Host.log,
    TRef.unary (TRef.of (T := ⟨S1x2046x1, .f32⟩) main_call4_v9) (TRef.of (T := ⟨S1x2046x50257, .f32⟩) main_call4_v10) (broadcastInDim S1x2046x50257 ![0, 1, 2] bcast_S1x2046x1_S1x2046x50257_0_1_2),
    TRef.binary (TRef.of (T := ⟨S1x2046x50257, .f32⟩) main_call4_v5) (TRef.of (T := ⟨S1x2046x50257, .f32⟩) main_call4_v10) (TRef.of (T := ⟨S1x2046x50257, .f32⟩) main_v54) subf,
    nullary main_c_10 (constantI S_ 32 4294967196#32),
    unary main_c_10 main_v55 (broadcastInDim S1x2046 ![] bcast_S_S1x2046 : (⟨S_, .i32⟩ : BufTy).Contents (Elt F) → (⟨S1x2046, .i32⟩ : BufTy).Contents (Elt F)),
    binary main_v53 main_v55 main_v56 (cmpi .ne : (⟨S1x2046, .i32⟩ : BufTy).Contents (Elt F) → (⟨S1x2046, .i32⟩ : BufTy).Contents (Elt F) → (⟨S1x2046, .i1⟩ : BufTy).Contents (Elt F)),
    nullary main_c_11 (constantI S_ 32 0#32),
    TRef.unary (TRef.of (T := ⟨S_, .i32⟩) main_c_11) (TRef.of (T := ⟨S_, .i32⟩) main_call5_v0) id,
    TRef.unary (TRef.of (T := ⟨S_, .i32⟩) main_call5_v0) (TRef.of (T := ⟨S1x2046, .i32⟩) main_call5_v1) (broadcastInDim S1x2046 ![] bcast_S_S1x2046),
    TRef.ternary (TRef.of (T := ⟨S1x2046, .i1⟩) main_v56) (TRef.of (T := ⟨S1x2046, .i32⟩) main_v53) (TRef.of (T := ⟨S1x2046, .i32⟩) main_call5_v1) (TRef.of (T := ⟨S1x2046, .i32⟩) main_v57) select,
    unary main_v57 main_v58 (broadcastInDim S1x2046x1 ![0, 1] bcast_S1x2046_S1x2046x1_0_1 : (⟨S1x2046, .i32⟩ : BufTy).Contents (Elt F) → (⟨S1x2046x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S1x2046x1, .i32⟩) main_call6_v0) (broadcastInDim S1x2046x1 ![] bcast_S_S1x2046x1),
    TRef.binary (TRef.of (T := ⟨S1x2046x1, .i32⟩) main_v58) (TRef.of (T := ⟨S1x2046x1, .i32⟩) main_call6_v0) (TRef.of (T := ⟨S1x2046x1, .i1⟩) main_call6_v1) (cmpi .slt),
    TRef.nullary (TRef.of (T := ⟨S_, .i32⟩) main_call6_c_0) (constantI S_ 32 50257#32),
    TRef.unary (TRef.of (T := ⟨S_, .i32⟩) main_call6_c_0) (TRef.of (T := ⟨S1x2046x1, .i32⟩) main_call6_v2) (broadcastInDim S1x2046x1 ![] bcast_S_S1x2046x1),
    TRef.binary (TRef.of (T := ⟨S1x2046x1, .i32⟩) main_v58) (TRef.of (T := ⟨S1x2046x1, .i32⟩) main_call6_v2) (TRef.of (T := ⟨S1x2046x1, .i32⟩) main_call6_v3) addi,
    TRef.ternary (TRef.of (T := ⟨S1x2046x1, .i1⟩) main_call6_v1) (TRef.of (T := ⟨S1x2046x1, .i32⟩) main_call6_v3) (TRef.of (T := ⟨S1x2046x1, .i32⟩) main_v58) (TRef.of (T := ⟨S1x2046x1, .i32⟩) main_call6_v4) select,
    TRef.reshape (TRef.of (T := ⟨S1x2046x1, .i32⟩) main_call6_v4) (TRef.of (T := ⟨S2046x1x1, .i32⟩) main_call6_v5) rfl shapeCasts_S1x2046x1_S2046x1x1,
    TRef.nullary (TRef.of (T := ⟨S1, .i32⟩) main_call6_c_1) (constantI S1 32 50256#32),
    TRef.nullary (TRef.of (T := ⟨S_, .i32⟩) main_call6_c_2) (constantI S_ 32 0#32),
    TRef.unary (TRef.of (T := ⟨S_, .i32⟩) main_call6_c_2) (TRef.of (T := ⟨S2046x1x1, .i32⟩) main_call6_v6) (broadcastInDim S2046x1x1 ![] bcast_S_S2046x1x1),
    TRef.binary (TRef.of (T := ⟨S2046x1x1, .i32⟩) main_call6_v5) (TRef.of (T := ⟨S2046x1x1, .i32⟩) main_call6_v6) (TRef.of (T := ⟨S2046x1x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S2046x1x1, .i32⟩) main_call6_v9) (broadcastInDim S2046x1x1 ![0, 1, 2] bcast_S1x1x1_S2046x1x1_0_1_2),
    TRef.binary (TRef.of (T := ⟨S2046x1x1, .i32⟩) main_call6_v5) (TRef.of (T := ⟨S2046x1x1, .i32⟩) main_call6_v9) (TRef.of (T := ⟨S2046x1x1, .i1⟩) main_call6_v10) (cmpi .sle),
    TRef.binary (TRef.of (T := ⟨S2046x1x1, .i1⟩) main_call6_v7) (TRef.of (T := ⟨S2046x1x1, .i1⟩) main_call6_v10) (TRef.of (T := ⟨S2046x1x1, .i1⟩) main_call6_v11) andi,
    TRef.nullary (TRef.of (T := ⟨S_, .i1⟩) main_call6_c_3) (constantI S_ 1 1#1),
    TRef.binary (TRef.of (T := ⟨S2046x1x1, .i1⟩) main_call6_v11) (TRef.of (T := ⟨S_, .i1⟩) main_call6_c_3) (TRef.of (T := ⟨S2046x1, .i1⟩) main_call6_v12) (fun x v => Host.reduce IntOp.andi x v reducesTo_S2046x1x1_S2046x1_d2 h_S_),
    TRef.binary (TRef.of (T := ⟨S1x2046x50257, .f32⟩) main_v54) (TRef.of (T := ⟨S2046x1x1, .i32⟩) main_call6_v5) (TRef.of (T := ⟨S1x2046x1, .f32⟩) main_call6_v13) (fun x i => Host.gather gather_S1x2046x50257_S2046x1x1_S1x2046x1_0_2_1_0_2_2_111 x i),
    TRef.unary (TRef.of (T := ⟨S2046x1, .i1⟩) main_call6_v12) (TRef.of (T := ⟨S1x2046x1, .i1⟩) main_call6_v14) (broadcastInDim S1x2046x1 ![1, 2] bcast_S2046x1_S1x2046x1_1_2),
    TRef.nullary (TRef.of (T := ⟨S_, .f32⟩) main_call6_cst) (constant S_ .f32 0x7FC00000#32),
    TRef.unary (TRef.of (T := ⟨S_, .f32⟩) main_call6_cst) (TRef.of (T := ⟨S1x2046x1, .f32⟩) main_call6_v15) (broadcastInDim S1x2046x1 ![] bcast_S_S1x2046x1),
    TRef.ternary (TRef.of (T := ⟨S1x2046x1, .i1⟩) main_call6_v14) (TRef.of (T := ⟨S1x2046x1, .f32⟩) main_call6_v13) (TRef.of (T := ⟨S1x2046x1, .f32⟩) main_call6_v15) (TRef.of (T := ⟨S1x2046x1, .f32⟩) main_v59) select,
    reshape main_v59 main_v60 rfl shapeCasts_S1x2046x1_S1x2046,
    unary main_v60 main_v61 (Host.negf : (⟨S1x2046, .f32⟩ : BufTy).Contents (Elt F) → (⟨S1x2046, .f32⟩ : BufTy).Contents (Elt F)),
    nullary main_cst_12 (constant S_ .f32 0x00000000#32),
    TRef.unary (TRef.of (T := ⟨S_, .f32⟩) main_cst_12) (TRef.of (T := ⟨S_, .f32⟩) main_call7_v0) id,
    TRef.unary (TRef.of (T := ⟨S_, .f32⟩) main_call7_v0) (TRef.of (T := ⟨S1x2046, .f32⟩) main_call7_v1) (broadcastInDim S1x2046 ![] bcast_S_S1x2046),
    TRef.ternary (TRef.of (T := ⟨S1x2046, .i1⟩) main_v56) (TRef.of (T := ⟨S1x2046, .f32⟩) main_v61) (TRef.of (T := ⟨S1x2046, .f32⟩) main_call7_v1) (TRef.of (T := ⟨S1x2046, .f32⟩) main_v62) select,
    nullary main_cst_13 (constant S_ .f32 0x00000000#32),
    binary main_v62 main_cst_13 main_v63 ((fun x v => Host.reduceAdd x v reducesTo_S1x2046_S_d0_1 h_S_) : (⟨S1x2046, .f32⟩ : BufTy).Contents (Elt F) → (⟨S_, .f32⟩ : BufTy).Contents (Elt F) → (⟨S_, .f32⟩ : BufTy).Contents (Elt F)),
    unary main_v56 main_v64 ((extui 32 · natLt_1_32) : (⟨S1x2046, .i1⟩ : BufTy).Contents (Elt F) → (⟨S1x2046, .i32⟩ : BufTy).Contents (Elt F)),
    nullary main_c_14 (constantI S_ 32 0#32),
    binary main_v64 main_c_14 main_v65 ((fun x v => Host.reduce IntOp.addi x v reducesTo_S1x2046_S_d0_1 h_S_) : (⟨S1x2046, .i32⟩ : BufTy).Contents (Elt F) → (⟨S_, .i32⟩ : BufTy).Contents (Elt F) → (⟨S_, .i32⟩ : BufTy).Contents (Elt F)),
    nullary main_c_15 (constantI S_ 32 1#32),
    binary main_v65 main_c_15 main_v66 (maxsi : (⟨S_, .i32⟩ : BufTy).Contents (Elt F) → (⟨S_, .i32⟩ : BufTy).Contents (Elt F) → (⟨S_, .i32⟩ : BufTy).Contents (Elt F)),
    unary main_v66 main_v67 (sitofp .f32 : (⟨S_, .i32⟩ : BufTy).Contents (Elt F) → (⟨S_, .f32⟩ : BufTy).Contents (Elt F)),
    binary main_v63 main_v67 main_v68 (Host.divf : (⟨S_, .f32⟩ : BufTy).Contents (Elt F) → (⟨S_, .f32⟩ : BufTy).Contents (Elt F) → (⟨S_, .f32⟩ : BufTy).Contents (Elt F)),
    unary main_arg4 main_v69 ((extractStridedSlice S1x1024x1024 ![1, 0, 0] · slices_S2x1024x1024_S1x1024x1024_1_0_0) : (⟨S2x1024x1024, .f32⟩ : BufTy).Contents (Elt F) → (⟨S1x1024x1024, .f32⟩ : BufTy).Contents (Elt F)),
    reshape main_v69 main_v70 rfl shapeCasts_S1x1024x1024_S1024x1024,
    binary main_arg0 main_v70 main_v71 ((fun l r => Host.dotGeneral dot_S1x2048x1024_S1024x1024_S1x2048x1024_2_1_01_0_n_n none l r) : (⟨S1x2048x1024, .f32⟩ : BufTy).Contents (Elt F) → (⟨S1024x1024, .f32⟩ : BufTy).Contents (Elt F) → (⟨S1x2048x1024, .f32⟩ : BufTy).Contents (Elt F)),
    unary main_arg5 main_v72 ((extractStridedSlice S1x1024 ![1, 0] · slices_S2x1024_S1x1024_1_0) : (⟨S2x1024, .f32⟩ : BufTy).Contents (Elt F) → (⟨S1x1024, .f32⟩ : BufTy).Contents (Elt F)),
    reshape main_v72 main_v73 rfl shapeCasts_S1x1024_S1024,
    binary main_v71 main_v71 main_v74 (mulf : (⟨S1x2048x1024, .f32⟩ : BufTy).Contents (Elt F) → (⟨S1x2048x1024, .f32⟩ : BufTy).Contents (Elt F) → (⟨S1x2048x1024, .f32⟩ : BufTy).Contents (Elt F)),
    nullary main_cst_16 (constant S_ .f32 0x00000000#32),
    binary main_v74 main_cst_16 main_v75 ((fun x v => Host.reduceAdd x v reducesTo_S1x2048x1024_S1x2048_d2 h_S_) : (⟨S1x2048x1024, .f32⟩ : BufTy).Contents (Elt F) → (⟨S_, .f32⟩ : BufTy).Contents (Elt F) → (⟨S1x2048, .f32⟩ : BufTy).Contents (Elt F)),
    unary main_v75 main_v76 (broadcastInDim S1x2048x1 ![0, 1] bcast_S1x2048_S1x2048x1_0_1 : (⟨S1x2048, .f32⟩ : BufTy).Contents (Elt F) → (⟨S1x2048x1, .f32⟩ : BufTy).Contents (Elt F)),
    nullary main_cst_17 (constant S_ .f32 0x44800000#32),
    unary main_cst_17 main_v77 (broadcastInDim S1x2048x1 ![] bcast_S_S1x2048x1 : (⟨S_, .f32⟩ : BufTy).Contents (Elt F) → (⟨S1x2048x1, .f32⟩ : BufTy).Contents (Elt F)),
    binary main_v76 main_v77 main_v78 (Host.divf : (⟨S1x2048x1, .f32⟩ : BufTy).Contents (Elt F) → (⟨S1x2048x1, .f32⟩ : BufTy).Contents (Elt F) → (⟨S1x2048x1, .f32⟩ : BufTy).Contents (Elt F)),
    nullary main_cst_18 (constant S_ .f32 0x3727C5AC#32),
    unary main_cst_18 main_v79 (broadcastInDim S1x2048x1 ![] bcast_S_S1x2048x1 : (⟨S_, .f32⟩ : BufTy).Contents (Elt F) → (⟨S1x2048x1, .f32⟩ : BufTy).Contents (Elt F)),
    binary main_v78 main_v79 main_v80 (addf : (⟨S1x2048x1, .f32⟩ : BufTy).Contents (Elt F) → (⟨S1x2048x1, .f32⟩ : BufTy).Contents (Elt F) → (⟨S1x2048x1, .f32⟩ : BufTy).Contents (Elt F)),
    unary main_v80 main_v81 (Host.rsqrt : (⟨S1x2048x1, .f32⟩ : BufTy).Contents (Elt F) → (⟨S1x2048x1, .f32⟩ : BufTy).Contents (Elt F)),
    unary main_v81 main_v82 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_v71 main_v82 main_v83 (mulf : (⟨S1x2048x1024, .f32⟩ : BufTy).Contents (Elt F) → (⟨S1x2048x1024, .f32⟩ : BufTy).Contents (Elt F) → (⟨S1x2048x1024, .f32⟩ : BufTy).Contents (Elt F)),
    unary main_v73 main_v84 (broadcastInDim S1x1x1024 ![2] bcast_S1024_S1x1x1024_2 : (⟨S1024, .f32⟩ : BufTy).Contents (Elt F) → (⟨S1x1x1024, .f32⟩ : BufTy).Contents (Elt F)),
    unary main_v84 main_v85 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v83 main_v85 main_v86 (mulf : (⟨S1x2048x1024, .f32⟩ : BufTy).Contents (Elt F) → (⟨S1x2048x1024, .f32⟩ : BufTy).Contents (Elt F) → (⟨S1x2048x1024, .f32⟩ : BufTy).Contents (Elt F)),
    unary main_arg6 main_v87 ((extractStridedSlice S1x50257x1024 ![1, 0, 0] · slices_S2x50257x1024_S1x50257x1024_1_0_0) : (⟨S2x50257x1024, .f32⟩ : BufTy).Contents (Elt F) → (⟨S1x50257x1024, .f32⟩ : BufTy).Contents (Elt F)),
    reshape main_v87 main_v88 rfl shapeCasts_S1x50257x1024_S50257x1024,
    binary main_v86 main_v88 main_v89 ((fun l r => Host.dotGeneral dot_S1x2048x1024_S50257x1024_S1x2048x50257_2_1_01_0_n_n none l r) : (⟨S1x2048x1024, .f32⟩ : BufTy).Contents (Elt F) → (⟨S50257x1024, .f32⟩ : BufTy).Contents (Elt F) → (⟨S1x2048x50257, .f32⟩ : BufTy).Contents (Elt F)),
    unary main_v89 main_v90 ((extractStridedSlice S1x2045x50257 ![0, 0, 0] · slices_S1x2048x50257_S1x2045x50257_0_0_0) : (⟨S1x2048x50257, .f32⟩ : BufTy).Contents (Elt F) → (⟨S1x2045x50257, .f32⟩ : BufTy).Contents (Elt F)),
    unary main_arg1 main_v91 ((extractStridedSlice S1x2045 ![0, 3] · slices_S1x2048_S1x2045_0_3) : (⟨S1x2048, .i32⟩ : BufTy).Contents (Elt F) → (⟨S1x2045, .i32⟩ : BufTy).Contents (Elt F)),
    TRef.nullary (TRef.of (T := ⟨S_, .f32⟩) main_call8_cst) (constant S_ .f32 0xFF800000#32),
    TRef.binary (TRef.of (T := ⟨S1x2045x50257, .f32⟩) main_v90) (TRef.of (T := ⟨S_, .f32⟩) main_call8_cst) (TRef.of (T := ⟨S1x2045, .f32⟩) main_call8_v0) (fun x v => Host.reduce FloatOps.maximumf x v reducesTo_S1x2045x50257_S1x2045_d2 h_S_),
    TRef.nullary (TRef.of (T := ⟨S_, .f32⟩) main_call8_cst_0) (constant S_ .f32 0xFF800000#32),
    TRef.unary (TRef.of (T := ⟨S_, .f32⟩) main_call8_cst_0) (TRef.of (T := ⟨S1x2045, .f32⟩) main_call8_v1) (broadcastInDim S1x2045 ![] bcast_S_S1x2045),
    TRef.binary (TRef.of (T := ⟨S1x2045, .f32⟩) main_call8_v1) (TRef.of (T := ⟨S1x2045, .f32⟩) main_call8_v0) (TRef.of (T := ⟨S1x2045, .f32⟩) main_call8_v2) maximumf,
    TRef.unary (TRef.of (T := ⟨S1x2045, .f32⟩) main_call8_v2) (TRef.of (T := ⟨S1x2045x1, .f32⟩) main_call8_v3) (broadcastInDim S1x2045x1 ![0, 1] bcast_S1x2045_S1x2045x1_0_1),
    TRef.unary (TRef.of (T := ⟨S1x2045x1, .f32⟩) main_call8_v3) (TRef.of (T := ⟨S1x2045x50257, .f32⟩) main_call8_v4) (broadcastInDim S1x2045x50257 ![0, 1, 2] bcast_S1x2045x1_S1x2045x50257_0_1_2),
    TRef.binary (TRef.of (T := ⟨S1x2045x50257, .f32⟩) main_v90) (TRef.of (T := ⟨S1x2045x50257, .f32⟩) main_call8_v4) (TRef.of (T := ⟨S1x2045x50257, .f32⟩) main_call8_v5) subf,
    TRef.unary (TRef.of (T := ⟨S1x2045x50257, .f32⟩) main_call8_v5) (TRef.of (T := ⟨S1x2045x50257, .f32⟩) main_call8_v6) Host.exp,
    TRef.nullary (TRef.of (T := ⟨S_, .f32⟩) main_call8_cst_1) (constant S_ .f32 0x00000000#32),
    TRef.binary (TRef.of (T := ⟨S1x2045x50257, .f32⟩) main_call8_v6) (TRef.of (T := ⟨S_, .f32⟩) main_call8_cst_1) (TRef.of (T := ⟨S1x2045, .f32⟩) main_call8_v7) (fun x v => Host.reduceAdd x v reducesTo_S1x2045x50257_S1x2045_d2 h_S_),
    TRef.unary (TRef.of (T := ⟨S1x2045, .f32⟩) main_call8_v7) (TRef.of (T := ⟨S1x2045x1, .f32⟩) main_call8_v8) (broadcastInDim S1x2045x1 ![0, 1] bcast_S1x2045_S1x2045x1_0_1),
    TRef.unary (TRef.of (T := ⟨S1x2045x1, .f32⟩) main_call8_v8) (TRef.of (T := ⟨S1x2045x1, .f32⟩) main_call8_v9) Host.log,
    TRef.unary (TRef.of (T := ⟨S1x2045x1, .f32⟩) main_call8_v9) (TRef.of (T := ⟨S1x2045x50257, .f32⟩) main_call8_v10) (broadcastInDim S1x2045x50257 ![0, 1, 2] bcast_S1x2045x1_S1x2045x50257_0_1_2),
    TRef.binary (TRef.of (T := ⟨S1x2045x50257, .f32⟩) main_call8_v5) (TRef.of (T := ⟨S1x2045x50257, .f32⟩) main_call8_v10) (TRef.of (T := ⟨S1x2045x50257, .f32⟩) main_v92) subf,
    nullary main_c_19 (constantI S_ 32 4294967196#32),
    unary main_c_19 main_v93 (broadcastInDim S1x2045 ![] bcast_S_S1x2045 : (⟨S_, .i32⟩ : BufTy).Contents (Elt F) → (⟨S1x2045, .i32⟩ : BufTy).Contents (Elt F)),
    binary main_v91 main_v93 main_v94 (cmpi .ne : (⟨S1x2045, .i32⟩ : BufTy).Contents (Elt F) → (⟨S1x2045, .i32⟩ : BufTy).Contents (Elt F) → (⟨S1x2045, .i1⟩ : BufTy).Contents (Elt F)),
    nullary main_c_20 (constantI S_ 32 0#32),
    TRef.unary (TRef.of (T := ⟨S_, .i32⟩) main_c_20) (TRef.of (T := ⟨S_, .i32⟩) main_call9_v0) id,
    TRef.unary (TRef.of (T := ⟨S_, .i32⟩) main_call9_v0) (TRef.of (T := ⟨S1x2045, .i32⟩) main_call9_v1) (broadcastInDim S1x2045 ![] bcast_S_S1x2045),
    TRef.ternary (TRef.of (T := ⟨S1x2045, .i1⟩) main_v94) (TRef.of (T := ⟨S1x2045, .i32⟩) main_v91) (TRef.of (T := ⟨S1x2045, .i32⟩) main_call9_v1) (TRef.of (T := ⟨S1x2045, .i32⟩) main_v95) select,
    unary main_v95 main_v96 (broadcastInDim S1x2045x1 ![0, 1] bcast_S1x2045_S1x2045x1_0_1 : (⟨S1x2045, .i32⟩ : BufTy).Contents (Elt F) → (⟨S1x2045x1, .i32⟩ : BufTy).Contents (Elt F)),
    TRef.nullary (TRef.of (T := ⟨S_, .i32⟩) main_call10_c) (constantI S_ 32 0#32),
    TRef.unary (TRef.of (T := ⟨S_, .i32⟩) main_call10_c) (TRef.of (T := ⟨S1x2045x1, .i32⟩) main_call10_v0) (broadcastInDim S1x2045x1 ![] bcast_S_S1x2045x1),
    TRef.binary (TRef.of (T := ⟨S1x2045x1, .i32⟩) main_v96) (TRef.of (T := ⟨S1x2045x1, .i32⟩) main_call10_v0) (TRef.of (T := ⟨S1x2045x1, .i1⟩) main_call10_v1) (cmpi .slt),
    TRef.nullary (TRef.of (T := ⟨S_, .i32⟩) main_call10_c_0) (constantI S_ 32 50257#32),
    TRef.unary (TRef.of (T := ⟨S_, .i32⟩) main_call10_c_0) (TRef.of (T := ⟨S1x2045x1, .i32⟩) main_call10_v2) (broadcastInDim S1x2045x1 ![] bcast_S_S1x2045x1),
    TRef.binary (TRef.of (T := ⟨S1x2045x1, .i32⟩) main_v96) (TRef.of (T := ⟨S1x2045x1, .i32⟩) main_call10_v2) (TRef.of (T := ⟨S1x2045x1, .i32⟩) main_call10_v3) addi,
    TRef.ternary (TRef.of (T := ⟨S1x2045x1, .i1⟩) main_call10_v1) (TRef.of (T := ⟨S1x2045x1, .i32⟩) main_call10_v3) (TRef.of (T := ⟨S1x2045x1, .i32⟩) main_v96) (TRef.of (T := ⟨S1x2045x1, .i32⟩) main_call10_v4) select,
    TRef.reshape (TRef.of (T := ⟨S1x2045x1, .i32⟩) main_call10_v4) (TRef.of (T := ⟨S2045x1x1, .i32⟩) main_call10_v5) rfl shapeCasts_S1x2045x1_S2045x1x1,
    TRef.nullary (TRef.of (T := ⟨S1, .i32⟩) main_call10_c_1) (constantI S1 32 50256#32),
    TRef.nullary (TRef.of (T := ⟨S_, .i32⟩) main_call10_c_2) (constantI S_ 32 0#32),
    TRef.unary (TRef.of (T := ⟨S_, .i32⟩) main_call10_c_2) (TRef.of (T := ⟨S2045x1x1, .i32⟩) main_call10_v6) (broadcastInDim S2045x1x1 ![] bcast_S_S2045x1x1),
    TRef.binary (TRef.of (T := ⟨S2045x1x1, .i32⟩) main_call10_v5) (TRef.of (T := ⟨S2045x1x1, .i32⟩) main_call10_v6) (TRef.of (T := ⟨S2045x1x1, .i1⟩) main_call10_v7) (cmpi .sge),
    TRef.unary (TRef.of (T := ⟨S1, .i32⟩) main_call10_c_1) (TRef.of (T := ⟨S1x1x1, .i32⟩) main_call10_v8) (broadcastInDim S1x1x1 ![2] bcast_S1_S1x1x1_2),
    TRef.unary (TRef.of (T := ⟨S1x1x1, .i32⟩) main_call10_v8) (TRef.of (T := ⟨S2045x1x1, .i32⟩) main_call10_v9) (broadcastInDim S2045x1x1 ![0, 1, 2] bcast_S1x1x1_S2045x1x1_0_1_2),
    TRef.binary (TRef.of (T := ⟨S2045x1x1, .i32⟩) main_call10_v5) (TRef.of (T := ⟨S2045x1x1, .i32⟩) main_call10_v9) (TRef.of (T := ⟨S2045x1x1, .i1⟩) main_call10_v10) (cmpi .sle),
    TRef.binary (TRef.of (T := ⟨S2045x1x1, .i1⟩) main_call10_v7) (TRef.of (T := ⟨S2045x1x1, .i1⟩) main_call10_v10) (TRef.of (T := ⟨S2045x1x1, .i1⟩) main_call10_v11) andi,
    TRef.nullary (TRef.of (T := ⟨S_, .i1⟩) main_call10_c_3) (constantI S_ 1 1#1),
    TRef.binary (TRef.of (T := ⟨S2045x1x1, .i1⟩) main_call10_v11) (TRef.of (T := ⟨S_, .i1⟩) main_call10_c_3) (TRef.of (T := ⟨S2045x1, .i1⟩) main_call10_v12) (fun x v => Host.reduce IntOp.andi x v reducesTo_S2045x1x1_S2045x1_d2 h_S_),
    TRef.binary (TRef.of (T := ⟨S1x2045x50257, .f32⟩) main_v92) (TRef.of (T := ⟨S2045x1x1, .i32⟩) main_call10_v5) (TRef.of (T := ⟨S1x2045x1, .f32⟩) main_call10_v13) (fun x i => Host.gather gather_S1x2045x50257_S2045x1x1_S1x2045x1_0_2_1_0_2_2_111 x i),
    TRef.unary (TRef.of (T := ⟨S2045x1, .i1⟩) main_call10_v12) (TRef.of (T := ⟨S1x2045x1, .i1⟩) main_call10_v14) (broadcastInDim S1x2045x1 ![1, 2] bcast_S2045x1_S1x2045x1_1_2),
    TRef.nullary (TRef.of (T := ⟨S_, .f32⟩) main_call10_cst) (constant S_ .f32 0x7FC00000#32),
    TRef.unary (TRef.of (T := ⟨S_, .f32⟩) main_call10_cst) (TRef.of (T := ⟨S1x2045x1, .f32⟩) main_call10_v15) (broadcastInDim S1x2045x1 ![] bcast_S_S1x2045x1),
    TRef.ternary (TRef.of (T := ⟨S1x2045x1, .i1⟩) main_call10_v14) (TRef.of (T := ⟨S1x2045x1, .f32⟩) main_call10_v13) (TRef.of (T := ⟨S1x2045x1, .f32⟩) main_call10_v15) (TRef.of (T := ⟨S1x2045x1, .f32⟩) main_v97) select,
    reshape main_v97 main_v98 rfl shapeCasts_S1x2045x1_S1x2045,
    unary main_v98 main_v99 (Host.negf : (⟨S1x2045, .f32⟩ : BufTy).Contents (Elt F) → (⟨S1x2045, .f32⟩ : BufTy).Contents (Elt F)),
    nullary main_cst_21 (constant S_ .f32 0x00000000#32),
    TRef.unary (TRef.of (T := ⟨S_, .f32⟩) main_cst_21) (TRef.of (T := ⟨S_, .f32⟩) main_call11_v0) id,
    TRef.unary (TRef.of (T := ⟨S_, .f32⟩) main_call11_v0) (TRef.of (T := ⟨S1x2045, .f32⟩) main_call11_v1) (broadcastInDim S1x2045 ![] bcast_S_S1x2045),
    TRef.ternary (TRef.of (T := ⟨S1x2045, .i1⟩) main_v94) (TRef.of (T := ⟨S1x2045, .f32⟩) main_v99) (TRef.of (T := ⟨S1x2045, .f32⟩) main_call11_v1) (TRef.of (T := ⟨S1x2045, .f32⟩) main_v100) select,
    nullary main_cst_22 (constant S_ .f32 0x00000000#32),
    binary main_v100 main_cst_22 main_v101 ((fun x v => Host.reduceAdd x v reducesTo_S1x2045_S_d0_1 h_S_) : (⟨S1x2045, .f32⟩ : BufTy).Contents (Elt F) → (⟨S_, .f32⟩ : BufTy).Contents (Elt F) → (⟨S_, .f32⟩ : BufTy).Contents (Elt F)),
    unary main_v94 main_v102 ((extui 32 · natLt_1_32) : (⟨S1x2045, .i1⟩ : BufTy).Contents (Elt F) → (⟨S1x2045, .i32⟩ : BufTy).Contents (Elt F)),
    nullary main_c_23 (constantI S_ 32 0#32),
    binary main_v102 main_c_23 main_v103 ((fun x v => Host.reduce IntOp.addi x v reducesTo_S1x2045_S_d0_1 h_S_) : (⟨S1x2045, .i32⟩ : BufTy).Contents (Elt F) → (⟨S_, .i32⟩ : BufTy).Contents (Elt F) → (⟨S_, .i32⟩ : BufTy).Contents (Elt F)),
    nullary main_c_24 (constantI S_ 32 1#32),
    binary main_v103 main_c_24 main_v104 (maxsi : (⟨S_, .i32⟩ : BufTy).Contents (Elt F) → (⟨S_, .i32⟩ : BufTy).Contents (Elt F) → (⟨S_, .i32⟩ : BufTy).Contents (Elt F)),
    unary main_v104 main_v105 (sitofp .f32 : (⟨S_, .i32⟩ : BufTy).Contents (Elt F) → (⟨S_, .f32⟩ : BufTy).Contents (Elt F)),
    binary main_v101 main_v105 main_v106 (Host.divf : (⟨S_, .f32⟩ : BufTy).Contents (Elt F) → (⟨S_, .f32⟩ : BufTy).Contents (Elt F) → (⟨S_, .f32⟩ : BufTy).Contents (Elt F)),
    nullary main_cst_25 (constant S_ .f32 0x00000000#32),
    binary main_cst_25 main_v68 main_v107 (addf : (⟨S_, .f32⟩ : BufTy).Contents (Elt F) → (⟨S_, .f32⟩ : BufTy).Contents (Elt F) → (⟨S_, .f32⟩ : BufTy).Contents (Elt F)),
    binary main_v107 main_v106 main_v108 (addf : (⟨S_, .f32⟩ : BufTy).Contents (Elt F) → (⟨S_, .f32⟩ : BufTy).Contents (Elt F) → (⟨S_, .f32⟩ : BufTy).Contents (Elt F)),
    nullary main_cst_26 (constant S_ .f32 0x40000000#32),
    binary main_v108 main_cst_26 main_v109 (Host.divf : (⟨S_, .f32⟩ : BufTy).Contents (Elt F) → (⟨S_, .f32⟩ : BufTy).Contents (Elt F) → (⟨S_, .f32⟩ : BufTy).Contents (Elt F)),
    nullary main_cst_27 (constant S_ .f32 0x3E99999A#32),
    binary main_cst_27 main_v109 main_v110 (mulf : (⟨S_, .f32⟩ : BufTy).Contents (Elt F) → (⟨S_, .f32⟩ : BufTy).Contents (Elt F) → (⟨S_, .f32⟩ : BufTy).Contents (Elt F)),
    binary main_v30 main_v110 main_v111 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., nullary_bufs_sub .., unary_bufs_sub .., unary_bufs_sub .., ternary_bufs_sub .., nullary_bufs_sub .., binary_bufs_sub .., unary_bufs_sub .., nullary_bufs_sub .., binary_bufs_sub .., nullary_bufs_sub .., binary_bufs_sub .., unary_bufs_sub .., binary_bufs_sub .., unary_bufs_sub .., reshape_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., nullary_bufs_sub .., unary_bufs_sub .., unary_bufs_sub .., ternary_bufs_sub .., nullary_bufs_sub .., binary_bufs_sub .., unary_bufs_sub .., nullary_bufs_sub .., binary_bufs_sub .., nullary_bufs_sub .., binary_bufs_sub .., unary_bufs_sub .., binary_bufs_sub .., unary_bufs_sub .., reshape_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., nullary_bufs_sub .., unary_bufs_sub .., unary_bufs_sub .., ternary_bufs_sub .., nullary_bufs_sub .., binary_bufs_sub .., unary_bufs_sub .., nullary_bufs_sub .., binary_bufs_sub .., nullary_bufs_sub .., binary_bufs_sub .., unary_bufs_sub .., binary_bufs_sub .., nullary_bufs_sub .., binary_bufs_sub .., binary_bufs_sub .., nullary_bufs_sub .., binary_bufs_sub .., nullary_bufs_sub .., binary_bufs_sub .., binary_bufs_sub ..⟩

set_option maxRecDepth 8192 in

def res_main_v111 (m : (ℓ : Loc nD τ sig) → Buf (Elt F) ℓ) (c : Dev nD) : Buf (Elt F) ((c.tc : Thread nD τ).loc main_v111) :=
  Cert.ReferenceIdeal.ReadP.val_main_v111 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

abbrev res_out1 (m : (ℓ : Loc nD τ sig) → Buf (Elt F) ℓ) (c : Dev nD) : Buf (Elt F) ((c.tc : Thread nD τ).loc main_v111) := res_main_v111 m c

theorem ofBuf_toBuf {Val : EltTy → Type} {sig : RefSig} {T : BufTy} (x : TRef sig T) (v : T.Contents Val) : x.ofBuf (x.toBuf v) = v := by
  obtain ⟨r, rfl, _, _⟩ := x; rfl

set_option maxRecDepth 100000 in
set_option maxHeartbeats 104800000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = Cert.ReferenceIdeal.ReadP.val_main_v13 (F := F) (m ((c.tc : Thread nD τ).loc main_arg0)) (m ((c.tc : Thread nD τ).loc main_arg2)) (m ((c.tc : Thread nD τ).loc main_arg3))
      ∧ r.2.mem ((c.tc : Thread nD τ).loc main_v111) = res_main_v111 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v13).trans (by after_results_simp <;> rfl),
      (h c main_v111).trans (by after_results_simp <;> simp only [ofBuf_toBuf] <;> sl_kernel_rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.ValueP

end
-- ==== Proof.RefValue.lean ====
import proofs.«413414_j14594298871876_1_alg».proof.Proof.RefValueCore
import proofs.«413414_j14594298871876_1_alg».proof.Proof.RefRunP
import proofs.«413414_j14594298871876_1_alg».proof.Proof.PreFacts
import proofs.«413414_j14594298871876_1_alg».proof.Proof.Gen.Pre_finite_inputs
import proofs.«413414_j14594298871876_1_alg».proof.Proof.Gen.KernelIdeal
import proofs.«413414_j14594298871876_1_alg».proof.Defs

noncomputable section

namespace Cert.ReferenceIdeal.RefValue

open Idealize.ShloMosaic Idealize.ShloMosaic.TcCoe Idealize.SL.Sem Idealize.ShloMosaic.StableHlo
open Idealize.ShloMosaic.ValueIdx Cert.ReferenceIdeal.ReadP

abbrev argsK (m : (ℓ : Loc Cert.KernelIdeal.nD Cert.KernelIdeal.τ Cert.KernelIdeal.sig) → Buf (Elt Ideal) ℓ) (c : Dev Cert.KernelIdeal.nD) :
    Cert.LossSpec.Args :=
  Cert.LossSpec.Args.ofArrays (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))

theorem ref_value
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = Cert.LossSpec.logitsArr (argsK m c)
          ∧ r.2.mem ((c.tc : Thread Cert.ReferenceIdeal.nD Cert.ReferenceIdeal.τ).loc Cert.ReferenceIdeal.main_v111) = Cert.LossSpec.lossArr (argsK m c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) := by
  refine (θ_run (Cert.ReferenceIdeal.defs (F := Ideal)) _ _).mono (fun r h c => ?_) (Cert.ReferenceIdeal.ValueP.run (F := Ideal) m' g')
  have ha : argsAt m' c = argsK m c := by
    obtain ⟨h0, h1, h2, h3, h4, h5, h6⟩ := hagree c
    show Cert.LossSpec.Args.ofArrays _ _ _ _ _ _ _ = Cert.LossSpec.Args.ofArrays _ _ _ _ _ _ _
    rw [h0, h1, h2, h3, h4, h5, h6]
  have htg : ∀ s : Fin 2048, (argsAt m' c).tg s = 4294967196#32 ∨ ((argsAt m' c).tg s).toNat < 50257 := by
    rw [ha]
    exact fun s => (Cert.PreFacts.decode _ _ _ _ _ _ _ (hpre c)).2.2.2.2.2.2 (ix2 (0 : Fin 1) s)
  refine ⟨?_, ?_, (h c).2.2⟩
  · rw [← ha]
    exact (h c).1.trans (ref_logits_array m' c)
  · rw [← ha]
    exact (h c).2.1.trans (ref_loss_stage_array m' c htg)

end Cert.ReferenceIdeal.RefValue

end
-- ==== Proof.lean ====
import proofs.«413414_j14594298871876_1_alg».proof.Defs
import proofs.«413414_j14594298871876_1_alg».proof.Proof.Gen.Kernel
import proofs.«413414_j14594298871876_1_alg».proof.Proof.Gen.KernelIdeal
import proofs.«413414_j14594298871876_1_alg».proof.Proof.Gen.ReferenceIdeal
import proofs.«413414_j14594298871876_1_alg».proof.Proof.Gen.Pre_finite_inputs
import proofs.«413414_j14594298871876_1_alg».proof.Proof.KernelFrame
import proofs.«413414_j14594298871876_1_alg».proof.Proof.KernelValue
import proofs.«413414_j14594298871876_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ hpre =>
  (θ_run Cert.KernelIdeal.defs _ _).mono (fun _ h c => (h c).2.2) (Cert.KernelIdeal.Hand.kernel_value m ρ hpre)

theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl⟩

theorem algebraic : Cert.algebraic_KernelIdeal_ReferenceIdeal := by
  intro m ρ m' ρ' hpre hagree
  exact ⟨fun c => Cert.LossSpec.logitsArr (Cert.KernelIdeal.Hand.Host.args m c),
    fun c => Cert.LossSpec.lossArr (Cert.KernelIdeal.Hand.Host.args m c),
    Cert.KernelIdeal.Hand.kernel_value m ρ hpre, Cert.ReferenceIdeal.RefValue.ref_value m ρ m' ρ' hpre hagree⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
